-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S128 .f32) (main_arg14 : FVec F S128 .f32) (main_arg15 : FVec F S128x1 .f32) (main_arg16 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg15
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg16 main_v63 main_v67

def fn_part2 {F : FTy → Type} [FloatOps F] (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x1 .f32) (main_arg16 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x1 .f32) (main_arg16 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x1 .f32) (main_arg16 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x1 : Shape := ⟨2, ![50000, 1]⟩
abbrev S64x128 : Shape := ⟨2, ![64, 128]⟩
abbrev S1x64 : Shape := ⟨2, ![1, 64]⟩
abbrev S5000x1 : Shape := ⟨2, ![5000, 1]⟩
abbrev S5000x64 : Shape := ⟨2, ![5000, 64]⟩
abbrev S64x5000 : Shape := ⟨2, ![64, 5000]⟩
abbrev S64 : Shape := ⟨1, ![64]⟩
abbrev S64x1 : Shape := ⟨2, ![64, 1]⟩
abbrev S1x1 : Shape := ⟨2, ![1, 1]⟩

abbrev nBuf : Space → Nat
  | .hbm => 149
  | .vmem => 65
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x1, .f32⟩
  | 16 => ⟨S1, .f32⟩
  | 17 => ⟨S50000, .i32⟩
  | 18 => ⟨S1x800000, .i32⟩
  | 19 => ⟨S800000, .i32⟩
  | 20 => ⟨S850000, .i32⟩
  | 21 => ⟨S1x800000, .i32⟩
  | 22 => ⟨S800000, .i32⟩
  | 23 => ⟨S850000, .i32⟩
  | 24 => ⟨S_, .f32⟩
  | 25 => ⟨S850000, .f32⟩
  | 26 => ⟨S_, .f32⟩
  | 27 => ⟨S50000, .f32⟩
  | 28 => ⟨S850000x1, .i32⟩
  | 29 => ⟨S50000, .f32⟩
  | 30 => ⟨S_, .f32⟩
  | 31 => ⟨S50000, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x128, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x128, .f32⟩
  | 63 => ⟨S850000x1, .f32⟩
  | 64 => ⟨S850000x128, .f32⟩
  | 65 => ⟨S850000x128, .f32⟩
  | 66 => ⟨S_, .f32⟩
  | 67 => ⟨S50000x128, .f32⟩
  | 68 => ⟨S850000x1, .i32⟩
  | 69 => ⟨S50000x128, .f32⟩
  | 70 => ⟨S1x128, .f32⟩
  | 71 => ⟨S50000x128, .f32⟩
  | 72 => ⟨S50000x128, .f32⟩
  | 73 => ⟨S1x128, .f32⟩
  | 74 => ⟨S1x128, .f32⟩
  | 75 => ⟨S1x128, .f32⟩
  | 76 => ⟨S1x128, .f32⟩
  | 77 => ⟨S50000x128, .f32⟩
  | 78 => ⟨S50000x128, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000x128, .f32⟩
  | 88 => ⟨S850000x1, .f32⟩
  | 89 => ⟨S850000x128, .f32⟩
  | 90 => ⟨S850000x128, .f32⟩
  | 91 => ⟨S_, .f32⟩
  | 92 => ⟨S50000x128, .f32⟩
  | 93 => ⟨S850000x1, .i32⟩
  | 94 => ⟨S50000x128, .f32⟩
  | 95 => ⟨S1x128, .f32⟩
  | 96 => ⟨S50000x128, .f32⟩
  | 97 => ⟨S50000x128, .f32⟩
  | 98 => ⟨S1x128, .f32⟩
  | 99 => ⟨S1x128, .f32⟩
  | 100 => ⟨S1x128, .f32⟩
  | 101 => ⟨S1x128, .f32⟩
  | 102 => ⟨S50000x128, .f32⟩
  | 103 => ⟨S50000x128, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000x128, .f32⟩
  | 113 => ⟨S850000x1, .f32⟩
  | 114 => ⟨S850000x128, .f32⟩
  | 115 => ⟨S850000x128, .f32⟩
  | 116 => ⟨S_, .f32⟩
  | 117 => ⟨S50000x128, .f32⟩
  | 118 => ⟨S850000x1, .i32⟩
  | 119 => ⟨S50000x128, .f32⟩
  | 120 => ⟨S1x128, .f32⟩
  | 121 => ⟨S50000x128, .f32⟩
  | 122 => ⟨S50000x128, .f32⟩
  | 123 => ⟨S1x128, .f32⟩
  | 124 => ⟨S1x128, .f32⟩
  | 125 => ⟨S1x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x1, .i32⟩
  | 1 => ⟨S64x128, .f32⟩
  | 2 => ⟨S1x64, .f32⟩
  | 3 => ⟨S64x1, .f32⟩
  | 4 => ⟨S_, .f32⟩
  | 5 => ⟨S64x1, .f32⟩
  | 6 => ⟨S64x1, .f32⟩
  | 7 => ⟨S64x128, .f32⟩
  | 8 => ⟨S64x128, .f32⟩
  | 9 => ⟨S64x1, .f32⟩
  | 10 => ⟨S1x1, .f32⟩
  | 11 => ⟨S64x1, .f32⟩
  | 12 => ⟨S64x1, .f32⟩
  | 13 => ⟨S64x1, .f32⟩
  | 14 => ⟨S64x1, .f32⟩
  | 15 => ⟨S_, .f32⟩
  | 16 => ⟨S64x1, .f32⟩
  | 17 => ⟨S64x1, .f32⟩
  | 18 => ⟨S_, .f32⟩
  | 19 => ⟨S64x1, .f32⟩
  | 20 => ⟨S64x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S5000x128, .f32⟩
  | .local _ .vmem, ⟨50, _⟩ => ⟨S5000x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x1, .i32⟩
  | .local _ .vmem, ⟨60, _⟩ => ⟨S5000x1, .i32⟩
  | .local _ .vmem, ⟨61, _⟩ => ⟨S64x128, .f32⟩
  | .local _ .vmem, ⟨62, _⟩ => ⟨S1x64, .f32⟩
  | .local _ .vmem, ⟨63, _⟩ => ⟨S64x128, .f32⟩
  | .local _ .vmem, ⟨64, _⟩ => ⟨S1x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c : Ref sig .tc := ⟨.hbm, 34, rfl⟩
abbrev main_v14 : Ref sig .tc := ⟨.hbm, 35, rfl⟩
abbrev main_v15 : Ref sig .tc := ⟨.hbm, 36, rfl⟩
abbrev main_c_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_3 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46_0 : Ref sig .tc := ⟨.hbm, 73, rfl⟩
abbrev main_v46_1 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_8 : Ref sig .tc := ⟨.hbm, 79, rfl⟩
abbrev main_v51 : Ref sig .tc := ⟨.hbm, 80, rfl⟩
abbrev main_v52 : Ref sig .tc := ⟨.hbm, 81, rfl⟩
abbrev main_c_9 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67_0 : Ref sig .tc := ⟨.hbm, 98, rfl⟩
abbrev main_v67_1 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_11 : Ref sig .tc := ⟨.hbm, 104, rfl⟩
abbrev main_v72 : Ref sig .tc := ⟨.hbm, 105, rfl⟩
abbrev main_v73 : Ref sig .tc := ⟨.hbm, 106, rfl⟩
abbrev main_c_12 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_13 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88_0 : Ref sig .tc := ⟨.hbm, 123, rfl⟩
abbrev main_v88_1 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93_0 : Ref sig .tc := ⟨.hbm, 129, rfl⟩
abbrev main_v93_1 : Ref sig .tc := ⟨.hbm, 130, rfl⟩
abbrev main_v94 : Ref sig .tc := ⟨.hbm, 131, rfl⟩
abbrev main_cst_14 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_15 : Ref sig .tc := ⟨.hbm, 143, rfl⟩
abbrev main_v105 : Ref sig .tc := ⟨.hbm, 144, rfl⟩
abbrev main_v106 : Ref sig .tc := ⟨.hbm, 145, rfl⟩
abbrev main_cst_16 : Ref sig .tc := ⟨.hbm, 146, rfl⟩
abbrev main_v107 : Ref sig .tc := ⟨.hbm, 147, rfl⟩
abbrev main_v108 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_scratch0 : Ref sig .tc := ⟨.vmem, 9, rfl⟩
abbrev cc1_scratch1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_scratch0 : Ref sig .tc := ⟨.vmem, 28, rfl⟩
abbrev cc4_scratch1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg4_0 : Ref sig .tc := ⟨.vmem, 35, rfl⟩
abbrev cc5_stg5_0 : Ref sig .tc := ⟨.vmem, 36, rfl⟩
abbrev cc5_stg5_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg2_0 : Ref sig .tc := ⟨.vmem, 46, rfl⟩
abbrev cc7_scratch0 : Ref sig .tc := ⟨.vmem, 47, rfl⟩
abbrev cc7_scratch1 : Ref sig .tc := ⟨.vmem, 48, rfl⟩
abbrev cc8_stg0_0 : Ref sig .tc := ⟨.vmem, 49, rfl⟩
abbrev cc8_stg0_1 : Ref sig .tc := ⟨.vmem, 50, rfl⟩
abbrev cc8_stg1_0 : Ref sig .tc := ⟨.vmem, 51, rfl⟩
abbrev cc8_stg2_0 : Ref sig .tc := ⟨.vmem, 52, rfl⟩
abbrev cc8_stg3_0 : Ref sig .tc := ⟨.vmem, 53, rfl⟩
abbrev cc8_stg4_0 : Ref sig .tc := ⟨.vmem, 54, rfl⟩
abbrev cc8_stg5_0 : Ref sig .tc := ⟨.vmem, 55, rfl⟩
abbrev cc8_stg5_1 : Ref sig .tc := ⟨.vmem, 56, rfl⟩
abbrev cc9_stg0_0 : Ref sig .tc := ⟨.vmem, 57, rfl⟩
abbrev cc9_stg0_1 : Ref sig .tc := ⟨.vmem, 58, rfl⟩
abbrev cc9_stg1_0 : Ref sig .tc := ⟨.vmem, 59, rfl⟩
abbrev cc9_stg1_1 : Ref sig .tc := ⟨.vmem, 60, rfl⟩
abbrev cc9_stg2_0 : Ref sig .tc := ⟨.vmem, 61, rfl⟩
abbrev cc9_stg3_0 : Ref sig .tc := ⟨.vmem, 62, rfl⟩
abbrev cc9_scratch0 : Ref sig .tc := ⟨.vmem, 63, rfl⟩
abbrev cc9_scratch1 : Ref sig .tc := ⟨.vmem, 64, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc5_sem5_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem3_0 : DmaSem sig := 47
abbrev cc8_sem4_0 : DmaSem sig := 48
abbrev cc8_sem5_0 : DmaSem sig := 49
abbrev cc8_sem5_1 : DmaSem sig := 50
abbrev cc9_sem0_0 : DmaSem sig := 51
abbrev cc9_sem0_1 : DmaSem sig := 52
abbrev cc9_sem1_0 : DmaSem sig := 53
abbrev cc9_sem1_1 : DmaSem sig := 54
abbrev cc9_sem2_0 : DmaSem sig := 55
abbrev cc9_sem3_0 : DmaSem sig := 56

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def k7_cond2 (i : grid7.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def k9_cond2 (i : grid9.Coords) : BitVec 1 :=
  let arg0 : BitVec 32 := BitVec.ofNat 32 (i 0).val
  let c9_i32 : BitVec 32 := 9#32
  let v30 : BitVec 1 := Scalar.cmpi .eq arg0 c9_i32
  let v31 : BitVec 32 := Scalar.extui v30
  let c0_i32_13 : BitVec 32 := 0#32
  let v32 : BitVec 1 := Scalar.cmpi .ne v31 c0_i32_13
  v32

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x1 .i32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  reduces_S5000x128_S128 : S5000x128.Reduces [0] S128
  shapeCasts_S128_S1x128 : S128.ShapeCasts S1x128
  broadcasts_S1x128_S5000x128 : S1x128.Broadcasts S5000x128
  shapeCasts_S50000_S50000x1 : S50000.ShapeCasts S50000x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  transposes_S5000x64_p1_0_S64x5000 : S5000x64.Transposes [1, 0] S64x5000
  reduces_S5000x64_S64 : S5000x64.Reduces [0] S64
  shapeCasts_S64_S1x64 : S64.ShapeCasts S1x64
  shapeCasts_S1x64_S64x1 : S1x64.ShapeCasts S64x1
  bcast_S_S64x1 : S_.BroadcastsInDim S64x1 (![] : Fin 0 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S64x5000_S5000x128_S64x128_1_0_0_1_n_n_wf : DotDims.WF S64x5000 S5000x128 S64x128 [1] [0] [0] [1] [] []
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S50000x128.size a
  hwx8_5 : ∀ i : grid8.Coords, EltTy.bits .f32 = 32 ∨ (Rect.block (s := S50000x128) S5000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x1.size a ≤ S50000x1.size a
  hwx9_1 : ∀ i : grid9.Coords, EltTy.bits .i32 = 32 ∨ (Rect.block (s := S50000x1) S5000x1.size (cc9_transform_1 i) (hinb9_1 i)).WholeWords (EltTy.packing .i32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x128.size a ≤ S64x128.size a
  hwx9_2 : ∀ i : grid9.Coords, EltTy.bits .f32 = 32 ∨ (Rect.block (s := S64x128) S64x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S64x5000_S5000x128_S64x128_1_0_0_1_n_n : DotDims S64x5000 S5000x128 S64x128 where
  lhsContracting := [1]
  rhsContracting := [0]
  lhsNonContracting := [0]
  rhsNonContracting := [1]
  lhsBatch := []
  rhsBatch := []
  wf := dot_S64x5000_S5000x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46_0) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46_1) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v49) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v66) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67_0) S1x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67_1) S1x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun i => !(k4_cond2 i == 1#1) | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v66) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v67_0) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v67_1) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v68) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v69) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v70) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v70) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v71) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v87) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v88_0) S1x128.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v88_1) S1x128.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun i => !(k7_cond2 i == 1#1) | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v87) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v88_0) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v88_1) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v89) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v90) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v91) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v91) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v92) S5000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v93_0) S64x128.size cc9_transform_2 reads9_2 true true 1 stage9_2 sem9_2
    hrank9 hreads9_2 hinb9_2 nbuf9_2 (Memref.isWhole_whole _) hwx9_2 hstage9_2

abbrev win9_3 : Pipeline.Window sig grid9 :=
  Pipeline.Window.ofSpec (Memref.whole main_v93_1) S1x64.size cc9_transform_3 reads9_3 true true 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev idle9 : Fin 4 → grid9.Coords → Bool := fun | 0 => fun _ => false | 1 => fun _ => false | 2 => fun i => !(k9_cond2 i == 1#1) | 3 => fun i => !(k9_cond2 i == 1#1) | ⟨_ + 4, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S64 : Shape := ⟨1, ![64]⟩
abbrev S50000x1 : Shape := ⟨2, ![50000, 1]⟩
abbrev S64x128 : Shape := ⟨2, ![64, 128]⟩
abbrev S64x1 : Shape := ⟨2, ![64, 1]⟩
abbrev S1x1 : Shape := ⟨2, ![1, 1]⟩

abbrev nBuf : Space → Nat
  | .hbm => 282
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x1, .f32⟩
  | 16 => ⟨S1, .f32⟩
  | 17 => ⟨S50000, .i32⟩
  | 18 => ⟨S1x800000, .i32⟩
  | 19 => ⟨S800000, .i32⟩
  | 20 => ⟨S850000, .i32⟩
  | 21 => ⟨S1x800000, .i32⟩
  | 22 => ⟨S800000, .i32⟩
  | 23 => ⟨S850000, .i32⟩
  | 24 => ⟨S_, .f32⟩
  | 25 => ⟨S850000, .f32⟩
  | 26 => ⟨S_, .f32⟩
  | 27 => ⟨S50000, .f32⟩
  | 28 => ⟨S850000x1, .i32⟩
  | 29 => ⟨S50000, .f32⟩
  | 30 => ⟨S_, .f32⟩
  | 31 => ⟨S50000, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x128, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x128, .f32⟩
  | 63 => ⟨S850000x1, .f32⟩
  | 64 => ⟨S850000x128, .f32⟩
  | 65 => ⟨S850000x128, .f32⟩
  | 66 => ⟨S_, .f32⟩
  | 67 => ⟨S50000x128, .f32⟩
  | 68 => ⟨S850000x1, .i32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S128, .f32⟩
  | 75 => ⟨S_, .f32⟩
  | 76 => ⟨S128, .f32⟩
  | 77 => ⟨S128, .f32⟩
  | 78 => ⟨S_, .i32⟩
  | 79 => ⟨S_, .f32⟩
  | 80 => ⟨S128, .f32⟩
  | 81 => ⟨S1x128, .f32⟩
  | 82 => ⟨S_, .f32⟩
  | 83 => ⟨S1x128, .f32⟩
  | 84 => ⟨S1x128, .f32⟩
  | 85 => ⟨S50000x128, .f32⟩
  | 86 => ⟨S50000x128, .f32⟩
  | 87 => ⟨S50000x128, .f32⟩
  | 88 => ⟨S_, .f32⟩
  | 89 => ⟨S_, .f32⟩
  | 90 => ⟨S_, .f32⟩
  | 91 => ⟨S_, .f32⟩
  | 92 => ⟨S128, .f32⟩
  | 93 => ⟨S128, .f32⟩
  | 94 => ⟨S128, .f32⟩
  | 95 => ⟨S_, .f32⟩
  | 96 => ⟨S_, .i1⟩
  | 97 => ⟨S_, .f32⟩
  | 98 => ⟨S_, .f32⟩
  | 99 => ⟨S128, .f32⟩
  | 100 => ⟨S128, .f32⟩
  | 101 => ⟨S1x128, .f32⟩
  | 102 => ⟨S50000x128, .f32⟩
  | 103 => ⟨S50000x128, .f32⟩
  | 104 => ⟨S_, .f32⟩
  | 105 => ⟨S128, .f32⟩
  | 106 => ⟨S128, .f32⟩
  | 107 => ⟨S128, .f32⟩
  | 108 => ⟨S1x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S50000x128, .f32⟩
  | 121 => ⟨S_, .i32⟩
  | 122 => ⟨S850000, .i32⟩
  | 123 => ⟨S850000, .i1⟩
  | 124 => ⟨S_, .i32⟩
  | 125 => ⟨S850000, .i32⟩
  | 126 => ⟨S850000, .i32⟩
  | 127 => ⟨S850000, .i32⟩
  | _ => ⟨S50000x128, .f32⟩

abbrev hbmTy0_1 (i : Nat) : BufTy := match i % 128 with
  | 0 => ⟨S850000x1, .i32⟩
  | 1 => ⟨S850000x128, .f32⟩
  | 2 => ⟨S850000x1, .f32⟩
  | 3 => ⟨S850000x128, .f32⟩
  | 4 => ⟨S850000x128, .f32⟩
  | 5 => ⟨S_, .f32⟩
  | 6 => ⟨S50000x128, .f32⟩
  | 7 => ⟨S850000x1, .i32⟩
  | 8 => ⟨S50000x128, .f32⟩
  | 9 => ⟨S1x128, .f32⟩
  | 10 => ⟨S50000x128, .f32⟩
  | 11 => ⟨S50000x128, .f32⟩
  | 12 => ⟨S_, .f32⟩
  | 13 => ⟨S128, .f32⟩
  | 14 => ⟨S_, .f32⟩
  | 15 => ⟨S128, .f32⟩
  | 16 => ⟨S128, .f32⟩
  | 17 => ⟨S_, .i32⟩
  | 18 => ⟨S_, .f32⟩
  | 19 => ⟨S128, .f32⟩
  | 20 => ⟨S1x128, .f32⟩
  | 21 => ⟨S_, .f32⟩
  | 22 => ⟨S1x128, .f32⟩
  | 23 => ⟨S1x128, .f32⟩
  | 24 => ⟨S50000x128, .f32⟩
  | 25 => ⟨S50000x128, .f32⟩
  | 26 => ⟨S50000x128, .f32⟩
  | 27 => ⟨S_, .f32⟩
  | 28 => ⟨S_, .f32⟩
  | 29 => ⟨S_, .f32⟩
  | 30 => ⟨S_, .f32⟩
  | 31 => ⟨S128, .f32⟩
  | 32 => ⟨S128, .f32⟩
  | 33 => ⟨S128, .f32⟩
  | 34 => ⟨S_, .f32⟩
  | 35 => ⟨S_, .i1⟩
  | 36 => ⟨S_, .f32⟩
  | 37 => ⟨S_, .f32⟩
  | 38 => ⟨S128, .f32⟩
  | 39 => ⟨S128, .f32⟩
  | 40 => ⟨S1x128, .f32⟩
  | 41 => ⟨S50000x128, .f32⟩
  | 42 => ⟨S50000x128, .f32⟩
  | 43 => ⟨S_, .f32⟩
  | 44 => ⟨S128, .f32⟩
  | 45 => ⟨S128, .f32⟩
  | 46 => ⟨S128, .f32⟩
  | 47 => ⟨S1x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S50000x128, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x128, .f32⟩
  | 69 => ⟨S850000x1, .f32⟩
  | 70 => ⟨S850000x128, .f32⟩
  | 71 => ⟨S850000x128, .f32⟩
  | 72 => ⟨S_, .f32⟩
  | 73 => ⟨S50000x128, .f32⟩
  | 74 => ⟨S850000x1, .i32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S128, .f32⟩
  | 81 => ⟨S_, .f32⟩
  | 82 => ⟨S128, .f32⟩
  | 83 => ⟨S128, .f32⟩
  | 84 => ⟨S_, .i32⟩
  | 85 => ⟨S_, .f32⟩
  | 86 => ⟨S128, .f32⟩
  | 87 => ⟨S1x128, .f32⟩
  | 88 => ⟨S_, .f32⟩
  | 89 => ⟨S1x128, .f32⟩
  | 90 => ⟨S1x128, .f32⟩
  | 91 => ⟨S50000x128, .f32⟩
  | 92 => ⟨S50000x128, .f32⟩
  | 93 => ⟨S50000x128, .f32⟩
  | 94 => ⟨S_, .f32⟩
  | 95 => ⟨S_, .f32⟩
  | 96 => ⟨S_, .f32⟩
  | 97 => ⟨S_, .f32⟩
  | 98 => ⟨S128, .f32⟩
  | 99 => ⟨S128, .f32⟩
  | 100 => ⟨S128, .f32⟩
  | 101 => ⟨S_, .f32⟩
  | 102 => ⟨S_, .i1⟩
  | 103 => ⟨S_, .f32⟩
  | 104 => ⟨S_, .f32⟩
  | 105 => ⟨S128, .f32⟩
  | 106 => ⟨S128, .f32⟩
  | 107 => ⟨S1x128, .f32⟩
  | 108 => ⟨S50000x128, .f32⟩
  | 109 => ⟨S50000x128, .f32⟩
  | 110 => ⟨S_, .f32⟩
  | 111 => ⟨S128, .f32⟩
  | 112 => ⟨S128, .f32⟩
  | 113 => ⟨S128, .f32⟩
  | 114 => ⟨S1x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S_, .f32⟩
  | 127 => ⟨S50000, .f32⟩
  | _ => ⟨S50000x128, .f32⟩

abbrev hbmTy0_2 (i : Nat) : BufTy := match i % 128 with
  | 0 => ⟨S_, .f32⟩
  | 1 => ⟨S64, .f32⟩
  | 2 => ⟨S50000x1, .i32⟩
  | 3 => ⟨S64, .f32⟩
  | 4 => ⟨S_, .f32⟩
  | 5 => ⟨S64x128, .f32⟩
  | 6 => ⟨S50000x1, .i32⟩
  | 7 => ⟨S64x128, .f32⟩
  | 8 => ⟨S_, .f32⟩
  | 9 => ⟨S64, .f32⟩
  | 10 => ⟨S64, .f32⟩
  | 11 => ⟨S64x1, .f32⟩
  | 12 => ⟨S64x128, .f32⟩
  | 13 => ⟨S64x128, .f32⟩
  | 14 => ⟨S64x1, .f32⟩
  | 15 => ⟨S1x1, .f32⟩
  | 16 => ⟨S64x1, .f32⟩
  | 17 => ⟨S64x1, .f32⟩
  | 18 => ⟨S64x1, .f32⟩
  | 19 => ⟨S64x1, .f32⟩
  | 20 => ⟨S_, .f32⟩
  | 21 => ⟨S64x1, .f32⟩
  | 22 => ⟨S64x1, .f32⟩
  | 23 => ⟨S_, .f32⟩
  | 24 => ⟨S64x1, .f32⟩
  | 25 => ⟨S64x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c : Ref sig .tc := ⟨.hbm, 34, rfl⟩
abbrev main_v14 : Ref sig .tc := ⟨.hbm, 35, rfl⟩
abbrev main_v15 : Ref sig .tc := ⟨.hbm, 36, rfl⟩
abbrev main_c_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_3 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_8 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_v48 : Ref sig .tc := ⟨.hbm, 77, rfl⟩
abbrev main_c_10 : Ref sig .tc := ⟨.hbm, 78, rfl⟩
abbrev main_call0_cst : Ref sig .tc := ⟨.hbm, 79, rfl⟩
abbrev main_call0_v0 : Ref sig .tc := ⟨.hbm, 80, rfl⟩
abbrev main_call0_v1 : Ref sig .tc := ⟨.hbm, 81, rfl⟩
abbrev main_call0_cst_0 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_v5 : Ref sig .tc := ⟨.hbm, 86, rfl⟩
abbrev main_call0_v6 : Ref sig .tc := ⟨.hbm, 87, rfl⟩
abbrev main_call0_v7 : Ref sig .tc := ⟨.hbm, 88, rfl⟩
abbrev main_call0_cst_1 : Ref sig .tc := ⟨.hbm, 89, rfl⟩
abbrev main_call0_v8 : Ref sig .tc := ⟨.hbm, 90, rfl⟩
abbrev main_call0_cst_2 : Ref sig .tc := ⟨.hbm, 91, rfl⟩
abbrev main_call0_v9 : Ref sig .tc := ⟨.hbm, 92, rfl⟩
abbrev main_call0_v10 : Ref sig .tc := ⟨.hbm, 93, rfl⟩
abbrev main_call0_v11 : Ref sig .tc := ⟨.hbm, 94, rfl⟩
abbrev main_call0_cst_3 : Ref sig .tc := ⟨.hbm, 95, rfl⟩
abbrev main_call0_v12 : Ref sig .tc := ⟨.hbm, 96, rfl⟩
abbrev main_call0_cst_4 : Ref sig .tc := ⟨.hbm, 97, rfl⟩
abbrev main_call0_call0_v0 : Ref sig .tc := ⟨.hbm, 98, rfl⟩
abbrev main_call0_call0_v1 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_cst_11 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_call1_cst : Ref sig .tc := ⟨.hbm, 117, rfl⟩
abbrev main_call1_v0 : Ref sig .tc := ⟨.hbm, 118, rfl⟩
abbrev main_v65 : Ref sig .tc := ⟨.hbm, 119, rfl⟩
abbrev main_v66 : Ref sig .tc := ⟨.hbm, 120, rfl⟩
abbrev main_c_12 : Ref sig .tc := ⟨.hbm, 121, rfl⟩
abbrev main_v67 : Ref sig .tc := ⟨.hbm, 122, rfl⟩
abbrev main_v68 : Ref sig .tc := ⟨.hbm, 123, rfl⟩
abbrev main_c_13 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_cst_14 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_cst_15 : Ref sig .tc := ⟨.hbm, 140, rfl⟩
abbrev main_v83 : Ref sig .tc := ⟨.hbm, 141, rfl⟩
abbrev main_cst_16 : Ref sig .tc := ⟨.hbm, 142, rfl⟩
abbrev main_v84 : Ref sig .tc := ⟨.hbm, 143, rfl⟩
abbrev main_v85 : Ref sig .tc := ⟨.hbm, 144, rfl⟩
abbrev main_c_17 : Ref sig .tc := ⟨.hbm, 145, rfl⟩
abbrev main_call2_cst : Ref sig .tc := ⟨.hbm, 146, rfl⟩
abbrev main_call2_v0 : Ref sig .tc := ⟨.hbm, 147, rfl⟩
abbrev main_call2_v1 : Ref sig .tc := ⟨.hbm, 148, rfl⟩
abbrev main_call2_cst_0 : Ref sig .tc := ⟨.hbm, 149, rfl⟩
abbrev main_call2_v2 : Ref sig .tc := ⟨.hbm, 150, rfl⟩
abbrev main_call2_v3 : Ref sig .tc := ⟨.hbm, 151, rfl⟩
abbrev main_call2_v4 : Ref sig .tc := ⟨.hbm, 152, rfl⟩
abbrev main_call2_v5 : Ref sig .tc := ⟨.hbm, 153, rfl⟩
abbrev main_call2_v6 : Ref sig .tc := ⟨.hbm, 154, rfl⟩
abbrev main_call2_v7 : Ref sig .tc := ⟨.hbm, 155, rfl⟩
abbrev main_call2_cst_1 : Ref sig .tc := ⟨.hbm, 156, rfl⟩
abbrev main_call2_v8 : Ref sig .tc := ⟨.hbm, 157, rfl⟩
abbrev main_call2_cst_2 : Ref sig .tc := ⟨.hbm, 158, rfl⟩
abbrev main_call2_v9 : Ref sig .tc := ⟨.hbm, 159, rfl⟩
abbrev main_call2_v10 : Ref sig .tc := ⟨.hbm, 160, rfl⟩
abbrev main_call2_v11 : Ref sig .tc := ⟨.hbm, 161, rfl⟩
abbrev main_call2_cst_3 : Ref sig .tc := ⟨.hbm, 162, rfl⟩
abbrev main_call2_v12 : Ref sig .tc := ⟨.hbm, 163, rfl⟩
abbrev main_call2_cst_4 : Ref sig .tc := ⟨.hbm, 164, rfl⟩
abbrev main_call2_call0_v0 : Ref sig .tc := ⟨.hbm, 165, rfl⟩
abbrev main_call2_call0_v1 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_cst_18 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_call3_cst : Ref sig .tc := ⟨.hbm, 184, rfl⟩
abbrev main_call3_v0 : Ref sig .tc := ⟨.hbm, 185, rfl⟩
abbrev main_v102 : Ref sig .tc := ⟨.hbm, 186, rfl⟩
abbrev main_v103 : Ref sig .tc := ⟨.hbm, 187, rfl⟩
abbrev main_c_19 : Ref sig .tc := ⟨.hbm, 188, rfl⟩
abbrev main_v104 : Ref sig .tc := ⟨.hbm, 189, rfl⟩
abbrev main_v105 : Ref sig .tc := ⟨.hbm, 190, rfl⟩
abbrev main_c_20 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_cst_21 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_cst_22 : Ref sig .tc := ⟨.hbm, 207, rfl⟩
abbrev main_v120 : Ref sig .tc := ⟨.hbm, 208, rfl⟩
abbrev main_cst_23 : Ref sig .tc := ⟨.hbm, 209, rfl⟩
abbrev main_v121 : Ref sig .tc := ⟨.hbm, 210, rfl⟩
abbrev main_v122 : Ref sig .tc := ⟨.hbm, 211, rfl⟩
abbrev main_c_24 : Ref sig .tc := ⟨.hbm, 212, rfl⟩
abbrev main_call4_cst : Ref sig .tc := ⟨.hbm, 213, rfl⟩
abbrev main_call4_v0 : Ref sig .tc := ⟨.hbm, 214, rfl⟩
abbrev main_call4_v1 : Ref sig .tc := ⟨.hbm, 215, rfl⟩
abbrev main_call4_cst_0 : Ref sig .tc := ⟨.hbm, 216, rfl⟩
abbrev main_call4_v2 : Ref sig .tc := ⟨.hbm, 217, rfl⟩
abbrev main_call4_v3 : Ref sig .tc := ⟨.hbm, 218, rfl⟩
abbrev main_call4_v4 : Ref sig .tc := ⟨.hbm, 219, rfl⟩
abbrev main_call4_v5 : Ref sig .tc := ⟨.hbm, 220, rfl⟩
abbrev main_call4_v6 : Ref sig .tc := ⟨.hbm, 221, rfl⟩
abbrev main_call4_v7 : Ref sig .tc := ⟨.hbm, 222, rfl⟩
abbrev main_call4_cst_1 : Ref sig .tc := ⟨.hbm, 223, rfl⟩
abbrev main_call4_v8 : Ref sig .tc := ⟨.hbm, 224, rfl⟩
abbrev main_call4_cst_2 : Ref sig .tc := ⟨.hbm, 225, rfl⟩
abbrev main_call4_v9 : Ref sig .tc := ⟨.hbm, 226, rfl⟩
abbrev main_call4_v10 : Ref sig .tc := ⟨.hbm, 227, rfl⟩
abbrev main_call4_v11 : Ref sig .tc := ⟨.hbm, 228, rfl⟩
abbrev main_call4_cst_3 : Ref sig .tc := ⟨.hbm, 229, rfl⟩
abbrev main_call4_v12 : Ref sig .tc := ⟨.hbm, 230, rfl⟩
abbrev main_call4_cst_4 : Ref sig .tc := ⟨.hbm, 231, rfl⟩
abbrev main_call4_call0_v0 : Ref sig .tc := ⟨.hbm, 232, rfl⟩
abbrev main_call4_call0_v1 : Ref sig .tc := ⟨.hbm, 233, rfl⟩
abbrev main_v123 : Ref sig .tc := ⟨.hbm, 234, rfl⟩
abbrev main_v124 : Ref sig .tc := ⟨.hbm, 235, rfl⟩
abbrev main_v125 : Ref sig .tc := ⟨.hbm, 236, rfl⟩
abbrev main_v126 : Ref sig .tc := ⟨.hbm, 237, rfl⟩
abbrev main_cst_25 : Ref sig .tc := ⟨.hbm, 238, rfl⟩
abbrev main_v127 : Ref sig .tc := ⟨.hbm, 239, rfl⟩
abbrev main_v128 : Ref sig .tc := ⟨.hbm, 240, rfl⟩
abbrev main_v129 : Ref sig .tc := ⟨.hbm, 241, rfl⟩
abbrev main_v130 : Ref sig .tc := ⟨.hbm, 242, rfl⟩
abbrev main_v131 : Ref sig .tc := ⟨.hbm, 243, rfl⟩
abbrev main_v132 : Ref sig .tc := ⟨.hbm, 244, rfl⟩
abbrev main_v133 : Ref sig .tc := ⟨.hbm, 245, rfl⟩
abbrev main_v134 : Ref sig .tc := ⟨.hbm, 246, rfl⟩
abbrev main_v135 : Ref sig .tc := ⟨.hbm, 247, rfl⟩
abbrev main_v136 : Ref sig .tc := ⟨.hbm, 248, rfl⟩
abbrev main_v137 : Ref sig .tc := ⟨.hbm, 249, rfl⟩
abbrev main_v138 : Ref sig .tc := ⟨.hbm, 250, rfl⟩
abbrev main_call5_cst : Ref sig .tc := ⟨.hbm, 251, rfl⟩
abbrev main_call5_v0 : Ref sig .tc := ⟨.hbm, 252, rfl⟩
abbrev main_v139 : Ref sig .tc := ⟨.hbm, 253, rfl⟩
abbrev main_cst_26 : Ref sig .tc := ⟨.hbm, 254, rfl⟩
abbrev main_v140 : Ref sig .tc := ⟨.hbm, 255, rfl⟩
abbrev main_cst_27 : Ref sig .tc := ⟨.hbm, 256, rfl⟩
abbrev main_v141 : Ref sig .tc := ⟨.hbm, 257, rfl⟩
abbrev main_v142 : Ref sig .tc := ⟨.hbm, 258, rfl⟩
abbrev main_v143 : Ref sig .tc := ⟨.hbm, 259, rfl⟩
abbrev main_cst_28 : Ref sig .tc := ⟨.hbm, 260, rfl⟩
abbrev main_v144 : Ref sig .tc := ⟨.hbm, 261, rfl⟩
abbrev main_v145 : Ref sig .tc := ⟨.hbm, 262, rfl⟩
abbrev main_v146 : Ref sig .tc := ⟨.hbm, 263, rfl⟩
abbrev main_cst_29 : Ref sig .tc := ⟨.hbm, 264, rfl⟩
abbrev main_v147 : Ref sig .tc := ⟨.hbm, 265, rfl⟩
abbrev main_v148 : Ref sig .tc := ⟨.hbm, 266, rfl⟩
abbrev main_v149 : Ref sig .tc := ⟨.hbm, 267, rfl⟩
abbrev main_v150 : Ref sig .tc := ⟨.hbm, 268, rfl⟩
abbrev main_v151 : Ref sig .tc := ⟨.hbm, 269, rfl⟩
abbrev main_v152 : Ref sig .tc := ⟨.hbm, 270, rfl⟩
abbrev main_v153 : Ref sig .tc := ⟨.hbm, 271, rfl⟩
abbrev main_v154 : Ref sig .tc := ⟨.hbm, 272, rfl⟩
abbrev main_v155 : Ref sig .tc := ⟨.hbm, 273, rfl⟩
abbrev main_v156 : Ref sig .tc := ⟨.hbm, 274, rfl⟩
abbrev main_v157 : Ref sig .tc := ⟨.hbm, 275, rfl⟩
abbrev main_cst_30 : Ref sig .tc := ⟨.hbm, 276, rfl⟩
abbrev main_v158 : Ref sig .tc := ⟨.hbm, 277, rfl⟩
abbrev main_v159 : Ref sig .tc := ⟨.hbm, 278, rfl⟩
abbrev main_cst_31 : Ref sig .tc := ⟨.hbm, 279, rfl⟩
abbrev main_v160 : Ref sig .tc := ⟨.hbm, 280, rfl⟩
abbrev main_v161 : Ref sig .tc := ⟨.hbm, 281, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S64 : S_.BroadcastsInDim S64 (![] : Fin 0 → Fin S64.rank)
  bcast_S50000_S50000x1_0 : S50000.BroadcastsInDim S50000x1 (![0] : Fin 1 → Fin S50000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  dot_S64x128_S128x1_S64x1_1_0_0_1_n_n_wf : DotDims.WF S64x128 S128x1 S64x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.Kernel.Transform0.lean ====
import proofs.«403168_j28509992910998_1_alg».proof.Proof.Gen.Kernel.Launch
import proofs.«403168_j28509992910998_1_alg».proof.Proof.Gen.Kernel.Skeleton
import proofs.«403168_j28509992910998_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev featRect0 : Rect S5000x128 := Rect.unit (s := S5000x128) ![0, 0] S5000x128.size inb_S5000x128_S5000x128_0_0
abbrev weightRect0 : Rect S128x128 := Rect.unit (s := S128x128) ![0, 0] S128x128.size inb_S128x128_S128x128_0_0
abbrev prodRect0 : Rect S5000x128 := Rect.unit (s := S5000x128) ![0, 0] S5000x128.size inb_S5000x128_S5000x128_0_0

def prodOf0 (x : Vec F S5000x128 .f32) (w : Vec F S128x128 .f32) : Vec F S5000x128 .f32 :=
  View.canon [⟨prodRect0, k0_pay1 (View.ld x featRect0) (View.ld w weightRect0)⟩]

set_option maxHeartbeats 1000000 in
/-- The one store covers the whole block, so the result does not depend on what the output held before; `R` and `S` are framed. -/
theorem sound_kernel0 (c : Dev nD) (E : Set ℕ) {i : grid0.Coords}
    {arg1 : Memref sig .tc .vmem S5000x128 .f32} {harg1 : arg1.IsWhole}
    {arg2 : Memref sig .tc .vmem S128x128 .f32} {harg2 : arg2.IsWhole}
    {arg3 : Memref sig .tc .vmem S5000x128 .f32} {harg3 : arg3.IsWhole}
    {x d : Vec F S5000x128 .f32} {w : Vec F S128x128 .f32} {R S : sProp 𝕄} :
    owns (c : Thread nD τ) arg1 fullShare x ⊢ iprop(owns (c : Thread nD τ) arg2 fullShare w -∗ owns (c : Thread nD τ) arg3 fullShare d -∗ R -∗ S
        -∗ wp frame (wpE (defs₀ (F := F)) Variants.none c none) E (cc0__matmul_kernel i arg1 harg1 arg2 harg2 arg3 harg3)
          fun _ => iprop(R ∗ S ∗ owns (c : Thread nD τ) arg1 fullShare x ∗ owns (c : Thread nD τ) arg2 fullShare w ∗ owns (c : Thread nD τ) arg3 fullShare (prodOf0 x w))) := by
  simp only [cc0__matmul_kernel_eq_skeleton]; unfold cc0__matmul_kernel_skel owns
  iintro ⟨%fx, %hx, Hx⟩ ⟨%fw, %hw, Hw⟩ ⟨%fp, -, Hp⟩ HR HS
  subst hx hw
  sl_exec
  sl_step
  isplitl [HR]; · iexact HR
  isplitl [HS]; · iexact HS
  isplitl [Hx]
  · iexists fx; isplitr; · ipureintro; rfl
    iexact Hx
  isplitl [Hw]
  · iexists fw; isplitr; · ipureintro; rfl
    iexact Hw
  iexists _; isplitr
  swap; · iexact Hp
  ipureintro
  exact View.read_writes_eq_canon _ _ _ (View.cover_of_tiled _ S5000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => prodOf0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_2 (c : Dev nD) (t : Fin cfg0.N) : (dat0 V c).after 2 t = prodOf0 (iblk0 V c 0 t) (iblk0 V c 1 t) := by dsimp only [dat0]

/-- An input window holds before the body what the body leaves in it: its block, which the body does not change. -/
theorem before0 (c : Dev nD) (t : Fin cfg0.N) : ∀ w : Fin cfg0.W, (cfg0.win w).isOut = false → ∀ d, (dat0 V c).before w t d = (dat0 V c).after w t
  | ⟨0, _⟩, h, d | ⟨1, _⟩, h, d =>
    (dat0 V c).before_in_eq_fetched _ h (fun _ => rfl) (fun _ _ _ => rfl) (fun _ => rfl) t d
  | ⟨2, _⟩, h, _ => absurd (h.symm.trans rfl) Bool.false_ne_true

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

/-- The kernel's triple at the point's three blocks, framing the invariant and what is owed. -/
theorem body_obligation0 (c : Dev nD) : BodyObligation (dat0 (F := F) V c) (defs₀ (F := F)) Variants.none () Set.univ := fun t => by
  rw [bigSep_W0, bigSep_W0]
  simp only
  show _ ⊢ wp _ _ _ (bodyAt0 t) _
  iintro ⟨HΦ, Ho, ⟨%d0, Hx⟩, ⟨%d1, Hw⟩, ⟨%d2, Hp⟩⟩
  rw [before0 V c t 0 rfl, before0 V c t 1 rfl]
  dsimp only [dat0, Dat.bound]
  iapply (sound_kernel0 c Set.univ) $$ Hx Hw Hp HΦ Ho

end Cert.Kernel.Hand

end
-- ==== Proof.Kernel.Moments1.lean ====
import proofs.«403168_j28509992910998_1_alg».proof.Proof.Gen.Kernel.Launch
import proofs.«403168_j28509992910998_1_alg».proof.Proof.Gen.Kernel.Skeleton
import proofs.«403168_j28509992910998_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev first1 (i : grid1.Coords) : Prop := (Scalar.cmpi .ne (Scalar.extui (Scalar.cmpi .eq (BitVec.ofNat 32 (i 0).val) 0#32)) 0#32) = 1#1
theorem first1_iff : ∀ t : Fin cfg1.N, first1 (grid1.coords t) ↔ t.val = 0 := by decide +kernel

abbrev last1 (i : grid1.Coords) : Prop := k1_cond2 i = 1#1
theorem last1_iff : ∀ t : Fin cfg1.N, last1 (grid1.coords t) ↔ t.val = 9 := by decide +kernel

theorem live1 : ∀ (w : Fin cfg1.W) (t : Fin cfg1.N), w = 0 ∨ last1 (grid1.coords t) → cfg1.idle w (grid1.coords t) = false := by decide +kernel
theorem quiet1 : ∀ (w : Fin cfg1.W) (t : Fin cfg1.N), w ≠ 0 → ¬last1 (grid1.coords t) → cfg1.idle w (grid1.coords t) = true ∧ (cfg1.win w).flush t = false := by
  decide +kernel

abbrev sumRow1 : Memref sig .tc .vmem S1x128 .f32 := Memref.whole cc1_scratch0
abbrev sqRow1 : Memref sig .tc .vmem S1x128 .f32 := Memref.whole cc1_scratch1

abbrev others1 (c : Dev nD) : sProp 𝕄 :=
  Pipeline.scopedRestBut (Ix := Unit) (Name := ℕ) (U := UR sig nD τ) (Lvl := ℕ) (Val := Elt F) spec1 c [cc1_scratch0, cc1_scratch1]

theorem PhiA1_eq (c : Dev nD) :
    (Pipeline.ΦA spec1 c : sProp 𝕄)
      = iprop(iprop(iprop((∃ d, owns (c : Thread nD τ) sumRow1 fullShare d) ∗ (∃ d, owns (c : Thread nD τ) sqRow1 fullShare d)) ∗ others1 c) ∗ (∃ r, prngReg c r)) := by
  unfold Pipeline.ΦA; rw [scopedRest1_split]; simp only [sumRow1, sqRow1, others1, owns_whole]; try rfl

theorem origin1 : (![0, 0] : Fin 2 → ℕ) = fun _ => 0 := by funext a; fin_cases a <;> rfl

/-- One row carried over the points: `g` of the block and the row before, from `z` at the first point. -/
def foldAt1 {N : ℕ} (b : Fin N → Vec F S5000x128 .f32) (g : Vec F S5000x128 .f32 → Vec F S1x128 .f32 → Vec F S1x128 .f32) (z : Vec F S1x128 .f32) :
    (n : ℕ) → n < N → Vec F S1x128 .f32
  | 0, hn => g (b ⟨0, hn⟩) z
  | n + 1, hn => g (b ⟨n + 1, hn⟩) (foldAt1 b g z n (Nat.lt_of_succ_lt hn))

theorem foldAt1_zero {N : ℕ} (b : Fin N → Vec F S5000x128 .f32) (g z) (t : Fin N) (h : t.val = 0) :
    foldAt1 b g z t.val t.isLt = g (b t) z := by
  obtain ⟨_ | n, hn⟩ := t
  exacts [rfl, absurd h n.succ_ne_zero]

theorem foldAt1_pos {N : ℕ} (b : Fin N → Vec F S5000x128 .f32) (g z) (t : Fin N) (h : t.val ≠ 0) :
    foldAt1 b g z t.val t.isLt = g (b t) (foldAt1 b g z (t.val - 1) (by omega)) := by
  obtain ⟨_ | n, hn⟩ := t
  exacts [absurd rfl h, rfl]

def sumAt1 (c : Dev nD) : (n : ℕ) → n < cfg1.N → Vec F S1x128 .f32 := foldAt1 (fun t => iblk1 V c 0 t) k1_pay4 k1_pay1

def sqAt1 (c : Dev nD) : (n : ℕ) → n < cfg1.N → Vec F S1x128 .f32 := foldAt1 (fun t => iblk1 V c 0 t) k1_pay5 k1_pay2

theorem sumAt1_zero (c : Dev nD) (t : Fin cfg1.N) (h : t.val = 0) :
    sumAt1 V c t.val t.isLt = k1_pay4 (iblk1 V c 0 t) (k1_pay1 (F := F)) := foldAt1_zero _ _ _ t h

theorem sumAt1_pos (c : Dev nD) (t : Fin cfg1.N) (h : t.val ≠ 0) :
    sumAt1 V c t.val t.isLt = k1_pay4 (iblk1 V c 0 t) (sumAt1 V c (t.val - 1) (Nat.lt_of_le_of_lt (Nat.sub_le _ _) t.isLt)) :=
  foldAt1_pos _ _ _ t h

theorem sqAt1_zero (c : Dev nD) (t : Fin cfg1.N) (h : t.val = 0) :
    sqAt1 V c t.val t.isLt = k1_pay5 (iblk1 V c 0 t) (k1_pay2 (F := F)) := foldAt1_zero _ _ _ t h

theorem sqAt1_pos (c : Dev nD) (t : Fin cfg1.N) (h : t.val ≠ 0) :
    sqAt1 V c t.val t.isLt = k1_pay5 (iblk1 V c 0 t) (sqAt1 V c (t.val - 1) (Nat.lt_of_le_of_lt (Nat.sub_le _ _) t.isLt)) :=
  foldAt1_pos _ _ _ t h

def meanAt1 (c : Dev nD) (t : Fin cfg1.N) : Vec F S1x128 .f32 := k1_pay6 (sumAt1 V c t.val t.isLt)

def varAt1 (c : Dev nD) (t : Fin cfg1.N) : Vec F S1x128 .f32 := k1_pay7 (sumAt1 V c t.val t.isLt) (sqAt1 V c t.val t.isLt)

/-- The two carried rows at `s` and `q`, everything else the region holds at anything. -/
abbrev rows1 (c : Dev nD) (s q : Vec F S1x128 .f32) : sProp 𝕄 :=
  iprop(iprop(iprop(owns (c : Thread nD τ) sumRow1 fullShare s ∗ owns (c : Thread nD τ) sqRow1 fullShare q) ∗ others1 c) ∗ (∃ r, prngReg c r))

def PhiS1 (c : Dev nD) : (n : ℕ) → n ≤ cfg1.N → sProp 𝕄
  | 0, _ => Pipeline.ΦA spec1 c
  | n + 1, hn => rows1 c (sumAt1 V c n hn) (sqAt1 V c n hn)

theorem PhiS1_zero (c : Dev nD) (n : ℕ) (h : n ≤ cfg1.N) (hz : n = 0) : PhiS1 V c n h = Pipeline.ΦA spec1 c := by
  subst hz; rfl

theorem PhiS1_pos (c : Dev nD) (n : ℕ) (h : n ≤ cfg1.N) (hz : n ≠ 0) :
    PhiS1 V c n h = rows1 c (sumAt1 V c (n - 1) (by omega)) (sqAt1 V c (n - 1) (by omega)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => meanAt1 V c t
    | ⟨2, _⟩ => varAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_0 (c : Dev nD) (t : Fin cfg1.N) : (dat1 V c).after 0 t = iblk1 V c 0 t := rfl
theorem after1_1 (c : Dev nD) (t : Fin cfg1.N) : (dat1 V c).after 1 t = meanAt1 V c t := rfl
theorem after1_2 (c : Dev nD) (t : Fin cfg1.N) : (dat1 V c).after 2 t = varAt1 V c t := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl

theorem row_stored1 {κ : Kind} {sp : Space} (v : View sig κ sp S1x128 .f32) (f : v.ty.Contents (Elt F))
    (w : Vec F S1x128 .f32) (L : List (View.Piece (Elt F) S1x128 .f32)) :
    v.read (Elt F) (v.writes (Elt F) f ((⟨Rect.unit (s := S1x128) ![0, 0] S1x128.size inb_S1x128_S1x128_0_0, w⟩ : View.Piece (Elt F) S1x128 .f32) :: L)) = w := by
  have hc : ∀ y : S1x128.Idx, ∃ p ∈ ((⟨Rect.unit (s := S1x128) ![0, 0] S1x128.size inb_S1x128_S1x128_0_0, w⟩ : View.Piece (Elt F) S1x128 .f32) :: L), y ∈ p.1.set :=
    fun y => ⟨_, List.mem_cons_self, View.mem_set_unit_zero (S := S1x128) origin1 inb_S1x128_S1x128_0_0 y⟩
  rw [View.read_writes_eq_canon v f _ hc]
  exact View.canon_cons_unit_zero (S := S1x128) origin1 inb_S1x128_S1x128_0_0 w L

/-- The block's column sums and sums of squares are added to the carried rows, cleared first at the first point; at the last point the moments are then read out. -/
theorem run1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole)
    (x : Vec F S5000x128 .f32) (y1 y2 s q s0 q0 o1 o2 : Vec F S1x128 .f32)
    (h : first1 i ∧ ¬last1 i ∧ s0 = k1_pay1 ∧ q0 = k1_pay2 ∧ o1 = y1 ∧ o2 = y2 ∨
      ¬first1 i ∧ s0 = s ∧ q0 = q ∧ (last1 i ∧ o1 = k1_pay6 (k1_pay4 x s) ∧ o2 = k1_pay7 (k1_pay4 x s) (k1_pay5 x q) ∨ ¬last1 i ∧ o1 = y1 ∧ o2 = y2))
    (K : PUnit → sProp 𝕄) :
    iprop(owns (c : Thread nD τ) arg1 fullShare x ∗ owns (c : Thread nD τ) arg2 fullShare y1 ∗ owns (c : Thread nD τ) arg3 fullShare y2
        ∗ owns (c : Thread nD τ) arg4 fullShare s ∗ owns (c : Thread nD τ) arg5 fullShare q
        ∗ (iprop(owns (c : Thread nD τ) arg1 fullShare x ∗ owns (c : Thread nD τ) arg2 fullShare o1 ∗ owns (c : Thread nD τ) arg3 fullShare o2
            ∗ owns (c : Thread nD τ) arg4 fullShare (k1_pay4 x s0) ∗ owns (c : Thread nD τ) arg5 fullShare (k1_pay5 x q0)) -∗ K ⟨⟩))
      ⊢ wp frame (wpE (defs₀ (F := F)) Variants.none c none) E (cc1__stats_kernel i arg1 harg1 arg2 harg2 arg3 harg3 arg4 harg4 arg5 harg5) K := by
  obtain ⟨h1, h2, e1, e2, e3, e4⟩ | ⟨h1, e1, e2, ⟨h2, e3, e4⟩ | ⟨h2, e3, e4⟩⟩ := h <;>
  · simp only [cc1__stats_kernel_eq_skeleton]; unfold cc1__stats_kernel_skel owns
    iintro ⟨⟨%f1, %hf1, H1⟩, ⟨%f2, %hf2, H2⟩, ⟨%f3, %hf3, H3⟩, ⟨%f4, %hf4, H4⟩, ⟨%f5, %hf5, H5⟩, Hk⟩
    obtain rfl := harg1.eq_unread hf1; obtain rfl := harg4.eq_unread hf4; obtain rfl := harg5.eq_unread hf5
    sl_exec (disch := first | exact h1 | exact h2)
    sl_step
    try sl_unfold_words
    simp only [View.readCov_cons_toLoadRect, View.readAt_eq_ld, Memref.IsWhole.read_unread, View.ld_unit_zero (S := S5000x128) origin1, View.ld_unit_zero (S := S1x128) origin1]
    iapply Hk
    isplitl [H1]; rotate_left; isplitl [H2]; rotate_left; isplitl [H3]; rotate_left; isplitl [H4]; rotate_left
    all_goals (iexists _; isplitr; (swap; iassumption); ipureintro)
    all_goals subst_vars
    all_goals first | exact row_stored1 _ _ _ _ | assumption | rfl

/-- Two resources held at anything are held at something. -/
theorem open1 {α β : Type} {S : α → sProp 𝕄} {Q : β → sProp 𝕄} {R G X P : sProp 𝕄}
    (h : ∀ a b, iprop(iprop(iprop(iprop(S a ∗ Q b) ∗ R) ∗ G) ∗ X) ⊢ P) :
    iprop(iprop(iprop(iprop((∃ a, S a) ∗ (∃ b, Q b)) ∗ R) ∗ G) ∗ X) ⊢ P := by
  iintro ⟨⟨⟨⟨⟨%a, HS⟩, ⟨%b, HQ⟩⟩, HR⟩, Hg⟩, HX⟩
  iapply (h a b)
  iframe HS HQ HR Hg
  iexact HX

theorem leavesExact_live1 {cfg : Cfg sig Λ₀} {c : Dev nD} (dat : Dat τ (Elt F) Unit ℕ (UR sig nD τ) ℕ cfg c) (w : Fin cfg.W) (t : Fin cfg.N)
    (h : cfg.idle w (cfg.grid.coords t) = false) :
    dat.leavesExact w t = owns (c : Thread nD τ) ((cfg.win w).stage (cfg.slots t w)) fullShare (dat.after w t) := by
  unfold Dat.leavesExact; rw [h]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- A run stated with a continuation, framed: what it does not touch passes through. -/
theorem reassemble1 {c : Dev nD} {δ0 δ1 δ2 : Type} {A0 S Q S' Q' R G O C1 C2 : sProp 𝕄} {A1 B1 : δ1 → sProp 𝕄} {A2 B2 : δ2 → sProp 𝕄} {e}
    (h1 : ∀ d, B1 d ⊢ C1) (h2 : ∀ d, B2 d ⊢ C2)
    (run : ∀ d1 d2 (K : PUnit → sProp 𝕄), iprop(A0 ∗ A1 d1 ∗ A2 d2 ∗ S ∗ Q ∗ (iprop(A0 ∗ B1 d1 ∗ B2 d2 ∗ S' ∗ Q') -∗ K ⟨⟩)) ⊢ wp frame (wpE (defs₀ (F := F)) Variants.none c none) Set.univ e K) :
    iprop(iprop(iprop(iprop(S ∗ Q) ∗ R) ∗ G) ∗ O ∗ (∃ _ : δ0, A0) ∗ (∃ d, A1 d) ∗ (∃ d, A2 d))
      ⊢ wp frame (wpE (defs₀ (F := F)) Variants.none c none) Set.univ e (fun _ => iprop(iprop(iprop(iprop(S' ∗ Q') ∗ R) ∗ G) ∗ O ∗ A0 ∗ C1 ∗ C2)) := by
  iintro ⟨⟨⟨⟨HS, HQ⟩, HR⟩, Hg⟩, Ho, ⟨%d0, H0⟩, ⟨%d1, H1⟩, ⟨%d2, H2⟩⟩
  iapply (run d1 d2)
  iframe H0 H1 H2 HS HQ
  iintro ⟨H0, H1, H2, HS, HQ⟩
  iframe HS HQ HR Hg Ho H0
  isplitl [H1]; · iapply (h1 d1); iexact H1
  iapply (h2 d2); iexact H2

/-- The point's position picks the run; one step of the rows' recursion turns what it leaves into the invariant after the point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = rows1 c (sumAt1 V c t.val t.isLt) (sqAt1 V c t.val t.isLt) from rfl,
    show (dat1 V c).Φ t.castSucc = PhiS1 V c t.val (Nat.le_of_lt t.isLt) from rfl,
    leavesExact_live1 (dat1 V c) 0 t (live1 0 t (.inl rfl)), after1_0]
  by_cases hl : t.val = 9
  · have hz : t.val ≠ 0 := by omega
    have h2 : last1 (grid1.coords t) := (last1_iff t).mpr hl
    rw [leavesExact_live1 (dat1 V c) 1 t (live1 1 t (.inr h2)), leavesExact_live1 (dat1 V c) 2 t (live1 2 t (.inr h2)), after1_1, after1_2]
    unfold meanAt1 varAt1
    rw [sumAt1_pos V c t hz, sqAt1_pos V c t hz, PhiS1_pos V c _ _ hz]
    exact reassemble1 (fun _ => .rfl) (fun _ => .rfl) fun _ _ =>
      run1 c Set.univ (grid1.coords t) _ _ _ _ _ _ _ _ _ _ (iblk1 V c 0 t) _ _ _ _ _ _ _ _ (.inr ⟨fun h => hz ((first1_iff t).mp h), rfl, rfl, .inl ⟨h2, rfl, rfl⟩⟩)
  · have h2 : ¬last1 (grid1.coords t) := fun h => hl ((last1_iff t).mp h)
    rw [Dat.leavesExact_idle (dat1 V c) 1 t (quiet1 1 t (by decide) h2).1 (quiet1 1 t (by decide) h2).2,
      Dat.leavesExact_idle (dat1 V c) 2 t (quiet1 2 t (by decide) h2).1 (quiet1 2 t (by decide) h2).2]
    by_cases hz : t.val = 0
    · rw [sumAt1_zero V c t hz, sqAt1_zero V c t hz, PhiS1_zero V c _ _ hz, PhiA1_eq]
      refine open1 fun _ _ => ?_
      exact reassemble1 exists_intro exists_intro fun _ _ =>
        run1 c Set.univ (grid1.coords t) _ _ _ _ _ _ _ _ _ _ (iblk1 V c 0 t) _ _ _ _ _ _ _ _ (.inl ⟨(first1_iff t).mpr hz, h2, rfl, rfl, rfl, rfl⟩)
    · rw [sumAt1_pos V c t hz, sqAt1_pos V c t hz, PhiS1_pos V c _ _ hz]
      exact reassemble1 exists_intro exists_intro fun _ _ =>
        run1 c Set.univ (grid1.coords t) _ _ _ _ _ _ _ _ _ _ (iblk1 V c 0 t) _ _ _ _ _ _ _ _ (.inr ⟨fun h => hz ((first1_iff t).mp h), rfl, rfl, .inr ⟨h2, rfl, rfl⟩⟩)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c := by
  rw [PhiA1_eq]
  show rows1 c _ _ ⊢ _
  iintro ⟨⟨⟨HS, HQ⟩, HR⟩, Hg⟩
  iframe HR Hg
  isplitl [HS]; · iexists _; iexact HS
  iexists _; iexact HQ

end Cert.Kernel.Hand

end
-- ==== Proof.Kernel.Normalize2.lean ====
import proofs.«403168_j28509992910998_1_alg».proof.Proof.Gen.Kernel.Launch
import proofs.«403168_j28509992910998_1_alg».proof.Proof.Gen.Kernel.Skeleton
import proofs.«403168_j28509992910998_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

def out2_5 (x0 : Vec F S5000x128 .f32) (x1 : Vec F S1x128 .f32) (x2 : Vec F S1x128 .f32) (x3 : Vec F S1x128 .f32) (x4 : Vec F S1x128 .f32) :
    Vec F S5000x128 .f32 :=
  View.canon [⟨r2_0, k2_pay1 (View.ld x0 r2_0) (View.ld x2 r2_1) (View.ld x1 r2_1) (View.ld x3 r2_1) (View.ld x4 r2_1)⟩]

set_option maxHeartbeats 1000000 in
/-- The one store covers the whole block, so the result does not depend on what the output held before; `R` and `S` are framed. -/
theorem sound_kernel2 (c : Dev nD) (E : Set ℕ) {i : grid2.Coords}
    {arg1 : Memref sig .tc .vmem S5000x128 .f32} {harg1 : arg1.IsWhole} {arg2 : Memref sig .tc .vmem S1x128 .f32} {harg2 : arg2.IsWhole}
    {arg3 : Memref sig .tc .vmem S1x128 .f32} {harg3 : arg3.IsWhole} {arg4 : Memref sig .tc .vmem S1x128 .f32} {harg4 : arg4.IsWhole}
    {arg5 : Memref sig .tc .vmem S1x128 .f32} {harg5 : arg5.IsWhole} {arg6 : Memref sig .tc .vmem S5000x128 .f32} {harg6 : arg6.IsWhole}
    {x0 d : Vec F S5000x128 .f32} {x1 x2 x3 x4 : Vec F S1x128 .f32} {R S : sProp 𝕄} :
    owns (c : Thread nD τ) arg1 fullShare x0 ⊢ iprop(owns (c : Thread nD τ) arg2 fullShare x1 -∗ owns (c : Thread nD τ) arg3 fullShare x2
        -∗ owns (c : Thread nD τ) arg4 fullShare x3 -∗ owns (c : Thread nD τ) arg5 fullShare x4 -∗ owns (c : Thread nD τ) arg6 fullShare d -∗ R -∗ S
        -∗ wp frame (wpE (defs₀ (F := F)) Variants.none c none) E (cc2__bn_relu_kernel i arg1 harg1 arg2 harg2 arg3 harg3 arg4 harg4 arg5 harg5 arg6 harg6)
          fun _ => iprop(R ∗ S ∗ owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (out2_5 x0 x1 x2 x3 x4))) := by
  simp only [cc2__bn_relu_kernel_eq_skeleton]; unfold cc2__bn_relu_kernel_skel owns
  iintro ⟨%f0, %h0, H0⟩ ⟨%f1, %h1, H1⟩ ⟨%f2, %h2, H2⟩ ⟨%f3, %h3, H3⟩ ⟨%f4, %h4, H4⟩ ⟨%f5, -, H5⟩ HR HS
  subst h0 h1 h2 h3 h4
  sl_exec
  sl_step
  iframe HR HS
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S5000x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- An input window holds before the body what the body leaves in it: its block, which the body does not change. -/
theorem before2 (c : Dev nD) (t : Fin cfg2.N) : ∀ w : Fin cfg2.W, (cfg2.win w).isOut = false → ∀ d, (dat2 V c).before w t d = (dat2 V c).after w t
  | ⟨0, _⟩, h, d | ⟨1, _⟩, h, d | ⟨2, _⟩, h, d | ⟨3, _⟩, h, d | ⟨4, _⟩, h, d =>
    (dat2 V c).before_in_eq_fetched _ h (fun _ => rfl) (fun _ _ _ => rfl) (fun _ => rfl) t d
  | ⟨5, _⟩, h, _ => nomatch h

/-- The kernel's triple at the point's six blocks, framing the invariant and what is owed. -/
theorem body_obligation2 (c : Dev nD) : BodyObligation (dat2 (F := F) V c) (defs₀ (F := F)) Variants.none () Set.univ := fun t => by
  rw [bigSep_W2, bigSep_W2]
  simp only
  show _ ⊢ wp _ _ _ (bodyAt2 t) _
  iintro ⟨HΦ, Ho, ⟨%d0, H0⟩, ⟨%d1, H1⟩, ⟨%d2, H2⟩, ⟨%d3, H3⟩, ⟨%d4, H4⟩, ⟨%d5, H5⟩⟩
  rw [before2 V c t 0 rfl, before2 V c t 1 rfl, before2 V c t 2 rfl, before2 V c t 3 rfl, before2 V c t 4 rfl]
  dsimp only [dat2, Dat.bound]
  iapply (sound_kernel2 c Set.univ) $$ H0 H1 H2 H3 H4 H5 HΦ Ho

theorem hin2 (c : Dev nD) : Pipeline.ΦA spec2 c ⊢ (dat2 V c).Φ 0 := .rfl

theorem hout2 (c : Dev nD) : (dat2 V c).Φ (Fin.last cfg2.N) ⊢ Pipeline.ΦA spec2 c := .rfl

end Cert.Kernel.Hand
-- ==== Proof.Kernel.Transform3.lean ====
import proofs.«403168_j28509992910998_1_alg».proof.Proof.Gen.Kernel.Launch
import proofs.«403168_j28509992910998_1_alg».proof.Proof.Gen.Kernel.Skeleton
import proofs.«403168_j28509992910998_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev featRect3 : Rect S5000x128 := Rect.unit (s := S5000x128) ![0, 0] S5000x128.size inb_S5000x128_S5000x128_0_0
abbrev weightRect3 : Rect S128x128 := Rect.unit (s := S128x128) ![0, 0] S128x128.size inb_S128x128_S128x128_0_0
abbrev prodRect3 : Rect S5000x128 := Rect.unit (s := S5000x128) ![0, 0] S5000x128.size inb_S5000x128_S5000x128_0_0

def prodOf3 (x : Vec F S5000x128 .f32) (w : Vec F S128x128 .f32) : Vec F S5000x128 .f32 :=
  View.canon [⟨prodRect3, k3_pay1 (View.ld x featRect3) (View.ld w weightRect3)⟩]

set_option maxHeartbeats 1000000 in
/-- The one store covers the whole block, so the result does not depend on what the output held before; `R` and `S` are framed. -/
theorem sound_kernel3 (c : Dev nD) (E : Set ℕ) {i : grid3.Coords}
    {arg1 : Memref sig .tc .vmem S5000x128 .f32} {harg1 : arg1.IsWhole}
    {arg2 : Memref sig .tc .vmem S128x128 .f32} {harg2 : arg2.IsWhole}
    {arg3 : Memref sig .tc .vmem S5000x128 .f32} {harg3 : arg3.IsWhole}
    {x d : Vec F S5000x128 .f32} {w : Vec F S128x128 .f32} {R S : sProp 𝕄} :
    owns (c : Thread nD τ) arg1 fullShare x ⊢ iprop(owns (c : Thread nD τ) arg2 fullShare w -∗ owns (c : Thread nD τ) arg3 fullShare d -∗ R -∗ S
        -∗ wp frame (wpE (defs₀ (F := F)) Variants.none c none) E (cc3__matmul_kernel i arg1 harg1 arg2 harg2 arg3 harg3)
          fun _ => iprop(R ∗ S ∗ owns (c : Thread nD τ) arg1 fullShare x ∗ owns (c : Thread nD τ) arg2 fullShare w ∗ owns (c : Thread nD τ) arg3 fullShare (prodOf3 x w))) := by
  simp only [cc3__matmul_kernel_eq_skeleton]; unfold cc3__matmul_kernel_skel owns
  iintro ⟨%fx, %hx, Hx⟩ ⟨%fw, %hw, Hw⟩ ⟨%fp, -, Hp⟩ HR HS
  subst hx hw
  sl_exec
  sl_step
  isplitl [HR]; · iexact HR
  isplitl [HS]; · iexact HS
  isplitl [Hx]
  · iexists fx; isplitr; · ipureintro; rfl
    iexact Hx
  isplitl [Hw]
  · iexists fw; isplitr; · ipureintro; rfl
    iexact Hw
  iexists _; isplitr
  swap; · iexact Hp
  ipureintro
  exact View.read_writes_eq_canon _ _ _ (View.cover_of_tiled _ S5000x128.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => prodOf3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl

theorem after3_2 (c : Dev nD) (t : Fin cfg3.N) : (dat3 V c).after 2 t = prodOf3 (iblk3 V c 0 t) (iblk3 V c 1 t) := by dsimp only [dat3]

/-- An input window holds before the body what the body leaves in it: its block, which the body does not change. -/
theorem before3 (c : Dev nD) (t : Fin cfg3.N) : ∀ w : Fin cfg3.W, (cfg3.win w).isOut = false → ∀ d, (dat3 V c).before w t d = (dat3 V c).after w t
  | ⟨0, _⟩, h, d | ⟨1, _⟩, h, d =>
    (dat3 V c).before_in_eq_fetched _ h (fun _ => rfl) (fun _ _ _ => rfl) (fun _ => rfl) t d
  | ⟨2, _⟩, h, _ => absurd (h.symm.trans rfl) Bool.false_ne_true

theorem hin3 (c : Dev nD) : Pipeline.ΦA spec3 c ⊢ (dat3 V c).Φ 0 := .rfl
theorem hout3 (c : Dev nD) : (dat3 V c).Φ (Fin.last cfg3.N) ⊢ Pipeline.ΦA spec3 c := .rfl

/-- The kernel's triple at the point's three blocks, framing the invariant and what is owed. -/
theorem body_obligation3 (c : Dev nD) : BodyObligation (dat3 (F := F) V c) (defs₀ (F := F)) Variants.none () Set.univ := fun t => by
  rw [bigSep_W3, bigSep_W3]
  simp only
  show _ ⊢ wp _ _ _ (bodyAt3 t) _
  iintro ⟨HΦ, Ho, ⟨%d0, Hx⟩, ⟨%d1, Hw⟩, ⟨%d2, Hp⟩⟩
  rw [before3 V c t 0 rfl, before3 V c t 1 rfl]
  dsimp only [dat3, Dat.bound]
  iapply (sound_kernel3 c Set.univ) $$ Hx Hw Hp HΦ Ho

end Cert.Kernel.Hand

end
-- ==== Proof.Kernel.Moments4.lean ====
import proofs.«403168_j28509992910998_1_alg».proof.Proof.Gen.Kernel.Launch
import proofs.«403168_j28509992910998_1_alg».proof.Proof.Gen.Kernel.Skeleton
import proofs.«403168_j28509992910998_1_alg».proof.Proof.Gen.Kernel.Points
import proofs.«403168_j28509992910998_1_alg».proof.Proof.Kernel.Moments1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev first4 (i : grid4.Coords) : Prop := (Scalar.cmpi .ne (Scalar.extui (Scalar.cmpi .eq (BitVec.ofNat 32 (i 0).val) 0#32)) 0#32) = 1#1
theorem first4_iff : ∀ t : Fin cfg4.N, first4 (grid4.coords t) ↔ t.val = 0 := by decide +kernel

abbrev last4 (i : grid4.Coords) : Prop := k4_cond2 i = 1#1
theorem last4_iff : ∀ t : Fin cfg4.N, last4 (grid4.coords t) ↔ t.val = 9 := by decide +kernel

theorem live4 : ∀ (w : Fin cfg4.W) (t : Fin cfg4.N), w = 0 ∨ last4 (grid4.coords t) → cfg4.idle w (grid4.coords t) = false := by decide +kernel
theorem quiet4 : ∀ (w : Fin cfg4.W) (t : Fin cfg4.N), w ≠ 0 → ¬last4 (grid4.coords t) → cfg4.idle w (grid4.coords t) = true ∧ (cfg4.win w).flush t = false := by
  decide +kernel

abbrev sumRow4 : Memref sig .tc .vmem S1x128 .f32 := Memref.whole cc4_scratch0
abbrev sqRow4 : Memref sig .tc .vmem S1x128 .f32 := Memref.whole cc4_scratch1

abbrev others4 (c : Dev nD) : sProp 𝕄 :=
  Pipeline.scopedRestBut (Ix := Unit) (Name := ℕ) (U := UR sig nD τ) (Lvl := ℕ) (Val := Elt F) spec4 c [cc4_scratch0, cc4_scratch1]

theorem PhiA4_eq (c : Dev nD) :
    (Pipeline.ΦA spec4 c : sProp 𝕄)
      = iprop(iprop(iprop((∃ d, owns (c : Thread nD τ) sumRow4 fullShare d) ∗ (∃ d, owns (c : Thread nD τ) sqRow4 fullShare d)) ∗ others4 c) ∗ (∃ r, prngReg c r)) := by
  unfold Pipeline.ΦA; rw [scopedRest4_split]; simp only [sumRow4, sqRow4, others4, owns_whole]; try rfl

def sumAt4 (c : Dev nD) : (n : ℕ) → n < cfg4.N → Vec F S1x128 .f32 := foldAt1 (fun t => iblk4 V c 0 t) k4_pay4 k4_pay1

def sqAt4 (c : Dev nD) : (n : ℕ) → n < cfg4.N → Vec F S1x128 .f32 := foldAt1 (fun t => iblk4 V c 0 t) k4_pay5 k4_pay2

theorem sumAt4_zero (c : Dev nD) (t : Fin cfg4.N) (h : t.val = 0) :
    sumAt4 V c t.val t.isLt = k4_pay4 (iblk4 V c 0 t) (k4_pay1 (F := F)) := foldAt1_zero _ _ _ t h

theorem sumAt4_pos (c : Dev nD) (t : Fin cfg4.N) (h : t.val ≠ 0) :
    sumAt4 V c t.val t.isLt = k4_pay4 (iblk4 V c 0 t) (sumAt4 V c (t.val - 1) (Nat.lt_of_le_of_lt (Nat.sub_le _ _) t.isLt)) :=
  foldAt1_pos _ _ _ t h

theorem sqAt4_zero (c : Dev nD) (t : Fin cfg4.N) (h : t.val = 0) :
    sqAt4 V c t.val t.isLt = k4_pay5 (iblk4 V c 0 t) (k4_pay2 (F := F)) := foldAt1_zero _ _ _ t h

theorem sqAt4_pos (c : Dev nD) (t : Fin cfg4.N) (h : t.val ≠ 0) :
    sqAt4 V c t.val t.isLt = k4_pay5 (iblk4 V c 0 t) (sqAt4 V c (t.val - 1) (Nat.lt_of_le_of_lt (Nat.sub_le _ _) t.isLt)) :=
  foldAt1_pos _ _ _ t h

def meanAt4 (c : Dev nD) (t : Fin cfg4.N) : Vec F S1x128 .f32 := k4_pay6 (sumAt4 V c t.val t.isLt)

def varAt4 (c : Dev nD) (t : Fin cfg4.N) : Vec F S1x128 .f32 := k4_pay7 (sumAt4 V c t.val t.isLt) (sqAt4 V c t.val t.isLt)

/-- The two carried rows at `s` and `q`, everything else the region holds at anything. -/
abbrev rows4 (c : Dev nD) (s q : Vec F S1x128 .f32) : sProp 𝕄 :=
  iprop(iprop(iprop(owns (c : Thread nD τ) sumRow4 fullShare s ∗ owns (c : Thread nD τ) sqRow4 fullShare q) ∗ others4 c) ∗ (∃ r, prngReg c r))

def PhiS4 (c : Dev nD) : (n : ℕ) → n ≤ cfg4.N → sProp 𝕄
  | 0, _ => Pipeline.ΦA spec4 c
  | n + 1, hn => rows4 c (sumAt4 V c n hn) (sqAt4 V c n hn)

theorem PhiS4_zero (c : Dev nD) (n : ℕ) (h : n ≤ cfg4.N) (hz : n = 0) : PhiS4 V c n h = Pipeline.ΦA spec4 c := by
  subst hz; rfl

theorem PhiS4_pos (c : Dev nD) (n : ℕ) (h : n ≤ cfg4.N) (hz : n ≠ 0) :
    PhiS4 V c n h = rows4 c (sumAt4 V c (n - 1) (by omega)) (sqAt4 V c (n - 1) (by omega)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => meanAt4 V c t
    | ⟨2, _⟩ => varAt4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := rfl

theorem after4_0 (c : Dev nD) (t : Fin cfg4.N) : (dat4 V c).after 0 t = iblk4 V c 0 t := rfl
theorem after4_1 (c : Dev nD) (t : Fin cfg4.N) : (dat4 V c).after 1 t = meanAt4 V c t := rfl
theorem after4_2 (c : Dev nD) (t : Fin cfg4.N) : (dat4 V c).after 2 t = varAt4 V c t := rfl

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl

/-- The block's column sums and sums of squares are added to the carried rows, cleared first at the first point; at the last point the moments are then read out. -/
theorem run4 (c : Dev nD) (E : Set ℕ) (i : grid4.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole)
    (x : Vec F S5000x128 .f32) (y1 y2 s q s0 q0 o4 o2 : Vec F S1x128 .f32)
    (h : first4 i ∧ ¬last4 i ∧ s0 = k4_pay1 ∧ q0 = k4_pay2 ∧ o4 = y1 ∧ o2 = y2 ∨
      ¬first4 i ∧ s0 = s ∧ q0 = q ∧ (last4 i ∧ o4 = k4_pay6 (k4_pay4 x s) ∧ o2 = k4_pay7 (k4_pay4 x s) (k4_pay5 x q) ∨ ¬last4 i ∧ o4 = y1 ∧ o2 = y2))
    (K : PUnit → sProp 𝕄) :
    iprop(owns (c : Thread nD τ) arg1 fullShare x ∗ owns (c : Thread nD τ) arg2 fullShare y1 ∗ owns (c : Thread nD τ) arg3 fullShare y2
        ∗ owns (c : Thread nD τ) arg4 fullShare s ∗ owns (c : Thread nD τ) arg5 fullShare q
        ∗ (iprop(owns (c : Thread nD τ) arg1 fullShare x ∗ owns (c : Thread nD τ) arg2 fullShare o4 ∗ owns (c : Thread nD τ) arg3 fullShare o2
            ∗ owns (c : Thread nD τ) arg4 fullShare (k4_pay4 x s0) ∗ owns (c : Thread nD τ) arg5 fullShare (k4_pay5 x q0)) -∗ K ⟨⟩))
      ⊢ wp frame (wpE (defs₀ (F := F)) Variants.none c none) E (cc4__stats_kernel i arg1 harg1 arg2 harg2 arg3 harg3 arg4 harg4 arg5 harg5) K :=
  run1 c E i arg1 harg1 arg2 harg2 arg3 harg3 arg4 harg4 arg5 harg5 x y1 y2 s q s0 q0 o4 o2 h K
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

/-- The point's position picks the run; one step of the rows' recursion turns what it leaves into the invariant after the point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = rows4 c (sumAt4 V c t.val t.isLt) (sqAt4 V c t.val t.isLt) from rfl,
    show (dat4 V c).Φ t.castSucc = PhiS4 V c t.val (Nat.le_of_lt t.isLt) from rfl,
    leavesExact_live1 (dat4 V c) 0 t (live4 0 t (.inl rfl)), after4_0]
  by_cases hl : t.val = 9
  · have hz : t.val ≠ 0 := by omega
    have h2 : last4 (grid4.coords t) := (last4_iff t).mpr hl
    rw [leavesExact_live1 (dat4 V c) 1 t (live4 1 t (.inr h2)), leavesExact_live1 (dat4 V c) 2 t (live4 2 t (.inr h2)), after4_1, after4_2]
    unfold meanAt4 varAt4
    rw [sumAt4_pos V c t hz, sqAt4_pos V c t hz, PhiS4_pos V c _ _ hz]
    exact reassemble1 (fun _ => .rfl) (fun _ => .rfl) fun _ _ =>
      run4 c Set.univ (grid4.coords t) _ _ _ _ _ _ _ _ _ _ (iblk4 V c 0 t) _ _ _ _ _ _ _ _ (.inr ⟨fun h => hz ((first4_iff t).mp h), rfl, rfl, .inl ⟨h2, rfl, rfl⟩⟩)
  · have h2 : ¬last4 (grid4.coords t) := fun h => hl ((last4_iff t).mp h)
    rw [Dat.leavesExact_idle (dat4 V c) 1 t (quiet4 1 t (by decide) h2).1 (quiet4 1 t (by decide) h2).2,
      Dat.leavesExact_idle (dat4 V c) 2 t (quiet4 2 t (by decide) h2).1 (quiet4 2 t (by decide) h2).2]
    by_cases hz : t.val = 0
    · rw [sumAt4_zero V c t hz, sqAt4_zero V c t hz, PhiS4_zero V c _ _ hz, PhiA4_eq]
      refine open1 fun _ _ => ?_
      exact reassemble1 exists_intro exists_intro fun _ _ =>
        run4 c Set.univ (grid4.coords t) _ _ _ _ _ _ _ _ _ _ (iblk4 V c 0 t) _ _ _ _ _ _ _ _ (.inl ⟨(first4_iff t).mpr hz, h2, rfl, rfl, rfl, rfl⟩)
    · rw [sumAt4_pos V c t hz, sqAt4_pos V c t hz, PhiS4_pos V c _ _ hz]
      exact reassemble1 exists_intro exists_intro fun _ _ =>
        run4 c Set.univ (grid4.coords t) _ _ _ _ _ _ _ _ _ _ (iblk4 V c 0 t) _ _ _ _ _ _ _ _ (.inr ⟨fun h => hz ((first4_iff t).mp h), rfl, rfl, .inr ⟨h2, rfl, rfl⟩⟩)

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := .rfl

theorem hout4 (c : Dev nD) : (dat4 V c).Φ (Fin.last cfg4.N) ⊢ Pipeline.ΦA spec4 c := by
  rw [PhiA4_eq]
  show rows4 c _ _ ⊢ _
  iintro ⟨⟨⟨HS, HQ⟩, HR⟩, Hg⟩
  iframe HR Hg
  isplitl [HS]; · iexists _; iexact HS
  iexists _; iexact HQ

end Cert.Kernel.Hand

end
-- ==== Proof.Kernel.Normalize5.lean ====
import proofs.«403168_j28509992910998_1_alg».proof.Proof.Gen.Kernel.Launch
import proofs.«403168_j28509992910998_1_alg».proof.Proof.Gen.Kernel.Skeleton
import proofs.«403168_j28509992910998_1_alg».proof.Proof.Gen.Kernel.Points
import proofs.«403168_j28509992910998_1_alg».proof.Proof.Kernel.Normalize2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_5 (x0 : Vec F S5000x128 .f32) (x1 : Vec F S1x128 .f32) (x2 : Vec F S1x128 .f32) (x3 : Vec F S1x128 .f32) (x4 : Vec F S1x128 .f32) :
    Vec F S5000x128 .f32 :=
  View.canon [⟨r2_0, k5_pay1 (View.ld x0 r2_0) (View.ld x2 r2_1) (View.ld x1 r2_1) (View.ld x3 r2_1) (View.ld x4 r2_1)⟩]

/-- The one store covers the whole block, so the result does not depend on what the output held before; `R` and `S` are framed. -/
theorem sound_kernel5 (c : Dev nD) (E : Set ℕ) {i : grid5.Coords}
    {arg1 : Memref sig .tc .vmem S5000x128 .f32} {harg1 : arg1.IsWhole} {arg2 : Memref sig .tc .vmem S1x128 .f32} {harg2 : arg2.IsWhole}
    {arg3 : Memref sig .tc .vmem S1x128 .f32} {harg3 : arg3.IsWhole} {arg4 : Memref sig .tc .vmem S1x128 .f32} {harg4 : arg4.IsWhole}
    {arg5 : Memref sig .tc .vmem S1x128 .f32} {harg5 : arg5.IsWhole} {arg6 : Memref sig .tc .vmem S5000x128 .f32} {harg6 : arg6.IsWhole}
    {x0 d : Vec F S5000x128 .f32} {x1 x2 x3 x4 : Vec F S1x128 .f32} {R S : sProp 𝕄} :
    owns (c : Thread nD τ) arg1 fullShare x0 ⊢ iprop(owns (c : Thread nD τ) arg2 fullShare x1 -∗ owns (c : Thread nD τ) arg3 fullShare x2
        -∗ owns (c : Thread nD τ) arg4 fullShare x3 -∗ owns (c : Thread nD τ) arg5 fullShare x4 -∗ owns (c : Thread nD τ) arg6 fullShare d -∗ R -∗ S
        -∗ wp frame (wpE (defs₀ (F := F)) Variants.none c none) E (cc5__bn_relu_kernel i arg1 harg1 arg2 harg2 arg3 harg3 arg4 harg4 arg5 harg5 arg6 harg6)
          fun _ => iprop(R ∗ S ∗ owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (out5_5 x0 x1 x2 x3 x4))) :=
  sound_kernel2 c E (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (x0 := x0) (d := d) (x1 := x1) (x2 := x2) (x3 := x3) (x4 := x4) (R := R) (S := S)
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := rfl

theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

/-- An input window holds before the body what the body leaves in it: its block, which the body does not change. -/
theorem before5 (c : Dev nD) (t : Fin cfg5.N) : ∀ w : Fin cfg5.W, (cfg5.win w).isOut = false → ∀ d, (dat5 V c).before w t d = (dat5 V c).after w t
  | ⟨0, _⟩, h, d | ⟨1, _⟩, h, d | ⟨2, _⟩, h, d | ⟨3, _⟩, h, d | ⟨4, _⟩, h, d =>
    (dat5 V c).before_in_eq_fetched _ h (fun _ => rfl) (fun _ _ _ => rfl) (fun _ => rfl) t d
  | ⟨5, _⟩, h, _ => nomatch h

/-- The kernel's triple at the point's six blocks, framing the invariant and what is owed. -/
theorem body_obligation5 (c : Dev nD) : BodyObligation (dat5 (F := F) V c) (defs₀ (F := F)) Variants.none () Set.univ := fun t => by
  rw [bigSep_W5, bigSep_W5]
  simp only
  show _ ⊢ wp _ _ _ (bodyAt5 t) _
  iintro ⟨HΦ, Ho, ⟨%d0, H0⟩, ⟨%d1, H1⟩, ⟨%d2, H2⟩, ⟨%d3, H3⟩, ⟨%d4, H4⟩, ⟨%d5, H5⟩⟩
  rw [before5 V c t 0 rfl, before5 V c t 1 rfl, before5 V c t 2 rfl, before5 V c t 3 rfl, before5 V c t 4 rfl]
  dsimp only [dat5, Dat.bound]
  iapply (sound_kernel5 c Set.univ) $$ H0 H1 H2 H3 H4 H5 HΦ Ho

theorem hin5 (c : Dev nD) : Pipeline.ΦA spec5 c ⊢ (dat5 V c).Φ 0 := .rfl

theorem hout5 (c : Dev nD) : (dat5 V c).Φ (Fin.last cfg5.N) ⊢ Pipeline.ΦA spec5 c := .rfl

end Cert.Kernel.Hand
-- ==== Proof.Kernel.Transform6.lean ====
import proofs.«403168_j28509992910998_1_alg».proof.Proof.Gen.Kernel.Launch
import proofs.«403168_j28509992910998_1_alg».proof.Proof.Gen.Kernel.Skeleton
import proofs.«403168_j28509992910998_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev featRect6 : Rect S5000x128 := Rect.unit (s := S5000x128) ![0, 0] S5000x128.size inb_S5000x128_S5000x128_0_0
abbrev weightRect6 : Rect S128x128 := Rect.unit (s := S128x128) ![0, 0] S128x128.size inb_S128x128_S128x128_0_0
abbrev prodRect6 : Rect S5000x128 := Rect.unit (s := S5000x128) ![0, 0] S5000x128.size inb_S5000x128_S5000x128_0_0

def prodOf6 (x : Vec F S5000x128 .f32) (w : Vec F S128x128 .f32) : Vec F S5000x128 .f32 :=
  View.canon [⟨prodRect6, k6_pay1 (View.ld x featRect6) (View.ld w weightRect6)⟩]

set_option maxHeartbeats 1000000 in
/-- The one store covers the whole block, so the result does not depend on what the output held before; `R` and `S` are framed. -/
theorem sound_kernel6 (c : Dev nD) (E : Set ℕ) {i : grid6.Coords}
    {arg1 : Memref sig .tc .vmem S5000x128 .f32} {harg1 : arg1.IsWhole}
    {arg2 : Memref sig .tc .vmem S128x128 .f32} {harg2 : arg2.IsWhole}
    {arg3 : Memref sig .tc .vmem S5000x128 .f32} {harg3 : arg3.IsWhole}
    {x d : Vec F S5000x128 .f32} {w : Vec F S128x128 .f32} {R S : sProp 𝕄} :
    owns (c : Thread nD τ) arg1 fullShare x ⊢ iprop(owns (c : Thread nD τ) arg2 fullShare w -∗ owns (c : Thread nD τ) arg3 fullShare d -∗ R -∗ S
        -∗ wp frame (wpE (defs₀ (F := F)) Variants.none c none) E (cc6__matmul_kernel i arg1 harg1 arg2 harg2 arg3 harg3)
          fun _ => iprop(R ∗ S ∗ owns (c : Thread nD τ) arg1 fullShare x ∗ owns (c : Thread nD τ) arg2 fullShare w ∗ owns (c : Thread nD τ) arg3 fullShare (prodOf6 x w))) := by
  simp only [cc6__matmul_kernel_eq_skeleton]; unfold cc6__matmul_kernel_skel owns
  iintro ⟨%fx, %hx, Hx⟩ ⟨%fw, %hw, Hw⟩ ⟨%fp, -, Hp⟩ HR HS
  subst hx hw
  sl_exec
  sl_step
  isplitl [HR]; · iexact HR
  isplitl [HS]; · iexact HS
  isplitl [Hx]
  · iexists fx; isplitr; · ipureintro; rfl
    iexact Hx
  isplitl [Hw]
  · iexists fw; isplitr; · ipureintro; rfl
    iexact Hw
  iexists _; isplitr
  swap; · iexact Hp
  ipureintro
  exact View.read_writes_eq_canon _ _ _ (View.cover_of_tiled _ S5000x128.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => prodOf6 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := rfl

theorem after6_2 (c : Dev nD) (t : Fin cfg6.N) : (dat6 V c).after 2 t = prodOf6 (iblk6 V c 0 t) (iblk6 V c 1 t) := by dsimp only [dat6]

/-- An input window holds before the body what the body leaves in it: its block, which the body does not change. -/
theorem before6 (c : Dev nD) (t : Fin cfg6.N) : ∀ w : Fin cfg6.W, (cfg6.win w).isOut = false → ∀ d, (dat6 V c).before w t d = (dat6 V c).after w t
  | ⟨0, _⟩, h, d | ⟨1, _⟩, h, d =>
    (dat6 V c).before_in_eq_fetched _ h (fun _ => rfl) (fun _ _ _ => rfl) (fun _ => rfl) t d
  | ⟨2, _⟩, h, _ => absurd (h.symm.trans rfl) Bool.false_ne_true

theorem hin6 (c : Dev nD) : Pipeline.ΦA spec6 c ⊢ (dat6 V c).Φ 0 := .rfl
theorem hout6 (c : Dev nD) : (dat6 V c).Φ (Fin.last cfg6.N) ⊢ Pipeline.ΦA spec6 c := .rfl

/-- The kernel's triple at the point's three blocks, framing the invariant and what is owed. -/
theorem body_obligation6 (c : Dev nD) : BodyObligation (dat6 (F := F) V c) (defs₀ (F := F)) Variants.none () Set.univ := fun t => by
  rw [bigSep_W6, bigSep_W6]
  simp only
  show _ ⊢ wp _ _ _ (bodyAt6 t) _
  iintro ⟨HΦ, Ho, ⟨%d0, Hx⟩, ⟨%d1, Hw⟩, ⟨%d2, Hp⟩⟩
  rw [before6 V c t 0 rfl, before6 V c t 1 rfl]
  dsimp only [dat6, Dat.bound]
  iapply (sound_kernel6 c Set.univ) $$ Hx Hw Hp HΦ Ho

end Cert.Kernel.Hand

end
-- ==== Proof.Kernel.Moments7.lean ====
import proofs.«403168_j28509992910998_1_alg».proof.Proof.Gen.Kernel.Launch
import proofs.«403168_j28509992910998_1_alg».proof.Proof.Gen.Kernel.Skeleton
import proofs.«403168_j28509992910998_1_alg».proof.Proof.Gen.Kernel.Points
import proofs.«403168_j28509992910998_1_alg».proof.Proof.Kernel.Moments1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev first7 (i : grid7.Coords) : Prop := (Scalar.cmpi .ne (Scalar.extui (Scalar.cmpi .eq (BitVec.ofNat 32 (i 0).val) 0#32)) 0#32) = 1#1
theorem first7_iff : ∀ t : Fin cfg7.N, first7 (grid7.coords t) ↔ t.val = 0 := by decide +kernel

abbrev last7 (i : grid7.Coords) : Prop := k7_cond2 i = 1#1
theorem last7_iff : ∀ t : Fin cfg7.N, last7 (grid7.coords t) ↔ t.val = 9 := by decide +kernel

theorem live7 : ∀ (w : Fin cfg7.W) (t : Fin cfg7.N), w = 0 ∨ last7 (grid7.coords t) → cfg7.idle w (grid7.coords t) = false := by decide +kernel
theorem quiet7 : ∀ (w : Fin cfg7.W) (t : Fin cfg7.N), w ≠ 0 → ¬last7 (grid7.coords t) → cfg7.idle w (grid7.coords t) = true ∧ (cfg7.win w).flush t = false := by
  decide +kernel

abbrev sumRow7 : Memref sig .tc .vmem S1x128 .f32 := Memref.whole cc7_scratch0
abbrev sqRow7 : Memref sig .tc .vmem S1x128 .f32 := Memref.whole cc7_scratch1

abbrev others7 (c : Dev nD) : sProp 𝕄 :=
  Pipeline.scopedRestBut (Ix := Unit) (Name := ℕ) (U := UR sig nD τ) (Lvl := ℕ) (Val := Elt F) spec7 c [cc7_scratch0, cc7_scratch1]

theorem PhiA7_eq (c : Dev nD) :
    (Pipeline.ΦA spec7 c : sProp 𝕄)
      = iprop(iprop(iprop((∃ d, owns (c : Thread nD τ) sumRow7 fullShare d) ∗ (∃ d, owns (c : Thread nD τ) sqRow7 fullShare d)) ∗ others7 c) ∗ (∃ r, prngReg c r)) := by
  unfold Pipeline.ΦA; rw [scopedRest7_split]; simp only [sumRow7, sqRow7, others7, owns_whole]; try rfl

def sumAt7 (c : Dev nD) : (n : ℕ) → n < cfg7.N → Vec F S1x128 .f32 := foldAt1 (fun t => iblk7 V c 0 t) k7_pay4 k7_pay1

def sqAt7 (c : Dev nD) : (n : ℕ) → n < cfg7.N → Vec F S1x128 .f32 := foldAt1 (fun t => iblk7 V c 0 t) k7_pay5 k7_pay2

theorem sumAt7_zero (c : Dev nD) (t : Fin cfg7.N) (h : t.val = 0) :
    sumAt7 V c t.val t.isLt = k7_pay4 (iblk7 V c 0 t) (k7_pay1 (F := F)) := foldAt1_zero _ _ _ t h

theorem sumAt7_pos (c : Dev nD) (t : Fin cfg7.N) (h : t.val ≠ 0) :
    sumAt7 V c t.val t.isLt = k7_pay4 (iblk7 V c 0 t) (sumAt7 V c (t.val - 1) (Nat.lt_of_le_of_lt (Nat.sub_le _ _) t.isLt)) :=
  foldAt1_pos _ _ _ t h

theorem sqAt7_zero (c : Dev nD) (t : Fin cfg7.N) (h : t.val = 0) :
    sqAt7 V c t.val t.isLt = k7_pay5 (iblk7 V c 0 t) (k7_pay2 (F := F)) := foldAt1_zero _ _ _ t h

theorem sqAt7_pos (c : Dev nD) (t : Fin cfg7.N) (h : t.val ≠ 0) :
    sqAt7 V c t.val t.isLt = k7_pay5 (iblk7 V c 0 t) (sqAt7 V c (t.val - 1) (Nat.lt_of_le_of_lt (Nat.sub_le _ _) t.isLt)) :=
  foldAt1_pos _ _ _ t h

def meanAt7 (c : Dev nD) (t : Fin cfg7.N) : Vec F S1x128 .f32 := k7_pay6 (sumAt7 V c t.val t.isLt)

def varAt7 (c : Dev nD) (t : Fin cfg7.N) : Vec F S1x128 .f32 := k7_pay7 (sumAt7 V c t.val t.isLt) (sqAt7 V c t.val t.isLt)

/-- The two carried rows at `s` and `q`, everything else the region holds at anything. -/
abbrev rows7 (c : Dev nD) (s q : Vec F S1x128 .f32) : sProp 𝕄 :=
  iprop(iprop(iprop(owns (c : Thread nD τ) sumRow7 fullShare s ∗ owns (c : Thread nD τ) sqRow7 fullShare q) ∗ others7 c) ∗ (∃ r, prngReg c r))

def PhiS7 (c : Dev nD) : (n : ℕ) → n ≤ cfg7.N → sProp 𝕄
  | 0, _ => Pipeline.ΦA spec7 c
  | n + 1, hn => rows7 c (sumAt7 V c n hn) (sqAt7 V c n hn)

theorem PhiS7_zero (c : Dev nD) (n : ℕ) (h : n ≤ cfg7.N) (hz : n = 0) : PhiS7 V c n h = Pipeline.ΦA spec7 c := by
  subst hz; rfl

theorem PhiS7_pos (c : Dev nD) (n : ℕ) (h : n ≤ cfg7.N) (hz : n ≠ 0) :
    PhiS7 V c n h = rows7 c (sumAt7 V c (n - 1) (by omega)) (sqAt7 V c (n - 1) (by omega)) := by
  cases n with
  | zero => exact absurd rfl hz
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => meanAt7 V c t
    | ⟨2, _⟩ => varAt7 V c t
  Φ t := PhiS7 V c t.val (Nat.le_of_lt_succ t.isLt)
  q _ := fullShare
  owed _ := 0

theorem A_eq7 (c : Dev nD) (w : Fin cfg7.W) : (dat7 V c).A w = V c (Pipeline.arrRef spec7 w) := rfl

theorem after7_0 (c : Dev nD) (t : Fin cfg7.N) : (dat7 V c).after 0 t = iblk7 V c 0 t := rfl
theorem after7_1 (c : Dev nD) (t : Fin cfg7.N) : (dat7 V c).after 1 t = meanAt7 V c t := rfl
theorem after7_2 (c : Dev nD) (t : Fin cfg7.N) : (dat7 V c).after 2 t = varAt7 V c t := rfl

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl

/-- The block's column sums and sums of squares are added to the carried rows, cleared first at the first point; at the last point the moments are then read out. -/
theorem run7 (c : Dev nD) (E : Set ℕ) (i : grid7.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole)
    (x : Vec F S5000x128 .f32) (y1 y2 s q s0 q0 o7 o2 : Vec F S1x128 .f32)
    (h : first7 i ∧ ¬last7 i ∧ s0 = k7_pay1 ∧ q0 = k7_pay2 ∧ o7 = y1 ∧ o2 = y2 ∨
      ¬first7 i ∧ s0 = s ∧ q0 = q ∧ (last7 i ∧ o7 = k7_pay6 (k7_pay4 x s) ∧ o2 = k7_pay7 (k7_pay4 x s) (k7_pay5 x q) ∨ ¬last7 i ∧ o7 = y1 ∧ o2 = y2))
    (K : PUnit → sProp 𝕄) :
    iprop(owns (c : Thread nD τ) arg1 fullShare x ∗ owns (c : Thread nD τ) arg2 fullShare y1 ∗ owns (c : Thread nD τ) arg3 fullShare y2
        ∗ owns (c : Thread nD τ) arg4 fullShare s ∗ owns (c : Thread nD τ) arg5 fullShare q
        ∗ (iprop(owns (c : Thread nD τ) arg1 fullShare x ∗ owns (c : Thread nD τ) arg2 fullShare o7 ∗ owns (c : Thread nD τ) arg3 fullShare o2
            ∗ owns (c : Thread nD τ) arg4 fullShare (k7_pay4 x s0) ∗ owns (c : Thread nD τ) arg5 fullShare (k7_pay5 x q0)) -∗ K ⟨⟩))
      ⊢ wp frame (wpE (defs₀ (F := F)) Variants.none c none) E (cc7__stats_kernel i arg1 harg1 arg2 harg2 arg3 harg3 arg4 harg4 arg5 harg5) K :=
  run1 c E i arg1 harg1 arg2 harg2 arg3 harg3 arg4 harg4 arg5 harg5 x y1 y2 s q s0 q0 o7 o2 h K
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

/-- The point's position picks the run; one step of the rows' recursion turns what it leaves into the invariant after the point. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).Φ t.succ = rows7 c (sumAt7 V c t.val t.isLt) (sqAt7 V c t.val t.isLt) from rfl,
    show (dat7 V c).Φ t.castSucc = PhiS7 V c t.val (Nat.le_of_lt t.isLt) from rfl,
    leavesExact_live1 (dat7 V c) 0 t (live7 0 t (.inl rfl)), after7_0]
  by_cases hl : t.val = 9
  · have hz : t.val ≠ 0 := by omega
    have h2 : last7 (grid7.coords t) := (last7_iff t).mpr hl
    rw [leavesExact_live1 (dat7 V c) 1 t (live7 1 t (.inr h2)), leavesExact_live1 (dat7 V c) 2 t (live7 2 t (.inr h2)), after7_1, after7_2]
    unfold meanAt7 varAt7
    rw [sumAt7_pos V c t hz, sqAt7_pos V c t hz, PhiS7_pos V c _ _ hz]
    exact reassemble1 (fun _ => .rfl) (fun _ => .rfl) fun _ _ =>
      run7 c Set.univ (grid7.coords t) _ _ _ _ _ _ _ _ _ _ (iblk7 V c 0 t) _ _ _ _ _ _ _ _ (.inr ⟨fun h => hz ((first7_iff t).mp h), rfl, rfl, .inl ⟨h2, rfl, rfl⟩⟩)
  · have h2 : ¬last7 (grid7.coords t) := fun h => hl ((last7_iff t).mp h)
    rw [Dat.leavesExact_idle (dat7 V c) 1 t (quiet7 1 t (by decide) h2).1 (quiet7 1 t (by decide) h2).2,
      Dat.leavesExact_idle (dat7 V c) 2 t (quiet7 2 t (by decide) h2).1 (quiet7 2 t (by decide) h2).2]
    by_cases hz : t.val = 0
    · rw [sumAt7_zero V c t hz, sqAt7_zero V c t hz, PhiS7_zero V c _ _ hz, PhiA7_eq]
      refine open1 fun _ _ => ?_
      exact reassemble1 exists_intro exists_intro fun _ _ =>
        run7 c Set.univ (grid7.coords t) _ _ _ _ _ _ _ _ _ _ (iblk7 V c 0 t) _ _ _ _ _ _ _ _ (.inl ⟨(first7_iff t).mpr hz, h2, rfl, rfl, rfl, rfl⟩)
    · rw [sumAt7_pos V c t hz, sqAt7_pos V c t hz, PhiS7_pos V c _ _ hz]
      exact reassemble1 exists_intro exists_intro fun _ _ =>
        run7 c Set.univ (grid7.coords t) _ _ _ _ _ _ _ _ _ _ (iblk7 V c 0 t) _ _ _ _ _ _ _ _ (.inr ⟨fun h => hz ((first7_iff t).mp h), rfl, rfl, .inr ⟨h2, rfl, rfl⟩⟩)

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := .rfl

theorem hout7 (c : Dev nD) : (dat7 V c).Φ (Fin.last cfg7.N) ⊢ Pipeline.ΦA spec7 c := by
  rw [PhiA7_eq]
  show rows7 c _ _ ⊢ _
  iintro ⟨⟨⟨HS, HQ⟩, HR⟩, Hg⟩
  iframe HR Hg
  isplitl [HS]; · iexists _; iexact HS
  iexists _; iexact HQ

end Cert.Kernel.Hand

end
-- ==== Proof.Kernel.Normalize8.lean ====
import proofs.«403168_j28509992910998_1_alg».proof.Proof.Gen.Kernel.Launch
import proofs.«403168_j28509992910998_1_alg».proof.Proof.Gen.Kernel.Skeleton
import proofs.«403168_j28509992910998_1_alg».proof.Proof.Gen.Kernel.Points
import proofs.«403168_j28509992910998_1_alg».proof.Proof.Kernel.Normalize2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def out8_5 (x0 : Vec F S5000x128 .f32) (x1 : Vec F S1x128 .f32) (x2 : Vec F S1x128 .f32) (x3 : Vec F S1x128 .f32) (x4 : Vec F S1x128 .f32) :
    Vec F S5000x128 .f32 :=
  View.canon [⟨r2_0, k8_pay1 (View.ld x0 r2_0) (View.ld x2 r2_1) (View.ld x1 r2_1) (View.ld x3 r2_1) (View.ld x4 r2_1)⟩]

/-- The one store covers the whole block, so the result does not depend on what the output held before; `R` and `S` are framed. -/
theorem sound_kernel8 (c : Dev nD) (E : Set ℕ) {i : grid8.Coords}
    {arg1 : Memref sig .tc .vmem S5000x128 .f32} {harg1 : arg1.IsWhole} {arg2 : Memref sig .tc .vmem S1x128 .f32} {harg2 : arg2.IsWhole}
    {arg3 : Memref sig .tc .vmem S1x128 .f32} {harg3 : arg3.IsWhole} {arg4 : Memref sig .tc .vmem S1x128 .f32} {harg4 : arg4.IsWhole}
    {arg5 : Memref sig .tc .vmem S1x128 .f32} {harg5 : arg5.IsWhole} {arg6 : Memref sig .tc .vmem S5000x128 .f32} {harg6 : arg6.IsWhole}
    {x0 d : Vec F S5000x128 .f32} {x1 x2 x3 x4 : Vec F S1x128 .f32} {R S : sProp 𝕄} :
    owns (c : Thread nD τ) arg1 fullShare x0 ⊢ iprop(owns (c : Thread nD τ) arg2 fullShare x1 -∗ owns (c : Thread nD τ) arg3 fullShare x2
        -∗ owns (c : Thread nD τ) arg4 fullShare x3 -∗ owns (c : Thread nD τ) arg5 fullShare x4 -∗ owns (c : Thread nD τ) arg6 fullShare d -∗ R -∗ S
        -∗ wp frame (wpE (defs₀ (F := F)) Variants.none c none) E (cc8__bn_relu_kernel i arg1 harg1 arg2 harg2 arg3 harg3 arg4 harg4 arg5 harg5 arg6 harg6)
          fun _ => iprop(R ∗ S ∗ owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (out8_5 x0 x1 x2 x3 x4))) :=
  sound_kernel2 c E (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (x0 := x0) (d := d) (x1 := x1) (x2 := x2) (x3 := x3) (x4 := x4) (R := R) (S := S)
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := rfl

theorem after8_5 (c : Dev nD) (t : Fin cfg8.N) :
    (dat8 V c).after 5 t = out8_5 (iblk8 V c 0 t) (iblk8 V c 1 t) (iblk8 V c 2 t) (iblk8 V c 3 t) (iblk8 V c 4 t) := by dsimp only [dat8]

/-- An input window holds before the body what the body leaves in it: its block, which the body does not change. -/
theorem before8 (c : Dev nD) (t : Fin cfg8.N) : ∀ w : Fin cfg8.W, (cfg8.win w).isOut = false → ∀ d, (dat8 V c).before w t d = (dat8 V c).after w t
  | ⟨0, _⟩, h, d | ⟨1, _⟩, h, d | ⟨2, _⟩, h, d | ⟨3, _⟩, h, d | ⟨4, _⟩, h, d =>
    (dat8 V c).before_in_eq_fetched _ h (fun _ => rfl) (fun _ _ _ => rfl) (fun _ => rfl) t d
  | ⟨5, _⟩, h, _ => nomatch h

/-- The kernel's triple at the point's six blocks, framing the invariant and what is owed. -/
theorem body_obligation8 (c : Dev nD) : BodyObligation (dat8 (F := F) V c) (defs₀ (F := F)) Variants.none () Set.univ := fun t => by
  rw [bigSep_W8, bigSep_W8]
  simp only
  show _ ⊢ wp _ _ _ (bodyAt8 t) _
  iintro ⟨HΦ, Ho, ⟨%d0, H0⟩, ⟨%d1, H1⟩, ⟨%d2, H2⟩, ⟨%d3, H3⟩, ⟨%d4, H4⟩, ⟨%d5, H5⟩⟩
  rw [before8 V c t 0 rfl, before8 V c t 1 rfl, before8 V c t 2 rfl, before8 V c t 3 rfl, before8 V c t 4 rfl]
  dsimp only [dat8, Dat.bound]
  iapply (sound_kernel8 c Set.univ) $$ H0 H1 H2 H3 H4 H5 HΦ Ho

theorem hin8 (c : Dev nD) : Pipeline.ΦA spec8 c ⊢ (dat8 V c).Φ 0 := .rfl

theorem hout8 (c : Dev nD) : (dat8 V c).Φ (Fin.last cfg8.N) ⊢ Pipeline.ΦA spec8 c := .rfl

end Cert.Kernel.Hand
-- ==== Proof.Kernel.Pool9.lean ====
import proofs.«403168_j28509992910998_1_alg».proof.Proof.Gen.Kernel.Launch
import proofs.«403168_j28509992910998_1_alg».proof.Proof.Gen.Kernel.Skeleton
import proofs.«403168_j28509992910998_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev cond9_0 (i : grid9.Coords) : Prop := (Scalar.cmpi .ne (Scalar.extui (Scalar.cmpi .eq (BitVec.ofNat 32 (i 0).val) 0#32)) 0#32) = 1#1
theorem hcond9_0 : ∀ t : Fin cfg9.N, cond9_0 (grid9.coords t) ↔ t.val = 0 := by decide +kernel

abbrev cond9_1 (i : grid9.Coords) : Prop := k9_cond2 i = 1#1
theorem hcond9_1 : ∀ t : Fin cfg9.N, cond9_1 (grid9.coords t) ↔ t.val = 9 := by decide +kernel

theorem live9 : ∀ t : Fin cfg9.N, t.val = 9 → idle9 2 (grid9.coords t) = false := by decide +kernel
theorem quiet9 : ∀ t : Fin cfg9.N, t.val ≠ 9 →
    idle9 2 (grid9.coords t) = true ∧ (win9 2).flush t = false ∧ (win9 3).flush t = false := by decide +kernel

abbrev scM9_0 : Memref sig .tc .vmem S64x128 .f32 := Memref.whole cc9_scratch0
abbrev scM9_1 : Memref sig .tc .vmem S1x64 .f32 := Memref.whole cc9_scratch1

theorem zeros9 : (![0, 0] : Fin 2 → ℕ) = fun _ => 0 := by funext a; fin_cases a <;> rfl

-- The last store, made through the whole buffer, decides what the buffer reads.
theorem read_writes_whole_last9 {sg : RefSig} {κ : Kind} {sp : Space} {S : Shape} {e : EltTy} (v : View sg κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hz inb y⟩),
    View.canon_cons_unit_zero hz inb w L]

-- A load through the whole buffer reads what the buffer reads.
theorem readAt_unread_whole9 {sg : RefSig} {κ : Kind} {sp : Space} {S : Shape} {e : EltTy} (m : Memref sg κ sp S e) (h : m.IsWhole)
    {off : Fin S.rank → ℕ} (hz : off = fun _ => 0) (inb : ∀ a, off a + S.size a ≤ S.size a) (X : S.Idx → Elt F e) :
    m.view.readAt (Elt F) (Rect.unit off S.size inb).toLoadRect (h.unread X) = X := by
  rw [View.readAt_eq_ld, h.read_unread, View.ld_unit_zero hz inb X]

set_option maxHeartbeats 1000000 in
-- At tile `t` each total gains the tile's contribution, over zero at the first tile; at the last tile the outputs end as copies of the totals.
theorem run9 {c : Dev nD} {t : Fin cfg9.N}
    {arg1 arg2 arg3 arg4 arg5 arg6} {harg1 harg2 harg3 harg4 harg5 harg6} {x0 x1 y2 s0 z0 o2 y3 s1 z1 o3}
    (hz : t.val = 0 ∧ z0 = k9_pay1 ∧ z1 = k9_pay2 ∨ t.val ≠ 0 ∧ z0 = s0 ∧ z1 = s1)
    (ho : t.val = 9 ∧ o2 = k9_pay4 x1 x0 z0 ∧ o3 = k9_pay5 x1 z1 ∨ t.val ≠ 9 ∧ o2 = y2 ∧ o3 = y3)
    {E : Set ℕ} {K : PUnit → sProp 𝕄} :
    iprop(owns (c : Thread nD τ) arg1 fullShare x0 ∗ owns (c : Thread nD τ) arg2 fullShare x1
        ∗ owns (c : Thread nD τ) arg3 fullShare y2 ∗ owns (c : Thread nD τ) arg4 fullShare y3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare o2 ∗ owns (c : Thread nD τ) arg4 fullShare o3
            ∗ owns (c : Thread nD τ) arg5 fullShare (k9_pay4 x1 x0 z0) ∗ owns (c : Thread nD τ) arg6 fullShare (k9_pay5 x1 z1)) -∗ K ⟨⟩))
      ⊢ wp frame (wpE (defs₀ (F := F)) Variants.none c none) E (cc9__pool_kernel (grid9.coords t) arg1 harg1 arg2 harg2 arg3 harg3 arg4 harg4 arg5 harg5 arg6 harg6) K := by
  have hc0 := hcond9_0 t; have hc1 := hcond9_1 t
  obtain ⟨h0, rfl, rfl⟩ | ⟨h0, rfl, rfl⟩ := hz <;> obtain ⟨h9, rfl, rfl⟩ | ⟨h9, rfl, rfl⟩ := ho
  · omega
  all_goals
    first | have g0 := hc0.mpr h0 | have g0 := mt hc0.mp h0
    first | have g9 := hc1.mpr h9 | have g9 := mt hc1.mp h9
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1
    obtain rfl := harg5.eq_unread hf4; obtain rfl := harg6.eq_unread hf5
    simp only [cc9__pool_kernel_eq_skeleton]; unfold cc9__pool_kernel_skel
    sl_exec (disch := first | exact g0 | exact g9)
    sl_step
    iapply Hk
    isplitl [H0]; rotate_left; isplitl [H1]; rotate_left; isplitl [H2]; rotate_left; isplitl [H3]; rotate_left; isplitl [H4]; rotate_left
    all_goals
      iexists _; isplitr; swap; · iassumption
      ipureintro; sl_unfold_run_names
      first
      | exact harg1.read_unread _
      | exact harg2.read_unread _
      | rw [read_writes_whole_last9 (S := S64x128) _ _ zeros9]; try rw [View.readCov_unit_zero (S := S64x128) _ zeros9]
        try rw [readAt_unread_whole9 (S := S64x128) _ harg5 zeros9]
        rw [readAt_unread_whole9 (S := S5000x1) _ harg2 zeros9, readAt_unread_whole9 (S := S5000x128) _ harg1 zeros9]
      | rw [read_writes_whole_last9 (S := S1x64) _ _ zeros9]; try rw [View.readCov_unit_zero (S := S1x64) _ zeros9]
        try rw [readAt_unread_whole9 (S := S1x64) _ harg6 zeros9]
        rw [readAt_unread_whole9 (S := S5000x1) _ harg2 zeros9]
      | exact hf2
      | exact hf3

-- A total carried over the tiles: the first tile's step over `z`, each later tile's over the total before it.
def accAt9 {α : Type} (z : α) (step : Fin cfg9.N → α → α) : (n : ℕ) → n < cfg9.N → α
  | 0, hn => step ⟨0, hn⟩ z
  | n + 1, hn => step ⟨n + 1, hn⟩ (accAt9 z step n (Nat.lt_of_succ_lt hn))

theorem accAt9_eq {α : Type} (z : α) (step : Fin cfg9.N → α → α) (t : Fin cfg9.N) :
    accAt9 z step t.val t.isLt
      = step t (if h : t.val = 0 then z else accAt9 z step (t.val - 1) (Nat.lt_of_le_of_lt (Nat.sub_le _ _) t.isLt)) := by
  obtain ⟨_ | n, hn⟩ := t <;> rfl

def sumsAt9 (c : Dev nD) : (n : ℕ) → n < cfg9.N → Vec F S64x128 .f32 :=
  accAt9 k9_pay1 fun t => k9_pay4 (iblk9 V c 1 t) (iblk9 V c 0 t)

def countsAt9 (c : Dev nD) : (n : ℕ) → n < cfg9.N → Vec F S1x64 .f32 :=
  accAt9 k9_pay2 fun t => k9_pay5 (iblk9 V c 1 t)

theorem sumsAt9_zero (c : Dev nD) (hn : 0 < cfg9.N) :
    sumsAt9 V c 0 hn = k9_pay4 (iblk9 V c 1 ⟨0, hn⟩) (iblk9 V c 0 ⟨0, hn⟩) k9_pay1 := rfl
theorem sumsAt9_succ (c : Dev nD) (n : ℕ) (hn : n + 1 < cfg9.N) :
    sumsAt9 V c (n + 1) hn = k9_pay4 (iblk9 V c 1 ⟨n + 1, hn⟩) (iblk9 V c 0 ⟨n + 1, hn⟩) (sumsAt9 V c n (Nat.lt_of_succ_lt hn)) := rfl
theorem countsAt9_zero (c : Dev nD) (hn : 0 < cfg9.N) :
    countsAt9 V c 0 hn = k9_pay5 (iblk9 V c 1 ⟨0, hn⟩) k9_pay2 := rfl
theorem countsAt9_succ (c : Dev nD) (n : ℕ) (hn : n + 1 < cfg9.N) :
    countsAt9 V c (n + 1) hn = k9_pay5 (iblk9 V c 1 ⟨n + 1, hn⟩) (countsAt9 V c n (Nat.lt_of_succ_lt hn)) := rfl

-- The region's invariant, with the two totals held as `P`.
def tot9 (c : Dev nD) (P : sProp 𝕄) : sProp 𝕄 :=
  iprop(iprop(P ∗ Pipeline.scopedRestBut (Ix := Unit) (Name := ℕ) (U := UR sig nD τ) (Lvl := ℕ) (Val := Elt F) spec9 c [cc9_scratch0, cc9_scratch1]) ∗ (∃ r, prngReg c r))

theorem PhiA9_eq (c : Dev nD) :
    (Pipeline.ΦA spec9 c : sProp 𝕄) = tot9 c iprop((∃ d, owns (c : Thread nD τ) scM9_0 fullShare d) ∗ (∃ d, owns (c : Thread nD τ) scM9_1 fullShare d)) := by
  unfold Pipeline.ΦA tot9; rw [scopedRest9_split]; simp only [scM9_0, scM9_1, owns_whole]; try rfl

-- The invariant once tile `n` is done: the two totals hold the accumulation up to it.
def totAt9 (c : Dev nD) (n : ℕ) (hn : n < cfg9.N) : sProp 𝕄 :=
  tot9 c iprop(owns (c : Thread nD τ) scM9_0 fullShare (sumsAt9 V c n hn) ∗ owns (c : Thread nD τ) scM9_1 fullShare (countsAt9 V c n hn))

def PhiS9 (c : Dev nD) : (n : ℕ) → n ≤ cfg9.N → sProp 𝕄
  | 0, _ => Pipeline.ΦA spec9 c
  | n + 1, hn => totAt9 V c n hn

theorem PhiS9_zero (c : Dev nD) (n : ℕ) (h : n ≤ cfg9.N) (hz : n = 0) : PhiS9 V c n h = Pipeline.ΦA spec9 c := by
  subst hz; rfl

theorem PhiS9_pos (c : Dev nD) (n : ℕ) (h : n ≤ cfg9.N) (hz : n ≠ 0) : PhiS9 V c n h = totAt9 V c (n - 1) (by omega) := by
  obtain _ | n := n
  · exact absurd rfl hz
  · rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => sumsAt9 V c t.val t.isLt
    | ⟨3, _⟩ => countsAt9 V c t.val t.isLt
  Φ t := PhiS9 V c t.val (Nat.le_of_lt_succ t.isLt)
  q _ := fullShare
  owed _ := 0

theorem A_eq9 (c : Dev nD) (w : Fin cfg9.W) : (dat9 V c).A w = V c (Pipeline.arrRef spec9 w) := rfl

theorem after9_0 (c : Dev nD) (t : Fin cfg9.N) : (dat9 V c).after 0 t = iblk9 V c 0 t := rfl
theorem after9_1 (c : Dev nD) (t : Fin cfg9.N) : (dat9 V c).after 1 t = iblk9 V c 1 t := rfl
theorem after9_2 (c : Dev nD) (t : Fin cfg9.N) : (dat9 V c).after 2 t = sumsAt9 V c t.val t.isLt := rfl
theorem after9_3 (c : Dev nD) (t : Fin cfg9.N) : (dat9 V c).after 3 t = countsAt9 V c t.val t.isLt := rfl

-- An input's buffer holds its tile at every tile.
theorem before9_0 (c : Dev nD) (t : Fin cfg9.N) (d) : (dat9 V c).before 0 t d = iblk9 V c 0 t :=
  (dat9 V c).before_fetched 0 t (fetch9_0 t) d
theorem before9_1 (c : Dev nD) (t : Fin cfg9.N) (d) : (dat9 V c).before 1 t d = iblk9 V c 1 t :=
  (dat9 V c).before_fetched 1 t (fetch9_1 t) d

set_option maxHeartbeats 4800000 in
-- The body at any tile: the invariant lends the two totals to the run and takes them back one tile further.
theorem body_obligation9 (c : Dev nD) : BodyObligation (dat9 (F := F) V c) (defs₀ (F := F)) Variants.none () Set.univ := fun t => by
  rw [bigSep_W9, bigSep_W9]
  show _ ⊢ wp _ _ _ (bodyAt9 t) _
  unfold bodyAt9
  simp only [before9_0, before9_1, after9_0, after9_1]
  rw [show (dat9 V c).owesAt () t.succ = (dat9 V c).owesAt () t.castSucc from rfl,
    show (dat9 V c).Φ t.succ = totAt9 V c t.val t.isLt from rfl, show (dat9 V c).Φ t.castSucc = PhiS9 V c t.val (Nat.le_of_lt t.isLt) from rfl]
  have hN : t.val < 10 := lt_of_lt_of_eq t.isLt (show cfg9.N = 10 from N_9)
  by_cases h9 : t.val = 9
  · have h0 : t.val ≠ 0 := by omega
    rw [live9 t h9]
    simp only [after9_2, after9_3]
    rw [PhiS9_pos V c _ _ h0]
    unfold totAt9 sumsAt9 countsAt9 tot9
    rw [accAt9_eq _ _ t, accAt9_eq _ _ t, dif_neg h0, dif_neg h0]
    iintro ⟨⟨⟨⟨HS0, HS1⟩, HR⟩, Hg⟩, Ho, ⟨%d0, H0⟩, ⟨%d1, H1⟩, ⟨%d2, H2⟩, ⟨%d3, H3⟩⟩
    iapply (run9 (.inr ⟨h0, rfl, rfl⟩) (.inl ⟨h9, rfl, rfl⟩))
    iframe
    iintro ⟨H0, H1, H2, H3, HS0, HS1⟩
    iframe
  rw [(quiet9 t h9).1]
  simp only [(quiet9 t h9).2]
  by_cases h0 : t.val = 0
  · rw [PhiS9_zero V c _ _ h0, PhiA9_eq]
    unfold totAt9 sumsAt9 countsAt9 tot9
    rw [accAt9_eq _ _ t, accAt9_eq _ _ t, dif_pos h0, dif_pos h0]
    iintro ⟨⟨⟨⟨⟨%s0, HS0⟩, ⟨%s1, HS1⟩⟩, HR⟩, Hg⟩, Ho, ⟨%d0, H0⟩, ⟨%d1, H1⟩, ⟨%d2, H2⟩, ⟨%d3, H3⟩⟩
    iapply (run9 (.inl ⟨h0, rfl, rfl⟩) (.inr ⟨h9, rfl, rfl⟩))
    iframe
    iintro ⟨H0, H1, H2, H3, HS0, HS1⟩
    iframe
    isplitl [H2] <;> iexists _ <;> iassumption
  rw [PhiS9_pos V c _ _ h0]
  unfold totAt9 sumsAt9 countsAt9 tot9
  rw [accAt9_eq _ _ t, accAt9_eq _ _ t, dif_neg h0, dif_neg h0]
  iintro ⟨⟨⟨⟨HS0, HS1⟩, HR⟩, Hg⟩, Ho, ⟨%d0, H0⟩, ⟨%d1, H1⟩, ⟨%d2, H2⟩, ⟨%d3, H3⟩⟩
  iapply (run9 (.inr ⟨h0, rfl, rfl⟩) (.inr ⟨h9, rfl, rfl⟩))
  iframe
  iintro ⟨H0, H1, H2, H3, HS0, HS1⟩
  iframe
  isplitl [H2] <;> iexists _ <;> iassumption

theorem hin9 (c : Dev nD) : Pipeline.ΦA spec9 c ⊢ (dat9 V c).Φ 0 := Entails.of_eq rfl

-- After the last tile what the totals hold is forgotten.
theorem hout9 (c : Dev nD) : (dat9 V c).Φ (Fin.last cfg9.N) ⊢ Pipeline.ΦA spec9 c := by
  rw [show (dat9 V c).Φ (Fin.last cfg9.N) = PhiS9 V c cfg9.N le_rfl from rfl,
    PhiS9_pos V c _ _ (by have : cfg9.N = 10 := N_9; omega), PhiA9_eq]
  unfold totAt9 tot9
  iintro ⟨⟨⟨HS0, HS1⟩, HR⟩, Hg⟩
  iframe HR Hg
  isplitl [HS0] <;> iexists _ <;> iassumption

end Cert.Kernel.Hand

end
-- ==== Proof.Kernel.Chain.lean ====
import proofs.«403168_j28509992910998_1_alg».proof.Proof.Kernel.Transform0
import proofs.«403168_j28509992910998_1_alg».proof.Proof.Kernel.Moments1
import proofs.«403168_j28509992910998_1_alg».proof.Proof.Kernel.Normalize2
import proofs.«403168_j28509992910998_1_alg».proof.Proof.Kernel.Transform3
import proofs.«403168_j28509992910998_1_alg».proof.Proof.Kernel.Moments4
import proofs.«403168_j28509992910998_1_alg».proof.Proof.Kernel.Normalize5
import proofs.«403168_j28509992910998_1_alg».proof.Proof.Kernel.Transform6
import proofs.«403168_j28509992910998_1_alg».proof.Proof.Kernel.Moments7
import proofs.«403168_j28509992910998_1_alg».proof.Proof.Kernel.Normalize8
import proofs.«403168_j28509992910998_1_alg».proof.Proof.Kernel.Pool9
import proofs.«403168_j28509992910998_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- Outside its windows' arrays a region leaves the buffer contents as it found them.
theorem rest_of_withArrays {gr W : ℕ} (win : Fin W → Pipeline.WinSpec sig gr) (c : Dev nD) (V : Valuation τ sig (Elt F))
    (A : (w : Fin W) → Buf (Elt F) ((win w).arr.view.loc (c.tc : Thread nD τ))) :
    ∀ b, b ∉ Finset.univ.image (Pipeline.arrRef win) → Pipeline.withArrays win c V A (Proc.devRef .tc b) = V (Proc.devRef .tc b) :=
  fun b hb => Pipeline.withArrays_of_ne win c V A b fun w e => hb (Finset.mem_image.mpr ⟨w, Finset.mem_univ _, e⟩)

abbrev W0 : Dev nD → Valuation τ sig (Elt F) := fun c b => m (c, b)
abbrev V0 : (c : Dev nD) → (b : Ref sig .tc) → Buf (Elt F) ((c : Thread nD τ).loc b) := fun c b => W0 m c b

abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  rest_of_withArrays spec0 c _ _

abbrev W3 : Dev nD → Valuation τ sig (Elt F) := fun c => StableHlo.after hostOps1 (W2 m c)
abbrev V3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  rest_of_withArrays spec1 c _ _

abbrev W5 : Dev nD → Valuation τ sig (Elt F) := fun c => StableHlo.after hostOps2 (W4 m c)
abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  rest_of_withArrays spec2 c _ _

def W7 (c : Dev nD) : Valuation τ sig (Elt F) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
abbrev V7 : (c : Dev nD) → (b : Ref sig .tc) → Buf (Elt F) ((c : Thread nD τ).loc b) := fun c b => W7 m c b
theorem hF3 (c : Dev nD) (w : Fin cfg3.W) : (dat3 (V6 m) c).arrAt w cfg3.N = V7 m c (Pipeline.arrRef spec3 w) :=
  (W7_arr m c w).symm
theorem hrest3 (c : Dev nD) : ∀ b, b ∉ Finset.univ.image (Pipeline.arrRef spec3) → V7 m c b = V6 m c b :=
  rest_of_withArrays spec3 c _ _

abbrev W8 : Dev nD → Valuation τ sig (Elt F) := fun c => StableHlo.after hostOps4 (W7 m c)
abbrev V8 : (c : Dev nD) → (b : Ref sig .tc) → Buf (Elt F) ((c : Thread nD τ).loc b) := fun c b => W8 m c b

def W9 (c : Dev nD) : Valuation τ sig (Elt F) :=
  Pipeline.withArrays spec4 c (W8 m c) fun w => (dat4 (V8 m) c).arrAt w cfg4.N
theorem W9_arr (c : Dev nD) (w : Fin cfg4.W) :
    W9 m c (Proc.devRef .tc (Pipeline.arrRef spec4 w)) = (dat4 (V8 m) c).arrAt w cfg4.N := by
  unfold W9; exact Pipeline.withArrays_arr spec4 launch4.win.arr_inj c _ _ w
abbrev V9 : (c : Dev nD) → (b : Ref sig .tc) → Buf (Elt F) ((c : Thread nD τ).loc b) := fun c b => W9 m c b
theorem hF4 (c : Dev nD) (w : Fin cfg4.W) : (dat4 (V8 m) c).arrAt w cfg4.N = V9 m c (Pipeline.arrRef spec4 w) :=
  (W9_arr m c w).symm
theorem hrest4 (c : Dev nD) : ∀ b, b ∉ Finset.univ.image (Pipeline.arrRef spec4) → V9 m c b = V8 m c b :=
  rest_of_withArrays spec4 c _ _

abbrev W10 : Dev nD → Valuation τ sig (Elt F) := fun c => StableHlo.after hostOps5 (W9 m c)
abbrev V10 : (c : Dev nD) → (b : Ref sig .tc) → Buf (Elt F) ((c : Thread nD τ).loc b) := fun c b => W10 m c b

def W11 (c : Dev nD) : Valuation τ sig (Elt F) :=
  Pipeline.withArrays spec5 c (W10 m c) fun w => (dat5 (V10 m) c).arrAt w cfg5.N
theorem W11_arr (c : Dev nD) (w : Fin cfg5.W) :
    W11 m c (Proc.devRef .tc (Pipeline.arrRef spec5 w)) = (dat5 (V10 m) c).arrAt w cfg5.N := by
  unfold W11; exact Pipeline.withArrays_arr spec5 launch5.win.arr_inj c _ _ w
abbrev V11 : (c : Dev nD) → (b : Ref sig .tc) → Buf (Elt F) ((c : Thread nD τ).loc b) := fun c b => W11 m c b
theorem hF5 (c : Dev nD) (w : Fin cfg5.W) : (dat5 (V10 m) c).arrAt w cfg5.N = V11 m c (Pipeline.arrRef spec5 w) :=
  (W11_arr m c w).symm
theorem hrest5 (c : Dev nD) : ∀ b, b ∉ Finset.univ.image (Pipeline.arrRef spec5) → V11 m c b = V10 m c b :=
  rest_of_withArrays spec5 c _ _

def W12 (c : Dev nD) : Valuation τ sig (Elt F) :=
  Pipeline.withArrays spec6 c (W11 m c) fun w => (dat6 (V11 m) c).arrAt w cfg6.N
theorem W12_arr (c : Dev nD) (w : Fin cfg6.W) :
    W12 m c (Proc.devRef .tc (Pipeline.arrRef spec6 w)) = (dat6 (V11 m) c).arrAt w cfg6.N := by
  unfold W12; exact Pipeline.withArrays_arr spec6 launch6.win.arr_inj c _ _ w
abbrev V12 : (c : Dev nD) → (b : Ref sig .tc) → Buf (Elt F) ((c : Thread nD τ).loc b) := fun c b => W12 m c b
theorem hF6 (c : Dev nD) (w : Fin cfg6.W) : (dat6 (V11 m) c).arrAt w cfg6.N = V12 m c (Pipeline.arrRef spec6 w) :=
  (W12_arr m c w).symm
theorem hrest6 (c : Dev nD) : ∀ b, b ∉ Finset.univ.image (Pipeline.arrRef spec6) → V12 m c b = V11 m c b :=
  rest_of_withArrays spec6 c _ _

abbrev W13 : Dev nD → Valuation τ sig (Elt F) := fun c => StableHlo.after hostOps7 (W12 m c)
abbrev V13 : (c : Dev nD) → (b : Ref sig .tc) → Buf (Elt F) ((c : Thread nD τ).loc b) := fun c b => W13 m c b

def W14 (c : Dev nD) : Valuation τ sig (Elt F) :=
  Pipeline.withArrays spec7 c (W13 m c) fun w => (dat7 (V13 m) c).arrAt w cfg7.N
theorem W14_arr (c : Dev nD) (w : Fin cfg7.W) :
    W14 m c (Proc.devRef .tc (Pipeline.arrRef spec7 w)) = (dat7 (V13 m) c).arrAt w cfg7.N := by
  unfold W14; exact Pipeline.withArrays_arr spec7 launch7.win.arr_inj c _ _ w
abbrev V14 : (c : Dev nD) → (b : Ref sig .tc) → Buf (Elt F) ((c : Thread nD τ).loc b) := fun c b => W14 m c b
theorem hF7 (c : Dev nD) (w : Fin cfg7.W) : (dat7 (V13 m) c).arrAt w cfg7.N = V14 m c (Pipeline.arrRef spec7 w) :=
  (W14_arr m c w).symm
theorem hrest7 (c : Dev nD) : ∀ b, b ∉ Finset.univ.image (Pipeline.arrRef spec7) → V14 m c b = V13 m c b :=
  rest_of_withArrays spec7 c _ _

abbrev W15 : Dev nD → Valuation τ sig (Elt F) := fun c => StableHlo.after hostOps8 (W14 m c)
abbrev V15 : (c : Dev nD) → (b : Ref sig .tc) → Buf (Elt F) ((c : Thread nD τ).loc b) := fun c b => W15 m c b

def W16 (c : Dev nD) : Valuation τ sig (Elt F) :=
  Pipeline.withArrays spec8 c (W15 m c) fun w => (dat8 (V15 m) c).arrAt w cfg8.N
theorem W16_arr (c : Dev nD) (w : Fin cfg8.W) :
    W16 m c (Proc.devRef .tc (Pipeline.arrRef spec8 w)) = (dat8 (V15 m) c).arrAt w cfg8.N := by
  unfold W16; exact Pipeline.withArrays_arr spec8 launch8.win.arr_inj c _ _ w
abbrev V16 : (c : Dev nD) → (b : Ref sig .tc) → Buf (Elt F) ((c : Thread nD τ).loc b) := fun c b => W16 m c b
theorem hF8 (c : Dev nD) (w : Fin cfg8.W) : (dat8 (V15 m) c).arrAt w cfg8.N = V16 m c (Pipeline.arrRef spec8 w) :=
  (W16_arr m c w).symm
theorem hrest8 (c : Dev nD) : ∀ b, b ∉ Finset.univ.image (Pipeline.arrRef spec8) → V16 m c b = V15 m c b :=
  rest_of_withArrays spec8 c _ _

abbrev W17 : Dev nD → Valuation τ sig (Elt F) := fun c => StableHlo.after hostOps9 (W16 m c)
abbrev V17 : (c : Dev nD) → (b : Ref sig .tc) → Buf (Elt F) ((c : Thread nD τ).loc b) := fun c b => W17 m c b

def W18 (c : Dev nD) : Valuation τ sig (Elt F) :=
  Pipeline.withArrays spec9 c (W17 m c) fun w => (dat9 (V17 m) c).arrAt w cfg9.N
theorem W18_arr (c : Dev nD) (w : Fin cfg9.W) :
    W18 m c (Proc.devRef .tc (Pipeline.arrRef spec9 w)) = (dat9 (V17 m) c).arrAt w cfg9.N := by
  unfold W18; exact Pipeline.withArrays_arr spec9 launch9.win.arr_inj c _ _ w
abbrev V18 : (c : Dev nD) → (b : Ref sig .tc) → Buf (Elt F) ((c : Thread nD τ).loc b) := fun c b => W18 m c b
theorem hF9 (c : Dev nD) (w : Fin cfg9.W) : (dat9 (V17 m) c).arrAt w cfg9.N = V18 m c (Pipeline.arrRef spec9 w) :=
  (W18_arr m c w).symm
theorem hrest9 (c : Dev nD) : ∀ b, b ∉ Finset.univ.image (Pipeline.arrRef spec9) → V18 m c b = V17 m c b :=
  rest_of_withArrays spec9 c _ _

abbrev W19 : Dev nD → Valuation τ sig (Elt F) := fun c => StableHlo.after hostOps10 (W18 m c)
abbrev V19 : (c : Dev nD) → (b : Ref sig .tc) → Buf (Elt F) ((c : Thread nD τ).loc b) := fun c b => W19 m c b

abbrev adm : (p : Fin 10) → (pcfgs (F := F) p).Adm := fun p => (cfgs p).toPCfg_adm

def pdats : (p : Fin 10) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V6 m) c
  | ⟨4, _⟩ => fun c => dat4 (V8 m) c
  | ⟨5, _⟩ => fun c => dat5 (V10 m) c
  | ⟨6, _⟩ => fun c => dat6 (V11 m) c
  | ⟨7, _⟩ => fun c => dat7 (V13 m) c
  | ⟨8, _⟩ => fun c => dat8 (V15 m) c
  | ⟨9, _⟩ => fun c => dat9 (V17 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

end Cert.Kernel.Hand

end
-- ==== Proof.Kernel.Keep.lean ====
import proofs.«403168_j28509992910998_1_alg».proof.Proof.Kernel.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- A region writes its output windows' arrays only: an array it only reads, and every other buffer, is left as found.
theorem keep_region {gr W : ℕ} (win : Fin W → Pipeline.WinSpec sig gr) (hinj : Function.Injective (Pipeline.arrRef win)) (c : Dev nD)
    (V : Valuation τ sig (Elt F)) (A : (w : Fin W) → Buf (Elt F) ((win w).arr.view.loc (c.tc : Thread nD τ))) (r : Ref sig .tc)
    (hA : ∀ w, Pipeline.arrRef win w = r → A w = V (Proc.devRef .tc (Pipeline.arrRef win w))) :
    Pipeline.withArrays win c V A (Proc.devRef .tc r) = V (Proc.devRef .tc r) := by
  by_cases hw : ∃ w, Pipeline.arrRef win w = r
  · obtain ⟨w, rfl⟩ := hw
    exact (Pipeline.withArrays_arr win hinj c V A w).trans (hA w rfl)
  · exact Pipeline.withArrays_of_ne win c V A r fun w e => hw ⟨w, e⟩

theorem keep1 (c : Dev nD) (r : Ref sig .tc) (h : r ∉ hostOps0_W) :
    W1 m c (Proc.devRef .tc r) = W0 m c (Proc.devRef .tc r) :=
  StableHlo.after_of_writes_sub hostOps0 _ hostOps0_writes h

theorem keep2 (c : Dev nD) (r : Ref sig .tc) (h : r ∉ ([main_v29] : List (Ref sig .tc))) :
    W2 m c (Proc.devRef .tc r) = W1 m c (Proc.devRef .tc r) :=
  keep_region spec0 launch0.win.arr_inj c _ _ r fun w e =>
    ((dat0 (V1 m) c).arrAt_in w (by subst e; revert w; decide) _).trans (A_eq0 (V1 m) c w)

theorem keep3 (c : Dev nD) (r : Ref sig .tc) (h : r ∉ hostOps1_W) :
    W3 m c (Proc.devRef .tc r) = W2 m c (Proc.devRef .tc r) :=
  StableHlo.after_of_writes_sub hostOps1 _ hostOps1_writes h

theorem keep4 (c : Dev nD) (r : Ref sig .tc) (h : r ∉ ([main_v46_0, main_v46_1] : List (Ref sig .tc))) :
    W4 m c (Proc.devRef .tc r) = W3 m c (Proc.devRef .tc r) :=
  keep_region spec1 launch1.win.arr_inj c _ _ r fun w e =>
    ((dat1 (V3 m) c).arrAt_in w (by subst e; revert w; decide) _).trans (A_eq1 (V3 m) c w)

theorem keep5 (c : Dev nD) (r : Ref sig .tc) (h : r ∉ hostOps2_W) :
    W5 m c (Proc.devRef .tc r) = W4 m c (Proc.devRef .tc r) :=
  StableHlo.after_of_writes_sub hostOps2 _ hostOps2_writes h

theorem keep6 (c : Dev nD) (r : Ref sig .tc) (h : r ∉ ([main_v49] : List (Ref sig .tc))) :
    W6 m c (Proc.devRef .tc r) = W5 m c (Proc.devRef .tc r) :=
  keep_region spec2 launch2.win.arr_inj c _ _ r fun w e =>
    ((dat2 (V5 m) c).arrAt_in w (by subst e; revert w; decide) _).trans (A_eq2 (V5 m) c w)

theorem keep7 (c : Dev nD) (r : Ref sig .tc) (h : r ∉ ([main_v50] : List (Ref sig .tc))) :
    W7 m c (Proc.devRef .tc r) = W6 m c (Proc.devRef .tc r) :=
  keep_region spec3 launch3.win.arr_inj c _ _ r fun w e =>
    ((dat3 (V6 m) c).arrAt_in w (by subst e; revert w; decide) _).trans (A_eq3 (V6 m) c w)

theorem keep8 (c : Dev nD) (r : Ref sig .tc) (h : r ∉ hostOps4_W) :
    W8 m c (Proc.devRef .tc r) = W7 m c (Proc.devRef .tc r) :=
  StableHlo.after_of_writes_sub hostOps4 _ hostOps4_writes h

theorem keep9 (c : Dev nD) (r : Ref sig .tc) (h : r ∉ ([main_v67_0, main_v67_1] : List (Ref sig .tc))) :
    W9 m c (Proc.devRef .tc r) = W8 m c (Proc.devRef .tc r) :=
  keep_region spec4 launch4.win.arr_inj c _ _ r fun w e =>
    ((dat4 (V8 m) c).arrAt_in w (by subst e; revert w; decide) _).trans (A_eq4 (V8 m) c w)

theorem keep10 (c : Dev nD) (r : Ref sig .tc) (h : r ∉ hostOps5_W) :
    W10 m c (Proc.devRef .tc r) = W9 m c (Proc.devRef .tc r) :=
  StableHlo.after_of_writes_sub hostOps5 _ hostOps5_writes h

theorem keep11 (c : Dev nD) (r : Ref sig .tc) (h : r ∉ ([main_v70] : List (Ref sig .tc))) :
    W11 m c (Proc.devRef .tc r) = W10 m c (Proc.devRef .tc r) :=
  keep_region spec5 launch5.win.arr_inj c _ _ r fun w e =>
    ((dat5 (V10 m) c).arrAt_in w (by subst e; revert w; decide) _).trans (A_eq5 (V10 m) c w)

theorem keep12 (c : Dev nD) (r : Ref sig .tc) (h : r ∉ ([main_v71] : List (Ref sig .tc))) :
    W12 m c (Proc.devRef .tc r) = W11 m c (Proc.devRef .tc r) :=
  keep_region spec6 launch6.win.arr_inj c _ _ r fun w e =>
    ((dat6 (V11 m) c).arrAt_in w (by subst e; revert w; decide) _).trans (A_eq6 (V11 m) c w)

theorem keep13 (c : Dev nD) (r : Ref sig .tc) (h : r ∉ hostOps7_W) :
    W13 m c (Proc.devRef .tc r) = W12 m c (Proc.devRef .tc r) :=
  StableHlo.after_of_writes_sub hostOps7 _ hostOps7_writes h

theorem keep14 (c : Dev nD) (r : Ref sig .tc) (h : r ∉ ([main_v88_0, main_v88_1] : List (Ref sig .tc))) :
    W14 m c (Proc.devRef .tc r) = W13 m c (Proc.devRef .tc r) :=
  keep_region spec7 launch7.win.arr_inj c _ _ r fun w e =>
    ((dat7 (V13 m) c).arrAt_in w (by subst e; revert w; decide) _).trans (A_eq7 (V13 m) c w)

theorem keep15 (c : Dev nD) (r : Ref sig .tc) (h : r ∉ hostOps8_W) :
    W15 m c (Proc.devRef .tc r) = W14 m c (Proc.devRef .tc r) :=
  StableHlo.after_of_writes_sub hostOps8 _ hostOps8_writes h

theorem keep16 (c : Dev nD) (r : Ref sig .tc) (h : r ∉ ([main_v91] : List (Ref sig .tc))) :
    W16 m c (Proc.devRef .tc r) = W15 m c (Proc.devRef .tc r) :=
  keep_region spec8 launch8.win.arr_inj c _ _ r fun w e =>
    ((dat8 (V15 m) c).arrAt_in w (by subst e; revert w; decide) _).trans (A_eq8 (V15 m) c w)

theorem keep17 (c : Dev nD) (r : Ref sig .tc) (h : r ∉ hostOps9_W) :
    W17 m c (Proc.devRef .tc r) = W16 m c (Proc.devRef .tc r) :=
  StableHlo.after_of_writes_sub hostOps9 _ hostOps9_writes h

theorem keep18 (c : Dev nD) (r : Ref sig .tc) (h : r ∉ ([main_v93_0, main_v93_1] : List (Ref sig .tc))) :
    W18 m c (Proc.devRef .tc r) = W17 m c (Proc.devRef .tc r) :=
  keep_region spec9 launch9.win.arr_inj c _ _ r fun w e =>
    ((dat9 (V17 m) c).arrAt_in w (by subst e; revert w; decide) _).trans (A_eq9 (V17 m) c w)

theorem keep19 (c : Dev nD) (r : Ref sig .tc) (h : r ∉ hostOps10_W) :
    W19 m c (Proc.devRef .tc r) = W18 m c (Proc.devRef .tc r) :=
  StableHlo.after_of_writes_sub hostOps10 _ hostOps10_writes h

end Cert.Kernel.Hand

end
-- ==== Proof.Kernel.Segs.lean ====
import proofs.«403168_j28509992910998_1_alg».proof.Proof.Kernel.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (BodyObligation)

variable {F : FTy → Type} [FloatOps F]

variable (m : (ℓ : Loc nD τ sig) → Buf (Elt F) ℓ)

set_option backward.isDefEq.respectTransparency.types false

/-- The region from contents `W` to contents `W'`: `W'` agrees with `W` off the windows' arrays and holds their final contents on them. -/
def regOf (p : Fin 10) (lf : Pipeline.LaunchFacts (nD := nD) (τ := τ) cfgs p) (W W' : Dev nD → Valuation τ sig (Elt F))
    (hB : ∀ c, BodyObligation (pdats m p c) defs₀ 𝒱₀ () Set.univ)
    (hI : ∀ c, Pipeline.ΦA (cfgs p).spec c ⊢ (pdats m p c).Φ 0)
    (hO : ∀ c, (pdats m p c).Φ (Fin.last (cfgs p).N) ⊢ Pipeline.ΦA (cfgs p).spec c)
    (hF : ∀ c w, (pdats m p c).arrAt w (cfgs p).N = W' c (Pipeline.arrRef (cfgs p).spec w))
    (hR : ∀ c b, b ∉ Finset.univ.image (Pipeline.arrRef (cfgs p).spec) → W' c b = W c b)
    (hq : ∀ c w, (pdats m p c).q w = fullShare := by exact fun _ _ => rfl)
    (hz : ∀ c t, (pdats m p c).owed t = 0 := by exact fun _ _ => rfl)
    (hA : ∀ c w, (pdats m p c).A w = W c (Pipeline.arrRef (cfgs p).spec w) := by exact fun _ _ => rfl)
    (hu : ∀ c, Set.univ ⊆ (pdats m p c).recorded 0 := by exact fun _ _ => id) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hB c).loose
  hwaits := Pipeline.hwaits_of_owed_zero _ _ _ _ L lv p hz
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (cfgs p).spec c fun b => W c b
  hentry c := by
    rw [Pipeline.ownSems0_none]
    have hsplit := Pipeline.arrays_of_unscopedBufs (p := p) _ _ (pdats m) lf.win lf.arr_whole c
      ((pdats m p c).share_full (hq c)) (fun b => W c b) (hA c)
    rw [Pipeline.unscopedBufs_held] at hsplit
    unfold Pipeline.prefHeld Pipeline.Dat.owesAt Pipeline.owesWithin
    rw [show (Finset.univ : Finset (Fin 0)) = ∅ from rfl, BI.bigSep_empty, hz]
    iintro ⟨⟨Hub, Hp, %T, HO⟩, -, -⟩
    icases hsplit $$ Hub with ⟨Ha, Hrest⟩
    imodintro
    iframe
    isplitr; · iempintro
    iexists T
    iframe
    ipureintro; exact fun x _ => Or.inl (hu c (Set.mem_univ x))
  hin c := by
    refine (?_ : _ ⊢ Pipeline.ΦA (cfgs p).spec c).trans (hI c)
    unfold Pipeline.ΦA
    iintro ⟨Hp, -, Hr⟩
    iframe
  hout c := by
    rw [Pipeline.ownSems0_none]
    refine (hO c).trans (?_ : Pipeline.ΦA (cfgs p).spec c ⊢ _)
    unfold Pipeline.ΦA
    iintro ⟨Hr, Hp⟩
    iframe
    iempintro
  hexit c := by
    have hjoin := Pipeline.unscopedBufs_of_arrays (p := p) _ _
      lf.win lf.arr_whole c (pdats m) ((pdats m p c).share_full (hq c))
      (fun b => W c b) (fun b => W' c b) ((pdats m p c).arrAt · (cfgs p).N) (hF c) (hR c)
    rw [Pipeline.unscopedBufs_held] at hjoin
    unfold Pipeline.Dat.owesAt Pipeline.owesWithin
    rw [hz]
    iintro ⟨Ha, ⟨%T, -, HO⟩, HY, Hrest⟩
    imodintro
    isplitl [Ha Hrest]
    · iapply hjoin; iframe
    isplitl [HY]; · iexact HY
    iexists T; iexact HO

def reg0 : Pipeline.RegionSeg (pcfgs (F := F)) adm (pdats m) () defs₀ 𝒱₀ L lv 0 :=
  regOf m 0 launch0 (W1 m) (W2 m) (body_obligation0 (V1 m)) (hin0 (V1 m)) (hout0 (V1 m)) (hF0 m) (hrest0 m)

def reg1 : Pipeline.RegionSeg (pcfgs (F := F)) adm (pdats m) () defs₀ 𝒱₀ L lv 1 :=
  regOf m 1 launch1 (W3 m) (W4 m) (body_obligation1 (V3 m)) (hin1 (V3 m)) (hout1 (V3 m)) (hF1 m) (hrest1 m)

def reg2 : Pipeline.RegionSeg (pcfgs (F := F)) adm (pdats m) () defs₀ 𝒱₀ L lv 2 :=
  regOf m 2 launch2 (W5 m) (W6 m) (body_obligation2 (V5 m)) (hin2 (V5 m)) (hout2 (V5 m)) (hF2 m) (hrest2 m)

def reg3 : Pipeline.RegionSeg (pcfgs (F := F)) adm (pdats m) () defs₀ 𝒱₀ L lv 3 :=
  regOf m 3 launch3 (W6 m) (W7 m) (body_obligation3 (V6 m)) (hin3 (V6 m)) (hout3 (V6 m)) (hF3 m) (hrest3 m)

def reg4 : Pipeline.RegionSeg (pcfgs (F := F)) adm (pdats m) () defs₀ 𝒱₀ L lv 4 :=
  regOf m 4 launch4 (W8 m) (W9 m) (body_obligation4 (V8 m)) (hin4 (V8 m)) (hout4 (V8 m)) (hF4 m) (hrest4 m)

def reg5 : Pipeline.RegionSeg (pcfgs (F := F)) adm (pdats m) () defs₀ 𝒱₀ L lv 5 :=
  regOf m 5 launch5 (W10 m) (W11 m) (body_obligation5 (V10 m)) (hin5 (V10 m)) (hout5 (V10 m)) (hF5 m) (hrest5 m)

def reg6 : Pipeline.RegionSeg (pcfgs (F := F)) adm (pdats m) () defs₀ 𝒱₀ L lv 6 :=
  regOf m 6 launch6 (W11 m) (W12 m) (body_obligation6 (V11 m)) (hin6 (V11 m)) (hout6 (V11 m)) (hF6 m) (hrest6 m)

def reg7 : Pipeline.RegionSeg (pcfgs (F := F)) adm (pdats m) () defs₀ 𝒱₀ L lv 7 :=
  regOf m 7 launch7 (W13 m) (W14 m) (body_obligation7 (V13 m)) (hin7 (V13 m)) (hout7 (V13 m)) (hF7 m) (hrest7 m)

def reg8 : Pipeline.RegionSeg (pcfgs (F := F)) adm (pdats m) () defs₀ 𝒱₀ L lv 8 :=
  regOf m 8 launch8 (W15 m) (W16 m) (body_obligation8 (V15 m)) (hin8 (V15 m)) (hout8 (V15 m)) (hF8 m) (hrest8 m)

def reg9 : Pipeline.RegionSeg (pcfgs (F := F)) adm (pdats m) () defs₀ 𝒱₀ L lv 9 :=
  regOf m 9 launch9 (W17 m) (W18 m) (body_obligation9 (V17 m)) (hin9 (V17 m)) (hout9 (V17 m)) (hF9 m) (hrest9 m)

end Cert.Kernel.Hand

end
-- ==== Proof.Kernel.Run.lean ====
import proofs.«403168_j28509992910998_1_alg».proof.Proof.Kernel.Segs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev Tₙ (c : Dev nD) : sProp 𝕄 := iprop(StableHlo.held (c : Thread nD τ) (Pipeline.ucRefs τ sig) (W19 m c) ∗ ∃ r, prngReg c r)

abbrev segs : List (Pipeline.Seg (pcfgs (F := F)) adm (pdats m) () defs₀ 𝒱₀ L lv) :=
  [
    .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .region (reg3 m),
    .host (hseg hostOps4 hostOps4_sub hostOps4_fresh (W7 m)),
    .region (reg4 m),
    .host (hseg hostOps5 hostOps5_sub hostOps5_fresh (W9 m)),
    .region (reg5 m),
    .region (reg6 m),
    .host (hseg hostOps7 hostOps7_sub hostOps7_fresh (W12 m)),
    .region (reg7 m),
    .host (hseg hostOps8 hostOps8_sub hostOps8_fresh (W14 m)),
    .region (reg8 m),
    .host (hseg hostOps9 hostOps9_sub hostOps9_fresh (W16 m)),
    .region (reg9 m),
    .host (hseg hostOps10 hostOps10_sub hostOps10_fresh (W18 m)) ]

theorem main_run (c : Dev nD) : main (F := F) c = Pipeline.Seg.run (segs m) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W19 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m c b)
    (hfin := fun c s' => by
      iintro ⟨⟨Hh, -⟩, HSI⟩
      unfold StableHlo.held
      imodintro
      iapply (pointsTo_read_all (Pipeline.ucRefs τ sig) (fun b => (((c : Thread nD τ)).1, b)) (W19 m c) s')
      isplitl [Hh] <;> iassumption)
    (hQ := fun s h => h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.Kernel.Frame.lean ====
import proofs.«403168_j28509992910998_1_alg».proof.Proof.Kernel.Keep
import proofs.«403168_j28509992910998_1_alg».proof.Proof.Kernel.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev argRefs : List (Ref sig .tc) := [main_arg0, main_arg1, main_arg2, main_arg3, main_arg4, main_arg5, main_arg6, main_arg7, main_arg8, main_arg9, main_arg10, main_arg11, main_arg12, main_arg13, main_arg14, main_arg15, main_arg16]

-- No stretch of host operations and no region writes an argument.
theorem W19_arg (c : Dev nD) (r : Ref sig .tc) (hr : r ∈ argRefs) :
    W19 m c (Proc.devRef .tc r) = m ((c : Thread nD τ).loc r) :=
  (keep19 m c r (by revert r; decide)).trans <|
  (keep18 m c r (by revert r; decide)).trans <|
  (keep17 m c r (by revert r; decide)).trans <|
  (keep16 m c r (by revert r; decide)).trans <|
  (keep15 m c r (by revert r; decide)).trans <|
  (keep14 m c r (by revert r; decide)).trans <|
  (keep13 m c r (by revert r; decide)).trans <|
  (keep12 m c r (by revert r; decide)).trans <|
  (keep11 m c r (by revert r; decide)).trans <|
  (keep10 m c r (by revert r; decide)).trans <|
  (keep9 m c r (by revert r; decide)).trans <|
  (keep8 m c r (by revert r; decide)).trans <|
  (keep7 m c r (by revert r; decide)).trans <|
  (keep6 m c r (by revert r; decide)).trans <|
  (keep5 m c r (by revert r; decide)).trans <|
  (keep4 m c r (by revert r; decide)).trans <|
  (keep3 m c r (by revert r; decide)).trans <|
  (keep2 m c r (by revert r; decide)).trans <|
  (keep1 m c r (by revert r; decide)).trans rfl

-- A memory that agrees with the last contents on every unscoped buffer holds the arguments as they were given.
theorem args_kept (c : Dev nD) {mem : (ℓ : Loc nD τ sig) → Buf (Elt F) ℓ}
    (h : ∀ b ∈ Pipeline.ucRefs τ sig, mem (((c : Thread nD τ)).1, b) = W19 m c b) (r : Ref sig .tc) (hr : r ∈ argRefs) :
    mem ((c.tc : Thread nD τ).loc r) = m ((c.tc : Thread nD τ).loc r) :=
  (h _ (mem_uc r (by revert r; decide))).trans (W19_arg m c r hr)

variable (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => by
    have k := args_kept m c (h c)
    exact ⟨k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide), k main_arg13 (by decide), k main_arg14 (by decide), k main_arg15 (by decide), k main_arg16 (by decide)⟩) (run_all m ρ)

end Cert.Kernel.Hand

end
-- ==== Proof.KernelIdeal.Transform0.lean ====
import proofs.«403168_j28509992910998_1_alg».proof.Proof.Gen.KernelIdeal.Launch
import proofs.«403168_j28509992910998_1_alg».proof.Proof.Gen.KernelIdeal.Skeleton
import proofs.«403168_j28509992910998_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev featRect0 : Rect S5000x128 := Rect.unit (s := S5000x128) ![0, 0] S5000x128.size inb_S5000x128_S5000x128_0_0
abbrev weightRect0 : Rect S128x128 := Rect.unit (s := S128x128) ![0, 0] S128x128.size inb_S128x128_S128x128_0_0
abbrev prodRect0 : Rect S5000x128 := Rect.unit (s := S5000x128) ![0, 0] S5000x128.size inb_S5000x128_S5000x128_0_0

def prodOf0 (x : Vec F S5000x128 .f32) (w : Vec F S128x128 .f32) : Vec F S5000x128 .f32 :=
  View.canon [⟨prodRect0, k0_pay1 (View.ld x featRect0) (View.ld w weightRect0)⟩]

set_option maxHeartbeats 1000000 in
/-- The one store covers the whole block, so the result does not depend on what the output held before; `R` and `S` are framed. -/
theorem sound_kernel0 (c : Dev nD) (E : Set ℕ) {i : grid0.Coords}
    {arg1 : Memref sig .tc .vmem S5000x128 .f32} {harg1 : arg1.IsWhole}
    {arg2 : Memref sig .tc .vmem S128x128 .f32} {harg2 : arg2.IsWhole}
    {arg3 : Memref sig .tc .vmem S5000x128 .f32} {harg3 : arg3.IsWhole}
    {x d : Vec F S5000x128 .f32} {w : Vec F S128x128 .f32} {R S : sProp 𝕄} :
    owns (c : Thread nD τ) arg1 fullShare x ⊢ iprop(owns (c : Thread nD τ) arg2 fullShare w -∗ owns (c : Thread nD τ) arg3 fullShare d -∗ R -∗ S
        -∗ wp frame (wpE (defs₀ (F := F)) Variants.none c none) E (cc0__matmul_kernel i arg1 harg1 arg2 harg2 arg3 harg3)
          fun _ => iprop(R ∗ S ∗ owns (c : Thread nD τ) arg1 fullShare x ∗ owns (c : Thread nD τ) arg2 fullShare w ∗ owns (c : Thread nD τ) arg3 fullShare (prodOf0 x w))) := by
  simp only [cc0__matmul_kernel_eq_skeleton]; unfold cc0__matmul_kernel_skel owns
  iintro ⟨%fx, %hx, Hx⟩ ⟨%fw, %hw, Hw⟩ ⟨%fp, -, Hp⟩ HR HS
  subst hx hw
  sl_exec
  sl_step
  isplitl [HR]; · iexact HR
  isplitl [HS]; · iexact HS
  isplitl [Hx]
  · iexists fx; isplitr; · ipureintro; rfl
    iexact Hx
  isplitl [Hw]
  · iexists fw; isplitr; · ipureintro; rfl
    iexact Hw
  iexists _; isplitr
  swap; · iexact Hp
  ipureintro
  exact View.read_writes_eq_canon _ _ _ (View.cover_of_tiled _ S5000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => prodOf0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_2 (c : Dev nD) (t : Fin cfg0.N) : (dat0 V c).after 2 t = prodOf0 (iblk0 V c 0 t) (iblk0 V c 1 t) := by dsimp only [dat0]

/-- An input window holds before the body what the body leaves in it: its block, which the body does not change. -/
theorem before0 (c : Dev nD) (t : Fin cfg0.N) : ∀ w : Fin cfg0.W, (cfg0.win w).isOut = false → ∀ d, (dat0 V c).before w t d = (dat0 V c).after w t
  | ⟨0, _⟩, h, d | ⟨1, _⟩, h, d =>
    (dat0 V c).before_in_eq_fetched _ h (fun _ => rfl) (fun _ _ _ => rfl) (fun _ => rfl) t d
  | ⟨2, _⟩, h, _ => absurd (h.symm.trans rfl) Bool.false_ne_true

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

/-- The kernel's triple at the point's three blocks, framing the invariant and what is owed. -/
theorem body_obligation0 (c : Dev nD) : BodyObligation (dat0 (F := F) V c) (defs₀ (F := F)) Variants.none () Set.univ := fun t => by
  rw [bigSep_W0, bigSep_W0]
  simp only
  show _ ⊢ wp _ _ _ (bodyAt0 t) _
  iintro ⟨HΦ, Ho, ⟨%d0, Hx⟩, ⟨%d1, Hw⟩, ⟨%d2, Hp⟩⟩
  rw [before0 V c t 0 rfl, before0 V c t 1 rfl]
  dsimp only [dat0, Dat.bound]
  iapply (sound_kernel0 c Set.univ) $$ Hx Hw Hp HΦ Ho

end Cert.KernelIdeal.Hand

end
-- ==== Proof.KernelIdeal.Moments1.lean ====
import proofs.«403168_j28509992910998_1_alg».proof.Proof.Gen.KernelIdeal.Launch
import proofs.«403168_j28509992910998_1_alg».proof.Proof.Gen.KernelIdeal.Skeleton
import proofs.«403168_j28509992910998_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev first1 (i : grid1.Coords) : Prop := (Scalar.cmpi .ne (Scalar.extui (Scalar.cmpi .eq (BitVec.ofNat 32 (i 0).val) 0#32)) 0#32) = 1#1
theorem first1_iff : ∀ t : Fin cfg1.N, first1 (grid1.coords t) ↔ t.val = 0 := by decide +kernel

abbrev last1 (i : grid1.Coords) : Prop := k1_cond2 i = 1#1
theorem last1_iff : ∀ t : Fin cfg1.N, last1 (grid1.coords t) ↔ t.val = 9 := by decide +kernel

theorem live1 : ∀ (w : Fin cfg1.W) (t : Fin cfg1.N), w = 0 ∨ last1 (grid1.coords t) → cfg1.idle w (grid1.coords t) = false := by decide +kernel
theorem quiet1 : ∀ (w : Fin cfg1.W) (t : Fin cfg1.N), w ≠ 0 → ¬last1 (grid1.coords t) → cfg1.idle w (grid1.coords t) = true ∧ (cfg1.win w).flush t = false := by
  decide +kernel

abbrev sumRow1 : Memref sig .tc .vmem S1x128 .f32 := Memref.whole cc1_scratch0
abbrev sqRow1 : Memref sig .tc .vmem S1x128 .f32 := Memref.whole cc1_scratch1

abbrev others1 (c : Dev nD) : sProp 𝕄 :=
  Pipeline.scopedRestBut (Ix := Unit) (Name := ℕ) (U := UR sig nD τ) (Lvl := ℕ) (Val := Elt F) spec1 c [cc1_scratch0, cc1_scratch1]

theorem PhiA1_eq (c : Dev nD) :
    (Pipeline.ΦA spec1 c : sProp 𝕄)
      = iprop(iprop(iprop((∃ d, owns (c : Thread nD τ) sumRow1 fullShare d) ∗ (∃ d, owns (c : Thread nD τ) sqRow1 fullShare d)) ∗ others1 c) ∗ (∃ r, prngReg c r)) := by
  unfold Pipeline.ΦA; rw [scopedRest1_split]; simp only [sumRow1, sqRow1, others1, owns_whole]; try rfl

theorem origin1 : (![0, 0] : Fin 2 → ℕ) = fun _ => 0 := by funext a; fin_cases a <;> rfl

/-- One row carried over the points: `g` of the block and the row before, from `z` at the first point. -/
def foldAt1 {N : ℕ} (b : Fin N → Vec F S5000x128 .f32) (g : Vec F S5000x128 .f32 → Vec F S1x128 .f32 → Vec F S1x128 .f32) (z : Vec F S1x128 .f32) :
    (n : ℕ) → n < N → Vec F S1x128 .f32
  | 0, hn => g (b ⟨0, hn⟩) z
  | n + 1, hn => g (b ⟨n + 1, hn⟩) (foldAt1 b g z n (Nat.lt_of_succ_lt hn))

theorem foldAt1_zero {N : ℕ} (b : Fin N → Vec F S5000x128 .f32) (g z) (t : Fin N) (h : t.val = 0) :
    foldAt1 b g z t.val t.isLt = g (b t) z := by
  obtain ⟨_ | n, hn⟩ := t
  exacts [rfl, absurd h n.succ_ne_zero]

theorem foldAt1_pos {N : ℕ} (b : Fin N → Vec F S5000x128 .f32) (g z) (t : Fin N) (h : t.val ≠ 0) :
    foldAt1 b g z t.val t.isLt = g (b t) (foldAt1 b g z (t.val - 1) (by omega)) := by
  obtain ⟨_ | n, hn⟩ := t
  exacts [absurd rfl h, rfl]

def sumAt1 (c : Dev nD) : (n : ℕ) → n < cfg1.N → Vec F S1x128 .f32 := foldAt1 (fun t => iblk1 V c 0 t) k1_pay4 k1_pay1

def sqAt1 (c : Dev nD) : (n : ℕ) → n < cfg1.N → Vec F S1x128 .f32 := foldAt1 (fun t => iblk1 V c 0 t) k1_pay5 k1_pay2

theorem sumAt1_zero (c : Dev nD) (t : Fin cfg1.N) (h : t.val = 0) :
    sumAt1 V c t.val t.isLt = k1_pay4 (iblk1 V c 0 t) (k1_pay1 (F := F)) := foldAt1_zero _ _ _ t h

theorem sumAt1_pos (c : Dev nD) (t : Fin cfg1.N) (h : t.val ≠ 0) :
    sumAt1 V c t.val t.isLt = k1_pay4 (iblk1 V c 0 t) (sumAt1 V c (t.val - 1) (Nat.lt_of_le_of_lt (Nat.sub_le _ _) t.isLt)) :=
  foldAt1_pos _ _ _ t h

theorem sqAt1_zero (c : Dev nD) (t : Fin cfg1.N) (h : t.val = 0) :
    sqAt1 V c t.val t.isLt = k1_pay5 (iblk1 V c 0 t) (k1_pay2 (F := F)) := foldAt1_zero _ _ _ t h

theorem sqAt1_pos (c : Dev nD) (t : Fin cfg1.N) (h : t.val ≠ 0) :
    sqAt1 V c t.val t.isLt = k1_pay5 (iblk1 V c 0 t) (sqAt1 V c (t.val - 1) (Nat.lt_of_le_of_lt (Nat.sub_le _ _) t.isLt)) :=
  foldAt1_pos _ _ _ t h

def meanAt1 (c : Dev nD) (t : Fin cfg1.N) : Vec F S1x128 .f32 := k1_pay6 (sumAt1 V c t.val t.isLt)

def varAt1 (c : Dev nD) (t : Fin cfg1.N) : Vec F S1x128 .f32 := k1_pay7 (sumAt1 V c t.val t.isLt) (sqAt1 V c t.val t.isLt)

/-- The two carried rows at `s` and `q`, everything else the region holds at anything. -/
abbrev rows1 (c : Dev nD) (s q : Vec F S1x128 .f32) : sProp 𝕄 :=
  iprop(iprop(iprop(owns (c : Thread nD τ) sumRow1 fullShare s ∗ owns (c : Thread nD τ) sqRow1 fullShare q) ∗ others1 c) ∗ (∃ r, prngReg c r))

def PhiS1 (c : Dev nD) : (n : ℕ) → n ≤ cfg1.N → sProp 𝕄
  | 0, _ => Pipeline.ΦA spec1 c
  | n + 1, hn => rows1 c (sumAt1 V c n hn) (sqAt1 V c n hn)

theorem PhiS1_zero (c : Dev nD) (n : ℕ) (h : n ≤ cfg1.N) (hz : n = 0) : PhiS1 V c n h = Pipeline.ΦA spec1 c := by
  subst hz; rfl

theorem PhiS1_pos (c : Dev nD) (n : ℕ) (h : n ≤ cfg1.N) (hz : n ≠ 0) :
    PhiS1 V c n h = rows1 c (sumAt1 V c (n - 1) (by omega)) (sqAt1 V c (n - 1) (by omega)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => meanAt1 V c t
    | ⟨2, _⟩ => varAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_0 (c : Dev nD) (t : Fin cfg1.N) : (dat1 V c).after 0 t = iblk1 V c 0 t := rfl
theorem after1_1 (c : Dev nD) (t : Fin cfg1.N) : (dat1 V c).after 1 t = meanAt1 V c t := rfl
theorem after1_2 (c : Dev nD) (t : Fin cfg1.N) : (dat1 V c).after 2 t = varAt1 V c t := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl

theorem row_stored1 {κ : Kind} {sp : Space} (v : View sig κ sp S1x128 .f32) (f : v.ty.Contents (Elt F))
    (w : Vec F S1x128 .f32) (L : List (View.Piece (Elt F) S1x128 .f32)) :
    v.read (Elt F) (v.writes (Elt F) f ((⟨Rect.unit (s := S1x128) ![0, 0] S1x128.size inb_S1x128_S1x128_0_0, w⟩ : View.Piece (Elt F) S1x128 .f32) :: L)) = w := by
  have hc : ∀ y : S1x128.Idx, ∃ p ∈ ((⟨Rect.unit (s := S1x128) ![0, 0] S1x128.size inb_S1x128_S1x128_0_0, w⟩ : View.Piece (Elt F) S1x128 .f32) :: L), y ∈ p.1.set :=
    fun y => ⟨_, List.mem_cons_self, View.mem_set_unit_zero (S := S1x128) origin1 inb_S1x128_S1x128_0_0 y⟩
  rw [View.read_writes_eq_canon v f _ hc]
  exact View.canon_cons_unit_zero (S := S1x128) origin1 inb_S1x128_S1x128_0_0 w L

/-- The block's column sums and sums of squares are added to the carried rows, cleared first at the first point; at the last point the moments are then read out. -/
theorem run1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole)
    (x : Vec F S5000x128 .f32) (y1 y2 s q s0 q0 o1 o2 : Vec F S1x128 .f32)
    (h : first1 i ∧ ¬last1 i ∧ s0 = k1_pay1 ∧ q0 = k1_pay2 ∧ o1 = y1 ∧ o2 = y2 ∨
      ¬first1 i ∧ s0 = s ∧ q0 = q ∧ (last1 i ∧ o1 = k1_pay6 (k1_pay4 x s) ∧ o2 = k1_pay7 (k1_pay4 x s) (k1_pay5 x q) ∨ ¬last1 i ∧ o1 = y1 ∧ o2 = y2))
    (K : PUnit → sProp 𝕄) :
    iprop(owns (c : Thread nD τ) arg1 fullShare x ∗ owns (c : Thread nD τ) arg2 fullShare y1 ∗ owns (c : Thread nD τ) arg3 fullShare y2
        ∗ owns (c : Thread nD τ) arg4 fullShare s ∗ owns (c : Thread nD τ) arg5 fullShare q
        ∗ (iprop(owns (c : Thread nD τ) arg1 fullShare x ∗ owns (c : Thread nD τ) arg2 fullShare o1 ∗ owns (c : Thread nD τ) arg3 fullShare o2
            ∗ owns (c : Thread nD τ) arg4 fullShare (k1_pay4 x s0) ∗ owns (c : Thread nD τ) arg5 fullShare (k1_pay5 x q0)) -∗ K ⟨⟩))
      ⊢ wp frame (wpE (defs₀ (F := F)) Variants.none c none) E (cc1__stats_kernel i arg1 harg1 arg2 harg2 arg3 harg3 arg4 harg4 arg5 harg5) K := by
  obtain ⟨h1, h2, e1, e2, e3, e4⟩ | ⟨h1, e1, e2, ⟨h2, e3, e4⟩ | ⟨h2, e3, e4⟩⟩ := h <;>
  · simp only [cc1__stats_kernel_eq_skeleton]; unfold cc1__stats_kernel_skel owns
    iintro ⟨⟨%f1, %hf1, H1⟩, ⟨%f2, %hf2, H2⟩, ⟨%f3, %hf3, H3⟩, ⟨%f4, %hf4, H4⟩, ⟨%f5, %hf5, H5⟩, Hk⟩
    obtain rfl := harg1.eq_unread hf1; obtain rfl := harg4.eq_unread hf4; obtain rfl := harg5.eq_unread hf5
    sl_exec (disch := first | exact h1 | exact h2)
    sl_step
    try sl_unfold_words
    simp only [View.readCov_cons_toLoadRect, View.readAt_eq_ld, Memref.IsWhole.read_unread, View.ld_unit_zero (S := S5000x128) origin1, View.ld_unit_zero (S := S1x128) origin1]
    iapply Hk
    isplitl [H1]; rotate_left; isplitl [H2]; rotate_left; isplitl [H3]; rotate_left; isplitl [H4]; rotate_left
    all_goals (iexists _; isplitr; (swap; iassumption); ipureintro)
    all_goals subst_vars
    all_goals first | exact row_stored1 _ _ _ _ | assumption | rfl

/-- Two resources held at anything are held at something. -/
theorem open1 {α β : Type} {S : α → sProp 𝕄} {Q : β → sProp 𝕄} {R G X P : sProp 𝕄}
    (h : ∀ a b, iprop(iprop(iprop(iprop(S a ∗ Q b) ∗ R) ∗ G) ∗ X) ⊢ P) :
    iprop(iprop(iprop(iprop((∃ a, S a) ∗ (∃ b, Q b)) ∗ R) ∗ G) ∗ X) ⊢ P := by
  iintro ⟨⟨⟨⟨⟨%a, HS⟩, ⟨%b, HQ⟩⟩, HR⟩, Hg⟩, HX⟩
  iapply (h a b)
  iframe HS HQ HR Hg
  iexact HX

theorem leavesExact_live1 {cfg : Cfg sig Λ₀} {c : Dev nD} (dat : Dat τ (Elt F) Unit ℕ (UR sig nD τ) ℕ cfg c) (w : Fin cfg.W) (t : Fin cfg.N)
    (h : cfg.idle w (cfg.grid.coords t) = false) :
    dat.leavesExact w t = owns (c : Thread nD τ) ((cfg.win w).stage (cfg.slots t w)) fullShare (dat.after w t) := by
  unfold Dat.leavesExact; rw [h]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- A run stated with a continuation, framed: what it does not touch passes through. -/
theorem reassemble1 {c : Dev nD} {δ0 δ1 δ2 : Type} {A0 S Q S' Q' R G O C1 C2 : sProp 𝕄} {A1 B1 : δ1 → sProp 𝕄} {A2 B2 : δ2 → sProp 𝕄} {e}
    (h1 : ∀ d, B1 d ⊢ C1) (h2 : ∀ d, B2 d ⊢ C2)
    (run : ∀ d1 d2 (K : PUnit → sProp 𝕄), iprop(A0 ∗ A1 d1 ∗ A2 d2 ∗ S ∗ Q ∗ (iprop(A0 ∗ B1 d1 ∗ B2 d2 ∗ S' ∗ Q') -∗ K ⟨⟩)) ⊢ wp frame (wpE (defs₀ (F := F)) Variants.none c none) Set.univ e K) :
    iprop(iprop(iprop(iprop(S ∗ Q) ∗ R) ∗ G) ∗ O ∗ (∃ _ : δ0, A0) ∗ (∃ d, A1 d) ∗ (∃ d, A2 d))
      ⊢ wp frame (wpE (defs₀ (F := F)) Variants.none c none) Set.univ e (fun _ => iprop(iprop(iprop(iprop(S' ∗ Q') ∗ R) ∗ G) ∗ O ∗ A0 ∗ C1 ∗ C2)) := by
  iintro ⟨⟨⟨⟨HS, HQ⟩, HR⟩, Hg⟩, Ho, ⟨%d0, H0⟩, ⟨%d1, H1⟩, ⟨%d2, H2⟩⟩
  iapply (run d1 d2)
  iframe H0 H1 H2 HS HQ
  iintro ⟨H0, H1, H2, HS, HQ⟩
  iframe HS HQ HR Hg Ho H0
  isplitl [H1]; · iapply (h1 d1); iexact H1
  iapply (h2 d2); iexact H2

/-- The point's position picks the run; one step of the rows' recursion turns what it leaves into the invariant after the point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = rows1 c (sumAt1 V c t.val t.isLt) (sqAt1 V c t.val t.isLt) from rfl,
    show (dat1 V c).Φ t.castSucc = PhiS1 V c t.val (Nat.le_of_lt t.isLt) from rfl,
    leavesExact_live1 (dat1 V c) 0 t (live1 0 t (.inl rfl)), after1_0]
  by_cases hl : t.val = 9
  · have hz : t.val ≠ 0 := by omega
    have h2 : last1 (grid1.coords t) := (last1_iff t).mpr hl
    rw [leavesExact_live1 (dat1 V c) 1 t (live1 1 t (.inr h2)), leavesExact_live1 (dat1 V c) 2 t (live1 2 t (.inr h2)), after1_1, after1_2]
    unfold meanAt1 varAt1
    rw [sumAt1_pos V c t hz, sqAt1_pos V c t hz, PhiS1_pos V c _ _ hz]
    exact reassemble1 (fun _ => .rfl) (fun _ => .rfl) fun _ _ =>
      run1 c Set.univ (grid1.coords t) _ _ _ _ _ _ _ _ _ _ (iblk1 V c 0 t) _ _ _ _ _ _ _ _ (.inr ⟨fun h => hz ((first1_iff t).mp h), rfl, rfl, .inl ⟨h2, rfl, rfl⟩⟩)
  · have h2 : ¬last1 (grid1.coords t) := fun h => hl ((last1_iff t).mp h)
    rw [Dat.leavesExact_idle (dat1 V c) 1 t (quiet1 1 t (by decide) h2).1 (quiet1 1 t (by decide) h2).2,
      Dat.leavesExact_idle (dat1 V c) 2 t (quiet1 2 t (by decide) h2).1 (quiet1 2 t (by decide) h2).2]
    by_cases hz : t.val = 0
    · rw [sumAt1_zero V c t hz, sqAt1_zero V c t hz, PhiS1_zero V c _ _ hz, PhiA1_eq]
      refine open1 fun _ _ => ?_
      exact reassemble1 exists_intro exists_intro fun _ _ =>
        run1 c Set.univ (grid1.coords t) _ _ _ _ _ _ _ _ _ _ (iblk1 V c 0 t) _ _ _ _ _ _ _ _ (.inl ⟨(first1_iff t).mpr hz, h2, rfl, rfl, rfl, rfl⟩)
    · rw [sumAt1_pos V c t hz, sqAt1_pos V c t hz, PhiS1_pos V c _ _ hz]
      exact reassemble1 exists_intro exists_intro fun _ _ =>
        run1 c Set.univ (grid1.coords t) _ _ _ _ _ _ _ _ _ _ (iblk1 V c 0 t) _ _ _ _ _ _ _ _ (.inr ⟨fun h => hz ((first1_iff t).mp h), rfl, rfl, .inr ⟨h2, rfl, rfl⟩⟩)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c := by
  rw [PhiA1_eq]
  show rows1 c _ _ ⊢ _
  iintro ⟨⟨⟨HS, HQ⟩, HR⟩, Hg⟩
  iframe HR Hg
  isplitl [HS]; · iexists _; iexact HS
  iexists _; iexact HQ

end Cert.KernelIdeal.Hand

end
-- ==== Proof.KernelIdeal.Normalize2.lean ====
import proofs.«403168_j28509992910998_1_alg».proof.Proof.Gen.KernelIdeal.Launch
import proofs.«403168_j28509992910998_1_alg».proof.Proof.Gen.KernelIdeal.Skeleton
import proofs.«403168_j28509992910998_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

def out2_5 (x0 : Vec F S5000x128 .f32) (x1 : Vec F S1x128 .f32) (x2 : Vec F S1x128 .f32) (x3 : Vec F S1x128 .f32) (x4 : Vec F S1x128 .f32) :
    Vec F S5000x128 .f32 :=
  View.canon [⟨r2_0, k2_pay1 (View.ld x0 r2_0) (View.ld x2 r2_1) (View.ld x1 r2_1) (View.ld x3 r2_1) (View.ld x4 r2_1)⟩]

set_option maxHeartbeats 1000000 in
/-- The one store covers the whole block, so the result does not depend on what the output held before; `R` and `S` are framed. -/
theorem sound_kernel2 (c : Dev nD) (E : Set ℕ) {i : grid2.Coords}
    {arg1 : Memref sig .tc .vmem S5000x128 .f32} {harg1 : arg1.IsWhole} {arg2 : Memref sig .tc .vmem S1x128 .f32} {harg2 : arg2.IsWhole}
    {arg3 : Memref sig .tc .vmem S1x128 .f32} {harg3 : arg3.IsWhole} {arg4 : Memref sig .tc .vmem S1x128 .f32} {harg4 : arg4.IsWhole}
    {arg5 : Memref sig .tc .vmem S1x128 .f32} {harg5 : arg5.IsWhole} {arg6 : Memref sig .tc .vmem S5000x128 .f32} {harg6 : arg6.IsWhole}
    {x0 d : Vec F S5000x128 .f32} {x1 x2 x3 x4 : Vec F S1x128 .f32} {R S : sProp 𝕄} :
    owns (c : Thread nD τ) arg1 fullShare x0 ⊢ iprop(owns (c : Thread nD τ) arg2 fullShare x1 -∗ owns (c : Thread nD τ) arg3 fullShare x2
        -∗ owns (c : Thread nD τ) arg4 fullShare x3 -∗ owns (c : Thread nD τ) arg5 fullShare x4 -∗ owns (c : Thread nD τ) arg6 fullShare d -∗ R -∗ S
        -∗ wp frame (wpE (defs₀ (F := F)) Variants.none c none) E (cc2__bn_relu_kernel i arg1 harg1 arg2 harg2 arg3 harg3 arg4 harg4 arg5 harg5 arg6 harg6)
          fun _ => iprop(R ∗ S ∗ owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (out2_5 x0 x1 x2 x3 x4))) := by
  simp only [cc2__bn_relu_kernel_eq_skeleton]; unfold cc2__bn_relu_kernel_skel owns
  iintro ⟨%f0, %h0, H0⟩ ⟨%f1, %h1, H1⟩ ⟨%f2, %h2, H2⟩ ⟨%f3, %h3, H3⟩ ⟨%f4, %h4, H4⟩ ⟨%f5, -, H5⟩ HR HS
  subst h0 h1 h2 h3 h4
  sl_exec
  sl_step
  iframe HR HS
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S5000x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- An input window holds before the body what the body leaves in it: its block, which the body does not change. -/
theorem before2 (c : Dev nD) (t : Fin cfg2.N) : ∀ w : Fin cfg2.W, (cfg2.win w).isOut = false → ∀ d, (dat2 V c).before w t d = (dat2 V c).after w t
  | ⟨0, _⟩, h, d | ⟨1, _⟩, h, d | ⟨2, _⟩, h, d | ⟨3, _⟩, h, d | ⟨4, _⟩, h, d =>
    (dat2 V c).before_in_eq_fetched _ h (fun _ => rfl) (fun _ _ _ => rfl) (fun _ => rfl) t d
  | ⟨5, _⟩, h, _ => nomatch h

/-- The kernel's triple at the point's six blocks, framing the invariant and what is owed. -/
theorem body_obligation2 (c : Dev nD) : BodyObligation (dat2 (F := F) V c) (defs₀ (F := F)) Variants.none () Set.univ := fun t => by
  rw [bigSep_W2, bigSep_W2]
  simp only
  show _ ⊢ wp _ _ _ (bodyAt2 t) _
  iintro ⟨HΦ, Ho, ⟨%d0, H0⟩, ⟨%d1, H1⟩, ⟨%d2, H2⟩, ⟨%d3, H3⟩, ⟨%d4, H4⟩, ⟨%d5, H5⟩⟩
  rw [before2 V c t 0 rfl, before2 V c t 1 rfl, before2 V c t 2 rfl, before2 V c t 3 rfl, before2 V c t 4 rfl]
  dsimp only [dat2, Dat.bound]
  iapply (sound_kernel2 c Set.univ) $$ H0 H1 H2 H3 H4 H5 HΦ Ho

theorem hin2 (c : Dev nD) : Pipeline.ΦA spec2 c ⊢ (dat2 V c).Φ 0 := .rfl

theorem hout2 (c : Dev nD) : (dat2 V c).Φ (Fin.last cfg2.N) ⊢ Pipeline.ΦA spec2 c := .rfl

end Cert.KernelIdeal.Hand
-- ==== Proof.KernelIdeal.Transform3.lean ====
import proofs.«403168_j28509992910998_1_alg».proof.Proof.Gen.KernelIdeal.Launch
import proofs.«403168_j28509992910998_1_alg».proof.Proof.Gen.KernelIdeal.Skeleton
import proofs.«403168_j28509992910998_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev featRect3 : Rect S5000x128 := Rect.unit (s := S5000x128) ![0, 0] S5000x128.size inb_S5000x128_S5000x128_0_0
abbrev weightRect3 : Rect S128x128 := Rect.unit (s := S128x128) ![0, 0] S128x128.size inb_S128x128_S128x128_0_0
abbrev prodRect3 : Rect S5000x128 := Rect.unit (s := S5000x128) ![0, 0] S5000x128.size inb_S5000x128_S5000x128_0_0

def prodOf3 (x : Vec F S5000x128 .f32) (w : Vec F S128x128 .f32) : Vec F S5000x128 .f32 :=
  View.canon [⟨prodRect3, k3_pay1 (View.ld x featRect3) (View.ld w weightRect3)⟩]

set_option maxHeartbeats 1000000 in
/-- The one store covers the whole block, so the result does not depend on what the output held before; `R` and `S` are framed. -/
theorem sound_kernel3 (c : Dev nD) (E : Set ℕ) {i : grid3.Coords}
    {arg1 : Memref sig .tc .vmem S5000x128 .f32} {harg1 : arg1.IsWhole}
    {arg2 : Memref sig .tc .vmem S128x128 .f32} {harg2 : arg2.IsWhole}
    {arg3 : Memref sig .tc .vmem S5000x128 .f32} {harg3 : arg3.IsWhole}
    {x d : Vec F S5000x128 .f32} {w : Vec F S128x128 .f32} {R S : sProp 𝕄} :
    owns (c : Thread nD τ) arg1 fullShare x ⊢ iprop(owns (c : Thread nD τ) arg2 fullShare w -∗ owns (c : Thread nD τ) arg3 fullShare d -∗ R -∗ S
        -∗ wp frame (wpE (defs₀ (F := F)) Variants.none c none) E (cc3__matmul_kernel i arg1 harg1 arg2 harg2 arg3 harg3)
          fun _ => iprop(R ∗ S ∗ owns (c : Thread nD τ) arg1 fullShare x ∗ owns (c : Thread nD τ) arg2 fullShare w ∗ owns (c : Thread nD τ) arg3 fullShare (prodOf3 x w))) := by
  simp only [cc3__matmul_kernel_eq_skeleton]; unfold cc3__matmul_kernel_skel owns
  iintro ⟨%fx, %hx, Hx⟩ ⟨%fw, %hw, Hw⟩ ⟨%fp, -, Hp⟩ HR HS
  subst hx hw
  sl_exec
  sl_step
  isplitl [HR]; · iexact HR
  isplitl [HS]; · iexact HS
  isplitl [Hx]
  · iexists fx; isplitr; · ipureintro; rfl
    iexact Hx
  isplitl [Hw]
  · iexists fw; isplitr; · ipureintro; rfl
    iexact Hw
  iexists _; isplitr
  swap; · iexact Hp
  ipureintro
  exact View.read_writes_eq_canon _ _ _ (View.cover_of_tiled _ S5000x128.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => prodOf3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl

theorem after3_2 (c : Dev nD) (t : Fin cfg3.N) : (dat3 V c).after 2 t = prodOf3 (iblk3 V c 0 t) (iblk3 V c 1 t) := by dsimp only [dat3]

/-- An input window holds before the body what the body leaves in it: its block, which the body does not change. -/
theorem before3 (c : Dev nD) (t : Fin cfg3.N) : ∀ w : Fin cfg3.W, (cfg3.win w).isOut = false → ∀ d, (dat3 V c).before w t d = (dat3 V c).after w t
  | ⟨0, _⟩, h, d | ⟨1, _⟩, h, d =>
    (dat3 V c).before_in_eq_fetched _ h (fun _ => rfl) (fun _ _ _ => rfl) (fun _ => rfl) t d
  | ⟨2, _⟩, h, _ => absurd (h.symm.trans rfl) Bool.false_ne_true

theorem hin3 (c : Dev nD) : Pipeline.ΦA spec3 c ⊢ (dat3 V c).Φ 0 := .rfl
theorem hout3 (c : Dev nD) : (dat3 V c).Φ (Fin.last cfg3.N) ⊢ Pipeline.ΦA spec3 c := .rfl

/-- The kernel's triple at the point's three blocks, framing the invariant and what is owed. -/
theorem body_obligation3 (c : Dev nD) : BodyObligation (dat3 (F := F) V c) (defs₀ (F := F)) Variants.none () Set.univ := fun t => by
  rw [bigSep_W3, bigSep_W3]
  simp only
  show _ ⊢ wp _ _ _ (bodyAt3 t) _
  iintro ⟨HΦ, Ho, ⟨%d0, Hx⟩, ⟨%d1, Hw⟩, ⟨%d2, Hp⟩⟩
  rw [before3 V c t 0 rfl, before3 V c t 1 rfl]
  dsimp only [dat3, Dat.bound]
  iapply (sound_kernel3 c Set.univ) $$ Hx Hw Hp HΦ Ho

end Cert.KernelIdeal.Hand

end
-- ==== Proof.KernelIdeal.Moments4.lean ====
import proofs.«403168_j28509992910998_1_alg».proof.Proof.Gen.KernelIdeal.Launch
import proofs.«403168_j28509992910998_1_alg».proof.Proof.Gen.KernelIdeal.Skeleton
import proofs.«403168_j28509992910998_1_alg».proof.Proof.Gen.KernelIdeal.Points
import proofs.«403168_j28509992910998_1_alg».proof.Proof.KernelIdeal.Moments1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev first4 (i : grid4.Coords) : Prop := (Scalar.cmpi .ne (Scalar.extui (Scalar.cmpi .eq (BitVec.ofNat 32 (i 0).val) 0#32)) 0#32) = 1#1
theorem first4_iff : ∀ t : Fin cfg4.N, first4 (grid4.coords t) ↔ t.val = 0 := by decide +kernel

abbrev last4 (i : grid4.Coords) : Prop := k4_cond2 i = 1#1
theorem last4_iff : ∀ t : Fin cfg4.N, last4 (grid4.coords t) ↔ t.val = 9 := by decide +kernel

theorem live4 : ∀ (w : Fin cfg4.W) (t : Fin cfg4.N), w = 0 ∨ last4 (grid4.coords t) → cfg4.idle w (grid4.coords t) = false := by decide +kernel
theorem quiet4 : ∀ (w : Fin cfg4.W) (t : Fin cfg4.N), w ≠ 0 → ¬last4 (grid4.coords t) → cfg4.idle w (grid4.coords t) = true ∧ (cfg4.win w).flush t = false := by
  decide +kernel

abbrev sumRow4 : Memref sig .tc .vmem S1x128 .f32 := Memref.whole cc4_scratch0
abbrev sqRow4 : Memref sig .tc .vmem S1x128 .f32 := Memref.whole cc4_scratch1

abbrev others4 (c : Dev nD) : sProp 𝕄 :=
  Pipeline.scopedRestBut (Ix := Unit) (Name := ℕ) (U := UR sig nD τ) (Lvl := ℕ) (Val := Elt F) spec4 c [cc4_scratch0, cc4_scratch1]

theorem PhiA4_eq (c : Dev nD) :
    (Pipeline.ΦA spec4 c : sProp 𝕄)
      = iprop(iprop(iprop((∃ d, owns (c : Thread nD τ) sumRow4 fullShare d) ∗ (∃ d, owns (c : Thread nD τ) sqRow4 fullShare d)) ∗ others4 c) ∗ (∃ r, prngReg c r)) := by
  unfold Pipeline.ΦA; rw [scopedRest4_split]; simp only [sumRow4, sqRow4, others4, owns_whole]; try rfl

def sumAt4 (c : Dev nD) : (n : ℕ) → n < cfg4.N → Vec F S1x128 .f32 := foldAt1 (fun t => iblk4 V c 0 t) k4_pay4 k4_pay1

def sqAt4 (c : Dev nD) : (n : ℕ) → n < cfg4.N → Vec F S1x128 .f32 := foldAt1 (fun t => iblk4 V c 0 t) k4_pay5 k4_pay2

theorem sumAt4_zero (c : Dev nD) (t : Fin cfg4.N) (h : t.val = 0) :
    sumAt4 V c t.val t.isLt = k4_pay4 (iblk4 V c 0 t) (k4_pay1 (F := F)) := foldAt1_zero _ _ _ t h

theorem sumAt4_pos (c : Dev nD) (t : Fin cfg4.N) (h : t.val ≠ 0) :
    sumAt4 V c t.val t.isLt = k4_pay4 (iblk4 V c 0 t) (sumAt4 V c (t.val - 1) (Nat.lt_of_le_of_lt (Nat.sub_le _ _) t.isLt)) :=
  foldAt1_pos _ _ _ t h

theorem sqAt4_zero (c : Dev nD) (t : Fin cfg4.N) (h : t.val = 0) :
    sqAt4 V c t.val t.isLt = k4_pay5 (iblk4 V c 0 t) (k4_pay2 (F := F)) := foldAt1_zero _ _ _ t h

theorem sqAt4_pos (c : Dev nD) (t : Fin cfg4.N) (h : t.val ≠ 0) :
    sqAt4 V c t.val t.isLt = k4_pay5 (iblk4 V c 0 t) (sqAt4 V c (t.val - 1) (Nat.lt_of_le_of_lt (Nat.sub_le _ _) t.isLt)) :=
  foldAt1_pos _ _ _ t h

def meanAt4 (c : Dev nD) (t : Fin cfg4.N) : Vec F S1x128 .f32 := k4_pay6 (sumAt4 V c t.val t.isLt)

def varAt4 (c : Dev nD) (t : Fin cfg4.N) : Vec F S1x128 .f32 := k4_pay7 (sumAt4 V c t.val t.isLt) (sqAt4 V c t.val t.isLt)

/-- The two carried rows at `s` and `q`, everything else the region holds at anything. -/
abbrev rows4 (c : Dev nD) (s q : Vec F S1x128 .f32) : sProp 𝕄 :=
  iprop(iprop(iprop(owns (c : Thread nD τ) sumRow4 fullShare s ∗ owns (c : Thread nD τ) sqRow4 fullShare q) ∗ others4 c) ∗ (∃ r, prngReg c r))

def PhiS4 (c : Dev nD) : (n : ℕ) → n ≤ cfg4.N → sProp 𝕄
  | 0, _ => Pipeline.ΦA spec4 c
  | n + 1, hn => rows4 c (sumAt4 V c n hn) (sqAt4 V c n hn)

theorem PhiS4_zero (c : Dev nD) (n : ℕ) (h : n ≤ cfg4.N) (hz : n = 0) : PhiS4 V c n h = Pipeline.ΦA spec4 c := by
  subst hz; rfl

theorem PhiS4_pos (c : Dev nD) (n : ℕ) (h : n ≤ cfg4.N) (hz : n ≠ 0) :
    PhiS4 V c n h = rows4 c (sumAt4 V c (n - 1) (by omega)) (sqAt4 V c (n - 1) (by omega)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => meanAt4 V c t
    | ⟨2, _⟩ => varAt4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := rfl

theorem after4_0 (c : Dev nD) (t : Fin cfg4.N) : (dat4 V c).after 0 t = iblk4 V c 0 t := rfl
theorem after4_1 (c : Dev nD) (t : Fin cfg4.N) : (dat4 V c).after 1 t = meanAt4 V c t := rfl
theorem after4_2 (c : Dev nD) (t : Fin cfg4.N) : (dat4 V c).after 2 t = varAt4 V c t := rfl

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl

/-- The block's column sums and sums of squares are added to the carried rows, cleared first at the first point; at the last point the moments are then read out. -/
theorem run4 (c : Dev nD) (E : Set ℕ) (i : grid4.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole)
    (x : Vec F S5000x128 .f32) (y1 y2 s q s0 q0 o4 o2 : Vec F S1x128 .f32)
    (h : first4 i ∧ ¬last4 i ∧ s0 = k4_pay1 ∧ q0 = k4_pay2 ∧ o4 = y1 ∧ o2 = y2 ∨
      ¬first4 i ∧ s0 = s ∧ q0 = q ∧ (last4 i ∧ o4 = k4_pay6 (k4_pay4 x s) ∧ o2 = k4_pay7 (k4_pay4 x s) (k4_pay5 x q) ∨ ¬last4 i ∧ o4 = y1 ∧ o2 = y2))
    (K : PUnit → sProp 𝕄) :
    iprop(owns (c : Thread nD τ) arg1 fullShare x ∗ owns (c : Thread nD τ) arg2 fullShare y1 ∗ owns (c : Thread nD τ) arg3 fullShare y2
        ∗ owns (c : Thread nD τ) arg4 fullShare s ∗ owns (c : Thread nD τ) arg5 fullShare q
        ∗ (iprop(owns (c : Thread nD τ) arg1 fullShare x ∗ owns (c : Thread nD τ) arg2 fullShare o4 ∗ owns (c : Thread nD τ) arg3 fullShare o2
            ∗ owns (c : Thread nD τ) arg4 fullShare (k4_pay4 x s0) ∗ owns (c : Thread nD τ) arg5 fullShare (k4_pay5 x q0)) -∗ K ⟨⟩))
      ⊢ wp frame (wpE (defs₀ (F := F)) Variants.none c none) E (cc4__stats_kernel i arg1 harg1 arg2 harg2 arg3 harg3 arg4 harg4 arg5 harg5) K :=
  run1 c E i arg1 harg1 arg2 harg2 arg3 harg3 arg4 harg4 arg5 harg5 x y1 y2 s q s0 q0 o4 o2 h K
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

/-- The point's position picks the run; one step of the rows' recursion turns what it leaves into the invariant after the point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = rows4 c (sumAt4 V c t.val t.isLt) (sqAt4 V c t.val t.isLt) from rfl,
    show (dat4 V c).Φ t.castSucc = PhiS4 V c t.val (Nat.le_of_lt t.isLt) from rfl,
    leavesExact_live1 (dat4 V c) 0 t (live4 0 t (.inl rfl)), after4_0]
  by_cases hl : t.val = 9
  · have hz : t.val ≠ 0 := by omega
    have h2 : last4 (grid4.coords t) := (last4_iff t).mpr hl
    rw [leavesExact_live1 (dat4 V c) 1 t (live4 1 t (.inr h2)), leavesExact_live1 (dat4 V c) 2 t (live4 2 t (.inr h2)), after4_1, after4_2]
    unfold meanAt4 varAt4
    rw [sumAt4_pos V c t hz, sqAt4_pos V c t hz, PhiS4_pos V c _ _ hz]
    exact reassemble1 (fun _ => .rfl) (fun _ => .rfl) fun _ _ =>
      run4 c Set.univ (grid4.coords t) _ _ _ _ _ _ _ _ _ _ (iblk4 V c 0 t) _ _ _ _ _ _ _ _ (.inr ⟨fun h => hz ((first4_iff t).mp h), rfl, rfl, .inl ⟨h2, rfl, rfl⟩⟩)
  · have h2 : ¬last4 (grid4.coords t) := fun h => hl ((last4_iff t).mp h)
    rw [Dat.leavesExact_idle (dat4 V c) 1 t (quiet4 1 t (by decide) h2).1 (quiet4 1 t (by decide) h2).2,
      Dat.leavesExact_idle (dat4 V c) 2 t (quiet4 2 t (by decide) h2).1 (quiet4 2 t (by decide) h2).2]
    by_cases hz : t.val = 0
    · rw [sumAt4_zero V c t hz, sqAt4_zero V c t hz, PhiS4_zero V c _ _ hz, PhiA4_eq]
      refine open1 fun _ _ => ?_
      exact reassemble1 exists_intro exists_intro fun _ _ =>
        run4 c Set.univ (grid4.coords t) _ _ _ _ _ _ _ _ _ _ (iblk4 V c 0 t) _ _ _ _ _ _ _ _ (.inl ⟨(first4_iff t).mpr hz, h2, rfl, rfl, rfl, rfl⟩)
    · rw [sumAt4_pos V c t hz, sqAt4_pos V c t hz, PhiS4_pos V c _ _ hz]
      exact reassemble1 exists_intro exists_intro fun _ _ =>
        run4 c Set.univ (grid4.coords t) _ _ _ _ _ _ _ _ _ _ (iblk4 V c 0 t) _ _ _ _ _ _ _ _ (.inr ⟨fun h => hz ((first4_iff t).mp h), rfl, rfl, .inr ⟨h2, rfl, rfl⟩⟩)

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := .rfl

theorem hout4 (c : Dev nD) : (dat4 V c).Φ (Fin.last cfg4.N) ⊢ Pipeline.ΦA spec4 c := by
  rw [PhiA4_eq]
  show rows4 c _ _ ⊢ _
  iintro ⟨⟨⟨HS, HQ⟩, HR⟩, Hg⟩
  iframe HR Hg
  isplitl [HS]; · iexists _; iexact HS
  iexists _; iexact HQ

end Cert.KernelIdeal.Hand

end
-- ==== Proof.KernelIdeal.Normalize5.lean ====
import proofs.«403168_j28509992910998_1_alg».proof.Proof.Gen.KernelIdeal.Launch
import proofs.«403168_j28509992910998_1_alg».proof.Proof.Gen.KernelIdeal.Skeleton
import proofs.«403168_j28509992910998_1_alg».proof.Proof.Gen.KernelIdeal.Points
import proofs.«403168_j28509992910998_1_alg».proof.Proof.KernelIdeal.Normalize2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_5 (x0 : Vec F S5000x128 .f32) (x1 : Vec F S1x128 .f32) (x2 : Vec F S1x128 .f32) (x3 : Vec F S1x128 .f32) (x4 : Vec F S1x128 .f32) :
    Vec F S5000x128 .f32 :=
  View.canon [⟨r2_0, k5_pay1 (View.ld x0 r2_0) (View.ld x2 r2_1) (View.ld x1 r2_1) (View.ld x3 r2_1) (View.ld x4 r2_1)⟩]

/-- The one store covers the whole block, so the result does not depend on what the output held before; `R` and `S` are framed. -/
theorem sound_kernel5 (c : Dev nD) (E : Set ℕ) {i : grid5.Coords}
    {arg1 : Memref sig .tc .vmem S5000x128 .f32} {harg1 : arg1.IsWhole} {arg2 : Memref sig .tc .vmem S1x128 .f32} {harg2 : arg2.IsWhole}
    {arg3 : Memref sig .tc .vmem S1x128 .f32} {harg3 : arg3.IsWhole} {arg4 : Memref sig .tc .vmem S1x128 .f32} {harg4 : arg4.IsWhole}
    {arg5 : Memref sig .tc .vmem S1x128 .f32} {harg5 : arg5.IsWhole} {arg6 : Memref sig .tc .vmem S5000x128 .f32} {harg6 : arg6.IsWhole}
    {x0 d : Vec F S5000x128 .f32} {x1 x2 x3 x4 : Vec F S1x128 .f32} {R S : sProp 𝕄} :
    owns (c : Thread nD τ) arg1 fullShare x0 ⊢ iprop(owns (c : Thread nD τ) arg2 fullShare x1 -∗ owns (c : Thread nD τ) arg3 fullShare x2
        -∗ owns (c : Thread nD τ) arg4 fullShare x3 -∗ owns (c : Thread nD τ) arg5 fullShare x4 -∗ owns (c : Thread nD τ) arg6 fullShare d -∗ R -∗ S
        -∗ wp frame (wpE (defs₀ (F := F)) Variants.none c none) E (cc5__bn_relu_kernel i arg1 harg1 arg2 harg2 arg3 harg3 arg4 harg4 arg5 harg5 arg6 harg6)
          fun _ => iprop(R ∗ S ∗ owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (out5_5 x0 x1 x2 x3 x4))) :=
  sound_kernel2 c E (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (x0 := x0) (d := d) (x1 := x1) (x2 := x2) (x3 := x3) (x4 := x4) (R := R) (S := S)
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := rfl

theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

/-- An input window holds before the body what the body leaves in it: its block, which the body does not change. -/
theorem before5 (c : Dev nD) (t : Fin cfg5.N) : ∀ w : Fin cfg5.W, (cfg5.win w).isOut = false → ∀ d, (dat5 V c).before w t d = (dat5 V c).after w t
  | ⟨0, _⟩, h, d | ⟨1, _⟩, h, d | ⟨2, _⟩, h, d | ⟨3, _⟩, h, d | ⟨4, _⟩, h, d =>
    (dat5 V c).before_in_eq_fetched _ h (fun _ => rfl) (fun _ _ _ => rfl) (fun _ => rfl) t d
  | ⟨5, _⟩, h, _ => nomatch h

/-- The kernel's triple at the point's six blocks, framing the invariant and what is owed. -/
theorem body_obligation5 (c : Dev nD) : BodyObligation (dat5 (F := F) V c) (defs₀ (F := F)) Variants.none () Set.univ := fun t => by
  rw [bigSep_W5, bigSep_W5]
  simp only
  show _ ⊢ wp _ _ _ (bodyAt5 t) _
  iintro ⟨HΦ, Ho, ⟨%d0, H0⟩, ⟨%d1, H1⟩, ⟨%d2, H2⟩, ⟨%d3, H3⟩, ⟨%d4, H4⟩, ⟨%d5, H5⟩⟩
  rw [before5 V c t 0 rfl, before5 V c t 1 rfl, before5 V c t 2 rfl, before5 V c t 3 rfl, before5 V c t 4 rfl]
  dsimp only [dat5, Dat.bound]
  iapply (sound_kernel5 c Set.univ) $$ H0 H1 H2 H3 H4 H5 HΦ Ho

theorem hin5 (c : Dev nD) : Pipeline.ΦA spec5 c ⊢ (dat5 V c).Φ 0 := .rfl

theorem hout5 (c : Dev nD) : (dat5 V c).Φ (Fin.last cfg5.N) ⊢ Pipeline.ΦA spec5 c := .rfl

end Cert.KernelIdeal.Hand
-- ==== Proof.KernelIdeal.Transform6.lean ====
import proofs.«403168_j28509992910998_1_alg».proof.Proof.Gen.KernelIdeal.Launch
import proofs.«403168_j28509992910998_1_alg».proof.Proof.Gen.KernelIdeal.Skeleton
import proofs.«403168_j28509992910998_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev featRect6 : Rect S5000x128 := Rect.unit (s := S5000x128) ![0, 0] S5000x128.size inb_S5000x128_S5000x128_0_0
abbrev weightRect6 : Rect S128x128 := Rect.unit (s := S128x128) ![0, 0] S128x128.size inb_S128x128_S128x128_0_0
abbrev prodRect6 : Rect S5000x128 := Rect.unit (s := S5000x128) ![0, 0] S5000x128.size inb_S5000x128_S5000x128_0_0

def prodOf6 (x : Vec F S5000x128 .f32) (w : Vec F S128x128 .f32) : Vec F S5000x128 .f32 :=
  View.canon [⟨prodRect6, k6_pay1 (View.ld x featRect6) (View.ld w weightRect6)⟩]

set_option maxHeartbeats 1000000 in
/-- The one store covers the whole block, so the result does not depend on what the output held before; `R` and `S` are framed. -/
theorem sound_kernel6 (c : Dev nD) (E : Set ℕ) {i : grid6.Coords}
    {arg1 : Memref sig .tc .vmem S5000x128 .f32} {harg1 : arg1.IsWhole}
    {arg2 : Memref sig .tc .vmem S128x128 .f32} {harg2 : arg2.IsWhole}
    {arg3 : Memref sig .tc .vmem S5000x128 .f32} {harg3 : arg3.IsWhole}
    {x d : Vec F S5000x128 .f32} {w : Vec F S128x128 .f32} {R S : sProp 𝕄} :
    owns (c : Thread nD τ) arg1 fullShare x ⊢ iprop(owns (c : Thread nD τ) arg2 fullShare w -∗ owns (c : Thread nD τ) arg3 fullShare d -∗ R -∗ S
        -∗ wp frame (wpE (defs₀ (F := F)) Variants.none c none) E (cc6__matmul_kernel i arg1 harg1 arg2 harg2 arg3 harg3)
          fun _ => iprop(R ∗ S ∗ owns (c : Thread nD τ) arg1 fullShare x ∗ owns (c : Thread nD τ) arg2 fullShare w ∗ owns (c : Thread nD τ) arg3 fullShare (prodOf6 x w))) := by
  simp only [cc6__matmul_kernel_eq_skeleton]; unfold cc6__matmul_kernel_skel owns
  iintro ⟨%fx, %hx, Hx⟩ ⟨%fw, %hw, Hw⟩ ⟨%fp, -, Hp⟩ HR HS
  subst hx hw
  sl_exec
  sl_step
  isplitl [HR]; · iexact HR
  isplitl [HS]; · iexact HS
  isplitl [Hx]
  · iexists fx; isplitr; · ipureintro; rfl
    iexact Hx
  isplitl [Hw]
  · iexists fw; isplitr; · ipureintro; rfl
    iexact Hw
  iexists _; isplitr
  swap; · iexact Hp
  ipureintro
  exact View.read_writes_eq_canon _ _ _ (View.cover_of_tiled _ S5000x128.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => prodOf6 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := rfl

theorem after6_2 (c : Dev nD) (t : Fin cfg6.N) : (dat6 V c).after 2 t = prodOf6 (iblk6 V c 0 t) (iblk6 V c 1 t) := by dsimp only [dat6]

/-- An input window holds before the body what the body leaves in it: its block, which the body does not change. -/
theorem before6 (c : Dev nD) (t : Fin cfg6.N) : ∀ w : Fin cfg6.W, (cfg6.win w).isOut = false → ∀ d, (dat6 V c).before w t d = (dat6 V c).after w t
  | ⟨0, _⟩, h, d | ⟨1, _⟩, h, d =>
    (dat6 V c).before_in_eq_fetched _ h (fun _ => rfl) (fun _ _ _ => rfl) (fun _ => rfl) t d
  | ⟨2, _⟩, h, _ => absurd (h.symm.trans rfl) Bool.false_ne_true

theorem hin6 (c : Dev nD) : Pipeline.ΦA spec6 c ⊢ (dat6 V c).Φ 0 := .rfl
theorem hout6 (c : Dev nD) : (dat6 V c).Φ (Fin.last cfg6.N) ⊢ Pipeline.ΦA spec6 c := .rfl

/-- The kernel's triple at the point's three blocks, framing the invariant and what is owed. -/
theorem body_obligation6 (c : Dev nD) : BodyObligation (dat6 (F := F) V c) (defs₀ (F := F)) Variants.none () Set.univ := fun t => by
  rw [bigSep_W6, bigSep_W6]
  simp only
  show _ ⊢ wp _ _ _ (bodyAt6 t) _
  iintro ⟨HΦ, Ho, ⟨%d0, Hx⟩, ⟨%d1, Hw⟩, ⟨%d2, Hp⟩⟩
  rw [before6 V c t 0 rfl, before6 V c t 1 rfl]
  dsimp only [dat6, Dat.bound]
  iapply (sound_kernel6 c Set.univ) $$ Hx Hw Hp HΦ Ho

end Cert.KernelIdeal.Hand

end
-- ==== Proof.KernelIdeal.Moments7.lean ====
import proofs.«403168_j28509992910998_1_alg».proof.Proof.Gen.KernelIdeal.Launch
import proofs.«403168_j28509992910998_1_alg».proof.Proof.Gen.KernelIdeal.Skeleton
import proofs.«403168_j28509992910998_1_alg».proof.Proof.Gen.KernelIdeal.Points
import proofs.«403168_j28509992910998_1_alg».proof.Proof.KernelIdeal.Moments1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev first7 (i : grid7.Coords) : Prop := (Scalar.cmpi .ne (Scalar.extui (Scalar.cmpi .eq (BitVec.ofNat 32 (i 0).val) 0#32)) 0#32) = 1#1
theorem first7_iff : ∀ t : Fin cfg7.N, first7 (grid7.coords t) ↔ t.val = 0 := by decide +kernel

abbrev last7 (i : grid7.Coords) : Prop := k7_cond2 i = 1#1
theorem last7_iff : ∀ t : Fin cfg7.N, last7 (grid7.coords t) ↔ t.val = 9 := by decide +kernel

theorem live7 : ∀ (w : Fin cfg7.W) (t : Fin cfg7.N), w = 0 ∨ last7 (grid7.coords t) → cfg7.idle w (grid7.coords t) = false := by decide +kernel
theorem quiet7 : ∀ (w : Fin cfg7.W) (t : Fin cfg7.N), w ≠ 0 → ¬last7 (grid7.coords t) → cfg7.idle w (grid7.coords t) = true ∧ (cfg7.win w).flush t = false := by
  decide +kernel

abbrev sumRow7 : Memref sig .tc .vmem S1x128 .f32 := Memref.whole cc7_scratch0
abbrev sqRow7 : Memref sig .tc .vmem S1x128 .f32 := Memref.whole cc7_scratch1

abbrev others7 (c : Dev nD) : sProp 𝕄 :=
  Pipeline.scopedRestBut (Ix := Unit) (Name := ℕ) (U := UR sig nD τ) (Lvl := ℕ) (Val := Elt F) spec7 c [cc7_scratch0, cc7_scratch1]

theorem PhiA7_eq (c : Dev nD) :
    (Pipeline.ΦA spec7 c : sProp 𝕄)
      = iprop(iprop(iprop((∃ d, owns (c : Thread nD τ) sumRow7 fullShare d) ∗ (∃ d, owns (c : Thread nD τ) sqRow7 fullShare d)) ∗ others7 c) ∗ (∃ r, prngReg c r)) := by
  unfold Pipeline.ΦA; rw [scopedRest7_split]; simp only [sumRow7, sqRow7, others7, owns_whole]; try rfl

def sumAt7 (c : Dev nD) : (n : ℕ) → n < cfg7.N → Vec F S1x128 .f32 := foldAt1 (fun t => iblk7 V c 0 t) k7_pay4 k7_pay1

def sqAt7 (c : Dev nD) : (n : ℕ) → n < cfg7.N → Vec F S1x128 .f32 := foldAt1 (fun t => iblk7 V c 0 t) k7_pay5 k7_pay2

theorem sumAt7_zero (c : Dev nD) (t : Fin cfg7.N) (h : t.val = 0) :
    sumAt7 V c t.val t.isLt = k7_pay4 (iblk7 V c 0 t) (k7_pay1 (F := F)) := foldAt1_zero _ _ _ t h

theorem sumAt7_pos (c : Dev nD) (t : Fin cfg7.N) (h : t.val ≠ 0) :
    sumAt7 V c t.val t.isLt = k7_pay4 (iblk7 V c 0 t) (sumAt7 V c (t.val - 1) (Nat.lt_of_le_of_lt (Nat.sub_le _ _) t.isLt)) :=
  foldAt1_pos _ _ _ t h

theorem sqAt7_zero (c : Dev nD) (t : Fin cfg7.N) (h : t.val = 0) :
    sqAt7 V c t.val t.isLt = k7_pay5 (iblk7 V c 0 t) (k7_pay2 (F := F)) := foldAt1_zero _ _ _ t h

theorem sqAt7_pos (c : Dev nD) (t : Fin cfg7.N) (h : t.val ≠ 0) :
    sqAt7 V c t.val t.isLt = k7_pay5 (iblk7 V c 0 t) (sqAt7 V c (t.val - 1) (Nat.lt_of_le_of_lt (Nat.sub_le _ _) t.isLt)) :=
  foldAt1_pos _ _ _ t h

def meanAt7 (c : Dev nD) (t : Fin cfg7.N) : Vec F S1x128 .f32 := k7_pay6 (sumAt7 V c t.val t.isLt)

def varAt7 (c : Dev nD) (t : Fin cfg7.N) : Vec F S1x128 .f32 := k7_pay7 (sumAt7 V c t.val t.isLt) (sqAt7 V c t.val t.isLt)

/-- The two carried rows at `s` and `q`, everything else the region holds at anything. -/
abbrev rows7 (c : Dev nD) (s q : Vec F S1x128 .f32) : sProp 𝕄 :=
  iprop(iprop(iprop(owns (c : Thread nD τ) sumRow7 fullShare s ∗ owns (c : Thread nD τ) sqRow7 fullShare q) ∗ others7 c) ∗ (∃ r, prngReg c r))

def PhiS7 (c : Dev nD) : (n : ℕ) → n ≤ cfg7.N → sProp 𝕄
  | 0, _ => Pipeline.ΦA spec7 c
  | n + 1, hn => rows7 c (sumAt7 V c n hn) (sqAt7 V c n hn)

theorem PhiS7_zero (c : Dev nD) (n : ℕ) (h : n ≤ cfg7.N) (hz : n = 0) : PhiS7 V c n h = Pipeline.ΦA spec7 c := by
  subst hz; rfl

theorem PhiS7_pos (c : Dev nD) (n : ℕ) (h : n ≤ cfg7.N) (hz : n ≠ 0) :
    PhiS7 V c n h = rows7 c (sumAt7 V c (n - 1) (by omega)) (sqAt7 V c (n - 1) (by omega)) := by
  cases n with
  | zero => exact absurd rfl hz
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => meanAt7 V c t
    | ⟨2, _⟩ => varAt7 V c t
  Φ t := PhiS7 V c t.val (Nat.le_of_lt_succ t.isLt)
  q _ := fullShare
  owed _ := 0

theorem A_eq7 (c : Dev nD) (w : Fin cfg7.W) : (dat7 V c).A w = V c (Pipeline.arrRef spec7 w) := rfl

theorem after7_0 (c : Dev nD) (t : Fin cfg7.N) : (dat7 V c).after 0 t = iblk7 V c 0 t := rfl
theorem after7_1 (c : Dev nD) (t : Fin cfg7.N) : (dat7 V c).after 1 t = meanAt7 V c t := rfl
theorem after7_2 (c : Dev nD) (t : Fin cfg7.N) : (dat7 V c).after 2 t = varAt7 V c t := rfl

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl

/-- The block's column sums and sums of squares are added to the carried rows, cleared first at the first point; at the last point the moments are then read out. -/
theorem run7 (c : Dev nD) (E : Set ℕ) (i : grid7.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole)
    (x : Vec F S5000x128 .f32) (y1 y2 s q s0 q0 o7 o2 : Vec F S1x128 .f32)
    (h : first7 i ∧ ¬last7 i ∧ s0 = k7_pay1 ∧ q0 = k7_pay2 ∧ o7 = y1 ∧ o2 = y2 ∨
      ¬first7 i ∧ s0 = s ∧ q0 = q ∧ (last7 i ∧ o7 = k7_pay6 (k7_pay4 x s) ∧ o2 = k7_pay7 (k7_pay4 x s) (k7_pay5 x q) ∨ ¬last7 i ∧ o7 = y1 ∧ o2 = y2))
    (K : PUnit → sProp 𝕄) :
    iprop(owns (c : Thread nD τ) arg1 fullShare x ∗ owns (c : Thread nD τ) arg2 fullShare y1 ∗ owns (c : Thread nD τ) arg3 fullShare y2
        ∗ owns (c : Thread nD τ) arg4 fullShare s ∗ owns (c : Thread nD τ) arg5 fullShare q
        ∗ (iprop(owns (c : Thread nD τ) arg1 fullShare x ∗ owns (c : Thread nD τ) arg2 fullShare o7 ∗ owns (c : Thread nD τ) arg3 fullShare o2
            ∗ owns (c : Thread nD τ) arg4 fullShare (k7_pay4 x s0) ∗ owns (c : Thread nD τ) arg5 fullShare (k7_pay5 x q0)) -∗ K ⟨⟩))
      ⊢ wp frame (wpE (defs₀ (F := F)) Variants.none c none) E (cc7__stats_kernel i arg1 harg1 arg2 harg2 arg3 harg3 arg4 harg4 arg5 harg5) K :=
  run1 c E i arg1 harg1 arg2 harg2 arg3 harg3 arg4 harg4 arg5 harg5 x y1 y2 s q s0 q0 o7 o2 h K
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

/-- The point's position picks the run; one step of the rows' recursion turns what it leaves into the invariant after the point. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).Φ t.succ = rows7 c (sumAt7 V c t.val t.isLt) (sqAt7 V c t.val t.isLt) from rfl,
    show (dat7 V c).Φ t.castSucc = PhiS7 V c t.val (Nat.le_of_lt t.isLt) from rfl,
    leavesExact_live1 (dat7 V c) 0 t (live7 0 t (.inl rfl)), after7_0]
  by_cases hl : t.val = 9
  · have hz : t.val ≠ 0 := by omega
    have h2 : last7 (grid7.coords t) := (last7_iff t).mpr hl
    rw [leavesExact_live1 (dat7 V c) 1 t (live7 1 t (.inr h2)), leavesExact_live1 (dat7 V c) 2 t (live7 2 t (.inr h2)), after7_1, after7_2]
    unfold meanAt7 varAt7
    rw [sumAt7_pos V c t hz, sqAt7_pos V c t hz, PhiS7_pos V c _ _ hz]
    exact reassemble1 (fun _ => .rfl) (fun _ => .rfl) fun _ _ =>
      run7 c Set.univ (grid7.coords t) _ _ _ _ _ _ _ _ _ _ (iblk7 V c 0 t) _ _ _ _ _ _ _ _ (.inr ⟨fun h => hz ((first7_iff t).mp h), rfl, rfl, .inl ⟨h2, rfl, rfl⟩⟩)
  · have h2 : ¬last7 (grid7.coords t) := fun h => hl ((last7_iff t).mp h)
    rw [Dat.leavesExact_idle (dat7 V c) 1 t (quiet7 1 t (by decide) h2).1 (quiet7 1 t (by decide) h2).2,
      Dat.leavesExact_idle (dat7 V c) 2 t (quiet7 2 t (by decide) h2).1 (quiet7 2 t (by decide) h2).2]
    by_cases hz : t.val = 0
    · rw [sumAt7_zero V c t hz, sqAt7_zero V c t hz, PhiS7_zero V c _ _ hz, PhiA7_eq]
      refine open1 fun _ _ => ?_
      exact reassemble1 exists_intro exists_intro fun _ _ =>
        run7 c Set.univ (grid7.coords t) _ _ _ _ _ _ _ _ _ _ (iblk7 V c 0 t) _ _ _ _ _ _ _ _ (.inl ⟨(first7_iff t).mpr hz, h2, rfl, rfl, rfl, rfl⟩)
    · rw [sumAt7_pos V c t hz, sqAt7_pos V c t hz, PhiS7_pos V c _ _ hz]
      exact reassemble1 exists_intro exists_intro fun _ _ =>
        run7 c Set.univ (grid7.coords t) _ _ _ _ _ _ _ _ _ _ (iblk7 V c 0 t) _ _ _ _ _ _ _ _ (.inr ⟨fun h => hz ((first7_iff t).mp h), rfl, rfl, .inr ⟨h2, rfl, rfl⟩⟩)

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := .rfl

theorem hout7 (c : Dev nD) : (dat7 V c).Φ (Fin.last cfg7.N) ⊢ Pipeline.ΦA spec7 c := by
  rw [PhiA7_eq]
  show rows7 c _ _ ⊢ _
  iintro ⟨⟨⟨HS, HQ⟩, HR⟩, Hg⟩
  iframe HR Hg
  isplitl [HS]; · iexists _; iexact HS
  iexists _; iexact HQ

end Cert.KernelIdeal.Hand

end
-- ==== Proof.KernelIdeal.Normalize8.lean ====
import proofs.«403168_j28509992910998_1_alg».proof.Proof.Gen.KernelIdeal.Launch
import proofs.«403168_j28509992910998_1_alg».proof.Proof.Gen.KernelIdeal.Skeleton
import proofs.«403168_j28509992910998_1_alg».proof.Proof.Gen.KernelIdeal.Points
import proofs.«403168_j28509992910998_1_alg».proof.Proof.KernelIdeal.Normalize2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def out8_5 (x0 : Vec F S5000x128 .f32) (x1 : Vec F S1x128 .f32) (x2 : Vec F S1x128 .f32) (x3 : Vec F S1x128 .f32) (x4 : Vec F S1x128 .f32) :
    Vec F S5000x128 .f32 :=
  View.canon [⟨r2_0, k8_pay1 (View.ld x0 r2_0) (View.ld x2 r2_1) (View.ld x1 r2_1) (View.ld x3 r2_1) (View.ld x4 r2_1)⟩]

/-- The one store covers the whole block, so the result does not depend on what the output held before; `R` and `S` are framed. -/
theorem sound_kernel8 (c : Dev nD) (E : Set ℕ) {i : grid8.Coords}
    {arg1 : Memref sig .tc .vmem S5000x128 .f32} {harg1 : arg1.IsWhole} {arg2 : Memref sig .tc .vmem S1x128 .f32} {harg2 : arg2.IsWhole}
    {arg3 : Memref sig .tc .vmem S1x128 .f32} {harg3 : arg3.IsWhole} {arg4 : Memref sig .tc .vmem S1x128 .f32} {harg4 : arg4.IsWhole}
    {arg5 : Memref sig .tc .vmem S1x128 .f32} {harg5 : arg5.IsWhole} {arg6 : Memref sig .tc .vmem S5000x128 .f32} {harg6 : arg6.IsWhole}
    {x0 d : Vec F S5000x128 .f32} {x1 x2 x3 x4 : Vec F S1x128 .f32} {R S : sProp 𝕄} :
    owns (c : Thread nD τ) arg1 fullShare x0 ⊢ iprop(owns (c : Thread nD τ) arg2 fullShare x1 -∗ owns (c : Thread nD τ) arg3 fullShare x2
        -∗ owns (c : Thread nD τ) arg4 fullShare x3 -∗ owns (c : Thread nD τ) arg5 fullShare x4 -∗ owns (c : Thread nD τ) arg6 fullShare d -∗ R -∗ S
        -∗ wp frame (wpE (defs₀ (F := F)) Variants.none c none) E (cc8__bn_relu_kernel i arg1 harg1 arg2 harg2 arg3 harg3 arg4 harg4 arg5 harg5 arg6 harg6)
          fun _ => iprop(R ∗ S ∗ owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (out8_5 x0 x1 x2 x3 x4))) :=
  sound_kernel2 c E (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (x0 := x0) (d := d) (x1 := x1) (x2 := x2) (x3 := x3) (x4 := x4) (R := R) (S := S)
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := rfl

theorem after8_5 (c : Dev nD) (t : Fin cfg8.N) :
    (dat8 V c).after 5 t = out8_5 (iblk8 V c 0 t) (iblk8 V c 1 t) (iblk8 V c 2 t) (iblk8 V c 3 t) (iblk8 V c 4 t) := by dsimp only [dat8]

/-- An input window holds before the body what the body leaves in it: its block, which the body does not change. -/
theorem before8 (c : Dev nD) (t : Fin cfg8.N) : ∀ w : Fin cfg8.W, (cfg8.win w).isOut = false → ∀ d, (dat8 V c).before w t d = (dat8 V c).after w t
  | ⟨0, _⟩, h, d | ⟨1, _⟩, h, d | ⟨2, _⟩, h, d | ⟨3, _⟩, h, d | ⟨4, _⟩, h, d =>
    (dat8 V c).before_in_eq_fetched _ h (fun _ => rfl) (fun _ _ _ => rfl) (fun _ => rfl) t d
  | ⟨5, _⟩, h, _ => nomatch h

/-- The kernel's triple at the point's six blocks, framing the invariant and what is owed. -/
theorem body_obligation8 (c : Dev nD) : BodyObligation (dat8 (F := F) V c) (defs₀ (F := F)) Variants.none () Set.univ := fun t => by
  rw [bigSep_W8, bigSep_W8]
  simp only
  show _ ⊢ wp _ _ _ (bodyAt8 t) _
  iintro ⟨HΦ, Ho, ⟨%d0, H0⟩, ⟨%d1, H1⟩, ⟨%d2, H2⟩, ⟨%d3, H3⟩, ⟨%d4, H4⟩, ⟨%d5, H5⟩⟩
  rw [before8 V c t 0 rfl, before8 V c t 1 rfl, before8 V c t 2 rfl, before8 V c t 3 rfl, before8 V c t 4 rfl]
  dsimp only [dat8, Dat.bound]
  iapply (sound_kernel8 c Set.univ) $$ H0 H1 H2 H3 H4 H5 HΦ Ho

theorem hin8 (c : Dev nD) : Pipeline.ΦA spec8 c ⊢ (dat8 V c).Φ 0 := .rfl

theorem hout8 (c : Dev nD) : (dat8 V c).Φ (Fin.last cfg8.N) ⊢ Pipeline.ΦA spec8 c := .rfl

end Cert.KernelIdeal.Hand
-- ==== Proof.KernelIdeal.Pool9.lean ====
import proofs.«403168_j28509992910998_1_alg».proof.Proof.Gen.KernelIdeal.Launch
import proofs.«403168_j28509992910998_1_alg».proof.Proof.Gen.KernelIdeal.Skeleton
import proofs.«403168_j28509992910998_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev cond9_0 (i : grid9.Coords) : Prop := (Scalar.cmpi .ne (Scalar.extui (Scalar.cmpi .eq (BitVec.ofNat 32 (i 0).val) 0#32)) 0#32) = 1#1
theorem hcond9_0 : ∀ t : Fin cfg9.N, cond9_0 (grid9.coords t) ↔ t.val = 0 := by decide +kernel

abbrev cond9_1 (i : grid9.Coords) : Prop := k9_cond2 i = 1#1
theorem hcond9_1 : ∀ t : Fin cfg9.N, cond9_1 (grid9.coords t) ↔ t.val = 9 := by decide +kernel

theorem live9 : ∀ t : Fin cfg9.N, t.val = 9 → idle9 2 (grid9.coords t) = false := by decide +kernel
theorem quiet9 : ∀ t : Fin cfg9.N, t.val ≠ 9 →
    idle9 2 (grid9.coords t) = true ∧ (win9 2).flush t = false ∧ (win9 3).flush t = false := by decide +kernel

abbrev scM9_0 : Memref sig .tc .vmem S64x128 .f32 := Memref.whole cc9_scratch0
abbrev scM9_1 : Memref sig .tc .vmem S1x64 .f32 := Memref.whole cc9_scratch1

theorem zeros9 : (![0, 0] : Fin 2 → ℕ) = fun _ => 0 := by funext a; fin_cases a <;> rfl

-- The last store, made through the whole buffer, decides what the buffer reads.
theorem read_writes_whole_last9 {sg : RefSig} {κ : Kind} {sp : Space} {S : Shape} {e : EltTy} (v : View sg κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hz inb y⟩),
    View.canon_cons_unit_zero hz inb w L]

-- A load through the whole buffer reads what the buffer reads.
theorem readAt_unread_whole9 {sg : RefSig} {κ : Kind} {sp : Space} {S : Shape} {e : EltTy} (m : Memref sg κ sp S e) (h : m.IsWhole)
    {off : Fin S.rank → ℕ} (hz : off = fun _ => 0) (inb : ∀ a, off a + S.size a ≤ S.size a) (X : S.Idx → Elt F e) :
    m.view.readAt (Elt F) (Rect.unit off S.size inb).toLoadRect (h.unread X) = X := by
  rw [View.readAt_eq_ld, h.read_unread, View.ld_unit_zero hz inb X]

set_option maxHeartbeats 1000000 in
-- At tile `t` each total gains the tile's contribution, over zero at the first tile; at the last tile the outputs end as copies of the totals.
theorem run9 {c : Dev nD} {t : Fin cfg9.N}
    {arg1 arg2 arg3 arg4 arg5 arg6} {harg1 harg2 harg3 harg4 harg5 harg6} {x0 x1 y2 s0 z0 o2 y3 s1 z1 o3}
    (hz : t.val = 0 ∧ z0 = k9_pay1 ∧ z1 = k9_pay2 ∨ t.val ≠ 0 ∧ z0 = s0 ∧ z1 = s1)
    (ho : t.val = 9 ∧ o2 = k9_pay4 x1 x0 z0 ∧ o3 = k9_pay5 x1 z1 ∨ t.val ≠ 9 ∧ o2 = y2 ∧ o3 = y3)
    {E : Set ℕ} {K : PUnit → sProp 𝕄} :
    iprop(owns (c : Thread nD τ) arg1 fullShare x0 ∗ owns (c : Thread nD τ) arg2 fullShare x1
        ∗ owns (c : Thread nD τ) arg3 fullShare y2 ∗ owns (c : Thread nD τ) arg4 fullShare y3
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare o2 ∗ owns (c : Thread nD τ) arg4 fullShare o3
            ∗ owns (c : Thread nD τ) arg5 fullShare (k9_pay4 x1 x0 z0) ∗ owns (c : Thread nD τ) arg6 fullShare (k9_pay5 x1 z1)) -∗ K ⟨⟩))
      ⊢ wp frame (wpE (defs₀ (F := F)) Variants.none c none) E (cc9__pool_kernel (grid9.coords t) arg1 harg1 arg2 harg2 arg3 harg3 arg4 harg4 arg5 harg5 arg6 harg6) K := by
  have hc0 := hcond9_0 t; have hc1 := hcond9_1 t
  obtain ⟨h0, rfl, rfl⟩ | ⟨h0, rfl, rfl⟩ := hz <;> obtain ⟨h9, rfl, rfl⟩ | ⟨h9, rfl, rfl⟩ := ho
  · omega
  all_goals
    first | have g0 := hc0.mpr h0 | have g0 := mt hc0.mp h0
    first | have g9 := hc1.mpr h9 | have g9 := mt hc1.mp h9
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1
    obtain rfl := harg5.eq_unread hf4; obtain rfl := harg6.eq_unread hf5
    simp only [cc9__pool_kernel_eq_skeleton]; unfold cc9__pool_kernel_skel
    sl_exec (disch := first | exact g0 | exact g9)
    sl_step
    iapply Hk
    isplitl [H0]; rotate_left; isplitl [H1]; rotate_left; isplitl [H2]; rotate_left; isplitl [H3]; rotate_left; isplitl [H4]; rotate_left
    all_goals
      iexists _; isplitr; swap; · iassumption
      ipureintro; sl_unfold_run_names
      first
      | exact harg1.read_unread _
      | exact harg2.read_unread _
      | rw [read_writes_whole_last9 (S := S64x128) _ _ zeros9]; try rw [View.readCov_unit_zero (S := S64x128) _ zeros9]
        try rw [readAt_unread_whole9 (S := S64x128) _ harg5 zeros9]
        rw [readAt_unread_whole9 (S := S5000x1) _ harg2 zeros9, readAt_unread_whole9 (S := S5000x128) _ harg1 zeros9]
      | rw [read_writes_whole_last9 (S := S1x64) _ _ zeros9]; try rw [View.readCov_unit_zero (S := S1x64) _ zeros9]
        try rw [readAt_unread_whole9 (S := S1x64) _ harg6 zeros9]
        rw [readAt_unread_whole9 (S := S5000x1) _ harg2 zeros9]
      | exact hf2
      | exact hf3

-- A total carried over the tiles: the first tile's step over `z`, each later tile's over the total before it.
def accAt9 {α : Type} (z : α) (step : Fin cfg9.N → α → α) : (n : ℕ) → n < cfg9.N → α
  | 0, hn => step ⟨0, hn⟩ z
  | n + 1, hn => step ⟨n + 1, hn⟩ (accAt9 z step n (Nat.lt_of_succ_lt hn))

theorem accAt9_eq {α : Type} (z : α) (step : Fin cfg9.N → α → α) (t : Fin cfg9.N) :
    accAt9 z step t.val t.isLt
      = step t (if h : t.val = 0 then z else accAt9 z step (t.val - 1) (Nat.lt_of_le_of_lt (Nat.sub_le _ _) t.isLt)) := by
  obtain ⟨_ | n, hn⟩ := t <;> rfl

def sumsAt9 (c : Dev nD) : (n : ℕ) → n < cfg9.N → Vec F S64x128 .f32 :=
  accAt9 k9_pay1 fun t => k9_pay4 (iblk9 V c 1 t) (iblk9 V c 0 t)

def countsAt9 (c : Dev nD) : (n : ℕ) → n < cfg9.N → Vec F S1x64 .f32 :=
  accAt9 k9_pay2 fun t => k9_pay5 (iblk9 V c 1 t)

theorem sumsAt9_zero (c : Dev nD) (hn : 0 < cfg9.N) :
    sumsAt9 V c 0 hn = k9_pay4 (iblk9 V c 1 ⟨0, hn⟩) (iblk9 V c 0 ⟨0, hn⟩) k9_pay1 := rfl
theorem sumsAt9_succ (c : Dev nD) (n : ℕ) (hn : n + 1 < cfg9.N) :
    sumsAt9 V c (n + 1) hn = k9_pay4 (iblk9 V c 1 ⟨n + 1, hn⟩) (iblk9 V c 0 ⟨n + 1, hn⟩) (sumsAt9 V c n (Nat.lt_of_succ_lt hn)) := rfl
theorem countsAt9_zero (c : Dev nD) (hn : 0 < cfg9.N) :
    countsAt9 V c 0 hn = k9_pay5 (iblk9 V c 1 ⟨0, hn⟩) k9_pay2 := rfl
theorem countsAt9_succ (c : Dev nD) (n : ℕ) (hn : n + 1 < cfg9.N) :
    countsAt9 V c (n + 1) hn = k9_pay5 (iblk9 V c 1 ⟨n + 1, hn⟩) (countsAt9 V c n (Nat.lt_of_succ_lt hn)) := rfl

-- The region's invariant, with the two totals held as `P`.
def tot9 (c : Dev nD) (P : sProp 𝕄) : sProp 𝕄 :=
  iprop(iprop(P ∗ Pipeline.scopedRestBut (Ix := Unit) (Name := ℕ) (U := UR sig nD τ) (Lvl := ℕ) (Val := Elt F) spec9 c [cc9_scratch0, cc9_scratch1]) ∗ (∃ r, prngReg c r))

theorem PhiA9_eq (c : Dev nD) :
    (Pipeline.ΦA spec9 c : sProp 𝕄) = tot9 c iprop((∃ d, owns (c : Thread nD τ) scM9_0 fullShare d) ∗ (∃ d, owns (c : Thread nD τ) scM9_1 fullShare d)) := by
  unfold Pipeline.ΦA tot9; rw [scopedRest9_split]; simp only [scM9_0, scM9_1, owns_whole]; try rfl

-- The invariant once tile `n` is done: the two totals hold the accumulation up to it.
def totAt9 (c : Dev nD) (n : ℕ) (hn : n < cfg9.N) : sProp 𝕄 :=
  tot9 c iprop(owns (c : Thread nD τ) scM9_0 fullShare (sumsAt9 V c n hn) ∗ owns (c : Thread nD τ) scM9_1 fullShare (countsAt9 V c n hn))

def PhiS9 (c : Dev nD) : (n : ℕ) → n ≤ cfg9.N → sProp 𝕄
  | 0, _ => Pipeline.ΦA spec9 c
  | n + 1, hn => totAt9 V c n hn

theorem PhiS9_zero (c : Dev nD) (n : ℕ) (h : n ≤ cfg9.N) (hz : n = 0) : PhiS9 V c n h = Pipeline.ΦA spec9 c := by
  subst hz; rfl

theorem PhiS9_pos (c : Dev nD) (n : ℕ) (h : n ≤ cfg9.N) (hz : n ≠ 0) : PhiS9 V c n h = totAt9 V c (n - 1) (by omega) := by
  obtain _ | n := n
  · exact absurd rfl hz
  · rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => sumsAt9 V c t.val t.isLt
    | ⟨3, _⟩ => countsAt9 V c t.val t.isLt
  Φ t := PhiS9 V c t.val (Nat.le_of_lt_succ t.isLt)
  q _ := fullShare
  owed _ := 0

theorem A_eq9 (c : Dev nD) (w : Fin cfg9.W) : (dat9 V c).A w = V c (Pipeline.arrRef spec9 w) := rfl

theorem after9_0 (c : Dev nD) (t : Fin cfg9.N) : (dat9 V c).after 0 t = iblk9 V c 0 t := rfl
theorem after9_1 (c : Dev nD) (t : Fin cfg9.N) : (dat9 V c).after 1 t = iblk9 V c 1 t := rfl
theorem after9_2 (c : Dev nD) (t : Fin cfg9.N) : (dat9 V c).after 2 t = sumsAt9 V c t.val t.isLt := rfl
theorem after9_3 (c : Dev nD) (t : Fin cfg9.N) : (dat9 V c).after 3 t = countsAt9 V c t.val t.isLt := rfl

-- An input's buffer holds its tile at every tile.
theorem before9_0 (c : Dev nD) (t : Fin cfg9.N) (d) : (dat9 V c).before 0 t d = iblk9 V c 0 t :=
  (dat9 V c).before_fetched 0 t (fetch9_0 t) d
theorem before9_1 (c : Dev nD) (t : Fin cfg9.N) (d) : (dat9 V c).before 1 t d = iblk9 V c 1 t :=
  (dat9 V c).before_fetched 1 t (fetch9_1 t) d

set_option maxHeartbeats 4800000 in
-- The body at any tile: the invariant lends the two totals to the run and takes them back one tile further.
theorem body_obligation9 (c : Dev nD) : BodyObligation (dat9 (F := F) V c) (defs₀ (F := F)) Variants.none () Set.univ := fun t => by
  rw [bigSep_W9, bigSep_W9]
  show _ ⊢ wp _ _ _ (bodyAt9 t) _
  unfold bodyAt9
  simp only [before9_0, before9_1, after9_0, after9_1]
  rw [show (dat9 V c).owesAt () t.succ = (dat9 V c).owesAt () t.castSucc from rfl,
    show (dat9 V c).Φ t.succ = totAt9 V c t.val t.isLt from rfl, show (dat9 V c).Φ t.castSucc = PhiS9 V c t.val (Nat.le_of_lt t.isLt) from rfl]
  have hN : t.val < 10 := lt_of_lt_of_eq t.isLt (show cfg9.N = 10 from N_9)
  by_cases h9 : t.val = 9
  · have h0 : t.val ≠ 0 := by omega
    rw [live9 t h9]
    simp only [after9_2, after9_3]
    rw [PhiS9_pos V c _ _ h0]
    unfold totAt9 sumsAt9 countsAt9 tot9
    rw [accAt9_eq _ _ t, accAt9_eq _ _ t, dif_neg h0, dif_neg h0]
    iintro ⟨⟨⟨⟨HS0, HS1⟩, HR⟩, Hg⟩, Ho, ⟨%d0, H0⟩, ⟨%d1, H1⟩, ⟨%d2, H2⟩, ⟨%d3, H3⟩⟩
    iapply (run9 (.inr ⟨h0, rfl, rfl⟩) (.inl ⟨h9, rfl, rfl⟩))
    iframe
    iintro ⟨H0, H1, H2, H3, HS0, HS1⟩
    iframe
  rw [(quiet9 t h9).1]
  simp only [(quiet9 t h9).2]
  by_cases h0 : t.val = 0
  · rw [PhiS9_zero V c _ _ h0, PhiA9_eq]
    unfold totAt9 sumsAt9 countsAt9 tot9
    rw [accAt9_eq _ _ t, accAt9_eq _ _ t, dif_pos h0, dif_pos h0]
    iintro ⟨⟨⟨⟨⟨%s0, HS0⟩, ⟨%s1, HS1⟩⟩, HR⟩, Hg⟩, Ho, ⟨%d0, H0⟩, ⟨%d1, H1⟩, ⟨%d2, H2⟩, ⟨%d3, H3⟩⟩
    iapply (run9 (.inl ⟨h0, rfl, rfl⟩) (.inr ⟨h9, rfl, rfl⟩))
    iframe
    iintro ⟨H0, H1, H2, H3, HS0, HS1⟩
    iframe
    isplitl [H2] <;> iexists _ <;> iassumption
  rw [PhiS9_pos V c _ _ h0]
  unfold totAt9 sumsAt9 countsAt9 tot9
  rw [accAt9_eq _ _ t, accAt9_eq _ _ t, dif_neg h0, dif_neg h0]
  iintro ⟨⟨⟨⟨HS0, HS1⟩, HR⟩, Hg⟩, Ho, ⟨%d0, H0⟩, ⟨%d1, H1⟩, ⟨%d2, H2⟩, ⟨%d3, H3⟩⟩
  iapply (run9 (.inr ⟨h0, rfl, rfl⟩) (.inr ⟨h9, rfl, rfl⟩))
  iframe
  iintro ⟨H0, H1, H2, H3, HS0, HS1⟩
  iframe
  isplitl [H2] <;> iexists _ <;> iassumption

theorem hin9 (c : Dev nD) : Pipeline.ΦA spec9 c ⊢ (dat9 V c).Φ 0 := Entails.of_eq rfl

-- After the last tile what the totals hold is forgotten.
theorem hout9 (c : Dev nD) : (dat9 V c).Φ (Fin.last cfg9.N) ⊢ Pipeline.ΦA spec9 c := by
  rw [show (dat9 V c).Φ (Fin.last cfg9.N) = PhiS9 V c cfg9.N le_rfl from rfl,
    PhiS9_pos V c _ _ (by have : cfg9.N = 10 := N_9; omega), PhiA9_eq]
  unfold totAt9 tot9
  iintro ⟨⟨⟨HS0, HS1⟩, HR⟩, Hg⟩
  iframe HR Hg
  isplitl [HS0] <;> iexists _ <;> iassumption

end Cert.KernelIdeal.Hand

end
-- ==== Proof.KernelIdeal.Chain.lean ====
import proofs.«403168_j28509992910998_1_alg».proof.Proof.KernelIdeal.Transform0
import proofs.«403168_j28509992910998_1_alg».proof.Proof.KernelIdeal.Moments1
import proofs.«403168_j28509992910998_1_alg».proof.Proof.KernelIdeal.Normalize2
import proofs.«403168_j28509992910998_1_alg».proof.Proof.KernelIdeal.Transform3
import proofs.«403168_j28509992910998_1_alg».proof.Proof.KernelIdeal.Moments4
import proofs.«403168_j28509992910998_1_alg».proof.Proof.KernelIdeal.Normalize5
import proofs.«403168_j28509992910998_1_alg».proof.Proof.KernelIdeal.Transform6
import proofs.«403168_j28509992910998_1_alg».proof.Proof.KernelIdeal.Moments7
import proofs.«403168_j28509992910998_1_alg».proof.Proof.KernelIdeal.Normalize8
import proofs.«403168_j28509992910998_1_alg».proof.Proof.KernelIdeal.Pool9
import proofs.«403168_j28509992910998_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- Outside its windows' arrays a region leaves the buffer contents as it found them.
theorem rest_of_withArrays {gr W : ℕ} (win : Fin W → Pipeline.WinSpec sig gr) (c : Dev nD) (V : Valuation τ sig (Elt F))
    (A : (w : Fin W) → Buf (Elt F) ((win w).arr.view.loc (c.tc : Thread nD τ))) :
    ∀ b, b ∉ Finset.univ.image (Pipeline.arrRef win) → Pipeline.withArrays win c V A (Proc.devRef .tc b) = V (Proc.devRef .tc b) :=
  fun b hb => Pipeline.withArrays_of_ne win c V A b fun w e => hb (Finset.mem_image.mpr ⟨w, Finset.mem_univ _, e⟩)

abbrev W0 : Dev nD → Valuation τ sig (Elt F) := fun c b => m (c, b)
abbrev V0 : (c : Dev nD) → (b : Ref sig .tc) → Buf (Elt F) ((c : Thread nD τ).loc b) := fun c b => W0 m c b

abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  rest_of_withArrays spec0 c _ _

abbrev W3 : Dev nD → Valuation τ sig (Elt F) := fun c => StableHlo.after hostOps1 (W2 m c)
abbrev V3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  rest_of_withArrays spec1 c _ _

abbrev W5 : Dev nD → Valuation τ sig (Elt F) := fun c => StableHlo.after hostOps2 (W4 m c)
abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  rest_of_withArrays spec2 c _ _

def W7 (c : Dev nD) : Valuation τ sig (Elt F) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
abbrev V7 : (c : Dev nD) → (b : Ref sig .tc) → Buf (Elt F) ((c : Thread nD τ).loc b) := fun c b => W7 m c b
theorem hF3 (c : Dev nD) (w : Fin cfg3.W) : (dat3 (V6 m) c).arrAt w cfg3.N = V7 m c (Pipeline.arrRef spec3 w) :=
  (W7_arr m c w).symm
theorem hrest3 (c : Dev nD) : ∀ b, b ∉ Finset.univ.image (Pipeline.arrRef spec3) → V7 m c b = V6 m c b :=
  rest_of_withArrays spec3 c _ _

abbrev W8 : Dev nD → Valuation τ sig (Elt F) := fun c => StableHlo.after hostOps4 (W7 m c)
abbrev V8 : (c : Dev nD) → (b : Ref sig .tc) → Buf (Elt F) ((c : Thread nD τ).loc b) := fun c b => W8 m c b

def W9 (c : Dev nD) : Valuation τ sig (Elt F) :=
  Pipeline.withArrays spec4 c (W8 m c) fun w => (dat4 (V8 m) c).arrAt w cfg4.N
theorem W9_arr (c : Dev nD) (w : Fin cfg4.W) :
    W9 m c (Proc.devRef .tc (Pipeline.arrRef spec4 w)) = (dat4 (V8 m) c).arrAt w cfg4.N := by
  unfold W9; exact Pipeline.withArrays_arr spec4 launch4.win.arr_inj c _ _ w
abbrev V9 : (c : Dev nD) → (b : Ref sig .tc) → Buf (Elt F) ((c : Thread nD τ).loc b) := fun c b => W9 m c b
theorem hF4 (c : Dev nD) (w : Fin cfg4.W) : (dat4 (V8 m) c).arrAt w cfg4.N = V9 m c (Pipeline.arrRef spec4 w) :=
  (W9_arr m c w).symm
theorem hrest4 (c : Dev nD) : ∀ b, b ∉ Finset.univ.image (Pipeline.arrRef spec4) → V9 m c b = V8 m c b :=
  rest_of_withArrays spec4 c _ _

abbrev W10 : Dev nD → Valuation τ sig (Elt F) := fun c => StableHlo.after hostOps5 (W9 m c)
abbrev V10 : (c : Dev nD) → (b : Ref sig .tc) → Buf (Elt F) ((c : Thread nD τ).loc b) := fun c b => W10 m c b

def W11 (c : Dev nD) : Valuation τ sig (Elt F) :=
  Pipeline.withArrays spec5 c (W10 m c) fun w => (dat5 (V10 m) c).arrAt w cfg5.N
theorem W11_arr (c : Dev nD) (w : Fin cfg5.W) :
    W11 m c (Proc.devRef .tc (Pipeline.arrRef spec5 w)) = (dat5 (V10 m) c).arrAt w cfg5.N := by
  unfold W11; exact Pipeline.withArrays_arr spec5 launch5.win.arr_inj c _ _ w
abbrev V11 : (c : Dev nD) → (b : Ref sig .tc) → Buf (Elt F) ((c : Thread nD τ).loc b) := fun c b => W11 m c b
theorem hF5 (c : Dev nD) (w : Fin cfg5.W) : (dat5 (V10 m) c).arrAt w cfg5.N = V11 m c (Pipeline.arrRef spec5 w) :=
  (W11_arr m c w).symm
theorem hrest5 (c : Dev nD) : ∀ b, b ∉ Finset.univ.image (Pipeline.arrRef spec5) → V11 m c b = V10 m c b :=
  rest_of_withArrays spec5 c _ _

def W12 (c : Dev nD) : Valuation τ sig (Elt F) :=
  Pipeline.withArrays spec6 c (W11 m c) fun w => (dat6 (V11 m) c).arrAt w cfg6.N
theorem W12_arr (c : Dev nD) (w : Fin cfg6.W) :
    W12 m c (Proc.devRef .tc (Pipeline.arrRef spec6 w)) = (dat6 (V11 m) c).arrAt w cfg6.N := by
  unfold W12; exact Pipeline.withArrays_arr spec6 launch6.win.arr_inj c _ _ w
abbrev V12 : (c : Dev nD) → (b : Ref sig .tc) → Buf (Elt F) ((c : Thread nD τ).loc b) := fun c b => W12 m c b
theorem hF6 (c : Dev nD) (w : Fin cfg6.W) : (dat6 (V11 m) c).arrAt w cfg6.N = V12 m c (Pipeline.arrRef spec6 w) :=
  (W12_arr m c w).symm
theorem hrest6 (c : Dev nD) : ∀ b, b ∉ Finset.univ.image (Pipeline.arrRef spec6) → V12 m c b = V11 m c b :=
  rest_of_withArrays spec6 c _ _

abbrev W13 : Dev nD → Valuation τ sig (Elt F) := fun c => StableHlo.after hostOps7 (W12 m c)
abbrev V13 : (c : Dev nD) → (b : Ref sig .tc) → Buf (Elt F) ((c : Thread nD τ).loc b) := fun c b => W13 m c b

def W14 (c : Dev nD) : Valuation τ sig (Elt F) :=
  Pipeline.withArrays spec7 c (W13 m c) fun w => (dat7 (V13 m) c).arrAt w cfg7.N
theorem W14_arr (c : Dev nD) (w : Fin cfg7.W) :
    W14 m c (Proc.devRef .tc (Pipeline.arrRef spec7 w)) = (dat7 (V13 m) c).arrAt w cfg7.N := by
  unfold W14; exact Pipeline.withArrays_arr spec7 launch7.win.arr_inj c _ _ w
abbrev V14 : (c : Dev nD) → (b : Ref sig .tc) → Buf (Elt F) ((c : Thread nD τ).loc b) := fun c b => W14 m c b
theorem hF7 (c : Dev nD) (w : Fin cfg7.W) : (dat7 (V13 m) c).arrAt w cfg7.N = V14 m c (Pipeline.arrRef spec7 w) :=
  (W14_arr m c w).symm
theorem hrest7 (c : Dev nD) : ∀ b, b ∉ Finset.univ.image (Pipeline.arrRef spec7) → V14 m c b = V13 m c b :=
  rest_of_withArrays spec7 c _ _

abbrev W15 : Dev nD → Valuation τ sig (Elt F) := fun c => StableHlo.after hostOps8 (W14 m c)
abbrev V15 : (c : Dev nD) → (b : Ref sig .tc) → Buf (Elt F) ((c : Thread nD τ).loc b) := fun c b => W15 m c b

def W16 (c : Dev nD) : Valuation τ sig (Elt F) :=
  Pipeline.withArrays spec8 c (W15 m c) fun w => (dat8 (V15 m) c).arrAt w cfg8.N
theorem W16_arr (c : Dev nD) (w : Fin cfg8.W) :
    W16 m c (Proc.devRef .tc (Pipeline.arrRef spec8 w)) = (dat8 (V15 m) c).arrAt w cfg8.N := by
  unfold W16; exact Pipeline.withArrays_arr spec8 launch8.win.arr_inj c _ _ w
abbrev V16 : (c : Dev nD) → (b : Ref sig .tc) → Buf (Elt F) ((c : Thread nD τ).loc b) := fun c b => W16 m c b
theorem hF8 (c : Dev nD) (w : Fin cfg8.W) : (dat8 (V15 m) c).arrAt w cfg8.N = V16 m c (Pipeline.arrRef spec8 w) :=
  (W16_arr m c w).symm
theorem hrest8 (c : Dev nD) : ∀ b, b ∉ Finset.univ.image (Pipeline.arrRef spec8) → V16 m c b = V15 m c b :=
  rest_of_withArrays spec8 c _ _

abbrev W17 : Dev nD → Valuation τ sig (Elt F) := fun c => StableHlo.after hostOps9 (W16 m c)
abbrev V17 : (c : Dev nD) → (b : Ref sig .tc) → Buf (Elt F) ((c : Thread nD τ).loc b) := fun c b => W17 m c b

def W18 (c : Dev nD) : Valuation τ sig (Elt F) :=
  Pipeline.withArrays spec9 c (W17 m c) fun w => (dat9 (V17 m) c).arrAt w cfg9.N
theorem W18_arr (c : Dev nD) (w : Fin cfg9.W) :
    W18 m c (Proc.devRef .tc (Pipeline.arrRef spec9 w)) = (dat9 (V17 m) c).arrAt w cfg9.N := by
  unfold W18; exact Pipeline.withArrays_arr spec9 launch9.win.arr_inj c _ _ w
abbrev V18 : (c : Dev nD) → (b : Ref sig .tc) → Buf (Elt F) ((c : Thread nD τ).loc b) := fun c b => W18 m c b
theorem hF9 (c : Dev nD) (w : Fin cfg9.W) : (dat9 (V17 m) c).arrAt w cfg9.N = V18 m c (Pipeline.arrRef spec9 w) :=
  (W18_arr m c w).symm
theorem hrest9 (c : Dev nD) : ∀ b, b ∉ Finset.univ.image (Pipeline.arrRef spec9) → V18 m c b = V17 m c b :=
  rest_of_withArrays spec9 c _ _

abbrev W19 : Dev nD → Valuation τ sig (Elt F) := fun c => StableHlo.after hostOps10 (W18 m c)
abbrev V19 : (c : Dev nD) → (b : Ref sig .tc) → Buf (Elt F) ((c : Thread nD τ).loc b) := fun c b => W19 m c b

abbrev adm : (p : Fin 10) → (pcfgs (F := F) p).Adm := fun p => (cfgs p).toPCfg_adm

def pdats : (p : Fin 10) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V6 m) c
  | ⟨4, _⟩ => fun c => dat4 (V8 m) c
  | ⟨5, _⟩ => fun c => dat5 (V10 m) c
  | ⟨6, _⟩ => fun c => dat6 (V11 m) c
  | ⟨7, _⟩ => fun c => dat7 (V13 m) c
  | ⟨8, _⟩ => fun c => dat8 (V15 m) c
  | ⟨9, _⟩ => fun c => dat9 (V17 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

end Cert.KernelIdeal.Hand

end
-- ==== Proof.KernelIdeal.Keep.lean ====
import proofs.«403168_j28509992910998_1_alg».proof.Proof.KernelIdeal.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- A region writes its output windows' arrays only: an array it only reads, and every other buffer, is left as found.
theorem keep_region {gr W : ℕ} (win : Fin W → Pipeline.WinSpec sig gr) (hinj : Function.Injective (Pipeline.arrRef win)) (c : Dev nD)
    (V : Valuation τ sig (Elt F)) (A : (w : Fin W) → Buf (Elt F) ((win w).arr.view.loc (c.tc : Thread nD τ))) (r : Ref sig .tc)
    (hA : ∀ w, Pipeline.arrRef win w = r → A w = V (Proc.devRef .tc (Pipeline.arrRef win w))) :
    Pipeline.withArrays win c V A (Proc.devRef .tc r) = V (Proc.devRef .tc r) := by
  by_cases hw : ∃ w, Pipeline.arrRef win w = r
  · obtain ⟨w, rfl⟩ := hw
    exact (Pipeline.withArrays_arr win hinj c V A w).trans (hA w rfl)
  · exact Pipeline.withArrays_of_ne win c V A r fun w e => hw ⟨w, e⟩

theorem keep1 (c : Dev nD) (r : Ref sig .tc) (h : r ∉ hostOps0_W) :
    W1 m c (Proc.devRef .tc r) = W0 m c (Proc.devRef .tc r) :=
  StableHlo.after_of_writes_sub hostOps0 _ hostOps0_writes h

theorem keep2 (c : Dev nD) (r : Ref sig .tc) (h : r ∉ ([main_v29] : List (Ref sig .tc))) :
    W2 m c (Proc.devRef .tc r) = W1 m c (Proc.devRef .tc r) :=
  keep_region spec0 launch0.win.arr_inj c _ _ r fun w e =>
    ((dat0 (V1 m) c).arrAt_in w (by subst e; revert w; decide) _).trans (A_eq0 (V1 m) c w)

theorem keep3 (c : Dev nD) (r : Ref sig .tc) (h : r ∉ hostOps1_W) :
    W3 m c (Proc.devRef .tc r) = W2 m c (Proc.devRef .tc r) :=
  StableHlo.after_of_writes_sub hostOps1 _ hostOps1_writes h

theorem keep4 (c : Dev nD) (r : Ref sig .tc) (h : r ∉ ([main_v46_0, main_v46_1] : List (Ref sig .tc))) :
    W4 m c (Proc.devRef .tc r) = W3 m c (Proc.devRef .tc r) :=
  keep_region spec1 launch1.win.arr_inj c _ _ r fun w e =>
    ((dat1 (V3 m) c).arrAt_in w (by subst e; revert w; decide) _).trans (A_eq1 (V3 m) c w)

theorem keep5 (c : Dev nD) (r : Ref sig .tc) (h : r ∉ hostOps2_W) :
    W5 m c (Proc.devRef .tc r) = W4 m c (Proc.devRef .tc r) :=
  StableHlo.after_of_writes_sub hostOps2 _ hostOps2_writes h

theorem keep6 (c : Dev nD) (r : Ref sig .tc) (h : r ∉ ([main_v49] : List (Ref sig .tc))) :
    W6 m c (Proc.devRef .tc r) = W5 m c (Proc.devRef .tc r) :=
  keep_region spec2 launch2.win.arr_inj c _ _ r fun w e =>
    ((dat2 (V5 m) c).arrAt_in w (by subst e; revert w; decide) _).trans (A_eq2 (V5 m) c w)

theorem keep7 (c : Dev nD) (r : Ref sig .tc) (h : r ∉ ([main_v50] : List (Ref sig .tc))) :
    W7 m c (Proc.devRef .tc r) = W6 m c (Proc.devRef .tc r) :=
  keep_region spec3 launch3.win.arr_inj c _ _ r fun w e =>
    ((dat3 (V6 m) c).arrAt_in w (by subst e; revert w; decide) _).trans (A_eq3 (V6 m) c w)

theorem keep8 (c : Dev nD) (r : Ref sig .tc) (h : r ∉ hostOps4_W) :
    W8 m c (Proc.devRef .tc r) = W7 m c (Proc.devRef .tc r) :=
  StableHlo.after_of_writes_sub hostOps4 _ hostOps4_writes h

theorem keep9 (c : Dev nD) (r : Ref sig .tc) (h : r ∉ ([main_v67_0, main_v67_1] : List (Ref sig .tc))) :
    W9 m c (Proc.devRef .tc r) = W8 m c (Proc.devRef .tc r) :=
  keep_region spec4 launch4.win.arr_inj c _ _ r fun w e =>
    ((dat4 (V8 m) c).arrAt_in w (by subst e; revert w; decide) _).trans (A_eq4 (V8 m) c w)

theorem keep10 (c : Dev nD) (r : Ref sig .tc) (h : r ∉ hostOps5_W) :
    W10 m c (Proc.devRef .tc r) = W9 m c (Proc.devRef .tc r) :=
  StableHlo.after_of_writes_sub hostOps5 _ hostOps5_writes h

theorem keep11 (c : Dev nD) (r : Ref sig .tc) (h : r ∉ ([main_v70] : List (Ref sig .tc))) :
    W11 m c (Proc.devRef .tc r) = W10 m c (Proc.devRef .tc r) :=
  keep_region spec5 launch5.win.arr_inj c _ _ r fun w e =>
    ((dat5 (V10 m) c).arrAt_in w (by subst e; revert w; decide) _).trans (A_eq5 (V10 m) c w)

theorem keep12 (c : Dev nD) (r : Ref sig .tc) (h : r ∉ ([main_v71] : List (Ref sig .tc))) :
    W12 m c (Proc.devRef .tc r) = W11 m c (Proc.devRef .tc r) :=
  keep_region spec6 launch6.win.arr_inj c _ _ r fun w e =>
    ((dat6 (V11 m) c).arrAt_in w (by subst e; revert w; decide) _).trans (A_eq6 (V11 m) c w)

theorem keep13 (c : Dev nD) (r : Ref sig .tc) (h : r ∉ hostOps7_W) :
    W13 m c (Proc.devRef .tc r) = W12 m c (Proc.devRef .tc r) :=
  StableHlo.after_of_writes_sub hostOps7 _ hostOps7_writes h

theorem keep14 (c : Dev nD) (r : Ref sig .tc) (h : r ∉ ([main_v88_0, main_v88_1] : List (Ref sig .tc))) :
    W14 m c (Proc.devRef .tc r) = W13 m c (Proc.devRef .tc r) :=
  keep_region spec7 launch7.win.arr_inj c _ _ r fun w e =>
    ((dat7 (V13 m) c).arrAt_in w (by subst e; revert w; decide) _).trans (A_eq7 (V13 m) c w)

theorem keep15 (c : Dev nD) (r : Ref sig .tc) (h : r ∉ hostOps8_W) :
    W15 m c (Proc.devRef .tc r) = W14 m c (Proc.devRef .tc r) :=
  StableHlo.after_of_writes_sub hostOps8 _ hostOps8_writes h

theorem keep16 (c : Dev nD) (r : Ref sig .tc) (h : r ∉ ([main_v91] : List (Ref sig .tc))) :
    W16 m c (Proc.devRef .tc r) = W15 m c (Proc.devRef .tc r) :=
  keep_region spec8 launch8.win.arr_inj c _ _ r fun w e =>
    ((dat8 (V15 m) c).arrAt_in w (by subst e; revert w; decide) _).trans (A_eq8 (V15 m) c w)

theorem keep17 (c : Dev nD) (r : Ref sig .tc) (h : r ∉ hostOps9_W) :
    W17 m c (Proc.devRef .tc r) = W16 m c (Proc.devRef .tc r) :=
  StableHlo.after_of_writes_sub hostOps9 _ hostOps9_writes h

theorem keep18 (c : Dev nD) (r : Ref sig .tc) (h : r ∉ ([main_v93_0, main_v93_1] : List (Ref sig .tc))) :
    W18 m c (Proc.devRef .tc r) = W17 m c (Proc.devRef .tc r) :=
  keep_region spec9 launch9.win.arr_inj c _ _ r fun w e =>
    ((dat9 (V17 m) c).arrAt_in w (by subst e; revert w; decide) _).trans (A_eq9 (V17 m) c w)

theorem keep19 (c : Dev nD) (r : Ref sig .tc) (h : r ∉ hostOps10_W) :
    W19 m c (Proc.devRef .tc r) = W18 m c (Proc.devRef .tc r) :=
  StableHlo.after_of_writes_sub hostOps10 _ hostOps10_writes h

end Cert.KernelIdeal.Hand

end
-- ==== Proof.KernelIdeal.Segs.lean ====
import proofs.«403168_j28509992910998_1_alg».proof.Proof.KernelIdeal.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (BodyObligation)

variable {F : FTy → Type} [FloatOps F]

variable (m : (ℓ : Loc nD τ sig) → Buf (Elt F) ℓ)

set_option backward.isDefEq.respectTransparency.types false

/-- The region from contents `W` to contents `W'`: `W'` agrees with `W` off the windows' arrays and holds their final contents on them. -/
def regOf (p : Fin 10) (lf : Pipeline.LaunchFacts (nD := nD) (τ := τ) cfgs p) (W W' : Dev nD → Valuation τ sig (Elt F))
    (hB : ∀ c, BodyObligation (pdats m p c) defs₀ 𝒱₀ () Set.univ)
    (hI : ∀ c, Pipeline.ΦA (cfgs p).spec c ⊢ (pdats m p c).Φ 0)
    (hO : ∀ c, (pdats m p c).Φ (Fin.last (cfgs p).N) ⊢ Pipeline.ΦA (cfgs p).spec c)
    (hF : ∀ c w, (pdats m p c).arrAt w (cfgs p).N = W' c (Pipeline.arrRef (cfgs p).spec w))
    (hR : ∀ c b, b ∉ Finset.univ.image (Pipeline.arrRef (cfgs p).spec) → W' c b = W c b)
    (hq : ∀ c w, (pdats m p c).q w = fullShare := by exact fun _ _ => rfl)
    (hz : ∀ c t, (pdats m p c).owed t = 0 := by exact fun _ _ => rfl)
    (hA : ∀ c w, (pdats m p c).A w = W c (Pipeline.arrRef (cfgs p).spec w) := by exact fun _ _ => rfl)
    (hu : ∀ c, Set.univ ⊆ (pdats m p c).recorded 0 := by exact fun _ _ => id) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hB c).loose
  hwaits := Pipeline.hwaits_of_owed_zero _ _ _ _ L lv p hz
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (cfgs p).spec c fun b => W c b
  hentry c := by
    rw [Pipeline.ownSems0_none]
    have hsplit := Pipeline.arrays_of_unscopedBufs (p := p) _ _ (pdats m) lf.win lf.arr_whole c
      ((pdats m p c).share_full (hq c)) (fun b => W c b) (hA c)
    rw [Pipeline.unscopedBufs_held] at hsplit
    unfold Pipeline.prefHeld Pipeline.Dat.owesAt Pipeline.owesWithin
    rw [show (Finset.univ : Finset (Fin 0)) = ∅ from rfl, BI.bigSep_empty, hz]
    iintro ⟨⟨Hub, Hp, %T, HO⟩, -, -⟩
    icases hsplit $$ Hub with ⟨Ha, Hrest⟩
    imodintro
    iframe
    isplitr; · iempintro
    iexists T
    iframe
    ipureintro; exact fun x _ => Or.inl (hu c (Set.mem_univ x))
  hin c := by
    refine (?_ : _ ⊢ Pipeline.ΦA (cfgs p).spec c).trans (hI c)
    unfold Pipeline.ΦA
    iintro ⟨Hp, -, Hr⟩
    iframe
  hout c := by
    rw [Pipeline.ownSems0_none]
    refine (hO c).trans (?_ : Pipeline.ΦA (cfgs p).spec c ⊢ _)
    unfold Pipeline.ΦA
    iintro ⟨Hr, Hp⟩
    iframe
    iempintro
  hexit c := by
    have hjoin := Pipeline.unscopedBufs_of_arrays (p := p) _ _
      lf.win lf.arr_whole c (pdats m) ((pdats m p c).share_full (hq c))
      (fun b => W c b) (fun b => W' c b) ((pdats m p c).arrAt · (cfgs p).N) (hF c) (hR c)
    rw [Pipeline.unscopedBufs_held] at hjoin
    unfold Pipeline.Dat.owesAt Pipeline.owesWithin
    rw [hz]
    iintro ⟨Ha, ⟨%T, -, HO⟩, HY, Hrest⟩
    imodintro
    isplitl [Ha Hrest]
    · iapply hjoin; iframe
    isplitl [HY]; · iexact HY
    iexists T; iexact HO

def reg0 : Pipeline.RegionSeg (pcfgs (F := F)) adm (pdats m) () defs₀ 𝒱₀ L lv 0 :=
  regOf m 0 launch0 (W1 m) (W2 m) (body_obligation0 (V1 m)) (hin0 (V1 m)) (hout0 (V1 m)) (hF0 m) (hrest0 m)

def reg1 : Pipeline.RegionSeg (pcfgs (F := F)) adm (pdats m) () defs₀ 𝒱₀ L lv 1 :=
  regOf m 1 launch1 (W3 m) (W4 m) (body_obligation1 (V3 m)) (hin1 (V3 m)) (hout1 (V3 m)) (hF1 m) (hrest1 m)

def reg2 : Pipeline.RegionSeg (pcfgs (F := F)) adm (pdats m) () defs₀ 𝒱₀ L lv 2 :=
  regOf m 2 launch2 (W5 m) (W6 m) (body_obligation2 (V5 m)) (hin2 (V5 m)) (hout2 (V5 m)) (hF2 m) (hrest2 m)

def reg3 : Pipeline.RegionSeg (pcfgs (F := F)) adm (pdats m) () defs₀ 𝒱₀ L lv 3 :=
  regOf m 3 launch3 (W6 m) (W7 m) (body_obligation3 (V6 m)) (hin3 (V6 m)) (hout3 (V6 m)) (hF3 m) (hrest3 m)

def reg4 : Pipeline.RegionSeg (pcfgs (F := F)) adm (pdats m) () defs₀ 𝒱₀ L lv 4 :=
  regOf m 4 launch4 (W8 m) (W9 m) (body_obligation4 (V8 m)) (hin4 (V8 m)) (hout4 (V8 m)) (hF4 m) (hrest4 m)

def reg5 : Pipeline.RegionSeg (pcfgs (F := F)) adm (pdats m) () defs₀ 𝒱₀ L lv 5 :=
  regOf m 5 launch5 (W10 m) (W11 m) (body_obligation5 (V10 m)) (hin5 (V10 m)) (hout5 (V10 m)) (hF5 m) (hrest5 m)

def reg6 : Pipeline.RegionSeg (pcfgs (F := F)) adm (pdats m) () defs₀ 𝒱₀ L lv 6 :=
  regOf m 6 launch6 (W11 m) (W12 m) (body_obligation6 (V11 m)) (hin6 (V11 m)) (hout6 (V11 m)) (hF6 m) (hrest6 m)

def reg7 : Pipeline.RegionSeg (pcfgs (F := F)) adm (pdats m) () defs₀ 𝒱₀ L lv 7 :=
  regOf m 7 launch7 (W13 m) (W14 m) (body_obligation7 (V13 m)) (hin7 (V13 m)) (hout7 (V13 m)) (hF7 m) (hrest7 m)

def reg8 : Pipeline.RegionSeg (pcfgs (F := F)) adm (pdats m) () defs₀ 𝒱₀ L lv 8 :=
  regOf m 8 launch8 (W15 m) (W16 m) (body_obligation8 (V15 m)) (hin8 (V15 m)) (hout8 (V15 m)) (hF8 m) (hrest8 m)

def reg9 : Pipeline.RegionSeg (pcfgs (F := F)) adm (pdats m) () defs₀ 𝒱₀ L lv 9 :=
  regOf m 9 launch9 (W17 m) (W18 m) (body_obligation9 (V17 m)) (hin9 (V17 m)) (hout9 (V17 m)) (hF9 m) (hrest9 m)

end Cert.KernelIdeal.Hand

end
-- ==== Proof.KernelIdeal.Run.lean ====
import proofs.«403168_j28509992910998_1_alg».proof.Proof.KernelIdeal.Segs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev Tₙ (c : Dev nD) : sProp 𝕄 := iprop(StableHlo.held (c : Thread nD τ) (Pipeline.ucRefs τ sig) (W19 m c) ∗ ∃ r, prngReg c r)

abbrev segs : List (Pipeline.Seg (pcfgs (F := F)) adm (pdats m) () defs₀ 𝒱₀ L lv) :=
  [
    .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .region (reg3 m),
    .host (hseg hostOps4 hostOps4_sub hostOps4_fresh (W7 m)),
    .region (reg4 m),
    .host (hseg hostOps5 hostOps5_sub hostOps5_fresh (W9 m)),
    .region (reg5 m),
    .region (reg6 m),
    .host (hseg hostOps7 hostOps7_sub hostOps7_fresh (W12 m)),
    .region (reg7 m),
    .host (hseg hostOps8 hostOps8_sub hostOps8_fresh (W14 m)),
    .region (reg8 m),
    .host (hseg hostOps9 hostOps9_sub hostOps9_fresh (W16 m)),
    .region (reg9 m),
    .host (hseg hostOps10 hostOps10_sub hostOps10_fresh (W18 m)) ]

theorem main_run (c : Dev nD) : main (F := F) c = Pipeline.Seg.run (segs m) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W19 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m c b)
    (hfin := fun c s' => by
      iintro ⟨⟨Hh, -⟩, HSI⟩
      unfold StableHlo.held
      imodintro
      iapply (pointsTo_read_all (Pipeline.ucRefs τ sig) (fun b => (((c : Thread nD τ)).1, b)) (W19 m c) s')
      isplitl [Hh] <;> iassumption)
    (hQ := fun s h => h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KernelIdeal.Frame.lean ====
import proofs.«403168_j28509992910998_1_alg».proof.Proof.KernelIdeal.Keep
import proofs.«403168_j28509992910998_1_alg».proof.Proof.KernelIdeal.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev argRefs : List (Ref sig .tc) := [main_arg0, main_arg1, main_arg2, main_arg3, main_arg4, main_arg5, main_arg6, main_arg7, main_arg8, main_arg9, main_arg10, main_arg11, main_arg12, main_arg13, main_arg14, main_arg15, main_arg16]

-- No stretch of host operations and no region writes an argument.
theorem W19_arg (c : Dev nD) (r : Ref sig .tc) (hr : r ∈ argRefs) :
    W19 m c (Proc.devRef .tc r) = m ((c : Thread nD τ).loc r) :=
  (keep19 m c r (by revert r; decide)).trans <|
  (keep18 m c r (by revert r; decide)).trans <|
  (keep17 m c r (by revert r; decide)).trans <|
  (keep16 m c r (by revert r; decide)).trans <|
  (keep15 m c r (by revert r; decide)).trans <|
  (keep14 m c r (by revert r; decide)).trans <|
  (keep13 m c r (by revert r; decide)).trans <|
  (keep12 m c r (by revert r; decide)).trans <|
  (keep11 m c r (by revert r; decide)).trans <|
  (keep10 m c r (by revert r; decide)).trans <|
  (keep9 m c r (by revert r; decide)).trans <|
  (keep8 m c r (by revert r; decide)).trans <|
  (keep7 m c r (by revert r; decide)).trans <|
  (keep6 m c r (by revert r; decide)).trans <|
  (keep5 m c r (by revert r; decide)).trans <|
  (keep4 m c r (by revert r; decide)).trans <|
  (keep3 m c r (by revert r; decide)).trans <|
  (keep2 m c r (by revert r; decide)).trans <|
  (keep1 m c r (by revert r; decide)).trans rfl

-- A memory that agrees with the last contents on every unscoped buffer holds the arguments as they were given.
theorem args_kept (c : Dev nD) {mem : (ℓ : Loc nD τ sig) → Buf (Elt F) ℓ}
    (h : ∀ b ∈ Pipeline.ucRefs τ sig, mem (((c : Thread nD τ)).1, b) = W19 m c b) (r : Ref sig .tc) (hr : r ∈ argRefs) :
    mem ((c.tc : Thread nD τ).loc r) = m ((c.tc : Thread nD τ).loc r) :=
  (h _ (mem_uc r (by revert r; decide))).trans (W19_arg m c r hr)

variable (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => by
    have k := args_kept m c (h c)
    exact ⟨k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide), k main_arg13 (by decide), k main_arg14 (by decide), k main_arg15 (by decide), k main_arg16 (by decide)⟩) (run_all m ρ)

end Cert.KernelIdeal.Hand

end
-- ==== Proof.Reference.Ops.lean ====
import proofs.«403168_j28509992910998_1_alg».proof.ReferenceIdeal

noncomputable section

namespace Cert.ReferenceIdeal.Hand

open Cert.ReferenceIdeal Cert.ReferenceIdeal.Facts₀ Cert.ReferenceIdeal.Facts Idealize.ShloMosaic Idealize.SL.Sem

variable {F : FTy → Type} [FloatOps F] [Cert.ReferenceIdeal.Facts]

-- the module-local functions' operations, once, over a call's arguments and its own buffers
abbrev whereOps (cnd : StableHlo.TRef sig ⟨S_, .i1⟩) (val : StableHlo.TRef sig ⟨S128, .f32⟩) (els : StableHlo.TRef sig ⟨S_, .f32⟩)
    (φ : fn_where.Bufs) : List (HloOp τ sig (Elt F)) :=
  [ StableHlo.TRef.unary els φ.v0 id,
    StableHlo.TRef.unary φ.v0 φ.v1 (broadcastInDim S128 ![] bcast_S_S128),
    StableHlo.TRef.ternary cnd val φ.v1 φ.v2 (fun p a b => select (broadcastInDim S128 ![] bcast_S_S128 p) a b) ]

abbrev varOps (x : StableHlo.TRef sig ⟨S50000x128, .f32⟩) (n : StableHlo.TRef sig ⟨S_, .i32⟩) (φ : fn_var.Bufs) :
    List (HloOp τ sig (Elt F)) :=
  [ StableHlo.TRef.nullary φ.cst (constant S_ .f32 0x00000000#32),
    StableHlo.TRef.binary x φ.cst φ.v0 (fun x v => Host.reduceAdd x v reducesTo_S50000x128_S128_d0 h_S_),
    StableHlo.TRef.unary φ.v0 φ.v1 (broadcastInDim S1x128 ![1] bcast_S128_S1x128_1),
    StableHlo.TRef.nullary φ.cst_0 (constant S_ .f32 0x47435000#32),
    StableHlo.TRef.unary φ.cst_0 φ.v2 (broadcastInDim S1x128 ![] bcast_S_S1x128),
    StableHlo.TRef.binary φ.v1 φ.v2 φ.v3 Host.divf,
    StableHlo.TRef.unary φ.v3 φ.v4 (broadcastInDim S50000x128 ![0, 1] bcast_S1x128_S50000x128_0_1),
    StableHlo.TRef.binary x φ.v4 φ.v5 subf,
    StableHlo.TRef.binary φ.v5 φ.v5 φ.v6 mulf,
    StableHlo.TRef.unary n φ.v7 (sitofp .f32),
    StableHlo.TRef.nullary φ.cst_1 (constant S_ .f32 0x47435000#32),
    StableHlo.TRef.binary φ.cst_1 φ.v7 φ.v8 subf,
    StableHlo.TRef.nullary φ.cst_2 (constant S_ .f32 0x00000000#32),
    StableHlo.TRef.binary φ.v6 φ.cst_2 φ.v9 (fun x v => Host.reduceAdd x v reducesTo_S50000x128_S128_d0 h_S_),
    StableHlo.TRef.unary φ.v8 φ.v10 (broadcastInDim S128 ![] bcast_S_S128),
    StableHlo.TRef.binary φ.v9 φ.v10 φ.v11 Host.divf,
    StableHlo.TRef.nullary φ.cst_3 (constant S_ .f32 0x00000000#32),
    StableHlo.TRef.binary φ.v8 φ.cst_3 φ.v12 (cmpf .ogt),
    StableHlo.TRef.nullary φ.cst_4 (constant S_ .f32 0x7FC00000#32) ] ++ whereOps φ.v12 φ.v11 φ.cst_4 φ.call0

abbrev reluOps (x : StableHlo.TRef sig ⟨S50000x128, .f32⟩) (φ : fn_relu.Bufs) : List (HloOp τ sig (Elt F)) :=
  [ StableHlo.TRef.nullary φ.cst (constant S_ .f32 0x00000000#32),
    StableHlo.TRef.unary φ.cst φ.v0 (broadcastInDim S50000x128 ![] bcast_S_S50000x128),
    StableHlo.TRef.binary x φ.v0 φ.v1 maximumf ]

abbrev edgeWeights : List (HloOp τ sig (Elt F)) :=
  [ StableHlo.nullary main_v0 (iotaInDim S50000 32 0),
    StableHlo.unary main_arg1 main_v1 (extractStridedSlice S1x800000 ![0, 0] · slices_S2x800000_S1x800000_0_0),
    StableHlo.reshape main_v1 main_v2 rfl shapeCasts_S1x800000_S800000,
    StableHlo.binary main_v2 main_v0 main_v3 (fun a b => concatenate S850000 0 [⟨S800000, a⟩, ⟨S50000, b⟩] concatenates_S800000_S50000_S850000_d0),
    StableHlo.unary main_arg1 main_v4 (extractStridedSlice S1x800000 ![1, 0] · slices_S2x800000_S1x800000_1_0),
    StableHlo.reshape main_v4 main_v5 rfl shapeCasts_S1x800000_S800000,
    StableHlo.binary main_v5 main_v0 main_v6 (fun a b => concatenate S850000 0 [⟨S800000, a⟩, ⟨S50000, b⟩] concatenates_S800000_S50000_S850000_d0),
    StableHlo.nullary main_cst (constant S_ .f32 0x3F800000#32),
    StableHlo.unary main_cst main_v7 (broadcastInDim S850000 ![] bcast_S_S850000),
    StableHlo.nullary main_cst_0 (constant S_ .f32 0x00000000#32),
    StableHlo.unary main_cst_0 main_v8 (broadcastInDim S50000 ![] bcast_S_S50000),
    StableHlo.unary main_v6 main_v9 (broadcastInDim S850000x1 ![0] bcast_S850000_S850000x1_0),
    StableHlo.ternary main_v8 main_v9 main_v7 main_v10 (Host.scatterAdd scatter_S50000_S850000x1_S850000_n_0_0_1),
    StableHlo.nullary main_cst_1 (constant S_ .f32 0x3F800000#32),
    StableHlo.unary main_cst_1 main_v11 (broadcastInDim S50000 ![] bcast_S_S50000),
    StableHlo.binary main_v10 main_v11 main_v12 maximumf,
    StableHlo.unary main_v12 main_v13 Host.rsqrt,
    StableHlo.nullary main_c (constantI S_ 32 0#32),
    StableHlo.unary main_c main_v14 (broadcastInDim S850000 ![] bcast_S_S850000),
    StableHlo.binary main_v3 main_v14 main_v15 (cmpi .slt),
    StableHlo.nullary main_c_2 (constantI S_ 32 50000#32),
    StableHlo.unary main_c_2 main_v16 (broadcastInDim S850000 ![] bcast_S_S850000),
    StableHlo.binary main_v3 main_v16 main_v17 addi,
    StableHlo.ternary main_v15 main_v17 main_v3 main_v18 select,
    StableHlo.unary main_v18 main_v19 (broadcastInDim S850000x1 ![0] bcast_S850000_S850000x1_0),
    StableHlo.binary main_v13 main_v19 main_v20 (Host.gather gather_S50000_S850000x1_S850000_n_0_n_n_0_1_1),
    StableHlo.nullary main_c_3 (constantI S_ 32 0#32),
    StableHlo.unary main_c_3 main_v21 (broadcastInDim S850000 ![] bcast_S_S850000),
    StableHlo.binary main_v6 main_v21 main_v22 (cmpi .slt),
    StableHlo.nullary main_c_4 (constantI S_ 32 50000#32),
    StableHlo.unary main_c_4 main_v23 (broadcastInDim S850000 ![] bcast_S_S850000),
    StableHlo.binary main_v6 main_v23 main_v24 addi,
    StableHlo.ternary main_v22 main_v24 main_v6 main_v25 select,
    StableHlo.unary main_v25 main_v26 (broadcastInDim S850000x1 ![0] bcast_S850000_S850000x1_0),
    StableHlo.binary main_v13 main_v26 main_v27 (Host.gather gather_S50000_S850000x1_S850000_n_0_n_n_0_1_1),
    StableHlo.binary main_v20 main_v27 main_v28 mulf ]

abbrev propagate1 : List (HloOp τ sig (Elt F)) :=
  [ StableHlo.binary main_arg0 main_arg3 main_v29 (Host.dotGeneral dot_S50000x128_S128x128_S50000x128_1_0_0_1_n_n none),
    StableHlo.nullary main_c_5 (constantI S_ 32 0#32),
    StableHlo.unary main_c_5 main_v30 (broadcastInDim S850000 ![] bcast_S_S850000),
    StableHlo.binary main_v3 main_v30 main_v31 (cmpi .slt),
    StableHlo.nullary main_c_6 (constantI S_ 32 50000#32),
    StableHlo.unary main_c_6 main_v32 (broadcastInDim S850000 ![] bcast_S_S850000),
    StableHlo.binary main_v3 main_v32 main_v33 addi,
    StableHlo.ternary main_v31 main_v33 main_v3 main_v34 select,
    StableHlo.unary main_v34 main_v35 (broadcastInDim S850000x1 ![0] bcast_S850000_S850000x1_0),
    StableHlo.binary main_v29 main_v35 main_v36 (Host.gather gather_S50000x128_S850000x1_S850000x128_1_0_n_n_0_1_1128),
    StableHlo.unary main_v28 main_v37 (broadcastInDim S850000x1 ![0] bcast_S850000_S850000x1_0),
    StableHlo.unary main_v37 main_v38 (broadcastInDim S850000x128 ![0, 1] bcast_S850000x1_S850000x128_0_1),
    StableHlo.binary main_v36 main_v38 main_v39 mulf,
    StableHlo.nullary main_cst_7 (constant S_ .f32 0x00000000#32),
    StableHlo.unary main_cst_7 main_v40 (broadcastInDim S50000x128 ![] bcast_S_S50000x128),
    StableHlo.unary main_v6 main_v41 (broadcastInDim S850000x1 ![0] bcast_S850000_S850000x1_0),
    StableHlo.ternary main_v40 main_v41 main_v39 main_v42 (Host.scatterAdd scatter_S50000x128_S850000x1_S850000x128_1_0_0_1),
    StableHlo.unary main_arg4 main_v43 (broadcastInDim S1x128 ![1] bcast_S128_S1x128_1),
    StableHlo.unary main_v43 main_v44 (broadcastInDim S50000x128 ![0, 1] bcast_S1x128_S50000x128_0_1),
    StableHlo.binary main_v42 main_v44 main_v45 addf ]

abbrev columnSums1 : List (HloOp τ sig (Elt F)) :=
  [ StableHlo.nullary main_cst_8 (constant S_ .f32 0x00000000#32),
    StableHlo.binary main_v45 main_cst_8 main_v46 (fun x v => Host.reduceAdd x v reducesTo_S50000x128_S128_d0 h_S_),
    StableHlo.nullary main_cst_9 (constant S_ .f32 0x47435000#32),
    StableHlo.unary main_cst_9 main_v47 (broadcastInDim S128 ![] bcast_S_S128) ]

abbrev moments1 : List (HloOp τ sig (Elt F)) :=
  [ StableHlo.binary main_v46 main_v47 main_v48 Host.divf,
    StableHlo.nullary main_c_10 (constantI S_ 32 0#32) ] ++ varOps (.of main_v45) (.of main_c_10) main_call0

abbrev standardise1 : List (HloOp τ sig (Elt F)) :=
  [ StableHlo.unary main_v48 main_v50 (broadcastInDim S1x128 ![1] bcast_S128_S1x128_1),
    StableHlo.unary main_v50 main_v51 (broadcastInDim S50000x128 ![0, 1] bcast_S1x128_S50000x128_0_1),
    StableHlo.binary main_v45 main_v51 main_v52 subf,
    StableHlo.nullary main_cst_11 (constant S_ .f32 0x3727C5AC#32),
    StableHlo.unary main_cst_11 main_v53 (broadcastInDim S128 ![] bcast_S_S128),
    StableHlo.binary main_v49 main_v53 main_v54 addf,
    StableHlo.unary main_v54 main_v55 Host.rsqrt,
    StableHlo.unary main_v55 main_v56 (broadcastInDim S1x128 ![1] bcast_S128_S1x128_1),
    StableHlo.unary main_v56 main_v57 (broadcastInDim S50000x128 ![0, 1] bcast_S1x128_S50000x128_0_1),
    StableHlo.binary main_v52 main_v57 main_v58 mulf,
    StableHlo.unary main_arg5 main_v59 (broadcastInDim S1x128 ![1] bcast_S128_S1x128_1),
    StableHlo.unary main_v59 main_v60 (broadcastInDim S50000x128 ![0, 1] bcast_S1x128_S50000x128_0_1),
    StableHlo.binary main_v58 main_v60 main_v61 mulf,
    StableHlo.unary main_arg6 main_v62 (broadcastInDim S1x128 ![1] bcast_S128_S1x128_1),
    StableHlo.unary main_v62 main_v63 (broadcastInDim S50000x128 ![0, 1] bcast_S1x128_S50000x128_0_1),
    StableHlo.binary main_v61 main_v63 main_v64 addf ] ++ reluOps (.of main_v64) main_call1

abbrev propagate2 : List (HloOp τ sig (Elt F)) :=
  [ StableHlo.binary main_v65 main_arg7 main_v66 (Host.dotGeneral dot_S50000x128_S128x128_S50000x128_1_0_0_1_n_n none),
    StableHlo.nullary main_c_12 (constantI S_ 32 0#32),
    StableHlo.unary main_c_12 main_v67 (broadcastInDim S850000 ![] bcast_S_S850000),
    StableHlo.binary main_v3 main_v67 main_v68 (cmpi .slt),
    StableHlo.nullary main_c_13 (constantI S_ 32 50000#32),
    StableHlo.unary main_c_13 main_v69 (broadcastInDim S850000 ![] bcast_S_S850000),
    StableHlo.binary main_v3 main_v69 main_v70 addi,
    StableHlo.ternary main_v68 main_v70 main_v3 main_v71 select,
    StableHlo.unary main_v71 main_v72 (broadcastInDim S850000x1 ![0] bcast_S850000_S850000x1_0),
    StableHlo.binary main_v66 main_v72 main_v73 (Host.gather gather_S50000x128_S850000x1_S850000x128_1_0_n_n_0_1_1128),
    StableHlo.unary main_v28 main_v74 (broadcastInDim S850000x1 ![0] bcast_S850000_S850000x1_0),
    StableHlo.unary main_v74 main_v75 (broadcastInDim S850000x128 ![0, 1] bcast_S850000x1_S850000x128_0_1),
    StableHlo.binary main_v73 main_v75 main_v76 mulf,
    StableHlo.nullary main_cst_14 (constant S_ .f32 0x00000000#32),
    StableHlo.unary main_cst_14 main_v77 (broadcastInDim S50000x128 ![] bcast_S_S50000x128),
    StableHlo.unary main_v6 main_v78 (broadcastInDim S850000x1 ![0] bcast_S850000_S850000x1_0),
    StableHlo.ternary main_v77 main_v78 main_v76 main_v79 (Host.scatterAdd scatter_S50000x128_S850000x1_S850000x128_1_0_0_1),
    StableHlo.unary main_arg8 main_v80 (broadcastInDim S1x128 ![1] bcast_S128_S1x128_1),
    StableHlo.unary main_v80 main_v81 (broadcastInDim S50000x128 ![0, 1] bcast_S1x128_S50000x128_0_1),
    StableHlo.binary main_v79 main_v81 main_v82 addf ]

abbrev moments2 : List (HloOp τ sig (Elt F)) :=
  [ StableHlo.nullary main_cst_15 (constant S_ .f32 0x00000000#32),
    StableHlo.binary main_v82 main_cst_15 main_v83 (fun x v => Host.reduceAdd x v reducesTo_S50000x128_S128_d0 h_S_),
    StableHlo.nullary main_cst_16 (constant S_ .f32 0x47435000#32),
    StableHlo.unary main_cst_16 main_v84 (broadcastInDim S128 ![] bcast_S_S128),
    StableHlo.binary main_v83 main_v84 main_v85 Host.divf,
    StableHlo.nullary main_c_17 (constantI S_ 32 0#32) ] ++ varOps (.of main_v82) (.of main_c_17) main_call2

abbrev standardise2a : List (HloOp τ sig (Elt F)) :=
  [ StableHlo.unary main_v85 main_v87 (broadcastInDim S1x128 ![1] bcast_S128_S1x128_1),
    StableHlo.unary main_v87 main_v88 (broadcastInDim S50000x128 ![0, 1] bcast_S1x128_S50000x128_0_1),
    StableHlo.binary main_v82 main_v88 main_v89 subf,
    StableHlo.nullary main_cst_18 (constant S_ .f32 0x3727C5AC#32),
    StableHlo.unary main_cst_18 main_v90 (broadcastInDim S128 ![] bcast_S_S128),
    StableHlo.binary main_v86 main_v90 main_v91 addf,
    StableHlo.unary main_v91 main_v92 Host.rsqrt,
    StableHlo.unary main_v92 main_v93 (broadcastInDim S1x128 ![1] bcast_S128_S1x128_1),
    StableHlo.unary main_v93 main_v94 (broadcastInDim S50000x128 ![0, 1] bcast_S1x128_S50000x128_0_1),
    StableHlo.binary main_v89 main_v94 main_v95 mulf,
    StableHlo.unary main_arg9 main_v96 (broadcastInDim S1x128 ![1] bcast_S128_S1x128_1),
    StableHlo.unary main_v96 main_v97 (broadcastInDim S50000x128 ![0, 1] bcast_S1x128_S50000x128_0_1),
    StableHlo.binary main_v95 main_v97 main_v98 mulf ]

abbrev standardise2b : List (HloOp τ sig (Elt F)) :=
  [ StableHlo.unary main_arg10 main_v99 (broadcastInDim S1x128 ![1] bcast_S128_S1x128_1),
    StableHlo.unary main_v99 main_v100 (broadcastInDim S50000x128 ![0, 1] bcast_S1x128_S50000x128_0_1),
    StableHlo.binary main_v98 main_v100 main_v101 addf ] ++ reluOps (.of main_v101) main_call3

abbrev propagate3 : List (HloOp τ sig (Elt F)) :=
  [ StableHlo.binary main_v102 main_arg11 main_v103 (Host.dotGeneral dot_S50000x128_S128x128_S50000x128_1_0_0_1_n_n none),
    StableHlo.nullary main_c_19 (constantI S_ 32 0#32),
    StableHlo.unary main_c_19 main_v104 (broadcastInDim S850000 ![] bcast_S_S850000),
    StableHlo.binary main_v3 main_v104 main_v105 (cmpi .slt),
    StableHlo.nullary main_c_20 (constantI S_ 32 50000#32),
    StableHlo.unary main_c_20 main_v106 (broadcastInDim S850000 ![] bcast_S_S850000),
    StableHlo.binary main_v3 main_v106 main_v107 addi,
    StableHlo.ternary main_v105 main_v107 main_v3 main_v108 select,
    StableHlo.unary main_v108 main_v109 (broadcastInDim S850000x1 ![0] bcast_S850000_S850000x1_0),
    StableHlo.binary main_v103 main_v109 main_v110 (Host.gather gather_S50000x128_S850000x1_S850000x128_1_0_n_n_0_1_1128),
    StableHlo.unary main_v28 main_v111 (broadcastInDim S850000x1 ![0] bcast_S850000_S850000x1_0),
    StableHlo.unary main_v111 main_v112 (broadcastInDim S850000x128 ![0, 1] bcast_S850000x1_S850000x128_0_1),
    StableHlo.binary main_v110 main_v112 main_v113 mulf,
    StableHlo.nullary main_cst_21 (constant S_ .f32 0x00000000#32),
    StableHlo.unary main_cst_21 main_v114 (broadcastInDim S50000x128 ![] bcast_S_S50000x128),
    StableHlo.unary main_v6 main_v115 (broadcastInDim S850000x1 ![0] bcast_S850000_S850000x1_0),
    StableHlo.ternary main_v114 main_v115 main_v113 main_v116 (Host.scatterAdd scatter_S50000x128_S850000x1_S850000x128_1_0_0_1),
    StableHlo.unary main_arg12 main_v117 (broadcastInDim S1x128 ![1] bcast_S128_S1x128_1),
    StableHlo.unary main_v117 main_v118 (broadcastInDim S50000x128 ![0, 1] bcast_S1x128_S50000x128_0_1),
    StableHlo.binary main_v116 main_v118 main_v119 addf ]

abbrev moments3 : List (HloOp τ sig (Elt F)) :=
  [ StableHlo.nullary main_cst_22 (constant S_ .f32 0x00000000#32),
    StableHlo.binary main_v119 main_cst_22 main_v120 (fun x v => Host.reduceAdd x v reducesTo_S50000x128_S128_d0 h_S_),
    StableHlo.nullary main_cst_23 (constant S_ .f32 0x47435000#32),
    StableHlo.unary main_cst_23 main_v121 (broadcastInDim S128 ![] bcast_S_S128),
    StableHlo.binary main_v120 main_v121 main_v122 Host.divf,
    StableHlo.nullary main_c_24 (constantI S_ 32 0#32) ] ++ varOps (.of main_v119) (.of main_c_24) main_call4

abbrev standardise3 : List (HloOp τ sig (Elt F)) :=
  [ StableHlo.unary main_v122 main_v124 (broadcastInDim S1x128 ![1] bcast_S128_S1x128_1),
    StableHlo.unary main_v124 main_v125 (broadcastInDim S50000x128 ![0, 1] bcast_S1x128_S50000x128_0_1),
    StableHlo.binary main_v119 main_v125 main_v126 subf,
    StableHlo.nullary main_cst_25 (constant S_ .f32 0x3727C5AC#32),
    StableHlo.unary main_cst_25 main_v127 (broadcastInDim S128 ![] bcast_S_S128),
    StableHlo.binary main_v123 main_v127 main_v128 addf,
    StableHlo.unary main_v128 main_v129 Host.rsqrt,
    StableHlo.unary main_v129 main_v130 (broadcastInDim S1x128 ![1] bcast_S128_S1x128_1),
    StableHlo.unary main_v130 main_v131 (broadcastInDim S50000x128 ![0, 1] bcast_S1x128_S50000x128_0_1),
    StableHlo.binary main_v126 main_v131 main_v132 mulf,
    StableHlo.unary main_arg13 main_v133 (broadcastInDim S1x128 ![1] bcast_S128_S1x128_1),
    StableHlo.unary main_v133 main_v134 (broadcastInDim S50000x128 ![0, 1] bcast_S1x128_S50000x128_0_1),
    StableHlo.binary main_v132 main_v134 main_v135 mulf,
    StableHlo.unary main_arg14 main_v136 (broadcastInDim S1x128 ![1] bcast_S128_S1x128_1),
    StableHlo.unary main_v136 main_v137 (broadcastInDim S50000x128 ![0, 1] bcast_S1x128_S50000x128_0_1),
    StableHlo.binary main_v135 main_v137 main_v138 addf ] ++ reluOps (.of main_v138) main_call5

abbrev pool : List (HloOp τ sig (Elt F)) :=
  [ StableHlo.nullary main_cst_26 (constant S_ .f32 0x3F800000#32),
    StableHlo.unary main_cst_26 main_v140 (broadcastInDim S50000 ![] bcast_S_S50000),
    StableHlo.nullary main_cst_27 (constant S_ .f32 0x00000000#32),
    StableHlo.unary main_cst_27 main_v141 (broadcastInDim S64 ![] bcast_S_S64),
    StableHlo.unary main_arg2 main_v142 (broadcastInDim S50000x1 ![0] bcast_S50000_S50000x1_0),
    StableHlo.ternary main_v141 main_v142 main_v140 main_v143 (Host.scatterAdd scatter_S64_S50000x1_S50000_n_0_0_1),
    StableHlo.nullary main_cst_28 (constant S_ .f32 0x00000000#32),
    StableHlo.unary main_cst_28 main_v144 (broadcastInDim S64x128 ![] bcast_S_S64x128),
    StableHlo.unary main_arg2 main_v145 (broadcastInDim S50000x1 ![0] bcast_S50000_S50000x1_0),
    StableHlo.ternary main_v144 main_v145 main_v139 main_v146 (Host.scatterAdd scatter_S64x128_S50000x1_S50000x128_1_0_0_1),
    StableHlo.nullary main_cst_29 (constant S_ .f32 0x3F800000#32),
    StableHlo.unary main_cst_29 main_v147 (broadcastInDim S64 ![] bcast_S_S64) ]

abbrev readout : List (HloOp τ sig (Elt F)) :=
  [ StableHlo.binary main_v143 main_v147 main_v148 maximumf,
    StableHlo.unary main_v148 main_v149 (broadcastInDim S64x1 ![0] bcast_S64_S64x1_0),
    StableHlo.unary main_v149 main_v150 (broadcastInDim S64x128 ![0, 1] bcast_S64x1_S64x128_0_1),
    StableHlo.binary main_v146 main_v150 main_v151 Host.divf,
    StableHlo.binary main_v151 main_arg15 main_v152 (Host.dotGeneral dot_S64x128_S128x1_S64x1_1_0_0_1_n_n none),
    StableHlo.unary main_arg16 main_v153 (broadcastInDim S1x1 ![1] bcast_S1_S1x1_1),
    StableHlo.unary main_v153 main_v154 (broadcastInDim S64x1 ![0, 1] bcast_S1x1_S64x1_0_1),
    StableHlo.binary main_v152 main_v154 main_v155 addf,
    StableHlo.unary main_v155 main_v156 Host.negf,
    StableHlo.unary main_v156 main_v157 Host.exp,
    StableHlo.nullary main_cst_30 (constant S_ .f32 0x3F800000#32),
    StableHlo.unary main_cst_30 main_v158 (broadcastInDim S64x1 ![] bcast_S_S64x1),
    StableHlo.binary main_v158 main_v157 main_v159 addf,
    StableHlo.nullary main_cst_31 (constant S_ .f32 0x3F800000#32),
    StableHlo.unary main_cst_31 main_v160 (broadcastInDim S64x1 ![] bcast_S_S64x1),
    StableHlo.binary main_v160 main_v159 main_v161 Host.divf ]

abbrev window0 : List (HloOp τ sig (Elt F)) := edgeWeights ++ propagate1 ++ columnSums1

abbrev window1 : List (HloOp τ sig (Elt F)) := moments1 ++ standardise1 ++ propagate2 ++ moments2 ++ standardise2a

abbrev window2 : List (HloOp τ sig (Elt F)) := standardise2b ++ propagate3 ++ moments3 ++ standardise3 ++ pool

abbrev window3 : List (HloOp τ sig (Elt F)) := readout

abbrev ops : List (HloOp τ sig (Elt F)) := window0 ++ (window1 ++ (window2 ++ window3))

end Cert.ReferenceIdeal.Hand

end
-- ==== Proof.Reference.Run.lean ====
import proofs.«403168_j28509992910998_1_alg».proof.Proof.Reference.Ops
import Idealize.ShloMosaic.Lib.StableHlo.Run
import Idealize.ShloMosaic.Lib.Pipeline.Frame

noncomputable section

namespace Cert.ReferenceIdeal.Hand

open Cert.ReferenceIdeal Cert.ReferenceIdeal.Facts₀ Cert.ReferenceIdeal.Facts Idealize.ShloMosaic Idealize.ShloMosaic.TcCoe
  Idealize.SL.Sem Idealize.ShloMosaic.StableHlo

variable {F : FTy → Type} [FloatOps F] [Cert.ReferenceIdeal.Facts]

theorem main_part0_eq (c : Dev nD) : main_part0 (F := F) c = seq window0 := rfl

-- a callee's closing return followed by the caller's next statement is that statement, and sequencing is one chain
theorem main_part1_eq (c : Dev nD) : main_part1 (F := F) c = seq window1 := by
  simp only [main_part1, fn_var.body, fn_where.body, fn_relu.body, varOps, whereOps, reluOps, window1, moments1, standardise1, propagate2, moments2,
    standardise2a, List.cons_append, List.nil_append, seq, bind_assoc, pure_bind]
  rfl

theorem main_part2_eq (c : Dev nD) : main_part2 (F := F) c = seq window2 := by
  simp only [main_part2, fn_var.body, fn_where.body, fn_relu.body, varOps, whereOps, reluOps, window2, standardise2b, propagate3, moments3, standardise3,
    pool, List.cons_append, List.nil_append, seq, bind_assoc, pure_bind]
  rfl

theorem main_part3_eq (c : Dev nD) : main_part3 (F := F) c = seq window3 := rfl

theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

-- the operations of `L` name only the program's buffers, determine their results, and write nothing numbered below `n`
def Clean (n : ℕ) (L : List (HloOp τ sig (Elt F))) : Prop :=
  ∀ op ∈ L, op.bufs ⊆ tcRefs τ sig ∧ op.fresh = ∅ ∧ ∀ r : Ref sig .tc, r.idx.val < n → Proc.devRef .tc r ∉ op.writes

theorem Clean.nil {n : ℕ} : Clean n ([] : List (HloOp τ sig (Elt F))) := fun _ h => nomatch h

-- an operation whose one result is numbered `n` or more writes nothing below `n`
theorem Clean.cons {n : ℕ} {op : HloOp τ sig (Elt F)} {L : List (HloOp τ sig (Elt F))} {y : Ref sig .tc}
    (hb : op.bufs ⊆ tcRefs τ sig) (hf : op.fresh = ∅) (hw : op.writes = {Proc.devRef .tc y}) (hy : n ≤ y.idx.val)
    (hL : Clean n L) : Clean n (op :: L) :=
  List.forall_mem_cons.mpr ⟨⟨hb, hf, fun r hr hm => by
    rw [hw, Finset.mem_singleton] at hm
    obtain rfl := Proc.devRef_injective _ hm
    exact Nat.not_lt.mpr hy hr⟩, hL⟩

theorem Clean.append {m n : ℕ} {L₁ L₂ : List (HloOp τ sig (Elt F))} (h₁ : Clean m L₁) (h₂ : Clean n L₂)
    (hmn : m ≤ n := by decide) : Clean m (L₁ ++ L₂) :=
  fun op h => (List.mem_append.mp h).elim (h₁ op) fun h' =>
    ⟨(h₂ op h').1, (h₂ op h').2.1, fun r hr => (h₂ op h').2.2 r (Nat.lt_of_lt_of_le hr hmn)⟩

-- a reference below `n` is no operation's result, so it holds afterwards what it held before
theorem Clean.after {n : ℕ} {L : List (HloOp τ sig (Elt F))} (h : Clean n L) (V : Valuation τ sig (Elt F)) (r : Ref sig .tc)
    (hr : r.idx.val < n := by decide) : after L V (Proc.devRef .tc r) = V (Proc.devRef .tc r) :=
  after_of_forall_not_mem L V fun op ho => (h op ho).2.2 r hr

-- entry by entry of a literal list: each builder names only the program's own references and writes its one result
local macro "clean" : tactic =>
  `(tactic| repeat (first
      | exact Clean.nil
      | refine Clean.cons (by simp only [nullary_bufs_sub, unary_bufs_sub, binary_bufs_sub, ternary_bufs_sub, reshape_bufs_sub])
          rfl rfl (by decide) ?_))

theorem edgeWeights_clean : Clean 17 (edgeWeights (F := F)) := by clean
theorem propagate1_clean : Clean 53 (propagate1 (F := F)) := by clean
theorem columnSums1_clean : Clean 53 (columnSums1 (F := F)) := by clean
theorem moments1_clean : Clean 53 (moments1 (F := F)) := by clean
theorem standardise1_clean : Clean 53 (standardise1 (F := F)) := by clean
theorem propagate2_clean : Clean 53 (propagate2 (F := F)) := by clean
theorem moments2_clean : Clean 53 (moments2 (F := F)) := by clean
theorem standardise2a_clean : Clean 53 (standardise2a (F := F)) := by clean
theorem standardise2b_clean : Clean 53 (standardise2b (F := F)) := by clean
theorem propagate3_clean : Clean 53 (propagate3 (F := F)) := by clean
theorem moments3_clean : Clean 53 (moments3 (F := F)) := by clean
theorem standardise3_clean : Clean 53 (standardise3 (F := F)) := by clean
theorem pool_clean : Clean 53 (pool (F := F)) := by clean
theorem readout_clean : Clean 53 (readout (F := F)) := by clean

theorem ops_clean : Clean 17 (ops (F := F)) :=
  ((edgeWeights_clean.append propagate1_clean).append columnSums1_clean).append
    (((((moments1_clean.append standardise1_clean).append propagate2_clean).append moments2_clean).append standardise2a_clean).append
      (((((standardise2b_clean.append propagate3_clean).append moments3_clean).append standardise3_clean).append pool_clean).append
        readout_clean))

-- @main ends on every fair schedule, each buffer at the fold of the operations' results over the launch contents
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq
    (fun _ => List.forall_iff_forall_mem.mpr fun op h => (ops_clean op h).1) m ρ (fun _ op h => (ops_clean op h).2.1)

-- the arguments are the references below 17: the whole line leaves them as they were at launch
theorem arg_kept {mem m : (ℓ : Loc nD τ sig) → Buf (Elt F) ℓ} {c : Dev nD}
    (h : ∀ b : Ref sig .tc, mem ((c.tc : Thread nD τ).loc b) = after ops (launchContents m c) (b : DevRef τ sig))
    (b : Ref sig .tc) (hb : b.idx.val < 17 := by decide) :
    mem ((c.tc : Thread nD τ).loc b) = m ((c.tc : Thread nD τ).loc b) :=
  (h b).trans (ops_clean.after _ b hb)

theorem run_result (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v161) = after ops (launchContents m c) (Proc.devRef .tc main_v161)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c =>
    ⟨h c main_v161, arg_kept (h c) main_arg0, arg_kept (h c) main_arg1, arg_kept (h c) main_arg2, arg_kept (h c) main_arg3, arg_kept (h c) main_arg4,
      arg_kept (h c) main_arg5, arg_kept (h c) main_arg6, arg_kept (h c) main_arg7, arg_kept (h c) main_arg8, arg_kept (h c) main_arg9,
      arg_kept (h c) main_arg10, arg_kept (h c) main_arg11, arg_kept (h c) main_arg12, arg_kept (h c) main_arg13, arg_kept (h c) main_arg14,
      arg_kept (h c) main_arg15, arg_kept (h c) main_arg16⟩)
    (run_after m ρ)

-- the same run, the arguments alone
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => (h c).2) (run_result m ρ)

end Cert.ReferenceIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx
open scoped BigOperators

abbrev SNode : Shape := ⟨2, ![50000, 128]⟩
abbrev SWeight : Shape := ⟨2, ![128, 128]⟩
abbrev SRow : Shape := ⟨2, ![1, 128]⟩
abbrev SPool : Shape := ⟨2, ![64, 128]⟩
abbrev SCount : Shape := ⟨2, ![1, 64]⟩
abbrev SIds : Shape := ⟨2, ![50000, 1]⟩

def nodeCount : EReal := Ideal.ofBits .f32 0x47435000#32
def varGuard : EReal := Ideal.ofBits .f32 0x3727C5AC#32

def transformAt (h : SNode.Idx → EReal) (W : SWeight.Idx → EReal) (a : Fin 50000) (j : Fin 128) : EReal :=
  ∑ k : Fin 128, h (ix2 a k) * W (ix2 k j)

def colSum (x : SNode.Idx → EReal) (j : Fin 128) : EReal := ∑ a : Fin 50000, x (ix2 a j)

def colSumSq (x : SNode.Idx → EReal) (j : Fin 128) : EReal := ∑ a : Fin 50000, x (ix2 a j) * x (ix2 a j)

def colMean (x : SNode.Idx → EReal) (j : Fin 128) : EReal := Ideal.div (colSum x j) nodeCount

def colVarMoments (x : SNode.Idx → EReal) (j : Fin 128) : EReal :=
  Ideal.div (colSumSq x j) nodeCount - colMean x j * colMean x j

def colVarCentred (x : SNode.Idx → EReal) (j : Fin 128) : EReal :=
  Ideal.div (∑ a : Fin 50000, (x (ix2 a j) - colMean x j) * (x (ix2 a j) - colMean x j)) nodeCount

def standardiseAt (x : SNode.Idx → EReal) (mean var gamma beta : Fin 128 → EReal) (a : Fin 50000) (j : Fin 128) : EReal :=
  max ((x (ix2 a j) - mean j) * Ideal.rsqrt (var j + varGuard) * gamma j + beta j) 0

def member (ids : SIds.Idx → BitVec 32) (a : Fin 50000) (g : Fin 64) : EReal :=
  if ids (ix2 a 0) = BitVec.ofNat 32 g.val then 1 else 0

def poolSumAt (h : SNode.Idx → EReal) (ids : SIds.Idx → BitVec 32) (g : Fin 64) (j : Fin 128) : EReal :=
  ∑ a : Fin 50000, member ids a g * h (ix2 a j)

def poolCountAt (ids : SIds.Idx → BitVec 32) (g : Fin 64) : EReal := ∑ a : Fin 50000, member ids a g

def FiniteNode (x : SNode.Idx → EReal) : Prop := ∀ i, ∃ r : ℝ, x i = (r : EReal)

def oneLit : EReal := Ideal.ofBits .f32 0x3F800000#32

abbrev SOutW : Shape := ⟨2, ![128, 1]⟩
abbrev SOutB : Shape := ⟨1, ![1]⟩

def readoutAt (sums : SPool.Idx → EReal) (cnt : Fin 64 → EReal) (Wout : SOutW.Idx → EReal) (bout : SOutB.Idx → EReal)
    (g : Fin 64) : EReal :=
  Ideal.div oneLit (oneLit + Ideal.exp (-((∑ j : Fin 128, Ideal.div (sums (ix2 g j)) (max (cnt g) oneLit) * Wout (ix2 j 0))
    + bout (ix1 0))))

end Cert.Spec

end
-- ==== Proof.Value.Tail.lean ====
import proofs.«403168_j28509992910998_1_alg».proof.Proof.KernelIdeal.Chain
import proofs.«403168_j28509992910998_1_alg».proof.Proof.Spec
import Idealize.ShloMosaic.Lib.StableHlo.Run
import Idealize.ShloMosaic.PureOps.Ideal.Laws
import Idealize.ShloMosaic.Lib.ValueIdx
import Idealize.ShloMosaic.Lib.StackMember
import Idealize.ShloMosaic.Lib.Pipeline.Value

set_option maxRecDepth 16384

noncomputable section

namespace Cert.KernelIdeal.ValueTail

open Idealize.ShloMosaic Idealize.ShloMosaic.ValueIdx Idealize.ShloMosaic.StableHlo
open Cert.KernelIdeal Cert.KernelIdeal.Facts₀ Cert.KernelIdeal.Gen Cert.KernelIdeal.Hand
open scoped BigOperators

def kernelReadout (sums : FVec Ideal S64x128 .f32) (cntRow : FVec Ideal S1x64 .f32) (Wout : FVec Ideal S128x1 .f32)
    (bout : FVec Ideal S1 .f32) : FVec Ideal S64x1 .f32 :=
  Host.divf (broadcastInDim S64x1 ![] Facts₀.bcast_S_S64x1 (constant S_ .f32 0x3F800000#32))
    (addf (broadcastInDim S64x1 ![] Facts₀.bcast_S_S64x1 (constant S_ .f32 0x3F800000#32))
      (Host.exp (Host.negf (addf
        (Host.dotGeneral dot_S64x128_S128x1_S64x1_1_0_0_1_n_n none
          (Host.divf sums
            (broadcastInDim S64x128 ![0, 1] Facts₀.bcast_S64x1_S64x128_0_1
              (maximumf (shapeCast S64x1 cntRow Facts₀.shapeCasts_S1x64_S64x1)
                (broadcastInDim S64x1 ![] Facts₀.bcast_S_S64x1 (constant S_ .f32 0x3F800000#32)))))
          Wout)
        (broadcastInDim S64x1 ![0, 1] Facts₀.bcast_S1x1_S64x1_0_1 (broadcastInDim S1x1 ![1] Facts₀.bcast_S1_S1x1_1 bout))))))

theorem tail_read (m : (ℓ : Loc nD τ sig) → Buf (Elt Ideal) ℓ) (c : Dev nD) :
    (W19 m c (Proc.devRef .tc main_v108) : FVec Ideal S64x1 .f32)
      = kernelReadout (V18 m c main_v93_0) (V18 m c main_v93_1) (V18 m c main_arg15) (V18 m c main_arg16) := by
  show StableHlo.after hostOps10 _ (Proc.devRef .tc main_v108) = _
  after_results
  rfl

theorem countCast_apply (cntRow : FVec Ideal S1x64 .f32) (g : Fin 64) :
    shapeCast S64x1 cntRow Facts₀.shapeCasts_S1x64_S64x1 (ix2 g 0) = cntRow (ix2 0 g) := by
  refine shapeCast_apply cntRow Facts₀.shapeCasts_S1x64_S64x1 (ix2 g 0) (ix2 0 g) ?_
  rw [Shape.rowMajor_val_two, Shape.rowMajor_val_two]
  show (0 : ℕ) * 64 + g.val = g.val * 1 + 0
  omega

theorem columnBcast_apply (v : FVec Ideal S64x1 .f32) (g : Fin 64) (c : Fin 128) :
    broadcastInDim S64x128 ![0, 1] Facts₀.bcast_S64x1_S64x128_0_1 v (ix2 g c) = v (ix2 g 0) := by
  unfold broadcastInDim
  refine congrArg v (funext fun d => ?_)
  match d with
  | ⟨0, _⟩ => rfl
  | ⟨1, _⟩ => rfl

theorem biasBcast_apply (bout : FVec Ideal S1 .f32) (g : Fin 64) :
    broadcastInDim S64x1 ![0, 1] Facts₀.bcast_S1x1_S64x1_0_1 (broadcastInDim S1x1 ![1] Facts₀.bcast_S1_S1x1_1 bout) (ix2 g 0)
      = bout (ix1 0) := by
  unfold broadcastInDim
  refine congrArg bout (funext fun d => ?_)
  match d with
  | ⟨0, _⟩ => rfl

theorem kernelReadout_apply (sums : FVec Ideal S64x128 .f32) (cntRow : FVec Ideal S1x64 .f32)
    (Wout : FVec Ideal S128x1 .f32) (bout : FVec Ideal S1 .f32) (g : Fin 64) :
    kernelReadout sums cntRow Wout bout (ValueIdx.ix2 g 0)
      = Cert.Spec.readoutAt sums (fun g => cntRow (ValueIdx.ix2 0 g)) Wout bout g := by
  have hd := StackMember.dotGeneral_plain_apply (m := 64) (n := 1) (k := 128) none
    (Host.divf sums (broadcastInDim S64x128 ![0, 1] Facts₀.bcast_S64x1_S64x128_0_1
      (maximumf (shapeCast S64x1 cntRow Facts₀.shapeCasts_S1x64_S64x1)
        (broadcastInDim S64x1 ![] Facts₀.bcast_S_S64x1 (constant S_ .f32 0x3F800000#32))))) Wout g 0
  have hs : ∀ c : Fin 128, (Host.divf sums (broadcastInDim S64x128 ![0, 1] Facts₀.bcast_S64x1_S64x128_0_1
      (maximumf (shapeCast S64x1 cntRow Facts₀.shapeCasts_S1x64_S64x1)
        (broadcastInDim S64x1 ![] Facts₀.bcast_S_S64x1 (constant S_ .f32 0x3F800000#32))))) (ix2 g c)
      = Ideal.div (sums (ix2 g c)) (max (cntRow (ix2 0 g)) (Ideal.ofBits .f32 0x3F800000#32)) := fun c => by
    show Ideal.div (sums (ix2 g c)) (broadcastInDim S64x128 ![0, 1] Facts₀.bcast_S64x1_S64x128_0_1
      (maximumf (shapeCast S64x1 cntRow Facts₀.shapeCasts_S1x64_S64x1)
        (broadcastInDim S64x1 ![] Facts₀.bcast_S_S64x1 (constant S_ .f32 0x3F800000#32))) (ix2 g c)) = _
    rw [columnBcast_apply]
    show Ideal.div (sums (ix2 g c)) (max (shapeCast S64x1 cntRow Facts₀.shapeCasts_S1x64_S64x1 (ix2 g 0))
      (Ideal.ofBits .f32 0x3F800000#32)) = _
    rw [countCast_apply]
  simp only [hs] at hd
  unfold kernelReadout Cert.Spec.readoutAt Cert.Spec.oneLit
  show Ideal.div (Ideal.ofBits .f32 0x3F800000#32) (Ideal.ofBits .f32 0x3F800000#32 + Ideal.exp (-(
      Host.dotGeneral (DotDims.plain 64 128 1) none (Host.divf sums (broadcastInDim S64x128 ![0, 1] Facts₀.bcast_S64x1_S64x128_0_1
        (maximumf (shapeCast S64x1 cntRow Facts₀.shapeCasts_S1x64_S64x1)
          (broadcastInDim S64x1 ![] Facts₀.bcast_S_S64x1 (constant S_ .f32 0x3F800000#32))))) Wout (ix2 g 0)
      + broadcastInDim S64x1 ![0, 1] Facts₀.bcast_S1x1_S64x1_0_1 (broadcastInDim S1x1 ![1] Facts₀.bcast_S1_S1x1_1 bout) (ix2 g 0)))) = _
  rw [hd, biasBcast_apply]

end Cert.KernelIdeal.ValueTail
end
-- ==== Proof.Value.Transform0.lean ====
import proofs.«403168_j28509992910998_1_alg».proof.Proof.KernelIdeal.Transform0
import proofs.«403168_j28509992910998_1_alg».proof.Proof.Spec
import Idealize.ShloMosaic.Lib.Pipeline.Value
import Idealize.ShloMosaic.PureOps.Ideal.Laws

noncomputable section

namespace Cert.KernelIdeal.Value0

open Cert.KernelIdeal Cert.KernelIdeal.Gen Cert.KernelIdeal.Hand
open Idealize.ShloMosaic Idealize.ShloMosaic.TcCoe Idealize.ShloMosaic.ValueIdx Idealize.SL.Sem

-- The block product at (p, q) is the sum over k of x (p, k) · w (k, q): the contraction's index set has the one coordinate k.
theorem pay0_apply (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  simp only [matmul, shapeCast_self]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  exact congrArg₂ (fun a b => x a * w b)
    (Shape.idx_ext₂ rfl ((DotDims.lhsIdx_val_of_single _ rfl _ _).trans hk))
    (Shape.idx_ext₂ ((DotDims.rhsIdx_val_of_single _ rfl _ _).trans hk) rfl)

variable (V : (c : Dev nD) → (b : Ref sig .tc) → Buf (Elt Ideal) ((c : Thread nD τ).loc b))

theorem origin0 : (![0, 0] : Fin 2 → Nat) = fun _ => 0 := funext fun a => by fin_cases a <;> rfl

-- The transformed features: at every entry, the row of the features against the column of the weights.
def transformed0 (c : Dev nD) : S50000x128.Idx → EReal := fun i =>
  Cert.Spec.transformAt (V c (Pipeline.arrRef spec0 0)) (V c (Pipeline.arrRef spec0 1)) (i 0) (i 1)

-- At point t the features' and the products' blocks are the t-th 5000 rows; the weights' block is the whole matrix.
theorem index0 : ∀ t : Fin cfg0.N, win0_0.index t 0 = t.val ∧ win0_0.index t 1 = 0 ∧ win0_1.index t 0 = 0
    ∧ win0_1.index t 1 = 0 ∧ win0_2.index t 0 = t.val ∧ win0_2.index t 1 = 0 :=
  (by decide +kernel : ∀ t : Fin grid0.N, _)

-- Point t's block of products is block t of the transformed features.
theorem flushed0_eq (c : Dev nD) (t : Fin cfg0.N) :
    (dat0 (F := Ideal) V c).flushed 2 t = ((cfg0.win 2).blk t).view.read (Elt Ideal) (transformed0 V c) := by
  show (cfg0.win 2).cut (grid0.coords t) ((dat0 (F := Ideal) V c).after 2 t) = _
  rw [after0_2]
  unfold prodOf0
  rw [View.canon_unit_zero origin0]
  simp only [View.ld_unit_zero (S := S5000x128) origin0, View.ld_unit_zero (S := S128x128) origin0]
  obtain ⟨e0, e1, e2, e3, e4, e5⟩ := index0 t
  funext y
  obtain ⟨p, q, rfl⟩ : ∃ (p : Fin 5000) (q : Fin 128), y = ix2 p q := ⟨y 0, y 1, eq_ix2 y⟩
  refine (pay0_apply _ _ p q).trans ?_
  show _ = Cert.Spec.transformAt _ _ _ _
  unfold Cert.Spec.transformAt
  refine Finset.sum_congr rfl fun k _ => congrArg₂ HMul.hMul
    (congrArg (V c _) (Shape.idx_ext₂ ?_ ?_)) (congrArg (V c _) (Shape.idx_ext₂ ?_ ?_))
  · show win0_0.index t 0 * 5000 + 1 * p.val = win0_2.index t 0 * 5000 + 1 * p.val; omega
  · show win0_0.index t 1 * 128 + 1 * k.val = k.val; omega
  · show win0_1.index t 0 * 128 + 1 * k.val = k.val; omega
  · show win0_1.index t 1 * 128 + 1 * q.val = win0_2.index t 1 * 128 + 1 * q.val; omega

-- The ten blocks of 5000 rows cover the 50000 rows: row a is in the block of point a / 5000.
theorem covered0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by omega⟩, rfl⟩
  obtain ⟨-, -, -, -, e4, e5⟩ := index0 t
  refine ⟨t, flush0_2 t, ?_⟩
  show i ∈ ((View.whole (Pipeline.arrRef spec0 2)).slice (win0_2.rect t)).set
  rw [View.set_slice_whole, Rect.mem_set_unit]
  intro a
  match a with
  | ⟨0, _⟩ => show win0_2.index t 0 * 5000 ≤ (i 0).val ∧ (i 0).val < win0_2.index t 0 * 5000 + 5000; omega
  | ⟨1, _⟩ => show win0_2.index t 1 * 128 ≤ (i 1).val ∧ (i 1).val < win0_2.index t 1 * 128 + 128; omega

-- THE PRODUCTS: after the region the array holds, at (a, j), row a of the features against column j of the weights.
theorem transform0_value (c : Dev nD) (a : Fin 50000) (j : Fin 128) :
    ((dat0 (F := Ideal) V c).arrAt 2 cfg0.N : Cert.Spec.SNode.Idx → EReal) (ix2 a j)
      = Cert.Spec.transformAt (V c (Pipeline.arrRef spec0 0)) (V c (Pipeline.arrRef spec0 1)) a j :=
  congrFun ((dat0 (F := Ideal) V c).arrAt_eq_of_cover 2 (transformed0 V c) (fun t _ => flushed0_eq V c t) covered0) (ix2 a j)

end Cert.KernelIdeal.Value0

end
-- ==== Proof.Value.Transform3.lean ====
import proofs.«403168_j28509992910998_1_alg».proof.Proof.KernelIdeal.Transform3
import proofs.«403168_j28509992910998_1_alg».proof.Proof.Spec
import Idealize.ShloMosaic.Lib.Pipeline.Value
import Idealize.ShloMosaic.PureOps.Ideal.Laws

noncomputable section

namespace Cert.KernelIdeal.Value3

open Cert.KernelIdeal Cert.KernelIdeal.Gen Cert.KernelIdeal.Hand
open Idealize.ShloMosaic Idealize.ShloMosaic.TcCoe Idealize.ShloMosaic.ValueIdx Idealize.SL.Sem

-- The block product at (p, q) is the sum over k of x (p, k) · w (k, q): the contraction's index set has the one coordinate k.
theorem pay3_apply (x : Vec Ideal S5000x128 .f32) (w : Vec Ideal S128x128 .f32) (p : Fin 5000) (q : Fin 128) :
    k3_pay1 (F := Ideal) x w (ix2 p q) = ∑ k : Fin 128, x (ix2 p k) * w (ix2 k q) := by
  unfold k3_pay1
  simp only [matmul, shapeCast_self]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  exact congrArg₂ (fun a b => x a * w b)
    (Shape.idx_ext₂ rfl ((DotDims.lhsIdx_val_of_single _ rfl _ _).trans hk))
    (Shape.idx_ext₂ ((DotDims.rhsIdx_val_of_single _ rfl _ _).trans hk) rfl)

variable (V : (c : Dev nD) → (b : Ref sig .tc) → Buf (Elt Ideal) ((c : Thread nD τ).loc b))

theorem origin3 : (![0, 0] : Fin 2 → Nat) = fun _ => 0 := funext fun a => by fin_cases a <;> rfl

-- The transformed features: at every entry, the row of the features against the column of the weights.
def transformed3 (c : Dev nD) : S50000x128.Idx → EReal := fun i =>
  Cert.Spec.transformAt (V c (Pipeline.arrRef spec3 0)) (V c (Pipeline.arrRef spec3 1)) (i 0) (i 1)

-- At point t the features' and the products' blocks are the t-th 5000 rows; the weights' block is the whole matrix.
theorem index3 : ∀ t : Fin cfg3.N, win3_0.index t 0 = t.val ∧ win3_0.index t 1 = 0 ∧ win3_1.index t 0 = 0
    ∧ win3_1.index t 1 = 0 ∧ win3_2.index t 0 = t.val ∧ win3_2.index t 1 = 0 :=
  (by decide +kernel : ∀ t : Fin grid3.N, _)

-- Point t's block of products is block t of the transformed features.
theorem flushed3_eq (c : Dev nD) (t : Fin cfg3.N) :
    (dat3 (F := Ideal) V c).flushed 2 t = ((cfg3.win 2).blk t).view.read (Elt Ideal) (transformed3 V c) := by
  show (cfg3.win 2).cut (grid3.coords t) ((dat3 (F := Ideal) V c).after 2 t) = _
  rw [after3_2]
  unfold prodOf3
  rw [View.canon_unit_zero origin3]
  simp only [View.ld_unit_zero (S := S5000x128) origin3, View.ld_unit_zero (S := S128x128) origin3]
  obtain ⟨e0, e1, e2, e3, e4, e5⟩ := index3 t
  funext y
  obtain ⟨p, q, rfl⟩ : ∃ (p : Fin 5000) (q : Fin 128), y = ix2 p q := ⟨y 0, y 1, eq_ix2 y⟩
  refine (pay3_apply _ _ p q).trans ?_
  show _ = Cert.Spec.transformAt _ _ _ _
  unfold Cert.Spec.transformAt
  refine Finset.sum_congr rfl fun k _ => congrArg₂ HMul.hMul
    (congrArg (V c _) (Shape.idx_ext₂ ?_ ?_)) (congrArg (V c _) (Shape.idx_ext₂ ?_ ?_))
  · show win3_0.index t 0 * 5000 + 1 * p.val = win3_2.index t 0 * 5000 + 1 * p.val; omega
  · show win3_0.index t 1 * 128 + 1 * k.val = k.val; omega
  · show win3_1.index t 0 * 128 + 1 * k.val = k.val; omega
  · show win3_1.index t 1 * 128 + 1 * q.val = win3_2.index t 1 * 128 + 1 * q.val; omega

-- The ten blocks of 5000 rows cover the 50000 rows: row a is in the block of point a / 5000.
theorem covered3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by omega⟩, rfl⟩
  obtain ⟨-, -, -, -, e4, e5⟩ := index3 t
  refine ⟨t, flush3_2 t, ?_⟩
  show i ∈ ((View.whole (Pipeline.arrRef spec3 2)).slice (win3_2.rect t)).set
  rw [View.set_slice_whole, Rect.mem_set_unit]
  intro a
  match a with
  | ⟨0, _⟩ => show win3_2.index t 0 * 5000 ≤ (i 0).val ∧ (i 0).val < win3_2.index t 0 * 5000 + 5000; omega
  | ⟨1, _⟩ => show win3_2.index t 1 * 128 ≤ (i 1).val ∧ (i 1).val < win3_2.index t 1 * 128 + 128; omega

-- THE PRODUCTS: after the region the array holds, at (a, j), row a of the features against column j of the weights.
theorem transform3_value (c : Dev nD) (a : Fin 50000) (j : Fin 128) :
    ((dat3 (F := Ideal) V c).arrAt 2 cfg3.N : Cert.Spec.SNode.Idx → EReal) (ix2 a j)
      = Cert.Spec.transformAt (V c (Pipeline.arrRef spec3 0)) (V c (Pipeline.arrRef spec3 1)) a j :=
  congrFun ((dat3 (F := Ideal) V c).arrAt_eq_of_cover 2 (transformed3 V c) (fun t _ => flushed3_eq V c t) covered3) (ix2 a j)

end Cert.KernelIdeal.Value3

end
-- ==== Proof.Value.Transform6.lean ====
import proofs.«403168_j28509992910998_1_alg».proof.Proof.KernelIdeal.Transform6
import proofs.«403168_j28509992910998_1_alg».proof.Proof.Spec
import Idealize.ShloMosaic.Lib.Pipeline.Value
import Idealize.ShloMosaic.PureOps.Ideal.Laws

noncomputable section

namespace Cert.KernelIdeal.Value6

open Cert.KernelIdeal Cert.KernelIdeal.Gen Cert.KernelIdeal.Hand
open Idealize.ShloMosaic Idealize.ShloMosaic.TcCoe Idealize.ShloMosaic.ValueIdx Idealize.SL.Sem

-- The block product at (p, q) is the sum over k of x (p, k) · w (k, q): the contraction's index set has the one coordinate k.
theorem pay6_apply (x : Vec Ideal S5000x128 .f32) (w : Vec Ideal S128x128 .f32) (p : Fin 5000) (q : Fin 128) :
    k6_pay1 (F := Ideal) x w (ix2 p q) = ∑ k : Fin 128, x (ix2 p k) * w (ix2 k q) := by
  unfold k6_pay1
  simp only [matmul, shapeCast_self]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  exact congrArg₂ (fun a b => x a * w b)
    (Shape.idx_ext₂ rfl ((DotDims.lhsIdx_val_of_single _ rfl _ _).trans hk))
    (Shape.idx_ext₂ ((DotDims.rhsIdx_val_of_single _ rfl _ _).trans hk) rfl)

variable (V : (c : Dev nD) → (b : Ref sig .tc) → Buf (Elt Ideal) ((c : Thread nD τ).loc b))

theorem origin6 : (![0, 0] : Fin 2 → Nat) = fun _ => 0 := funext fun a => by fin_cases a <;> rfl

-- The transformed features: at every entry, the row of the features against the column of the weights.
def transformed6 (c : Dev nD) : S50000x128.Idx → EReal := fun i =>
  Cert.Spec.transformAt (V c (Pipeline.arrRef spec6 0)) (V c (Pipeline.arrRef spec6 1)) (i 0) (i 1)

-- At point t the features' and the products' blocks are the t-th 5000 rows; the weights' block is the whole matrix.
theorem index6 : ∀ t : Fin cfg6.N, win6_0.index t 0 = t.val ∧ win6_0.index t 1 = 0 ∧ win6_1.index t 0 = 0
    ∧ win6_1.index t 1 = 0 ∧ win6_2.index t 0 = t.val ∧ win6_2.index t 1 = 0 :=
  (by decide +kernel : ∀ t : Fin grid6.N, _)

-- Point t's block of products is block t of the transformed features.
theorem flushed6_eq (c : Dev nD) (t : Fin cfg6.N) :
    (dat6 (F := Ideal) V c).flushed 2 t = ((cfg6.win 2).blk t).view.read (Elt Ideal) (transformed6 V c) := by
  show (cfg6.win 2).cut (grid6.coords t) ((dat6 (F := Ideal) V c).after 2 t) = _
  rw [after6_2]
  unfold prodOf6
  rw [View.canon_unit_zero origin6]
  simp only [View.ld_unit_zero (S := S5000x128) origin6, View.ld_unit_zero (S := S128x128) origin6]
  obtain ⟨e0, e1, e2, e3, e4, e5⟩ := index6 t
  funext y
  obtain ⟨p, q, rfl⟩ : ∃ (p : Fin 5000) (q : Fin 128), y = ix2 p q := ⟨y 0, y 1, eq_ix2 y⟩
  refine (pay6_apply _ _ p q).trans ?_
  show _ = Cert.Spec.transformAt _ _ _ _
  unfold Cert.Spec.transformAt
  refine Finset.sum_congr rfl fun k _ => congrArg₂ HMul.hMul
    (congrArg (V c _) (Shape.idx_ext₂ ?_ ?_)) (congrArg (V c _) (Shape.idx_ext₂ ?_ ?_))
  · show win6_0.index t 0 * 5000 + 1 * p.val = win6_2.index t 0 * 5000 + 1 * p.val; omega
  · show win6_0.index t 1 * 128 + 1 * k.val = k.val; omega
  · show win6_1.index t 0 * 128 + 1 * k.val = k.val; omega
  · show win6_1.index t 1 * 128 + 1 * q.val = win6_2.index t 1 * 128 + 1 * q.val; omega

-- The ten blocks of 5000 rows cover the 50000 rows: row a is in the block of point a / 5000.
theorem covered6 (i : S50000x128.Idx) :
    ∃ t : Fin cfg6.N, (cfg6.win 2).flush t = true ∧ i ∈ ((cfg6.win 2).blk t).view.set := by
  have hi0 : (i 0).val < 50000 := (i 0).isLt
  have hi1 : (i 1).val < 128 := (i 1).isLt
  have hN : cfg6.N = 10 := N_6
  obtain ⟨t, ht⟩ : ∃ t : Fin cfg6.N, t.val = (i 0).val / 5000 := ⟨⟨(i 0).val / 5000, by omega⟩, rfl⟩
  obtain ⟨-, -, -, -, e4, e5⟩ := index6 t
  refine ⟨t, flush6_2 t, ?_⟩
  show i ∈ ((View.whole (Pipeline.arrRef spec6 2)).slice (win6_2.rect t)).set
  rw [View.set_slice_whole, Rect.mem_set_unit]
  intro a
  match a with
  | ⟨0, _⟩ => show win6_2.index t 0 * 5000 ≤ (i 0).val ∧ (i 0).val < win6_2.index t 0 * 5000 + 5000; omega
  | ⟨1, _⟩ => show win6_2.index t 1 * 128 ≤ (i 1).val ∧ (i 1).val < win6_2.index t 1 * 128 + 128; omega

-- THE PRODUCTS: after the region the array holds, at (a, j), row a of the features against column j of the weights.
theorem transform6_value (c : Dev nD) (a : Fin 50000) (j : Fin 128) :
    ((dat6 (F := Ideal) V c).arrAt 2 cfg6.N : Cert.Spec.SNode.Idx → EReal) (ix2 a j)
      = Cert.Spec.transformAt (V c (Pipeline.arrRef spec6 0)) (V c (Pipeline.arrRef spec6 1)) a j :=
  congrFun ((dat6 (F := Ideal) V c).arrAt_eq_of_cover 2 (transformed6 V c) (fun t _ => flushed6_eq V c t) covered6) (ix2 a j)

end Cert.KernelIdeal.Value6

end
-- ==== Proof.Value.Moments1.lean ====
import proofs.«403168_j28509992910998_1_alg».proof.Proof.KernelIdeal.Moments1
import proofs.«403168_j28509992910998_1_alg».proof.Proof.Spec
import Idealize.ShloMosaic.Lib.ValueLayout
import Idealize.ShloMosaic.PureOps.Ideal.Laws

noncomputable section

namespace Cert.KernelIdeal.Value1

open Idealize.ShloMosaic Idealize.ShloMosaic.TcCoe Idealize.ShloMosaic.ValueIdx Idealize.SL.Sem
open Cert.KernelIdeal Cert.KernelIdeal.Gen Cert.KernelIdeal.Hand

variable (V : (c : Dev nD) → (b : Ref sig .tc) → Buf (Elt Ideal) ((c : Thread nD τ).loc b))

-- Both carried rows start from the zero row.
theorem cleared1 (j : Fin 128) : (k1_pay1 (F := Ideal)) (ix2 0 j) = (0 : EReal) := by
  unfold k1_pay1
  simp only [shapeCast_self]
  exact Ideal.ofBits_zero_f32

-- One block added to a carried row: column j gains the block's column sum.
theorem added1 (x : Vec Ideal S5000x128 .f32) (s : Vec Ideal S1x128 .f32) (j : Fin 128) :
    k1_pay4 x s (ix2 0 j) = (s (ix2 0 j) + ∑ r : Fin 5000, x (ix2 r j) : EReal) := by
  unfold k1_pay4 k1_pay3
  simp only [shapeCast_self]
  refine (addf_apply _ _ _).trans (congrArg (fun z : EReal => s (ix2 0 j) + z) ?_)
  refine (shapeCast_a_1a_apply _ _ 0 j).trans ((Ideal.multiReduction_add_single _ _ _ _ _ (ix1 j)).trans ?_)
  exact Finset.sum_congr rfl fun r _ => congrArg x (Shape.idx_ext₂ (by simp [Shape.Reduces.lift_val, Shape.Reduces.liftVal])
    (by simp [Shape.Reduces.lift_val, Shape.Reduces.liftVal]))

-- The row of sums of squares is carried as the row of sums is, over the block's entrywise squares.
theorem squares1 (x : Vec Ideal S5000x128 .f32) (q : Vec Ideal S1x128 .f32) :
    k1_pay5 x q = k1_pay4 (fun i => x i * x i) q := by
  unfold k1_pay5 k1_pay4 k1_pay3
  simp only [shapeCast_self]
  rfl

-- Column j of the array as a sequence: its entry in row a, zero past the last row.
def col1 (c : Dev nD) (j : Fin 128) (a : ℕ) : EReal :=
  if h : a < 50000 then V c (Pipeline.arrRef spec1 0) (ix2 ⟨a, h⟩ j) else 0

theorem index1_0 : ∀ t : Fin cfg1.N, win1_0.index t 0 = t.val ∧ win1_0.index t 1 = 0 :=
  (by decide +kernel : ∀ t : Fin grid1.N, win1_0.index t 0 = t.val ∧ win1_0.index t 1 = 0)

-- Row r of the block at point t is row 5000·t + r of the array.
theorem xblk1_apply (c : Dev nD) (t : Fin cfg1.N) (r : Fin 5000) (j : Fin 128) :
    iblk1 V c 0 t (ix2 r j) = col1 V c j (5000 * t.val + r.val) := by
  have hN : cfg1.N = 10 := N_1
  have ha : 5000 * t.val + r.val < 50000 := by have := r.isLt; have := t.isLt; omega
  unfold col1
  rw [dif_pos ha]
  refine congrArg (V c (Pipeline.arrRef spec1 0)) (Shape.idx_ext₂ ?_ ?_)
  · show win1_0.index t 0 * 5000 + 1 * r.val = 5000 * t.val + r.val
    rw [(index1_0 t).1]; omega
  · show win1_0.index t 1 * 128 + 1 * j.val = j.val
    rw [(index1_0 t).2]; omega

section
variable (g : EReal → EReal) (A : (n : ℕ) → n < cfg1.N → Vec Ideal S1x128 .f32) (c : Dev nD) (j : Fin 128)
    (h0 : ∀ h, A 0 h = k1_pay4 (F := Ideal) (fun i => g (iblk1 V c 0 ⟨0, h⟩ i)) (k1_pay1 (F := Ideal)))
    (hs : ∀ n h, A (n + 1) h = k1_pay4 (F := Ideal) (fun i => g (iblk1 V c 0 ⟨n + 1, h⟩ i)) (A n (Nat.lt_of_succ_lt h)))
include h0 hs

-- A row cleared at first that gains each block's column sums of g holds, after point n, the sum of g over the column's first 5000·(n + 1) entries.
theorem carried1 :
    ∀ (n : ℕ) (h : n < cfg1.N), A n h (ix2 0 j) = ∑ a ∈ Finset.range (5000 * (n + 1)), g (col1 V c j a)
  | 0, h => by
    rw [h0, added1, cleared1, zero_add]
    refine .trans ?_ (Fin.sum_univ_eq_sum_range (fun a => g (col1 V c j a)) 5000)
    exact Finset.sum_congr rfl fun r _ => by rw [xblk1_apply, Nat.mul_zero, Nat.zero_add]
  | n + 1, h => by
    rw [hs, added1, carried1 n, show 5000 * (n + 1 + 1) = 5000 * (n + 1) + 5000 from by omega,
      Finset.sum_range_add, ← Fin.sum_univ_eq_sum_range (fun r => g (col1 V c j (5000 * (n + 1) + r))) 5000]
    exact congrArg₂ (· + ·) rfl (Finset.sum_congr rfl fun r _ => by rw [xblk1_apply])

-- So after the last point it holds the sum of g over all 50000 rows.
theorem total1 :
    ∑ a : Fin 50000, g (V c (Pipeline.arrRef spec1 0) (ix2 a j)) = A t1_9.val t1_9.isLt (ix2 0 j) := by
  refine .symm ((carried1 V g A c j h0 hs 9 _).trans ?_)
  refine (Fin.sum_univ_eq_sum_range (fun a => g (col1 V c j a)) 50000).symm.trans ?_
  exact Finset.sum_congr rfl fun a _ => by unfold col1; rw [dif_pos a.isLt]

end

theorem sum1_all (c : Dev nD) (j : Fin 128) :
    Cert.Spec.colSum (V c (Pipeline.arrRef spec1 0)) j = sumAt1 V c t1_9.val t1_9.isLt (ix2 0 j) :=
  total1 V (fun z => z) (sumAt1 V c) c j (fun h => sumAt1_zero V c ⟨0, h⟩ rfl)
    fun n h => sumAt1_pos V c ⟨n + 1, h⟩ n.succ_ne_zero

theorem sq1_all (c : Dev nD) (j : Fin 128) :
    Cert.Spec.colSumSq (V c (Pipeline.arrRef spec1 0)) j = sqAt1 V c t1_9.val t1_9.isLt (ix2 0 j) :=
  total1 V (fun z => z * z) (sqAt1 V c) c j (fun h => (sqAt1_zero V c ⟨0, h⟩ rfl).trans (squares1 _ _))
    fun n h => (sqAt1_pos V c ⟨n + 1, h⟩ n.succ_ne_zero).trans (squares1 _ _)

-- An output row's array ends holding what the last point leaves for it.
theorem out1_final (c : Dev nD) (w : Fin cfg1.W) (hf : ∀ t : Fin cfg1.N, (cfg1.win w).flush t = true ↔ t.val % 10 = 9)
    (y : ((cfg1.win w).xblock (grid1.coords t1_9)).Idx) {i} (hi : ((cfg1.win w).blk t1_9).view.emb y = i) :
    (dat1 V c).arrAt w cfg1.N i
      = cast (congrArg (Elt Ideal) ((cfg1.win w).blk t1_9).view.elt_eq.symm) ((dat1 V c).flushed w t1_9 y) :=
  hi ▸ (dat1 V c).arrAt_emb_eq_flushed w (fun t u ht hu ne => absurd (Fin.ext (by
    have hN : cfg1.N = 10 := N_1
    have := (hf t).mp ht; have := (hf u).mp hu; have := t.isLt; have := u.isLt; omega)) ne) t1_9 ((hf t1_9).mpr rfl) y

-- THE MEANS: the first output array ends holding, in column j, the mean of the input array's column j.
theorem moments1_mean (c : Dev nD) (j : Fin 128) :
    ((dat1 (F := Ideal) V c).arrAt 1 cfg1.N : Cert.Spec.SRow.Idx → EReal) (ix2 0 j)
      = Cert.Spec.colMean (V c (Pipeline.arrRef spec1 0)) j := by
  refine (out1_final V c 1 flush1_1 (ix2 (0 : Fin 1) j) (Shape.idx_ext₂ (win1_1.rect_emb_val_of_index_zero t1_9 0 (by decide +kernel) _)
    (win1_1.rect_emb_val_of_index_zero t1_9 1 (by decide +kernel) _))).trans ?_
  unfold Cert.Spec.colMean
  rw [sum1_all]
  rfl

-- THE VARIANCES: the second ends holding the mean of the column's squares less the squared mean.
theorem moments1_var (c : Dev nD) (j : Fin 128) :
    ((dat1 (F := Ideal) V c).arrAt 2 cfg1.N : Cert.Spec.SRow.Idx → EReal) (ix2 0 j)
      = Cert.Spec.colVarMoments (V c (Pipeline.arrRef spec1 0)) j := by
  refine (out1_final V c 2 flush1_2 (ix2 (0 : Fin 1) j) (Shape.idx_ext₂ (win1_2.rect_emb_val_of_index_zero t1_9 0 (by decide +kernel) _)
    (win1_2.rect_emb_val_of_index_zero t1_9 1 (by decide +kernel) _))).trans ?_
  unfold Cert.Spec.colVarMoments Cert.Spec.colMean
  rw [sum1_all, sq1_all]
  rfl

end Cert.KernelIdeal.Value1

end
-- ==== Proof.Value.Moments4.lean ====
import proofs.«403168_j28509992910998_1_alg».proof.Proof.KernelIdeal.Moments4
import proofs.«403168_j28509992910998_1_alg».proof.Proof.Spec
import proofs.«403168_j28509992910998_1_alg».proof.Proof.Value.Moments1
import Idealize.ShloMosaic.Lib.ValueLayout
import Idealize.ShloMosaic.PureOps.Ideal.Laws

noncomputable section

namespace Cert.KernelIdeal.Value4

open Idealize.ShloMosaic Idealize.ShloMosaic.TcCoe Idealize.ShloMosaic.ValueIdx Idealize.SL.Sem
open Cert.KernelIdeal Cert.KernelIdeal.Gen Cert.KernelIdeal.Hand

variable (V : (c : Dev nD) → (b : Ref sig .tc) → Buf (Elt Ideal) ((c : Thread nD τ).loc b))

-- Both carried rows start from the zero row.
theorem cleared4 (j : Fin 128) : (k4_pay1 (F := Ideal)) (ix2 0 j) = (0 : EReal) :=
  Cert.KernelIdeal.Value1.cleared1 j
-- One block added to a carried row: column j gains the block's column sum.
theorem added4 (x : Vec Ideal S5000x128 .f32) (s : Vec Ideal S1x128 .f32) (j : Fin 128) :
    k4_pay4 x s (ix2 0 j) = (s (ix2 0 j) + ∑ r : Fin 5000, x (ix2 r j) : EReal) :=
  Cert.KernelIdeal.Value1.added1 x s j
-- The row of sums of squares is carried as the row of sums is, over the block's entrywise squares.
theorem squares4 (x : Vec Ideal S5000x128 .f32) (q : Vec Ideal S1x128 .f32) :
    k4_pay5 x q = k4_pay4 (fun i => x i * x i) q :=
  Cert.KernelIdeal.Value1.squares1 x q
-- Column j of the array as a sequence: its entry in row a, zero past the last row.
def col4 (c : Dev nD) (j : Fin 128) (a : ℕ) : EReal :=
  if h : a < 50000 then V c (Pipeline.arrRef spec4 0) (ix2 ⟨a, h⟩ j) else 0

theorem index4_0 : ∀ t : Fin cfg4.N, win4_0.index t 0 = t.val ∧ win4_0.index t 1 = 0 :=
  (by decide +kernel : ∀ t : Fin grid4.N, win4_0.index t 0 = t.val ∧ win4_0.index t 1 = 0)

-- Row r of the block at point t is row 5000·t + r of the array.
theorem xblk4_apply (c : Dev nD) (t : Fin cfg4.N) (r : Fin 5000) (j : Fin 128) :
    iblk4 V c 0 t (ix2 r j) = col4 V c j (5000 * t.val + r.val) := by
  have hN : cfg4.N = 10 := N_4
  have ha : 5000 * t.val + r.val < 50000 := by have := r.isLt; have := t.isLt; omega
  unfold col4
  rw [dif_pos ha]
  refine congrArg (V c (Pipeline.arrRef spec4 0)) (Shape.idx_ext₂ ?_ ?_)
  · show win4_0.index t 0 * 5000 + 1 * r.val = 5000 * t.val + r.val
    rw [(index4_0 t).1]; omega
  · show win4_0.index t 1 * 128 + 1 * j.val = j.val
    rw [(index4_0 t).2]; omega

section
variable (g : EReal → EReal) (A : (n : ℕ) → n < cfg4.N → Vec Ideal S1x128 .f32) (c : Dev nD) (j : Fin 128)
    (h0 : ∀ h, A 0 h = k4_pay4 (F := Ideal) (fun i => g (iblk4 V c 0 ⟨0, h⟩ i)) (k4_pay1 (F := Ideal)))
    (hs : ∀ n h, A (n + 1) h = k4_pay4 (F := Ideal) (fun i => g (iblk4 V c 0 ⟨n + 1, h⟩ i)) (A n (Nat.lt_of_succ_lt h)))
include h0 hs

-- A row cleared at first that gains each block's column sums of g holds, after point n, the sum of g over the column's first 5000·(n + 1) entries.
theorem carried4 :
    ∀ (n : ℕ) (h : n < cfg4.N), A n h (ix2 0 j) = ∑ a ∈ Finset.range (5000 * (n + 1)), g (col4 V c j a)
  | 0, h => by
    rw [h0, added4, cleared4, zero_add]
    refine .trans ?_ (Fin.sum_univ_eq_sum_range (fun a => g (col4 V c j a)) 5000)
    exact Finset.sum_congr rfl fun r _ => by rw [xblk4_apply, Nat.mul_zero, Nat.zero_add]
  | n + 1, h => by
    rw [hs, added4, carried4 n, show 5000 * (n + 1 + 1) = 5000 * (n + 1) + 5000 from by omega,
      Finset.sum_range_add, ← Fin.sum_univ_eq_sum_range (fun r => g (col4 V c j (5000 * (n + 1) + r))) 5000]
    exact congrArg₂ (· + ·) rfl (Finset.sum_congr rfl fun r _ => by rw [xblk4_apply])

-- So after the last point it holds the sum of g over all 50000 rows.
theorem total4 :
    ∑ a : Fin 50000, g (V c (Pipeline.arrRef spec4 0) (ix2 a j)) = A t4_9.val t4_9.isLt (ix2 0 j) := by
  refine .symm ((carried4 V g A c j h0 hs 9 _).trans ?_)
  refine (Fin.sum_univ_eq_sum_range (fun a => g (col4 V c j a)) 50000).symm.trans ?_
  exact Finset.sum_congr rfl fun a _ => by unfold col4; rw [dif_pos a.isLt]

end

theorem sum4_all (c : Dev nD) (j : Fin 128) :
    Cert.Spec.colSum (V c (Pipeline.arrRef spec4 0)) j = sumAt4 V c t4_9.val t4_9.isLt (ix2 0 j) :=
  total4 V (fun z => z) (sumAt4 V c) c j (fun h => sumAt4_zero V c ⟨0, h⟩ rfl)
    fun n h => sumAt4_pos V c ⟨n + 1, h⟩ n.succ_ne_zero

theorem sq4_all (c : Dev nD) (j : Fin 128) :
    Cert.Spec.colSumSq (V c (Pipeline.arrRef spec4 0)) j = sqAt4 V c t4_9.val t4_9.isLt (ix2 0 j) :=
  total4 V (fun z => z * z) (sqAt4 V c) c j (fun h => (sqAt4_zero V c ⟨0, h⟩ rfl).trans (squares4 _ _))
    fun n h => (sqAt4_pos V c ⟨n + 1, h⟩ n.succ_ne_zero).trans (squares4 _ _)

-- An output row's array ends holding what the last point leaves for it.
theorem out4_final (c : Dev nD) (w : Fin cfg4.W) (hf : ∀ t : Fin cfg4.N, (cfg4.win w).flush t = true ↔ t.val % 10 = 9)
    (y : ((cfg4.win w).xblock (grid4.coords t4_9)).Idx) {i} (hi : ((cfg4.win w).blk t4_9).view.emb y = i) :
    (dat4 V c).arrAt w cfg4.N i
      = cast (congrArg (Elt Ideal) ((cfg4.win w).blk t4_9).view.elt_eq.symm) ((dat4 V c).flushed w t4_9 y) :=
  hi ▸ (dat4 V c).arrAt_emb_eq_flushed w (fun t u ht hu ne => absurd (Fin.ext (by
    have hN : cfg4.N = 10 := N_4
    have := (hf t).mp ht; have := (hf u).mp hu; have := t.isLt; have := u.isLt; omega)) ne) t4_9 ((hf t4_9).mpr rfl) y

-- THE MEANS: the first output array ends holding, in column j, the mean of the input array's column j.
theorem moments4_mean (c : Dev nD) (j : Fin 128) :
    ((dat4 (F := Ideal) V c).arrAt 1 cfg4.N : Cert.Spec.SRow.Idx → EReal) (ix2 0 j)
      = Cert.Spec.colMean (V c (Pipeline.arrRef spec4 0)) j := by
  refine (out4_final V c 1 flush4_1 (ix2 (0 : Fin 1) j) (Shape.idx_ext₂ (win4_1.rect_emb_val_of_index_zero t4_9 0 (by decide +kernel) _)
    (win4_1.rect_emb_val_of_index_zero t4_9 1 (by decide +kernel) _))).trans ?_
  unfold Cert.Spec.colMean
  rw [sum4_all]
  rfl

-- THE VARIANCES: the second ends holding the mean of the column's squares less the squared mean.
theorem moments4_var (c : Dev nD) (j : Fin 128) :
    ((dat4 (F := Ideal) V c).arrAt 2 cfg4.N : Cert.Spec.SRow.Idx → EReal) (ix2 0 j)
      = Cert.Spec.colVarMoments (V c (Pipeline.arrRef spec4 0)) j := by
  refine (out4_final V c 2 flush4_2 (ix2 (0 : Fin 1) j) (Shape.idx_ext₂ (win4_2.rect_emb_val_of_index_zero t4_9 0 (by decide +kernel) _)
    (win4_2.rect_emb_val_of_index_zero t4_9 1 (by decide +kernel) _))).trans ?_
  unfold Cert.Spec.colVarMoments Cert.Spec.colMean
  rw [sum4_all, sq4_all]
  rfl

end Cert.KernelIdeal.Value4

end
-- ==== Proof.Value.Moments7.lean ====
import proofs.«403168_j28509992910998_1_alg».proof.Proof.KernelIdeal.Moments7
import proofs.«403168_j28509992910998_1_alg».proof.Proof.Spec
import proofs.«403168_j28509992910998_1_alg».proof.Proof.Value.Moments1
import Idealize.ShloMosaic.Lib.ValueLayout
import Idealize.ShloMosaic.PureOps.Ideal.Laws

noncomputable section

namespace Cert.KernelIdeal.Value7

open Idealize.ShloMosaic Idealize.ShloMosaic.TcCoe Idealize.ShloMosaic.ValueIdx Idealize.SL.Sem
open Cert.KernelIdeal Cert.KernelIdeal.Gen Cert.KernelIdeal.Hand

variable (V : (c : Dev nD) → (b : Ref sig .tc) → Buf (Elt Ideal) ((c : Thread nD τ).loc b))

-- Both carried rows start from the zero row.
theorem cleared7 (j : Fin 128) : (k7_pay1 (F := Ideal)) (ix2 0 j) = (0 : EReal) :=
  Cert.KernelIdeal.Value1.cleared1 j
-- One block added to a carried row: column j gains the block's column sum.
theorem added7 (x : Vec Ideal S5000x128 .f32) (s : Vec Ideal S1x128 .f32) (j : Fin 128) :
    k7_pay4 x s (ix2 0 j) = (s (ix2 0 j) + ∑ r : Fin 5000, x (ix2 r j) : EReal) :=
  Cert.KernelIdeal.Value1.added1 x s j
-- The row of sums of squares is carried as the row of sums is, over the block's entrywise squares.
theorem squares7 (x : Vec Ideal S5000x128 .f32) (q : Vec Ideal S1x128 .f32) :
    k7_pay5 x q = k7_pay4 (fun i => x i * x i) q :=
  Cert.KernelIdeal.Value1.squares1 x q
-- Column j of the array as a sequence: its entry in row a, zero past the last row.
def col7 (c : Dev nD) (j : Fin 128) (a : ℕ) : EReal :=
  if h : a < 50000 then V c (Pipeline.arrRef spec7 0) (ix2 ⟨a, h⟩ j) else 0

theorem index7_0 : ∀ t : Fin cfg7.N, win7_0.index t 0 = t.val ∧ win7_0.index t 1 = 0 :=
  (by decide +kernel : ∀ t : Fin grid7.N, win7_0.index t 0 = t.val ∧ win7_0.index t 1 = 0)

-- Row r of the block at point t is row 5000·t + r of the array.
theorem xblk7_apply (c : Dev nD) (t : Fin cfg7.N) (r : Fin 5000) (j : Fin 128) :
    iblk7 V c 0 t (ix2 r j) = col7 V c j (5000 * t.val + r.val) := by
  have hN : cfg7.N = 10 := N_7
  have ha : 5000 * t.val + r.val < 50000 := by have := r.isLt; have := t.isLt; omega
  unfold col7
  rw [dif_pos ha]
  refine congrArg (V c (Pipeline.arrRef spec7 0)) (Shape.idx_ext₂ ?_ ?_)
  · show win7_0.index t 0 * 5000 + 1 * r.val = 5000 * t.val + r.val
    rw [(index7_0 t).1]; omega
  · show win7_0.index t 1 * 128 + 1 * j.val = j.val
    rw [(index7_0 t).2]; omega

section
variable (g : EReal → EReal) (A : (n : ℕ) → n < cfg7.N → Vec Ideal S1x128 .f32) (c : Dev nD) (j : Fin 128)
    (h0 : ∀ h, A 0 h = k7_pay4 (F := Ideal) (fun i => g (iblk7 V c 0 ⟨0, h⟩ i)) (k7_pay1 (F := Ideal)))
    (hs : ∀ n h, A (n + 1) h = k7_pay4 (F := Ideal) (fun i => g (iblk7 V c 0 ⟨n + 1, h⟩ i)) (A n (Nat.lt_of_succ_lt h)))
include h0 hs

-- A row cleared at first that gains each block's column sums of g holds, after point n, the sum of g over the column's first 5000·(n + 1) entries.
theorem carried7 :
    ∀ (n : ℕ) (h : n < cfg7.N), A n h (ix2 0 j) = ∑ a ∈ Finset.range (5000 * (n + 1)), g (col7 V c j a)
  | 0, h => by
    rw [h0, added7, cleared7, zero_add]
    refine .trans ?_ (Fin.sum_univ_eq_sum_range (fun a => g (col7 V c j a)) 5000)
    exact Finset.sum_congr rfl fun r _ => by rw [xblk7_apply, Nat.mul_zero, Nat.zero_add]
  | n + 1, h => by
    rw [hs, added7, carried7 n, show 5000 * (n + 1 + 1) = 5000 * (n + 1) + 5000 from by omega,
      Finset.sum_range_add, ← Fin.sum_univ_eq_sum_range (fun r => g (col7 V c j (5000 * (n + 1) + r))) 5000]
    exact congrArg₂ (· + ·) rfl (Finset.sum_congr rfl fun r _ => by rw [xblk7_apply])

-- So after the last point it holds the sum of g over all 50000 rows.
theorem total7 :
    ∑ a : Fin 50000, g (V c (Pipeline.arrRef spec7 0) (ix2 a j)) = A t7_9.val t7_9.isLt (ix2 0 j) := by
  refine .symm ((carried7 V g A c j h0 hs 9 _).trans ?_)
  refine (Fin.sum_univ_eq_sum_range (fun a => g (col7 V c j a)) 50000).symm.trans ?_
  exact Finset.sum_congr rfl fun a _ => by unfold col7; rw [dif_pos a.isLt]

end

theorem sum7_all (c : Dev nD) (j : Fin 128) :
    Cert.Spec.colSum (V c (Pipeline.arrRef spec7 0)) j = sumAt7 V c t7_9.val t7_9.isLt (ix2 0 j) :=
  total7 V (fun z => z) (sumAt7 V c) c j (fun h => sumAt7_zero V c ⟨0, h⟩ rfl)
    fun n h => sumAt7_pos V c ⟨n + 1, h⟩ n.succ_ne_zero

theorem sq7_all (c : Dev nD) (j : Fin 128) :
    Cert.Spec.colSumSq (V c (Pipeline.arrRef spec7 0)) j = sqAt7 V c t7_9.val t7_9.isLt (ix2 0 j) :=
  total7 V (fun z => z * z) (sqAt7 V c) c j (fun h => (sqAt7_zero V c ⟨0, h⟩ rfl).trans (squares7 _ _))
    fun n h => (sqAt7_pos V c ⟨n + 1, h⟩ n.succ_ne_zero).trans (squares7 _ _)

-- An output row's array ends holding what the last point leaves for it.
theorem out7_final (c : Dev nD) (w : Fin cfg7.W) (hf : ∀ t : Fin cfg7.N, (cfg7.win w).flush t = true ↔ t.val % 10 = 9)
    (y : ((cfg7.win w).xblock (grid7.coords t7_9)).Idx) {i} (hi : ((cfg7.win w).blk t7_9).view.emb y = i) :
    (dat7 V c).arrAt w cfg7.N i
      = cast (congrArg (Elt Ideal) ((cfg7.win w).blk t7_9).view.elt_eq.symm) ((dat7 V c).flushed w t7_9 y) :=
  hi ▸ (dat7 V c).arrAt_emb_eq_flushed w (fun t u ht hu ne => absurd (Fin.ext (by
    have hN : cfg7.N = 10 := N_7
    have := (hf t).mp ht; have := (hf u).mp hu; have := t.isLt; have := u.isLt; omega)) ne) t7_9 ((hf t7_9).mpr rfl) y

-- THE MEANS: the first output array ends holding, in column j, the mean of the input array's column j.
theorem moments7_mean (c : Dev nD) (j : Fin 128) :
    ((dat7 (F := Ideal) V c).arrAt 1 cfg7.N : Cert.Spec.SRow.Idx → EReal) (ix2 0 j)
      = Cert.Spec.colMean (V c (Pipeline.arrRef spec7 0)) j := by
  refine (out7_final V c 1 flush7_1 (ix2 (0 : Fin 1) j) (Shape.idx_ext₂ (win7_1.rect_emb_val_of_index_zero t7_9 0 (by decide +kernel) _)
    (win7_1.rect_emb_val_of_index_zero t7_9 1 (by decide +kernel) _))).trans ?_
  unfold Cert.Spec.colMean
  rw [sum7_all]
  rfl

-- THE VARIANCES: the second ends holding the mean of the column's squares less the squared mean.
theorem moments7_var (c : Dev nD) (j : Fin 128) :
    ((dat7 (F := Ideal) V c).arrAt 2 cfg7.N : Cert.Spec.SRow.Idx → EReal) (ix2 0 j)
      = Cert.Spec.colVarMoments (V c (Pipeline.arrRef spec7 0)) j := by
  refine (out7_final V c 2 flush7_2 (ix2 (0 : Fin 1) j) (Shape.idx_ext₂ (win7_2.rect_emb_val_of_index_zero t7_9 0 (by decide +kernel) _)
    (win7_2.rect_emb_val_of_index_zero t7_9 1 (by decide +kernel) _))).trans ?_
  unfold Cert.Spec.colVarMoments Cert.Spec.colMean
  rw [sum7_all, sq7_all]
  rfl

end Cert.KernelIdeal.Value7

end
-- ==== Proof.Value.Normalize2.lean ====
import proofs.«403168_j28509992910998_1_alg».proof.Proof.KernelIdeal.Normalize2
import proofs.«403168_j28509992910998_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Value2

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

-- Every operation of the payload acts entry by entry, a row being read at its column whatever the row of the block.
theorem pay2_apply (x : Vec Ideal S5000x128 .f32) (vr mn ga be : Vec Ideal S1x128 .f32) (p : Fin 5000) (q : Fin 128) :
    k2_pay1 x vr mn ga be (ix2 p q)
      = max ((x (ix2 p q) - mn (ix2 (0 : Fin 1) q)) * Ideal.rsqrt (vr (ix2 (0 : Fin 1) q) + Cert.Spec.varGuard) * ga (ix2 (0 : Fin 1) q)
          + be (ix2 (0 : Fin 1) q)) 0 := by
  unfold k2_pay1
  simp only [shapeCast_self, Ideal.ofBits_def, maximumf_apply, broadcast_apply, Ideal.ofBits_zero_f32, addf_apply, mulf_apply,
    subf_apply, broadcastTo_1b_ab_apply]
  rfl

/-- One standardised entry: the activation less the mean, times the reciprocal root of the guarded variance, scaled, shifted, cut off at zero. -/
def entry2 (x m v g b : EReal) : EReal := max ((x - m) * Ideal.rsqrt (v + Cert.Spec.varGuard) * g + b) 0

/-- That entry of the five arrays the region finds, the activation read at `i` and the four rows at `r`. -/
def entryAt2 (c : Dev nD) (i : Cert.Spec.SNode.Idx) (r : Cert.Spec.SRow.Idx) : EReal :=
  entry2 (V c (Pipeline.arrRef spec2 0) i) (V c (Pipeline.arrRef spec2 1) r) (V c (Pipeline.arrRef spec2 2) r)
    (V c (Pipeline.arrRef spec2 3) r) (V c (Pipeline.arrRef spec2 4) r)

/-- The output array as one function of the five: entry `i` takes the rows at `i`'s column. -/
def standardised2 (c : Dev nD) : S50000x128.Idx → EReal := fun i => entryAt2 V c i (ix2 (0 : Fin 1) (i 1))

theorem origin2 : (![0, 0] : Fin 2 → Nat) = fun _ => 0 := funext fun a => by fin_cases a <;> rfl

-- The activations' block sits where the output's does, and a row array is its one block: each operand is read where the entry is written.
theorem flushed2_5_eq (c : Dev nD) (t : Fin cfg2.N) :
    (dat2 V c).flushed 5 t = ((cfg2.win 5).blk t).view.read (Elt Ideal) (standardised2 V c) := by
  show (cfg2.win 5).cut (grid2.coords t) ((dat2 V c).after 5 t) = _
  rw [after2_5]
  unfold out2_5
  rw [View.canon_unit_zero origin2]
  simp only [View.ld_unit_zero (S := S5000x128) origin2, View.ld_unit_zero (S := S1x128) origin2]
  funext y
  obtain ⟨p, q, rfl⟩ : ∃ (p : Fin 5000) (q : Fin 128), y = ix2 p q := ⟨y 0, y 1, eq_ix2 y⟩
  refine (pay2_apply _ _ _ _ _ p q).trans ?_
  exact congrArg (entryAt2 V c (((cfg2.win 5).blk t).view.emb (ix2 p q))) (Shape.idx_ext₂ rfl rfl)

/-- The block index of the output's window at point `t`, along the rows, is `t`. -/
theorem rowBlock2 : ∀ t : Fin cfg2.N, win2_5.index t (0 : Fin 2) = t.val :=
  (by decide +kernel : ∀ t : Fin grid2.N, _)

-- Row `r` of the array is row `r % 5000` of the block of point `r / 5000`.
theorem covered2_5 (i : S50000x128.Idx) :
    ∃ t : Fin cfg2.N, (cfg2.win 5).flush t = true ∧ i ∈ ((cfg2.win 5).blk t).view.set := by
  have hi : (i 0).val < 50000 := idx2_lt0 i
  obtain ⟨t, ht⟩ : ∃ t : Fin cfg2.N, t.val = (i 0).val / 5000 := ⟨⟨_, by rw [show cfg2.N = 10 from N_2]; omega⟩, rfl⟩
  have e : ((cfg2.win 5).blk t).view.emb (ix2 (⟨(i 0).val % 5000, Nat.mod_lt _ (by decide)⟩ : Fin 5000) (i 1)) = i :=
    Shape.idx_ext₂ (by show win2_5.index t (0 : Fin 2) * 5000 + 1 * ((i 0).val % 5000) = _; rw [rowBlock2, ht]; omega)
      (win2_5.rect_emb_val_of_index_zero t (1 : Fin 2) rfl _)
  exact ⟨t, flush2_5 t, e ▸ View.emb_mem_set _ _⟩

theorem normalize2_value (c : Dev nD) (a : Fin 50000) (j : Fin 128) :
    ((Cert.KernelIdeal.Hand.dat2 (F := Ideal) V c).arrAt 5 cfg2.N : Cert.Spec.SNode.Idx → EReal) (ValueIdx.ix2 a j)
      = Cert.Spec.standardiseAt (V c (Pipeline.arrRef spec2 0))
          (fun j => (V c (Pipeline.arrRef spec2 1) : Cert.Spec.SRow.Idx → EReal) (ValueIdx.ix2 0 j))
          (fun j => (V c (Pipeline.arrRef spec2 2) : Cert.Spec.SRow.Idx → EReal) (ValueIdx.ix2 0 j))
          (fun j => (V c (Pipeline.arrRef spec2 3) : Cert.Spec.SRow.Idx → EReal) (ValueIdx.ix2 0 j))
          (fun j => (V c (Pipeline.arrRef spec2 4) : Cert.Spec.SRow.Idx → EReal) (ValueIdx.ix2 0 j)) a j :=
  congrFun ((dat2 V c).arrAt_eq_of_cover 5 (standardised2 V c) (fun t _ => flushed2_5_eq V c t) covered2_5) (ix2 a j)

end Cert.KernelIdeal.Value2
-- ==== Proof.Value.Normalize5.lean ====
import proofs.«403168_j28509992910998_1_alg».proof.Proof.KernelIdeal.Normalize5
import proofs.«403168_j28509992910998_1_alg».proof.Proof.Spec
import proofs.«403168_j28509992910998_1_alg».proof.Proof.Value.Normalize2
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Value5

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

-- Every operation of the payload acts entry by entry, a row being read at its column whatever the row of the block.
theorem pay5_apply (x : Vec Ideal S5000x128 .f32) (vr mn ga be : Vec Ideal S1x128 .f32) (p : Fin 5000) (q : Fin 128) :
    k5_pay1 x vr mn ga be (ix2 p q)
      = max ((x (ix2 p q) - mn (ix2 (0 : Fin 1) q)) * Ideal.rsqrt (vr (ix2 (0 : Fin 1) q) + Cert.Spec.varGuard) * ga (ix2 (0 : Fin 1) q)
          + be (ix2 (0 : Fin 1) q)) 0 :=
  Cert.KernelIdeal.Value2.pay2_apply x vr mn ga be p q
/-- That entry of the five arrays the region finds, the activation read at `i` and the four rows at `r`. -/
def entryAt5 (c : Dev nD) (i : Cert.Spec.SNode.Idx) (r : Cert.Spec.SRow.Idx) : EReal :=
  Cert.KernelIdeal.Value2.entry2 (V c (Pipeline.arrRef spec5 0) i) (V c (Pipeline.arrRef spec5 1) r) (V c (Pipeline.arrRef spec5 2) r)
    (V c (Pipeline.arrRef spec5 3) r) (V c (Pipeline.arrRef spec5 4) r)

/-- The output array as one function of the five: entry `i` takes the rows at `i`'s column. -/
def standardised5 (c : Dev nD) : S50000x128.Idx → EReal := fun i => entryAt5 V c i (ix2 (0 : Fin 1) (i 1))

-- The activations' block sits where the output's does, and a row array is its one block: each operand is read where the entry is written.
theorem flushed5_5_eq (c : Dev nD) (t : Fin cfg5.N) :
    (dat5 V c).flushed 5 t = ((cfg5.win 5).blk t).view.read (Elt Ideal) (standardised5 V c) := by
  show (cfg5.win 5).cut (grid5.coords t) ((dat5 V c).after 5 t) = _
  rw [after5_5]
  unfold out5_5
  rw [View.canon_unit_zero Cert.KernelIdeal.Value2.origin2]
  simp only [View.ld_unit_zero (S := S5000x128) Cert.KernelIdeal.Value2.origin2, View.ld_unit_zero (S := S1x128) Cert.KernelIdeal.Value2.origin2]
  funext y
  obtain ⟨p, q, rfl⟩ : ∃ (p : Fin 5000) (q : Fin 128), y = ix2 p q := ⟨y 0, y 1, eq_ix2 y⟩
  refine (pay5_apply _ _ _ _ _ p q).trans ?_
  exact congrArg (entryAt5 V c (((cfg5.win 5).blk t).view.emb (ix2 p q))) (Shape.idx_ext₂ rfl rfl)

/-- The block index of the output's window at point `t`, along the rows, is `t`. -/
theorem rowBlock5 : ∀ t : Fin cfg5.N, win5_5.index t (0 : Fin 2) = t.val :=
  (by decide +kernel : ∀ t : Fin grid5.N, _)

-- Row `r` of the array is row `r % 5000` of the block of point `r / 5000`.
theorem covered5_5 (i : S50000x128.Idx) :
    ∃ t : Fin cfg5.N, (cfg5.win 5).flush t = true ∧ i ∈ ((cfg5.win 5).blk t).view.set := by
  have hi : (i 0).val < 50000 := idx2_lt0 i
  obtain ⟨t, ht⟩ : ∃ t : Fin cfg5.N, t.val = (i 0).val / 5000 := ⟨⟨_, by rw [show cfg5.N = 10 from N_5]; omega⟩, rfl⟩
  have e : ((cfg5.win 5).blk t).view.emb (ix2 (⟨(i 0).val % 5000, Nat.mod_lt _ (by decide)⟩ : Fin 5000) (i 1)) = i :=
    Shape.idx_ext₂ (by show win5_5.index t (0 : Fin 2) * 5000 + 1 * ((i 0).val % 5000) = _; rw [rowBlock5, ht]; omega)
      (win5_5.rect_emb_val_of_index_zero t (1 : Fin 2) rfl _)
  exact ⟨t, flush5_5 t, e ▸ View.emb_mem_set _ _⟩

theorem normalize5_value (c : Dev nD) (a : Fin 50000) (j : Fin 128) :
    ((Cert.KernelIdeal.Hand.dat5 (F := Ideal) V c).arrAt 5 cfg5.N : Cert.Spec.SNode.Idx → EReal) (ValueIdx.ix2 a j)
      = Cert.Spec.standardiseAt (V c (Pipeline.arrRef spec5 0))
          (fun j => (V c (Pipeline.arrRef spec5 1) : Cert.Spec.SRow.Idx → EReal) (ValueIdx.ix2 0 j))
          (fun j => (V c (Pipeline.arrRef spec5 2) : Cert.Spec.SRow.Idx → EReal) (ValueIdx.ix2 0 j))
          (fun j => (V c (Pipeline.arrRef spec5 3) : Cert.Spec.SRow.Idx → EReal) (ValueIdx.ix2 0 j))
          (fun j => (V c (Pipeline.arrRef spec5 4) : Cert.Spec.SRow.Idx → EReal) (ValueIdx.ix2 0 j)) a j :=
  congrFun ((dat5 V c).arrAt_eq_of_cover 5 (standardised5 V c) (fun t _ => flushed5_5_eq V c t) covered5_5) (ix2 a j)

end Cert.KernelIdeal.Value5
-- ==== Proof.Value.Normalize8.lean ====
import proofs.«403168_j28509992910998_1_alg».proof.Proof.KernelIdeal.Normalize8
import proofs.«403168_j28509992910998_1_alg».proof.Proof.Spec
import proofs.«403168_j28509992910998_1_alg».proof.Proof.Value.Normalize2
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Value8

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

-- Every operation of the payload acts entry by entry, a row being read at its column whatever the row of the block.
theorem pay8_apply (x : Vec Ideal S5000x128 .f32) (vr mn ga be : Vec Ideal S1x128 .f32) (p : Fin 5000) (q : Fin 128) :
    k8_pay1 x vr mn ga be (ix2 p q)
      = max ((x (ix2 p q) - mn (ix2 (0 : Fin 1) q)) * Ideal.rsqrt (vr (ix2 (0 : Fin 1) q) + Cert.Spec.varGuard) * ga (ix2 (0 : Fin 1) q)
          + be (ix2 (0 : Fin 1) q)) 0 :=
  Cert.KernelIdeal.Value2.pay2_apply x vr mn ga be p q
/-- That entry of the five arrays the region finds, the activation read at `i` and the four rows at `r`. -/
def entryAt8 (c : Dev nD) (i : Cert.Spec.SNode.Idx) (r : Cert.Spec.SRow.Idx) : EReal :=
  Cert.KernelIdeal.Value2.entry2 (V c (Pipeline.arrRef spec8 0) i) (V c (Pipeline.arrRef spec8 1) r) (V c (Pipeline.arrRef spec8 2) r)
    (V c (Pipeline.arrRef spec8 3) r) (V c (Pipeline.arrRef spec8 4) r)

/-- The output array as one function of the five: entry `i` takes the rows at `i`'s column. -/
def standardised8 (c : Dev nD) : S50000x128.Idx → EReal := fun i => entryAt8 V c i (ix2 (0 : Fin 1) (i 1))

-- The activations' block sits where the output's does, and a row array is its one block: each operand is read where the entry is written.
theorem flushed8_5_eq (c : Dev nD) (t : Fin cfg8.N) :
    (dat8 V c).flushed 5 t = ((cfg8.win 5).blk t).view.read (Elt Ideal) (standardised8 V c) := by
  show (cfg8.win 5).cut (grid8.coords t) ((dat8 V c).after 5 t) = _
  rw [after8_5]
  unfold out8_5
  rw [View.canon_unit_zero Cert.KernelIdeal.Value2.origin2]
  simp only [View.ld_unit_zero (S := S5000x128) Cert.KernelIdeal.Value2.origin2, View.ld_unit_zero (S := S1x128) Cert.KernelIdeal.Value2.origin2]
  funext y
  obtain ⟨p, q, rfl⟩ : ∃ (p : Fin 5000) (q : Fin 128), y = ix2 p q := ⟨y 0, y 1, eq_ix2 y⟩
  refine (pay8_apply _ _ _ _ _ p q).trans ?_
  exact congrArg (entryAt8 V c (((cfg8.win 5).blk t).view.emb (ix2 p q))) (Shape.idx_ext₂ rfl rfl)

/-- The block index of the output's window at point `t`, along the rows, is `t`. -/
theorem rowBlock8 : ∀ t : Fin cfg8.N, win8_5.index t (0 : Fin 2) = t.val :=
  (by decide +kernel : ∀ t : Fin grid8.N, _)

-- Row `r` of the array is row `r % 5000` of the block of point `r / 5000`.
theorem covered8_5 (i : S50000x128.Idx) :
    ∃ t : Fin cfg8.N, (cfg8.win 5).flush t = true ∧ i ∈ ((cfg8.win 5).blk t).view.set := by
  have hi : (i 0).val < 50000 := idx2_lt0 i
  obtain ⟨t, ht⟩ : ∃ t : Fin cfg8.N, t.val = (i 0).val / 5000 := ⟨⟨_, by rw [show cfg8.N = 10 from N_8]; omega⟩, rfl⟩
  have e : ((cfg8.win 5).blk t).view.emb (ix2 (⟨(i 0).val % 5000, Nat.mod_lt _ (by decide)⟩ : Fin 5000) (i 1)) = i :=
    Shape.idx_ext₂ (by show win8_5.index t (0 : Fin 2) * 5000 + 1 * ((i 0).val % 5000) = _; rw [rowBlock8, ht]; omega)
      (win8_5.rect_emb_val_of_index_zero t (1 : Fin 2) rfl _)
  exact ⟨t, flush8_5 t, e ▸ View.emb_mem_set _ _⟩

theorem normalize8_value (c : Dev nD) (a : Fin 50000) (j : Fin 128) :
    ((Cert.KernelIdeal.Hand.dat8 (F := Ideal) V c).arrAt 5 cfg8.N : Cert.Spec.SNode.Idx → EReal) (ValueIdx.ix2 a j)
      = Cert.Spec.standardiseAt (V c (Pipeline.arrRef spec8 0))
          (fun j => (V c (Pipeline.arrRef spec8 1) : Cert.Spec.SRow.Idx → EReal) (ValueIdx.ix2 0 j))
          (fun j => (V c (Pipeline.arrRef spec8 2) : Cert.Spec.SRow.Idx → EReal) (ValueIdx.ix2 0 j))
          (fun j => (V c (Pipeline.arrRef spec8 3) : Cert.Spec.SRow.Idx → EReal) (ValueIdx.ix2 0 j))
          (fun j => (V c (Pipeline.arrRef spec8 4) : Cert.Spec.SRow.Idx → EReal) (ValueIdx.ix2 0 j)) a j :=
  congrFun ((dat8 V c).arrAt_eq_of_cover 5 (standardised8 V c) (fun t _ => flushed8_5_eq V c t) covered8_5) (ix2 a j)

end Cert.KernelIdeal.Value8
-- ==== Proof.Value.Pool9.lean ====
import proofs.«403168_j28509992910998_1_alg».proof.Proof.KernelIdeal.Pool9
import proofs.«403168_j28509992910998_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Value9

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

-- An equality test of two words, read as a number, is 1 or 0.
theorem eqWord_toReal (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · simp [IntOp.cmpi, h]
  · simp [IntOp.cmpi, h, beq_false_of_ne h]

-- Entry (r, g) of the table tests the id of row `r` against the number `g`.
theorem pay3_apply (x1 : Vec Ideal S5000x1 .i32) (r : Fin 5000) (g : Fin 64) :
    k9_pay3 (F := Ideal) x1 (ix2 r g) = IntOp.cmpi .eq (x1 (ix2 r (0 : Fin 1))) (BitVec.ofNat 32 g.val) := by
  unfold k9_pay3
  refine congrArg₂ (IntOp.cmpi .eq) ?_ (iota_single_apply _ _ _ _ _ _)
  rw [shapeCast_self]
  exact broadcastTo_apply x1 _ _ (ix2 r (0 : Fin 1)) fun a => by fin_cases a <;> rfl

/-- 1 if the id in row `r` of the tile is `g`, else 0. -/
def tileMember (x1 : Vec Ideal S5000x1 .i32) (r : Fin 5000) (g : Fin 64) : EReal :=
  if x1 (ix2 r (0 : Fin 1)) = BitVec.ofNat 32 g.val then 1 else 0

theorem onehot_apply (x1 : Vec Ideal S5000x1 .i32) (r : Fin 5000) (g : Fin 64) :
    (sitofp (F := Ideal) .f32 (extui 32 (k9_pay3 (F := Ideal) x1) natLt_1_32) : FVec Ideal S5000x64 .f32) (ix2 r g) = tileMember x1 r g := by
  rw [sitofp_apply, extui_apply, pay3_apply, eqWord_toReal]
  rfl

-- The product contracts the rows of the tile: at (g, j) and row r its factors are the entries (g, r) and (r, j).
theorem matmul9_apply (L : FVec Ideal S64x5000 .bf16) (R : FVec Ideal S5000x128 .bf16) (g : Fin 64) (j : Fin 128) :
    (matmul dot_S64x5000_S5000x128_S64x128_1_0_0_1_n_n none L R (constant (F := Ideal) S64x128 .f32 0x00000000#32) : FVec Ideal S64x128 .f32) (ix2 g j)
      = ∑ r : Fin 5000, L (ix2 g r) * R (ix2 r j) := by
  simp only [matmul]
  rw [Ideal.matmul_constant_zero_apply, ← Equiv.sum_comp (contrEquiv1 dot_S64x5000_S5000x128_S64x128_1_0_0_1_n_n 5000 rfl rfl).symm]
  refine Finset.sum_congr rfl fun r _ => ?_
  have hk := contrEquiv1_symm_val dot_S64x5000_S5000x128_S64x128_1_0_0_1_n_n 5000 rfl rfl r
  congr 2
  · exact Shape.idx_ext₂ rfl hk
  · exact Shape.idx_ext₂ hk rfl

-- The transposed table times the features adds, per graph and column, the features of the graph's rows in the tile.
theorem pay4_apply (x1 : Vec Ideal S5000x1 .i32) (x0 : Vec Ideal S5000x128 .f32) (s : Vec Ideal S64x128 .f32) (g : Fin 64) (j : Fin 128) :
    (k9_pay4 (F := Ideal) x1 x0 s : S64x128.Idx → EReal) (ix2 g j) = s (ix2 g j) + ∑ r : Fin 5000, tileMember x1 r g * x0 (ix2 r j) := by
  unfold k9_pay4
  rw [shapeCast_self, addf_apply, matmul9_apply]
  refine congrArg (s (ix2 g j) + ·) (Finset.sum_congr rfl fun r _ => ?_)
  rw [transpose_ix2_apply, truncf_apply, truncf_apply, shapeCast_self, onehot_apply]

theorem pay1_apply (g : Fin 64) (j : Fin 128) : (k9_pay1 (F := Ideal) : S64x128.Idx → EReal) (ix2 g j) = 0 := by
  unfold k9_pay1
  rw [shapeCast_self, broadcast_apply]
  exact Ideal.ofBits_zero_f32
theorem pay2_apply (g : Fin 64) : (k9_pay2 (F := Ideal) : S1x64.Idx → EReal) (ix2 (0 : Fin 1) g) = 0 := by
  unfold k9_pay2
  rw [shapeCast_self, broadcast_apply]
  exact Ideal.ofBits_zero_f32

-- The table's column sums add, per graph, the number of its rows in the tile.
theorem pay5_apply (x1 : Vec Ideal S5000x1 .i32) (s : Vec Ideal S1x64 .f32) (g : Fin 64) :
    (k9_pay5 (F := Ideal) x1 s : S1x64.Idx → EReal) (ix2 (0 : Fin 1) g) = s (ix2 (0 : Fin 1) g) + ∑ r : Fin 5000, tileMember x1 r g := by
  unfold k9_pay5
  rw [shapeCast_self, addf_apply, shapeCast_a_1a_apply]
  refine congrArg (s (ix2 (0 : Fin 1) g) + ·) ((Ideal.multiReduction_add_single _ _ reduces_S5000x64_S64 _ _ (ix1 g)).trans ?_)
  refine Finset.sum_congr rfl fun r _ => ?_
  rw [show reduces_S5000x64_S64.lift (ix1 g) r = ix2 r g from Shape.idx_ext₂ rfl rfl]
  exact onehot_apply x1 r g

theorem last9 : (9 : ℕ) < cfg9.N := by rw [show cfg9.N = 10 from N_9]; decide

-- Ten tiles of 5000 rows are the 50000 nodes: a total that starts at zero and gains every tile's rows ends at the sum over all nodes.
theorem total9 (f : (n : ℕ) → n < cfg9.N → EReal) (x : Fin 50000 → EReal) (T : Fin cfg9.N → Fin 5000 → EReal)
    (hT : ∀ t r h, T t r = x ⟨5000 * t.val + r.val, h⟩)
    (h0 : ∀ h, f 0 h = 0 + ∑ r, T ⟨0, h⟩ r)
    (hs : ∀ n h, f (n + 1) h = f n (Nat.lt_of_succ_lt h) + ∑ r, T ⟨n + 1, h⟩ r) :
    f 9 last9 = ∑ a, x a := by
  have hN : cfg9.N = 10 := N_9
  obtain ⟨G, hG⟩ : ∃ G : ℕ → EReal, ∀ a (h : a < 50000), G a = x ⟨a, h⟩ :=
    ⟨fun a => if h : a < 50000 then x ⟨a, h⟩ else 0, fun a h => dif_pos h⟩
  have hT' : ∀ (n : ℕ) (h : n < cfg9.N), ∑ r, T ⟨n, h⟩ r = ∑ r ∈ Finset.range 5000, G (5000 * n + r) := fun n h =>
    (Finset.sum_congr rfl fun r _ => by
      have h' : 5000 * n + r.val < 50000 := by have := r.isLt; omega
      rw [hT _ r h', hG _ h']).trans (Fin.sum_univ_eq_sum_range (fun r => G (5000 * n + r)) 5000)
  have key : ∀ (n : ℕ) (h : n < cfg9.N), f n h = ∑ a ∈ Finset.range (5000 * (n + 1)), G a := by
    intro n
    induction n with
    | zero => intro h; rw [h0, hT', zero_add]; simp
    | succ n ih => intro h; rw [hs, ih, hT', Nat.mul_add_one 5000 (n + 1), Finset.sum_range_add]
  exact (key 9 last9).trans ((Fin.sum_univ_eq_sum_range G 50000).symm.trans (Finset.sum_congr rfl fun a _ => hG _ a.isLt))

variable (V : (c : Dev nD) → (b : Ref sig .tc) → Buf (Elt Ideal) ((c : Thread nD τ).loc b))

-- Along the rows the tile at point `t` is the `t`-th.
theorem rowTile9 : ∀ t : Fin cfg9.N, win9_0.index t (0 : Fin 2) = t.val :=
  (by decide +kernel : ∀ t : Fin grid9.N, _)

theorem row9 (t : Fin cfg9.N) (r : Fin 5000) : win9_0.index t (0 : Fin 2) * 5000 + 1 * r.val = 5000 * t.val + r.val := by
  rw [rowTile9]; omega

-- The tiles follow one another down the rows: tile `t` begins at row `5000 t`.
theorem feat9_tile (c : Dev nD) (t : Fin cfg9.N) (r : Fin 5000) (j : Fin 128) (h : 5000 * t.val + r.val < 50000) :
    (iblk9 V c 0 t : S5000x128.Idx → EReal) (ix2 r j)
      = (V c (Pipeline.arrRef spec9 0) : Cert.Spec.SNode.Idx → EReal) (ix2 ⟨5000 * t.val + r.val, h⟩ j) :=
  congrArg (V c (Pipeline.arrRef spec9 0)) (Shape.idx_ext₂ (row9 t r) (win9_0.rect_emb_val_of_index_zero t (1 : Fin 2) rfl _))

-- So a row of the id tile belongs to a graph exactly when its node does.
theorem tile_member9 (c : Dev nD) (t : Fin cfg9.N) (r : Fin 5000) (g : Fin 64) (h : 5000 * t.val + r.val < 50000) :
    tileMember (iblk9 V c 1 t) r g = Cert.Spec.member (V c (Pipeline.arrRef spec9 1)) ⟨5000 * t.val + r.val, h⟩ g :=
  congrArg (fun w : BitVec 32 => if w = BitVec.ofNat 32 g.val then (1 : EReal) else 0)
    (congrArg (V c (Pipeline.arrRef spec9 1)) (Shape.idx_ext₂ (row9 t r) rfl))

theorem only9 (t : Fin cfg9.N) (h : t.val % 10 = 9) : t = t9_9 :=
  Fin.ext (by have : t.val < 10 := lt_of_lt_of_eq t.isLt N_9; show t.val = 9; omega)

-- Only the last tile writes a result array, and it writes all of it: the array ends at what the total is then.
theorem final9_2 (c : Dev nD) : (dat9 V c).arrAt 2 cfg9.N = sumsAt9 V c 9 last9 := by
  have hz : (fun a => win9_2.index t9_9 a * main_v93_0.ty.shape.size a) = fun _ => 0 := funext fun a => by fin_cases a <;> rfl
  refine (dat9 V c).arrAt_eq_of_cover 2 _ (fun t hf => ?_) fun i => ⟨t9_9, (flush9_2 _).mpr rfl, ?_⟩
  · obtain rfl := only9 t ((flush9_2 t).mp hf)
    exact (Memref.read_access_unit_zero (Elt Ideal) main_v93_0 hz _ _).symm
  · show i ∈ ((View.whole main_v93_0).slice (win9_2.rect t9_9)).set
    rw [View.set_slice_whole]
    exact View.mem_set_unit_zero hz _ i

theorem final9_3 (c : Dev nD) : (dat9 V c).arrAt 3 cfg9.N = countsAt9 V c 9 last9 := by
  have hz : (fun a => win9_3.index t9_9 a * main_v93_1.ty.shape.size a) = fun _ => 0 := funext fun a => by fin_cases a <;> rfl
  refine (dat9 V c).arrAt_eq_of_cover 3 _ (fun t hf => ?_) fun i => ⟨t9_9, (flush9_3 _).mpr rfl, ?_⟩
  · obtain rfl := only9 t ((flush9_3 t).mp hf)
    exact (Memref.read_access_unit_zero (Elt Ideal) main_v93_1 hz _ _).symm
  · show i ∈ ((View.whole main_v93_1).slice (win9_3.rect t9_9)).set
    rw [View.set_slice_whole]
    exact View.mem_set_unit_zero hz _ i

theorem pool9_sums (c : Dev nD) (g : Fin 64) (j : Fin 128) :
    ((dat9 (F := Ideal) V c).arrAt 2 cfg9.N : Cert.Spec.SPool.Idx → EReal) (ix2 g j)
      = Cert.Spec.poolSumAt (V c (Pipeline.arrRef spec9 0)) (V c (Pipeline.arrRef spec9 1)) g j := by
  rw [final9_2]
  exact total9 (fun n hn => (sumsAt9 V c n hn : S64x128.Idx → EReal) (ix2 g j)) _
    (fun t r => tileMember (iblk9 V c 1 t) r g * (iblk9 V c 0 t : S5000x128.Idx → EReal) (ix2 r j))
    (fun t r h => by rw [tile_member9 V c t r g h, feat9_tile V c t r j h])
    (fun h => by rw [sumsAt9_zero, pay4_apply, pay1_apply])
    (fun n h => by rw [sumsAt9_succ, pay4_apply])

theorem pool9_counts (c : Dev nD) (g : Fin 64) :
    ((dat9 (F := Ideal) V c).arrAt 3 cfg9.N : Cert.Spec.SCount.Idx → EReal) (ix2 (0 : Fin 1) g)
      = Cert.Spec.poolCountAt (V c (Pipeline.arrRef spec9 1)) g := by
  rw [final9_3]
  exact total9 (fun n hn => (countsAt9 V c n hn : S1x64.Idx → EReal) (ix2 (0 : Fin 1) g)) _
    (fun t r => tileMember (iblk9 V c 1 t) r g) (fun t r h => tile_member9 V c t r g h)
    (fun h => by rw [countsAt9_zero, pay5_apply, pay2_apply])
    (fun n h => by rw [countsAt9_succ, pay5_apply])

end Cert.KernelIdeal.Value9

end
-- ==== Proof.Algebra.Mix.lean ====
import proofs.«403168_j28509992910998_1_alg».proof.ReferenceIdeal
import proofs.«403168_j28509992910998_1_alg».proof.Proof.Spec
import Idealize.ShloMosaic.PureOps.Ideal.Laws
import Mathlib.Tactic.Linarith
import Mathlib.Tactic.NormNum

noncomputable section

namespace Cert.Mix

open Idealize.ShloMosaic Idealize.ShloMosaic.ValueIdx
open Cert.ReferenceIdeal Cert.ReferenceIdeal.Facts₀ Cert.ReferenceIdeal.Facts
open scoped BigOperators

section Operations

variable {F : FTy → Type} [FloatOps F] [Cert.ReferenceIdeal.Facts]

def srcRow (ei : IVec S2x800000 32) : IVec S850000 32 :=
  concatenate S850000 0
    [⟨S800000, shapeCast S800000 (extractStridedSlice S1x800000 ![0, 0] ei slices_S2x800000_S1x800000_0_0)
        shapeCasts_S1x800000_S800000⟩,
     ⟨S50000, iotaInDim S50000 32 0⟩] concatenates_S800000_S50000_S850000_d0

def dstRow (ei : IVec S2x800000 32) : IVec S850000 32 :=
  concatenate S850000 0
    [⟨S800000, shapeCast S800000 (extractStridedSlice S1x800000 ![1, 0] ei slices_S2x800000_S1x800000_1_0)
        shapeCasts_S1x800000_S800000⟩,
     ⟨S50000, iotaInDim S50000 32 0⟩] concatenates_S800000_S50000_S850000_d0

def wrapNeg (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

def srcIdx (ei : IVec S2x800000 32) : IVec S850000x1 32 :=
  broadcastInDim S850000x1 ![0] bcast_S850000_S850000x1_0 (wrapNeg (srcRow ei))

def dstRaw (ei : IVec S2x800000 32) : IVec S850000x1 32 :=
  broadcastInDim S850000x1 ![0] bcast_S850000_S850000x1_0 (dstRow ei)

def dstIdx (ei : IVec S2x800000 32) : IVec S850000x1 32 :=
  broadcastInDim S850000x1 ![0] bcast_S850000_S850000x1_0 (wrapNeg (dstRow ei))

def degree (ei : IVec S2x800000 32) : FVec F S50000 .f32 :=
  Host.scatterAdd scatter_S50000_S850000x1_S850000_n_0_0_1
    (broadcastInDim S50000 ![] bcast_S_S50000 (constant S_ .f32 0x00000000#32))
    (dstRaw ei)
    (broadcastInDim S850000 ![] bcast_S_S850000 (constant S_ .f32 0x3F800000#32))

def invSqrtDeg (ei : IVec S2x800000 32) : FVec F S50000 .f32 :=
  Host.rsqrt (maximumf (degree (F := F) ei) (broadcastInDim S50000 ![] bcast_S_S50000 (constant S_ .f32 0x3F800000#32)))

def edgeNorm (ei : IVec S2x800000 32) : FVec F S850000 .f32 :=
  mulf (Host.gather gather_S50000_S850000x1_S850000_n_0_n_n_0_1_1 (invSqrtDeg (F := F) ei) (srcIdx ei))
    (Host.gather gather_S50000_S850000x1_S850000_n_0_n_n_0_1_1 (invSqrtDeg (F := F) ei) (dstIdx ei))

def mix (ht : FVec F S50000x128 .f32) (ei : IVec S2x800000 32) (b : FVec F S128 .f32) : FVec F S50000x128 .f32 :=
  addf
    (Host.scatterAdd scatter_S50000x128_S850000x1_S850000x128_1_0_0_1
      (broadcastInDim S50000x128 ![] bcast_S_S50000x128 (constant S_ .f32 0x00000000#32))
      (dstRaw ei)
      (mulf (Host.gather gather_S50000x128_S850000x1_S850000x128_1_0_n_n_0_1_1128 ht (srcIdx ei))
        (broadcastInDim S850000x128 ![0, 1] bcast_S850000x1_S850000x128_0_1
          (broadcastInDim S850000x1 ![0] bcast_S850000_S850000x1_0 (edgeNorm (F := F) ei)))))
    (broadcastInDim S50000x128 ![0, 1] bcast_S1x128_S50000x128_0_1
      (broadcastInDim S1x128 ![1] bcast_S128_S1x128_1 b))

end Operations

def IsReal (x : EReal) : Prop := ∃ r : ℝ, x = (r : EReal)

theorem IsReal.add {x y : EReal} : IsReal x → IsReal y → IsReal (x + y)
  | ⟨a, ha⟩, ⟨c, hc⟩ => ⟨a + c, by rw [ha, hc, EReal.coe_add]⟩

theorem IsReal.mul {x y : EReal} : IsReal x → IsReal y → IsReal (x * y)
  | ⟨a, ha⟩, ⟨c, hc⟩ => ⟨a * c, by rw [ha, hc, EReal.coe_mul]⟩

theorem IsReal.sum {ι : Type} (s : Finset ι) (f : ι → EReal) (h : ∀ i ∈ s, IsReal (f i)) :
    IsReal (∑ i ∈ s, f i) :=
  Finset.sum_induction f IsReal (fun _ _ => IsReal.add) ⟨0, rfl⟩ h

theorem isReal_zeroWord : IsReal (Ideal.ofBits .f32 0x00000000#32) :=
  ⟨0, by rw [Ideal.ofBits_zero_f32, EReal.coe_zero]⟩

theorem ofBits_oneWord : Ideal.ofBits .f32 0x3F800000#32 = 1 := by
  simp [Ideal.ofBits, Ideal.ieee, -EReal.coe_mul]; norm_num

theorem isReal_rsqrt_max_one {x : EReal} : IsReal x → IsReal (Ideal.rsqrt (max x 1))
  | ⟨r, hr⟩ => by
    have h : (0 : ℝ) < max r 1 := zero_lt_one.trans_le (le_max_right r 1)
    rw [hr, ← EReal.coe_one, ← EReal.coe_strictMono.monotone.map_max, Ideal.rsqrt_coe, if_neg (not_lt.mpr h.le), if_neg h.ne']
    exact ⟨_, rfl⟩

theorem isReal_scatterAdd {s si su : Shape} (d : ScatterDims s si su) {w : Nat} (x : FVec Ideal s .f32)
    (idx : IVec si w) (upd : FVec Ideal su .f32) (hx : ∀ i, IsReal (x i)) (hu : ∀ j, IsReal (upd j)) (i : s.Idx) :
    IsReal (Host.scatterAdd (F := Ideal) d x idx upd i) := by
  show IsReal (x i + ∑ j ∈ _, upd j)
  exact (hx i).add (IsReal.sum _ _ fun j _ => hu j)

theorem isReal_broadcastInDim {s t : Shape} (dims : Fin s.rank → Fin t.rank) (h : s.BroadcastsInDim t dims)
    (x : s.Idx → EReal) (hx : ∀ i, IsReal (x i)) (j : t.Idx) : IsReal (broadcastInDim t dims h x j) :=
  hx _

theorem isReal_gather {s si t : Shape} {w : Nat} (d : GatherDims s si t) (x : s.Idx → EReal) (idx : IVec si w)
    (hx : ∀ i, IsReal (x i)) (j : t.Idx) : IsReal (Host.gather d x idx j) :=
  hx _

theorem isReal_constant (s : Shape) (c : BitVec 32) (hc : IsReal (Ideal.ofBits .f32 c)) (i : s.Idx) :
    IsReal (constant (F := Ideal) s .f32 c i) :=
  hc

theorem isReal_mulf {s : Shape} (x y : FVec Ideal s .f32) (hx : ∀ i, IsReal (x i)) (hy : ∀ i, IsReal (y i)) (i : s.Idx) :
    IsReal (mulf x y i) :=
  (hx i).mul (hy i)

theorem isReal_addf {s : Shape} (x y : FVec Ideal s .f32) (hx : ∀ i, IsReal (x i)) (hy : ∀ i, IsReal (y i)) (i : s.Idx) :
    IsReal (addf x y i) :=
  (hx i).add (hy i)

theorem isReal_rsqrt_maximumf_one {s : Shape} (x one : FVec Ideal s .f32) (hx : ∀ i, IsReal (x i)) (h1 : ∀ i, one i = 1)
    (i : s.Idx) : IsReal (Host.rsqrt (maximumf x one) i) := by
  show IsReal (Ideal.rsqrt (max (x i) (one i)))
  rw [h1 i]
  exact isReal_rsqrt_max_one (hx i)

section Real

variable [Cert.ReferenceIdeal.Facts]

theorem isReal_invSqrtDeg (ei : IVec S2x800000 32) (i : S50000.Idx) : IsReal (invSqrtDeg (F := Ideal) ei i) := by
  unfold invSqrtDeg degree
  exact isReal_rsqrt_maximumf_one _ _ (isReal_scatterAdd _ _ _ _
    (isReal_broadcastInDim _ _ _ (isReal_constant _ _ isReal_zeroWord))
    (isReal_broadcastInDim _ _ _ (isReal_constant _ _ ⟨1, ofBits_oneWord⟩))) (fun _ => ofBits_oneWord) i

theorem mix_finite (ht : FVec Ideal S50000x128 .f32) (ei : IVec S2x800000 32) (b : FVec Ideal S128 .f32)
    (hh : Cert.Spec.FiniteNode ht) (hb : ∀ i, ∃ r : ℝ, b i = (r : EReal)) :
    Cert.Spec.FiniteNode (mix (F := Ideal) ht ei b) := by
  unfold mix edgeNorm
  exact isReal_addf _ _
    (isReal_scatterAdd _ _ _ _
      (isReal_broadcastInDim _ _ _ (isReal_constant _ _ isReal_zeroWord))
      (isReal_mulf _ _ (isReal_gather _ _ _ hh)
        (isReal_broadcastInDim _ _ _ (isReal_broadcastInDim _ _ _
          (isReal_mulf _ _ (isReal_gather _ _ _ (isReal_invSqrtDeg ei)) (isReal_gather _ _ _ (isReal_invSqrtDeg ei)))))))
    (isReal_broadcastInDim _ _ _ (isReal_broadcastInDim _ _ _ hb))

end Real

end Cert.Mix

end
-- ==== Proof.Algebra.Whole.lean ====
import proofs.«403168_j28509992910998_1_alg».proof.Proof.Spec
import proofs.«403168_j28509992910998_1_alg».proof.Proof.Algebra.Mix

noncomputable section

namespace Cert.Whole

open Idealize.ShloMosaic Idealize.ShloMosaic.ValueIdx Cert.Spec Cert.ReferenceIdeal

variable [Cert.ReferenceIdeal.Facts]

abbrev rowOf (i : SNode.Idx) : Fin 50000 := ⟨(i 0).val, idx2_lt0 i⟩
abbrev colOf (i : SNode.Idx) : Fin 128 := ⟨(i 1).val, idx2_lt1 i⟩

def transformed (h : SNode.Idx → EReal) (W : SWeight.Idx → EReal) : SNode.Idx → EReal :=
  fun i => transformAt h W (rowOf i) (colOf i)

def mixed (h : SNode.Idx → EReal) (W : SWeight.Idx → EReal) (b : FVec Ideal S128 .f32) (ei : IVec S2x800000 32) :
    SNode.Idx → EReal :=
  Cert.Mix.mix (F := Ideal) (transformed h W) ei b

def layerMoments (h : SNode.Idx → EReal) (W : SWeight.Idx → EReal) (b gamma beta : FVec Ideal S128 .f32)
    (ei : IVec S2x800000 32) : SNode.Idx → EReal :=
  fun i => standardiseAt (mixed h W b ei) (colMean (mixed h W b ei)) (colVarMoments (mixed h W b ei))
    (fun j => gamma (ix1 j)) (fun j => beta (ix1 j)) (rowOf i) (colOf i)

def layerCentred (h : SNode.Idx → EReal) (W : SWeight.Idx → EReal) (b gamma beta : FVec Ideal S128 .f32)
    (ei : IVec S2x800000 32) : SNode.Idx → EReal :=
  fun i => standardiseAt (mixed h W b ei) (colMean (mixed h W b ei)) (colVarCentred (mixed h W b ei))
    (fun j => gamma (ix1 j)) (fun j => beta (ix1 j)) (rowOf i) (colOf i)

def idsColumn (ids : IVec S50000 32) : SIds.Idx → BitVec 32 := fun i => ids (ix1 ⟨(i 0).val, idx2_lt0 i⟩)

def pooledReadout (h : SNode.Idx → EReal) (ids : IVec S50000 32) (Wout : SOutW.Idx → EReal) (bout : SOutB.Idx → EReal)
    (g : Fin 64) : EReal :=
  readoutAt (fun i => poolSumAt h (idsColumn ids) ⟨(i 0).val, idx2_lt0 i⟩ ⟨(i 1).val, idx2_lt1 i⟩)
    (fun g => poolCountAt (idsColumn ids) g) Wout bout g

end Cert.Whole

end
-- ==== Proof.Value.Stretches.lean ====
import proofs.«403168_j28509992910998_1_alg».proof.Proof.KernelIdeal.Keep
import proofs.«403168_j28509992910998_1_alg».proof.Proof.Algebra.Mix
import proofs.«403168_j28509992910998_1_alg».proof.Proof.Algebra.Whole
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.ValueStretches

open Cert.KernelIdeal Cert.KernelIdeal.Gen
open Idealize.ShloMosaic Idealize.ShloMosaic.TcCoe Idealize.ShloMosaic.ValueIdx

variable [Cert.KernelIdeal.Facts] [Cert.ReferenceIdeal.Facts]

section Stretches

variable {F : FTy → Type} [FloatOps F]

theorem src_of_stretch0 (V : Valuation τ sig (Elt F)) :
    StableHlo.after hostOps0 V (Proc.devRef .tc main_v3) = Cert.Mix.srcRow (V (Proc.devRef .tc main_arg1)) := by
  after_results
  rfl

theorem dst_of_stretch0 (V : Valuation τ sig (Elt F)) :
    StableHlo.after hostOps0 V (Proc.devRef .tc main_v6) = Cert.Mix.dstRow (V (Proc.devRef .tc main_arg1)) := by
  after_results
  rfl

theorem norm_of_stretch0 (V : Valuation τ sig (Elt F)) :
    StableHlo.after hostOps0 V (Proc.devRef .tc main_v28) = Cert.Mix.edgeNorm (F := F) (V (Proc.devRef .tc main_arg1)) := by
  after_results_simp
  rfl

theorem mix_of_stretch1 (V : Valuation τ sig (Elt F)) (ei : IVec S2x800000 32)
    (h3 : V (Proc.devRef .tc main_v3) = Cert.Mix.srcRow ei)
    (h6 : V (Proc.devRef .tc main_v6) = Cert.Mix.dstRow ei)
    (h28 : V (Proc.devRef .tc main_v28) = Cert.Mix.edgeNorm (F := F) ei) :
    StableHlo.after hostOps1 V (Proc.devRef .tc main_v45)
      = Cert.Mix.mix (F := F) (V (Proc.devRef .tc main_v29)) ei (V (Proc.devRef .tc main_arg4)) := by
  after_results_simp
  rw [h3, h6, h28]
  rfl

theorem mix_of_stretch4 (V : Valuation τ sig (Elt F)) (ei : IVec S2x800000 32)
    (h3 : V (Proc.devRef .tc main_v3) = Cert.Mix.srcRow ei)
    (h6 : V (Proc.devRef .tc main_v6) = Cert.Mix.dstRow ei)
    (h28 : V (Proc.devRef .tc main_v28) = Cert.Mix.edgeNorm (F := F) ei) :
    StableHlo.after hostOps4 V (Proc.devRef .tc main_v66)
      = Cert.Mix.mix (F := F) (V (Proc.devRef .tc main_v50)) ei (V (Proc.devRef .tc main_arg8)) := by
  after_results_simp
  rw [h3, h6, h28]
  rfl

theorem mix_of_stretch7 (V : Valuation τ sig (Elt F)) (ei : IVec S2x800000 32)
    (h3 : V (Proc.devRef .tc main_v3) = Cert.Mix.srcRow ei)
    (h6 : V (Proc.devRef .tc main_v6) = Cert.Mix.dstRow ei)
    (h28 : V (Proc.devRef .tc main_v28) = Cert.Mix.edgeNorm (F := F) ei) :
    StableHlo.after hostOps7 V (Proc.devRef .tc main_v87)
      = Cert.Mix.mix (F := F) (V (Proc.devRef .tc main_v71)) ei (V (Proc.devRef .tc main_arg12)) := by
  after_results_simp
  rw [h3, h6, h28]
  rfl

theorem rowBroadcast_apply (x : FVec F S128 .f32) (j : Fin 128) :
    (broadcastInDim S1x128 ![1] bcast_S128_S1x128_1 x : FVec F S1x128 .f32) (ix2 0 j) = x (ix1 j) :=
  broadcastInDim_apply ![1] bcast_S128_S1x128_1 x (ix2 0 j) (ix1 j) (by
    intro a
    match a with
    | ⟨0, _⟩ => rfl)

theorem scale_of_stretch2 (V : Valuation τ sig (Elt F)) (j : Fin 128) :
    (StableHlo.after hostOps2 V (Proc.devRef .tc main_v47) : FVec F S1x128 .f32) (ix2 0 j)
      = (V (Proc.devRef .tc main_arg5) : FVec F S128 .f32) (ix1 j) := by
  after_results
  exact rowBroadcast_apply _ j

theorem shift_of_stretch2 (V : Valuation τ sig (Elt F)) (j : Fin 128) :
    (StableHlo.after hostOps2 V (Proc.devRef .tc main_v48) : FVec F S1x128 .f32) (ix2 0 j)
      = (V (Proc.devRef .tc main_arg6) : FVec F S128 .f32) (ix1 j) := by
  after_results
  exact rowBroadcast_apply _ j

theorem scale_of_stretch5 (V : Valuation τ sig (Elt F)) (j : Fin 128) :
    (StableHlo.after hostOps5 V (Proc.devRef .tc main_v68) : FVec F S1x128 .f32) (ix2 0 j)
      = (V (Proc.devRef .tc main_arg9) : FVec F S128 .f32) (ix1 j) := by
  after_results
  exact rowBroadcast_apply _ j

theorem shift_of_stretch5 (V : Valuation τ sig (Elt F)) (j : Fin 128) :
    (StableHlo.after hostOps5 V (Proc.devRef .tc main_v69) : FVec F S1x128 .f32) (ix2 0 j)
      = (V (Proc.devRef .tc main_arg10) : FVec F S128 .f32) (ix1 j) := by
  after_results
  exact rowBroadcast_apply _ j

theorem scale_of_stretch8 (V : Valuation τ sig (Elt F)) (j : Fin 128) :
    (StableHlo.after hostOps8 V (Proc.devRef .tc main_v89) : FVec F S1x128 .f32) (ix2 0 j)
      = (V (Proc.devRef .tc main_arg13) : FVec F S128 .f32) (ix1 j) := by
  after_results
  exact rowBroadcast_apply _ j

theorem shift_of_stretch8 (V : Valuation τ sig (Elt F)) (j : Fin 128) :
    (StableHlo.after hostOps8 V (Proc.devRef .tc main_v90) : FVec F S1x128 .f32) (ix2 0 j)
      = (V (Proc.devRef .tc main_arg14) : FVec F S128 .f32) (ix1 j) := by
  after_results
  exact rowBroadcast_apply _ j

theorem column_cast (x : IVec S50000 32) :
    shapeCast S50000x1 x shapeCasts_S50000_S50000x1 = Cert.Whole.idsColumn x := by
  funext i
  refine (shapeCast_apply x _ i (ix1 ⟨(i 0).val, idx2_lt0 i⟩) ?_).trans rfl
  rw [Shape.rowMajor_val_two, Shape.rowMajor_val_one]
  have h1 := idx2_lt1 i
  show (i 0).val = (i 0).val * 1 + (i 1).val
  omega

theorem ids_of_stretch9 (V : Valuation τ sig (Elt F)) :
    StableHlo.after hostOps9 V (Proc.devRef .tc main_v92) = Cert.Whole.idsColumn (V (Proc.devRef .tc main_arg2)) := by
  after_results
  exact column_cast _

end Stretches

section Carry

variable {F : FTy → Type} [FloatOps F] (m : (ℓ : Loc nD τ sig) → Buf (Elt F) ℓ) (c : Dev nD)

theorem since2 (r : Ref sig .tc)
    (h2 : r ∉ ([main_v29] : List (Ref sig .tc)) := by decide) :
    Hand.W2 m c (Proc.devRef .tc r) = Hand.W1 m c (Proc.devRef .tc r) :=
  Hand.keep2 m c r h2
theorem since4 (r : Ref sig .tc)
    (h2 : r ∉ ([main_v29] : List (Ref sig .tc)) := by decide) (h3 : r ∉ hostOps1_W := by decide)
    (h4 : r ∉ ([main_v46_0, main_v46_1] : List (Ref sig .tc)) := by decide) :
    Hand.W4 m c (Proc.devRef .tc r) = Hand.W1 m c (Proc.devRef .tc r) :=
  (Hand.keep4 m c r h4).trans <| (Hand.keep3 m c r h3).trans <| since2 m c r h2
theorem since7 (r : Ref sig .tc)
    (h2 : r ∉ ([main_v29] : List (Ref sig .tc)) := by decide) (h3 : r ∉ hostOps1_W := by decide)
    (h4 : r ∉ ([main_v46_0, main_v46_1] : List (Ref sig .tc)) := by decide) (h5 : r ∉ hostOps2_W := by decide)
    (h6 : r ∉ ([main_v49] : List (Ref sig .tc)) := by decide)
    (h7 : r ∉ ([main_v50] : List (Ref sig .tc)) := by decide) :
    Hand.W7 m c (Proc.devRef .tc r) = Hand.W1 m c (Proc.devRef .tc r) :=
  (Hand.keep7 m c r h7).trans <| (Hand.keep6 m c r h6).trans <| (Hand.keep5 m c r h5).trans <| since4 m c r h2 h3 h4
theorem since9 (r : Ref sig .tc)
    (h2 : r ∉ ([main_v29] : List (Ref sig .tc)) := by decide) (h3 : r ∉ hostOps1_W := by decide)
    (h4 : r ∉ ([main_v46_0, main_v46_1] : List (Ref sig .tc)) := by decide) (h5 : r ∉ hostOps2_W := by decide)
    (h6 : r ∉ ([main_v49] : List (Ref sig .tc)) := by decide)
    (h7 : r ∉ ([main_v50] : List (Ref sig .tc)) := by decide) (h8 : r ∉ hostOps4_W := by decide)
    (h9 : r ∉ ([main_v67_0, main_v67_1] : List (Ref sig .tc)) := by decide) :
    Hand.W9 m c (Proc.devRef .tc r) = Hand.W1 m c (Proc.devRef .tc r) :=
  (Hand.keep9 m c r h9).trans <| (Hand.keep8 m c r h8).trans <| since7 m c r h2 h3 h4 h5 h6 h7
theorem since12 (r : Ref sig .tc)
    (h2 : r ∉ ([main_v29] : List (Ref sig .tc)) := by decide) (h3 : r ∉ hostOps1_W := by decide)
    (h4 : r ∉ ([main_v46_0, main_v46_1] : List (Ref sig .tc)) := by decide) (h5 : r ∉ hostOps2_W := by decide)
    (h6 : r ∉ ([main_v49] : List (Ref sig .tc)) := by decide)
    (h7 : r ∉ ([main_v50] : List (Ref sig .tc)) := by decide) (h8 : r ∉ hostOps4_W := by decide)
    (h9 : r ∉ ([main_v67_0, main_v67_1] : List (Ref sig .tc)) := by decide) (h10 : r ∉ hostOps5_W := by decide)
    (h11 : r ∉ ([main_v70] : List (Ref sig .tc)) := by decide)
    (h12 : r ∉ ([main_v71] : List (Ref sig .tc)) := by decide) :
    Hand.W12 m c (Proc.devRef .tc r) = Hand.W1 m c (Proc.devRef .tc r) :=
  (Hand.keep12 m c r h12).trans <| (Hand.keep11 m c r h11).trans <| (Hand.keep10 m c r h10).trans <|
    since9 m c r h2 h3 h4 h5 h6 h7 h8 h9
theorem since14 (r : Ref sig .tc)
    (h2 : r ∉ ([main_v29] : List (Ref sig .tc)) := by decide) (h3 : r ∉ hostOps1_W := by decide)
    (h4 : r ∉ ([main_v46_0, main_v46_1] : List (Ref sig .tc)) := by decide) (h5 : r ∉ hostOps2_W := by decide)
    (h6 : r ∉ ([main_v49] : List (Ref sig .tc)) := by decide)
    (h7 : r ∉ ([main_v50] : List (Ref sig .tc)) := by decide) (h8 : r ∉ hostOps4_W := by decide)
    (h9 : r ∉ ([main_v67_0, main_v67_1] : List (Ref sig .tc)) := by decide) (h10 : r ∉ hostOps5_W := by decide)
    (h11 : r ∉ ([main_v70] : List (Ref sig .tc)) := by decide)
    (h12 : r ∉ ([main_v71] : List (Ref sig .tc)) := by decide) (h13 : r ∉ hostOps7_W := by decide)
    (h14 : r ∉ ([main_v88_0, main_v88_1] : List (Ref sig .tc)) := by decide) :
    Hand.W14 m c (Proc.devRef .tc r) = Hand.W1 m c (Proc.devRef .tc r) :=
  (Hand.keep14 m c r h14).trans <| (Hand.keep13 m c r h13).trans <| since12 m c r h2 h3 h4 h5 h6 h7 h8 h9 h10 h11 h12
theorem since16 (r : Ref sig .tc)
    (h2 : r ∉ ([main_v29] : List (Ref sig .tc)) := by decide) (h3 : r ∉ hostOps1_W := by decide)
    (h4 : r ∉ ([main_v46_0, main_v46_1] : List (Ref sig .tc)) := by decide) (h5 : r ∉ hostOps2_W := by decide)
    (h6 : r ∉ ([main_v49] : List (Ref sig .tc)) := by decide)
    (h7 : r ∉ ([main_v50] : List (Ref sig .tc)) := by decide) (h8 : r ∉ hostOps4_W := by decide)
    (h9 : r ∉ ([main_v67_0, main_v67_1] : List (Ref sig .tc)) := by decide) (h10 : r ∉ hostOps5_W := by decide)
    (h11 : r ∉ ([main_v70] : List (Ref sig .tc)) := by decide)
    (h12 : r ∉ ([main_v71] : List (Ref sig .tc)) := by decide) (h13 : r ∉ hostOps7_W := by decide)
    (h14 : r ∉ ([main_v88_0, main_v88_1] : List (Ref sig .tc)) := by decide) (h15 : r ∉ hostOps8_W := by decide)
    (h16 : r ∉ ([main_v91] : List (Ref sig .tc)) := by decide) :
    Hand.W16 m c (Proc.devRef .tc r) = Hand.W1 m c (Proc.devRef .tc r) :=
  (Hand.keep16 m c r h16).trans <| (Hand.keep15 m c r h15).trans <|
    since14 m c r h2 h3 h4 h5 h6 h7 h8 h9 h10 h11 h12 h13 h14

theorem launched1 (r : Ref sig .tc) (h1 : r ∉ hostOps0_W := by decide) :
    Hand.W1 m c (Proc.devRef .tc r) = m ((c : Thread nD τ).loc r) :=
  Hand.keep1 m c r h1

theorem src_at1 : Hand.W1 m c (Proc.devRef .tc main_v3) = Cert.Mix.srcRow (m ((c : Thread nD τ).loc main_arg1)) :=
  src_of_stretch0 (Hand.W0 m c)
theorem dst_at1 : Hand.W1 m c (Proc.devRef .tc main_v6) = Cert.Mix.dstRow (m ((c : Thread nD τ).loc main_arg1)) :=
  dst_of_stretch0 (Hand.W0 m c)
theorem norm_at1 :
    Hand.W1 m c (Proc.devRef .tc main_v28) = Cert.Mix.edgeNorm (F := F) (m ((c : Thread nD τ).loc main_arg1)) :=
  norm_of_stretch0 (Hand.W0 m c)

end Carry

section Reads

variable (m : (ℓ : Loc nD τ sig) → Buf (Elt Ideal) ℓ) (c : Dev nD)

theorem agg1_read : (Hand.V3 m c main_v45 : FVec Ideal S50000x128 .f32)
    = Cert.Mix.mix (F := Ideal) (Hand.V2 m c main_v29) (m ((c : Thread nD τ).loc main_arg1))
        (m ((c : Thread nD τ).loc main_arg4)) :=
  (mix_of_stretch1 (Hand.W2 m c) (m ((c : Thread nD τ).loc main_arg1))
      ((since2 m c main_v3).trans (src_at1 m c)) ((since2 m c main_v6).trans (dst_at1 m c))
      ((since2 m c main_v28).trans (norm_at1 m c))).trans
    (congrArg (Cert.Mix.mix (F := Ideal) (Hand.V2 m c main_v29) (m ((c : Thread nD τ).loc main_arg1)))
      ((since2 m c main_arg4).trans (launched1 m c main_arg4)))

theorem agg2_read : (Hand.V8 m c main_v66 : FVec Ideal S50000x128 .f32)
    = Cert.Mix.mix (F := Ideal) (Hand.V7 m c main_v50) (m ((c : Thread nD τ).loc main_arg1))
        (m ((c : Thread nD τ).loc main_arg8)) :=
  (mix_of_stretch4 (Hand.W7 m c) (m ((c : Thread nD τ).loc main_arg1))
      ((since7 m c main_v3).trans (src_at1 m c)) ((since7 m c main_v6).trans (dst_at1 m c))
      ((since7 m c main_v28).trans (norm_at1 m c))).trans
    (congrArg (Cert.Mix.mix (F := Ideal) (Hand.V7 m c main_v50) (m ((c : Thread nD τ).loc main_arg1)))
      ((since7 m c main_arg8).trans (launched1 m c main_arg8)))

theorem agg3_read : (Hand.V13 m c main_v87 : FVec Ideal S50000x128 .f32)
    = Cert.Mix.mix (F := Ideal) (Hand.V12 m c main_v71) (m ((c : Thread nD τ).loc main_arg1))
        (m ((c : Thread nD τ).loc main_arg12)) :=
  (mix_of_stretch7 (Hand.W12 m c) (m ((c : Thread nD τ).loc main_arg1))
      ((since12 m c main_v3).trans (src_at1 m c)) ((since12 m c main_v6).trans (dst_at1 m c))
      ((since12 m c main_v28).trans (norm_at1 m c))).trans
    (congrArg (Cert.Mix.mix (F := Ideal) (Hand.V12 m c main_v71) (m ((c : Thread nD τ).loc main_arg1)))
      ((since12 m c main_arg12).trans (launched1 m c main_arg12)))

theorem gamma1_read (j : Fin 128) :
    (Hand.V5 m c main_v47 : Cert.Spec.SRow.Idx → EReal) (ix2 0 j) = (m ((c : Thread nD τ).loc main_arg5)) (ix1 j) :=
  (scale_of_stretch2 (Hand.W4 m c) j).trans
    (congrFun ((since4 m c main_arg5).trans (launched1 m c main_arg5)) (ix1 j))

theorem beta1_read (j : Fin 128) :
    (Hand.V5 m c main_v48 : Cert.Spec.SRow.Idx → EReal) (ix2 0 j) = (m ((c : Thread nD τ).loc main_arg6)) (ix1 j) :=
  (shift_of_stretch2 (Hand.W4 m c) j).trans
    (congrFun ((since4 m c main_arg6).trans (launched1 m c main_arg6)) (ix1 j))

theorem gamma2_read (j : Fin 128) :
    (Hand.V10 m c main_v68 : Cert.Spec.SRow.Idx → EReal) (ix2 0 j) = (m ((c : Thread nD τ).loc main_arg9)) (ix1 j) :=
  (scale_of_stretch5 (Hand.W9 m c) j).trans
    (congrFun ((since9 m c main_arg9).trans (launched1 m c main_arg9)) (ix1 j))

theorem beta2_read (j : Fin 128) :
    (Hand.V10 m c main_v69 : Cert.Spec.SRow.Idx → EReal) (ix2 0 j) = (m ((c : Thread nD τ).loc main_arg10)) (ix1 j) :=
  (shift_of_stretch5 (Hand.W9 m c) j).trans
    (congrFun ((since9 m c main_arg10).trans (launched1 m c main_arg10)) (ix1 j))

theorem gamma3_read (j : Fin 128) :
    (Hand.V15 m c main_v89 : Cert.Spec.SRow.Idx → EReal) (ix2 0 j) = (m ((c : Thread nD τ).loc main_arg13)) (ix1 j) :=
  (scale_of_stretch8 (Hand.W14 m c) j).trans
    (congrFun ((since14 m c main_arg13).trans (launched1 m c main_arg13)) (ix1 j))

theorem beta3_read (j : Fin 128) :
    (Hand.V15 m c main_v90 : Cert.Spec.SRow.Idx → EReal) (ix2 0 j) = (m ((c : Thread nD τ).loc main_arg14)) (ix1 j) :=
  (shift_of_stretch8 (Hand.W14 m c) j).trans
    (congrFun ((since14 m c main_arg14).trans (launched1 m c main_arg14)) (ix1 j))

theorem ids_read : (Hand.V17 m c main_v92 : Cert.Spec.SIds.Idx → BitVec 32)
    = Cert.Whole.idsColumn (m ((c : Thread nD τ).loc main_arg2)) :=
  (ids_of_stretch9 (Hand.W16 m c)).trans
    (congrArg Cert.Whole.idsColumn ((since16 m c main_arg2).trans (launched1 m c main_arg2)))

end Reads

end Cert.KernelIdeal.ValueStretches

end
-- ==== Proof.Algebra.Variance.lean ====
import proofs.«403168_j28509992910998_1_alg».proof.Proof.Spec
import Mathlib.Tactic.Ring
import Mathlib.Tactic.FieldSimp
import Mathlib.Tactic.NormNum
import Mathlib.Tactic.Positivity

noncomputable section

namespace Cert.Algebra

open Cert.Spec Idealize.ShloMosaic Idealize.ShloMosaic.ValueIdx
open scoped BigOperators

theorem nodeCount_eq : Cert.Spec.nodeCount = ((50000 : ℝ) : EReal) := by
  unfold Cert.Spec.nodeCount
  simp [Ideal.ofBits, Ideal.ieee, -EReal.coe_mul]; norm_num

theorem varGuard_pos : ∃ e : ℝ, 0 < e ∧ Cert.Spec.varGuard = (e : EReal) := by
  refine ⟨(10995116 : ℝ) * (2 : ℝ) ^ (-40 : ℤ), by positivity, ?_⟩
  unfold Cert.Spec.varGuard
  simp [Ideal.ofBits, Ideal.ieee, -EReal.coe_mul]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_nodeCount (x : EReal) : Ideal.div x Cert.Spec.nodeCount = x * (((1 : ℝ) / 50000 : ℝ) : EReal) := by
  rw [nodeCount_eq, Ideal.div_coe (by norm_num)]

theorem real_variance {n : ℕ} (f : Fin n → ℝ) (N : ℝ) (hN : N = (n : ℝ)) (hN0 : N ≠ 0) :
    (∑ a, f a * f a) * (1 / N) - ((∑ a, f a) * (1 / N)) * ((∑ a, f a) * (1 / N))
      = (∑ a, (f a - (∑ b, f b) * (1 / N)) * (f a - (∑ b, f b) * (1 / N))) * (1 / N) := by
  have hsq : ∀ (m : ℝ), ∑ a, (f a - m) * (f a - m) = (∑ a, f a * f a) - 2 * m * (∑ a, f a) + N * (m * m) := by
    intro m
    have h1 : ∀ a, (f a - m) * (f a - m) = f a * f a - 2 * m * f a + m * m := fun a => by ring
    simp_rw [h1, Finset.sum_add_distrib, Finset.sum_sub_distrib, ← Finset.mul_sum, Finset.sum_const, Finset.card_univ,
      Fintype.card_fin, nsmul_eq_mul, hN]
    ring
  rw [hsq]
  generalize (∑ a, f a * f a) = Q
  generalize (∑ a, f a) = S
  field_simp
  ring

theorem colSum_coe (r : SNode.Idx → ℝ) (x : SNode.Idx → EReal) (hr : ∀ i, x i = (r i : EReal)) (j : Fin 128) :
    Cert.Spec.colSum x j = ((∑ a : Fin 50000, r (ix2 a j) : ℝ) : EReal) := by
  unfold Cert.Spec.colSum
  rw [coe_sum]; exact Finset.sum_congr rfl fun a _ => hr _

theorem colSumSq_coe (r : SNode.Idx → ℝ) (x : SNode.Idx → EReal) (hr : ∀ i, x i = (r i : EReal)) (j : Fin 128) :
    Cert.Spec.colSumSq x j = ((∑ a : Fin 50000, r (ix2 a j) * r (ix2 a j) : ℝ) : EReal) := by
  unfold Cert.Spec.colSumSq
  rw [coe_sum]; exact Finset.sum_congr rfl fun a _ => by rw [hr, EReal.coe_mul]

theorem colMean_coe (r : SNode.Idx → ℝ) (x : SNode.Idx → EReal) (hr : ∀ i, x i = (r i : EReal)) (j : Fin 128) :
    Cert.Spec.colMean x j = (((∑ a : Fin 50000, r (ix2 a j)) * (1 / 50000) : ℝ) : EReal) := by
  unfold Cert.Spec.colMean
  rw [div_nodeCount, colSum_coe r x hr, ← EReal.coe_mul]

theorem sumDev_coe (r : SNode.Idx → ℝ) (x : SNode.Idx → EReal) (hr : ∀ i, x i = (r i : EReal)) (j : Fin 128) (m : ℝ) :
    (∑ a : Fin 50000, (x (ix2 a j) - (m : EReal)) * (x (ix2 a j) - (m : EReal)))
      = ((∑ a : Fin 50000, (r (ix2 a j) - m) * (r (ix2 a j) - m) : ℝ) : EReal) := by
  rw [coe_sum]; exact Finset.sum_congr rfl fun a _ => by rw [hr, ← EReal.coe_sub, ← EReal.coe_mul]

theorem colVarCentred_coe (r : SNode.Idx → ℝ) (x : SNode.Idx → EReal) (hr : ∀ i, x i = (r i : EReal)) (j : Fin 128) :
    Cert.Spec.colVarCentred x j
      = (((∑ a : Fin 50000, (r (ix2 a j) - (∑ b : Fin 50000, r (ix2 b j)) * (1 / 50000))
            * (r (ix2 a j) - (∑ b : Fin 50000, r (ix2 b j)) * (1 / 50000))) * (1 / 50000) : ℝ) : EReal) := by
  unfold Cert.Spec.colVarCentred
  rw [div_nodeCount, colMean_coe r x hr, sumDev_coe r x hr, ← EReal.coe_mul]

theorem colMean_finite (x : SNode.Idx → EReal) (hx : Cert.Spec.FiniteNode x) (j : Fin 128) :
    ∃ r : ℝ, Cert.Spec.colMean x j = (r : EReal) := by
  choose r hr using hx
  exact ⟨_, colMean_coe r x hr j⟩

theorem colVar_eq (x : SNode.Idx → EReal) (hx : Cert.Spec.FiniteNode x) (j : Fin 128) :
    Cert.Spec.colVarMoments x j = Cert.Spec.colVarCentred x j := by
  choose r hr using hx
  rw [colVarCentred_coe r x hr]
  unfold Cert.Spec.colVarMoments
  rw [div_nodeCount, colMean_coe r x hr, colSumSq_coe r x hr, ← EReal.coe_mul, ← EReal.coe_mul, ← EReal.coe_sub]
  exact congrArg (fun t : ℝ => (t : EReal))
    (real_variance (fun a : Fin 50000 => r (ix2 a j)) 50000 (by norm_num) (by norm_num))

theorem colVarCentred_nonneg (x : SNode.Idx → EReal) (hx : Cert.Spec.FiniteNode x) (j : Fin 128) :
    ∃ v : ℝ, 0 ≤ v ∧ Cert.Spec.colVarCentred x j = (v : EReal) := by
  choose r hr using hx
  refine ⟨_, ?_, colVarCentred_coe r x hr j⟩
  exact mul_nonneg (Finset.sum_nonneg fun a _ => mul_self_nonneg _) (by norm_num)

theorem rsqrt_pos_coe (t : ℝ) (ht : 0 < t) : Ideal.rsqrt (t : EReal) = (((Real.sqrt t)⁻¹ : ℝ) : EReal) := by
  rw [Ideal.rsqrt_coe, if_neg (not_lt.mpr ht.le), if_neg ht.ne']

theorem standardise_finite (x : SNode.Idx → EReal) (hx : Cert.Spec.FiniteNode x) (mean var gamma beta : Fin 128 → EReal)
    (hm : ∀ j, ∃ r : ℝ, mean j = (r : EReal)) (hv : ∀ j, ∃ v : ℝ, 0 ≤ v ∧ var j = (v : EReal))
    (hg : ∀ j, ∃ r : ℝ, gamma j = (r : EReal)) (hb : ∀ j, ∃ r : ℝ, beta j = (r : EReal)) :
    Cert.Spec.FiniteNode (fun i => Cert.Spec.standardiseAt x mean var gamma beta
      ⟨(i 0).val, ValueIdx.idx2_lt0 i⟩ ⟨(i 1).val, ValueIdx.idx2_lt1 i⟩) := by
  intro i
  obtain ⟨e, he, hE⟩ := varGuard_pos
  obtain ⟨rx, hrx⟩ := hx (ix2 ⟨(i 0).val, ValueIdx.idx2_lt0 i⟩ ⟨(i 1).val, ValueIdx.idx2_lt1 i⟩)
  obtain ⟨rm, hrm⟩ := hm ⟨(i 1).val, ValueIdx.idx2_lt1 i⟩
  obtain ⟨v, hv0, hrv⟩ := hv ⟨(i 1).val, ValueIdx.idx2_lt1 i⟩
  obtain ⟨rg, hrg⟩ := hg ⟨(i 1).val, ValueIdx.idx2_lt1 i⟩
  obtain ⟨rb, hrb⟩ := hb ⟨(i 1).val, ValueIdx.idx2_lt1 i⟩
  refine ⟨max ((rx - rm) * (Real.sqrt (v + e))⁻¹ * rg + rb) 0, ?_⟩
  show Cert.Spec.standardiseAt x mean var gamma beta _ _ = _
  unfold Cert.Spec.standardiseAt
  rw [hrx, hrm, hrv, hrg, hrb, hE, ← EReal.coe_add, rsqrt_pos_coe _ (by linarith), ← EReal.coe_sub, ← EReal.coe_mul,
    ← EReal.coe_mul, ← EReal.coe_add]
  exact EReal.coe_strictMono.monotone.map_max.symm

theorem transform_finite (h : SNode.Idx → EReal) (W : SWeight.Idx → EReal) (hh : Cert.Spec.FiniteNode h)
    (hW : ∀ i, ∃ r : ℝ, W i = (r : EReal)) (a : Fin 50000) (j : Fin 128) :
    ∃ r : ℝ, Cert.Spec.transformAt h W a j = (r : EReal) := by
  choose rh hrh using hh
  choose rW hrW using hW
  refine ⟨∑ k : Fin 128, rh (ix2 a k) * rW (ix2 k j), ?_⟩
  unfold Cert.Spec.transformAt
  rw [coe_sum]; exact Finset.sum_congr rfl fun k _ => by rw [hrh, hrW, EReal.coe_mul]

end Cert.Algebra

end
-- ==== Proof.Algebra.RefLayer.lean ====
import proofs.«403168_j28509992910998_1_alg».proof.ReferenceIdeal
import proofs.«403168_j28509992910998_1_alg».proof.Proof.Spec
import Idealize.ShloMosaic.PureOps.Ideal.Laws
import Idealize.ShloMosaic.Lib.ValueIdx
import Idealize.ShloMosaic.Lib.IdealHost
import Idealize.ShloMosaic.Lib.Pipeline.Value
import Idealize.ShloMosaic.Lib.StackMember

noncomputable section

namespace Cert.Algebra.RefLayer

open Idealize.ShloMosaic Idealize.ShloMosaic.ValueIdx
open Cert.ReferenceIdeal
open scoped BigOperators

variable {F : FTy → Type} [FloatOps F] [Cert.ReferenceIdeal.Facts]

def alongRows (v : FVec F S128 .f32) : FVec F S50000x128 .f32 :=
  broadcastInDim S50000x128 ![0, 1] Facts₀.bcast_S1x128_S50000x128_0_1
    (broadcastInDim S1x128 ![1] Facts₀.bcast_S128_S1x128_1 v)

def refColSum (x : FVec F S50000x128 .f32) : FVec F S128 .f32 :=
  Host.reduceAdd x (constant S_ .f32 0x00000000#32) Facts₀.reducesTo_S50000x128_S128_d0 Facts₀.h_S_

def refColMean (x : FVec F S50000x128 .f32) : FVec F S128 .f32 :=
  Host.divf (refColSum x) (broadcastInDim S128 ![] Facts₀.bcast_S_S128 (constant S_ .f32 0x47435000#32))

def refVarDivisor (ddof : IVec S_ 32) : FVec F S_ .f32 :=
  subf (constant S_ .f32 0x47435000#32) (sitofp .f32 ddof)

def refSqDev (x : FVec F S50000x128 .f32) : FVec F S50000x128 .f32 :=
  mulf
    (subf x (broadcastInDim S50000x128 ![0, 1] Facts₀.bcast_S1x128_S50000x128_0_1
      (Host.divf (broadcastInDim S1x128 ![1] Facts₀.bcast_S128_S1x128_1 (refColSum x))
        (broadcastInDim S1x128 ![] Facts₀.bcast_S_S1x128 (constant S_ .f32 0x47435000#32)))))
    (subf x (broadcastInDim S50000x128 ![0, 1] Facts₀.bcast_S1x128_S50000x128_0_1
      (Host.divf (broadcastInDim S1x128 ![1] Facts₀.bcast_S128_S1x128_1 (refColSum x))
        (broadcastInDim S1x128 ![] Facts₀.bcast_S_S1x128 (constant S_ .f32 0x47435000#32)))))

def refColVar (x : FVec F S50000x128 .f32) (ddof : IVec S_ 32) : FVec F S128 .f32 :=
  select (broadcastInDim S128 ![] Facts₀.bcast_S_S128 (cmpf .ogt (refVarDivisor (F := F) ddof) (constant S_ .f32 0x00000000#32)))
    (Host.divf (refColSum (refSqDev x)) (broadcastInDim S128 ![] Facts₀.bcast_S_S128 (refVarDivisor ddof)))
    (broadcastInDim S128 ![] Facts₀.bcast_S_S128 (id (constant S_ .f32 0x7FC00000#32)))

theorem alongRows_apply (v : FVec F S128 .f32) (a : Fin 50000) (j : Fin 128) :
    alongRows v (ix2 a j) = v (ix1 j) := by
  unfold alongRows
  rw [broadcastInDim_apply ![0, 1] _ _ (ix2 a j) (ix2 (0 : Fin 1) j) (fun | ⟨0, _⟩ => rfl | ⟨1, _⟩ => rfl)]
  exact broadcastInDim_apply ![1] _ v (ix2 (0 : Fin 1) j) (ix1 j) (fun | ⟨0, _⟩ => rfl)

theorem overColumns_apply {α : Type} (x : S_.Idx → α) (i : S128.Idx) :
    broadcastInDim S128 ![] Facts₀.bcast_S_S128 x i = x ix0 :=
  broadcastInDim_scalar_apply _ x i

theorem reduces_rows : S50000x128.Reduces [0] S128 := by decide

theorem lift_rows (j : Fin 128) (k : Fin 50000) : reduces_rows.lift (ix1 j) k = ix2 k j := by
  funext b
  match b with
  | ⟨0, _⟩ => rfl
  | ⟨1, _⟩ => rfl

theorem refColSum_apply (x : FVec Ideal S50000x128 .f32) (j : Fin 128) :
    refColSum x (ix1 j) = ∑ a : Fin 50000, x (ix2 a j) := by
  unfold refColSum
  rw [hostReduceAdd_apply, Ideal.hostReduceAdd_single _ reduces_rows, constant_apply, Ideal.ofBits_zero_f32, zero_add]
  exact Finset.sum_congr rfl fun k _ => congrArg x (lift_rows j k)

theorem ofBits_nodeWord : Ideal.ofBits .f32 0x47435000#32 = ((50000 : ℝ) : EReal) := by
  simp [Ideal.ofBits, Ideal.ieee, -EReal.coe_mul]; norm_num

theorem refVarDivisor_zero (i : S_.Idx) :
    refVarDivisor (F := Ideal) (constantI S_ 32 0#32) i = Cert.Spec.nodeCount := by
  show Ideal.ofBits .f32 0x47435000#32 - (((0#32 : BitVec 32).toInt : ℝ) : EReal) = Ideal.ofBits .f32 0x47435000#32
  rw [BitVec.toInt_zero, Int.cast_zero, EReal.coe_zero, sub_zero]

theorem nodeCount_guard : Ideal.cmp .ogt Cert.Spec.nodeCount (Ideal.ofBits .f32 0x00000000#32) = 1#1 := by
  have h : (0 : EReal) < Cert.Spec.nodeCount := by
    unfold Cert.Spec.nodeCount
    rw [ofBits_nodeWord]
    exact EReal.coe_pos.mpr (by norm_num)
  rw [Ideal.ofBits_zero_f32]
  unfold Ideal.cmp
  simp [h]

theorem refColMean_apply (x : FVec Ideal S50000x128 .f32) (j : Fin 128) :
    refColMean x (ix1 j) = Cert.Spec.colMean x j := by
  unfold refColMean
  rw [hostDivf_apply, overColumns_apply, constant_apply, refColSum_apply]
  rfl

theorem refSqDev_apply (x : FVec Ideal S50000x128 .f32) (a : Fin 50000) (j : Fin 128) :
    refSqDev x (ix2 a j)
      = (x (ix2 a j) - Cert.Spec.colMean x j) * (x (ix2 a j) - Cert.Spec.colMean x j) := by
  unfold refSqDev
  rw [mulf_apply, subf_apply, broadcastInDim_apply ![0, 1] _ _ (ix2 a j) (ix2 (0 : Fin 1) j) (fun | ⟨0, _⟩ => rfl | ⟨1, _⟩ => rfl),
    hostDivf_apply, broadcastInDim_scalar_apply, constant_apply,
    broadcastInDim_apply ![1] _ (refColSum x) (ix2 (0 : Fin 1) j) (ix1 j) (fun | ⟨0, _⟩ => rfl),
    refColSum_apply]
  rfl

theorem refColVar_apply (x : FVec Ideal S50000x128 .f32) (j : Fin 128) :
    refColVar x (constantI S_ 32 0#32) (ix1 j) = Cert.Spec.colVarCentred x j := by
  unfold refColVar
  rw [select_apply, overColumns_apply, cmpf_apply, refVarDivisor_zero, constant_apply, Ideal.cmpf_def, nodeCount_guard,
    select_one, hostDivf_apply, overColumns_apply, refVarDivisor_zero, refColSum_apply]
  unfold Cert.Spec.colVarCentred
  exact congrArg (fun s => Ideal.div s Cert.Spec.nodeCount)
    (Finset.sum_congr rfl fun a _ => refSqDev_apply x a j)

end Cert.Algebra.RefLayer

namespace Cert.Algebra

open Idealize.ShloMosaic Idealize.ShloMosaic.ValueIdx
open Cert.ReferenceIdeal Cert.Algebra.RefLayer
open scoped BigOperators

variable {F : FTy → Type} [FloatOps F] [Cert.ReferenceIdeal.Facts]

def refStandardise (agg : FVec F S50000x128 .f32) (gamma beta : FVec F S128 .f32) : FVec F S50000x128 .f32 :=
  maximumf
    (addf
      (mulf
        (mulf (subf agg (alongRows (refColMean agg)))
          (alongRows (Host.rsqrt (addf (refColVar agg (constantI S_ 32 0#32))
            (broadcastInDim S128 ![] Facts₀.bcast_S_S128 (constant S_ .f32 0x3727C5AC#32))))))
        (alongRows gamma))
      (alongRows beta))
    (broadcastInDim S50000x128 ![] Facts₀.bcast_S_S50000x128 (constant S_ .f32 0x00000000#32))

theorem refStandardise_apply (agg : FVec Ideal S50000x128 .f32) (gamma beta : FVec Ideal S128 .f32)
    (a : Fin 50000) (j : Fin 128) :
    refStandardise (F := Ideal) agg gamma beta (ValueIdx.ix2 a j)
      = Cert.Spec.standardiseAt agg (Cert.Spec.colMean agg) (Cert.Spec.colVarCentred agg)
          (fun j => gamma (ValueIdx.ix1 j)) (fun j => beta (ValueIdx.ix1 j)) a j := by
  have hr : Host.rsqrt (addf (refColVar agg (constantI S_ 32 0#32))
      (broadcastInDim S128 ![] Facts₀.bcast_S_S128 (constant (F := Ideal) S_ .f32 0x3727C5AC#32))) (ix1 j)
      = Ideal.rsqrt (Cert.Spec.colVarCentred agg j + Cert.Spec.varGuard) := by
    show Ideal.rsqrt (refColVar agg (constantI S_ 32 0#32) (ix1 j)
      + broadcastInDim S128 ![] Facts₀.bcast_S_S128 (constant (F := Ideal) S_ .f32 0x3727C5AC#32) (ix1 j)) = _
    rw [refColVar_apply, overColumns_apply, constant_apply]
    rfl
  unfold refStandardise
  rw [maximumf_apply, addf_apply, mulf_apply, mulf_apply, subf_apply, alongRows_apply, alongRows_apply,
    alongRows_apply, alongRows_apply, refColMean_apply, hr, broadcastInDim_scalar_apply, constant_apply,
    Ideal.ofBits_zero_f32]
  rfl

/-- The reference's product is the plain product of a 50000 x 128 by a 128 x 128 matrix. -/
theorem ref_transform_apply (h : FVec Ideal S50000x128 .f32) (W : FVec Ideal S128x128 .f32) (a : Fin 50000) (j : Fin 128) :
    (Host.dotGeneral (F := Ideal) dot_S50000x128_S128x128_S50000x128_1_0_0_1_n_n none h W) (ValueIdx.ix2 a j)
      = Cert.Spec.transformAt h W a j :=
  StackMember.dotGeneral_plain_apply (m := 50000) (n := 128) (k := 128) none h W a j

end Cert.Algebra

end
-- ==== Proof.Algebra.Layers.lean ====
import proofs.«403168_j28509992910998_1_alg».proof.Proof.Algebra.Whole
import proofs.«403168_j28509992910998_1_alg».proof.Proof.Algebra.Variance
import proofs.«403168_j28509992910998_1_alg».proof.Proof.Algebra.Mix
import proofs.«403168_j28509992910998_1_alg».proof.Proof.Algebra.RefLayer

noncomputable section

namespace Cert.Whole

open Idealize.ShloMosaic Idealize.ShloMosaic.ValueIdx Cert.Spec Cert.ReferenceIdeal

variable [Cert.ReferenceIdeal.Facts]

theorem mixed_finite (h : SNode.Idx → EReal) (W : SWeight.Idx → EReal) (b : FVec Ideal S128 .f32)
    (ei : IVec S2x800000 32) (hh : FiniteNode h) (hW : ∀ i, ∃ r : ℝ, W i = (r : EReal))
    (hb : ∀ i, ∃ r : ℝ, b i = (r : EReal)) : FiniteNode (mixed h W b ei) :=
  Cert.Mix.mix_finite (transformed h W) ei b
    (fun i => Cert.Algebra.transform_finite h W hh hW (rowOf i) (colOf i)) hb

theorem layer_eq (h : SNode.Idx → EReal) (W : SWeight.Idx → EReal) (b gamma beta : FVec Ideal S128 .f32)
    (ei : IVec S2x800000 32) (hh : FiniteNode h) (hW : ∀ i, ∃ r : ℝ, W i = (r : EReal))
    (hb : ∀ i, ∃ r : ℝ, b i = (r : EReal)) :
    layerMoments h W b gamma beta ei = layerCentred h W b gamma beta ei := by
  have hv : colVarMoments (mixed h W b ei) = colVarCentred (mixed h W b ei) :=
    funext fun j => Cert.Algebra.colVar_eq (mixed h W b ei) (mixed_finite h W b ei hh hW hb) j
  unfold layerMoments layerCentred
  rw [hv]

theorem layerCentred_finite (h : SNode.Idx → EReal) (W : SWeight.Idx → EReal) (b gamma beta : FVec Ideal S128 .f32)
    (ei : IVec S2x800000 32) (hh : FiniteNode h) (hW : ∀ i, ∃ r : ℝ, W i = (r : EReal))
    (hb : ∀ i, ∃ r : ℝ, b i = (r : EReal)) (hg : ∀ i, ∃ r : ℝ, gamma i = (r : EReal))
    (hbe : ∀ i, ∃ r : ℝ, beta i = (r : EReal)) : FiniteNode (layerCentred h W b gamma beta ei) :=
  Cert.Algebra.standardise_finite (mixed h W b ei) (mixed_finite h W b ei hh hW hb)
    (colMean (mixed h W b ei)) (colVarCentred (mixed h W b ei)) (fun j => gamma (ix1 j)) (fun j => beta (ix1 j))
    (fun j => Cert.Algebra.colMean_finite (mixed h W b ei) (mixed_finite h W b ei hh hW hb) j)
    (fun j => Cert.Algebra.colVarCentred_nonneg (mixed h W b ei) (mixed_finite h W b ei hh hW hb) j)
    (fun j => hg (ix1 j)) (fun j => hbe (ix1 j))

theorem refTransform_eq (h : FVec Ideal S50000x128 .f32) (W : FVec Ideal S128x128 .f32) :
    Host.dotGeneral (F := Ideal) dot_S50000x128_S128x128_S50000x128_1_0_0_1_n_n none h W = transformed h W := by
  funext i
  obtain ⟨a, j, rfl⟩ : ∃ (a : Fin 50000) (j : Fin 128), i = ix2 a j := ⟨i 0, i 1, eq_ix2 i⟩
  exact Cert.Algebra.ref_transform_apply h W a j

theorem refLayer_eq (h : FVec Ideal S50000x128 .f32) (W : FVec Ideal S128x128 .f32) (b gamma beta : FVec Ideal S128 .f32)
    (ei : IVec S2x800000 32) :
    Cert.Algebra.refStandardise (F := Ideal)
        (Cert.Mix.mix (F := Ideal)
          (Host.dotGeneral (F := Ideal) dot_S50000x128_S128x128_S50000x128_1_0_0_1_n_n none h W) ei b) gamma beta
      = layerCentred h W b gamma beta ei := by
  rw [refTransform_eq]
  funext i
  obtain ⟨a, j, rfl⟩ : ∃ (a : Fin 50000) (j : Fin 128), i = ix2 a j := ⟨i 0, i 1, eq_ix2 i⟩
  exact Cert.Algebra.refStandardise_apply (Cert.Mix.mix (F := Ideal) (transformed h W) ei b) gamma beta a j

end Cert.Whole

end
-- ==== Proof.Algebra.Readout.lean ====
import proofs.«403168_j28509992910998_1_alg».proof.ReferenceIdeal
import proofs.«403168_j28509992910998_1_alg».proof.Proof.Spec
import Idealize.ShloMosaic.PureOps.Ideal.Laws
import Idealize.ShloMosaic.Lib.ValueIdx
import Idealize.ShloMosaic.Lib.ValueIdxRank1
import Idealize.ShloMosaic.Lib.StackMember

noncomputable section

namespace Cert.Algebra

open Idealize.ShloMosaic Idealize.ShloMosaic.ValueIdx
open Cert.ReferenceIdeal Cert.ReferenceIdeal.Facts₀
open scoped BigOperators

variable [Cert.ReferenceIdeal.Facts]

def idsCol (ids : IVec S50000 32) : Cert.Spec.SIds.Idx → BitVec 32 :=
  fun i => ids (ValueIdx.ix1 ⟨(i 0).val, ValueIdx.idx2_lt0 i⟩)

abbrev sumDims := scatter_S64x128_S50000x1_S50000x128_1_0_0_1
abbrev countDims := scatter_S64_S50000x1_S50000_n_0_0_1

theorem toInt_eq_graph_iff (w : BitVec 32) (g : Fin 64) : w.toInt = (g.val : Int) ↔ w = BitVec.ofNat 32 g.val := by
  have hg := g.isLt
  have hw := w.isLt
  rw [← BitVec.toNat_inj, BitVec.toNat_ofNat, BitVec.toInt_eq_toNat_cond]
  split <;> omega

theorem ofBits_one_f32 : Ideal.ofBits .f32 0x3F800000#32 = 1 := by
  simp [Ideal.ofBits, Ideal.ieee, -EReal.coe_mul]; norm_num

theorem idsBcast_apply (ids : IVec S50000 32) (a : Fin 50000) :
    broadcastInDim S50000x1 ![0] bcast_S50000_S50000x1_0 ids (ix2 a 0) = idsCol ids (ix2 a 0) :=
  congrArg ids (funext fun | ⟨0, _⟩ => rfl)

theorem sumDims_siIdx (a : Fin 50000) (b : Fin 128) (c : Fin sumDims.scatterDimsToOperandDims.length) :
    sumDims.siIdx (ix2 a b) c = ix2 a 0 := by
  funext d
  match d with
  | ⟨0, _⟩ => rfl
  | ⟨1, _⟩ => exact Fin.ext (Nat.lt_one_iff.mp c.isLt)

theorem sumDims_start_row (a : Fin 50000) (b : Fin 128) (idx : IVec S50000x1 32) :
    sumDims.start (ix2 a b) idx 0 = (idx (ix2 a 0)).toInt := by
  unfold ScatterDims.start
  rw [dif_pos (show (0 : Fin 2) ∈ sumDims.scatterDimsToOperandDims from List.mem_singleton.mpr rfl), sumDims_siIdx]

theorem sumDims_start_col (a : Fin 50000) (b : Fin 128) (idx : IVec S50000x1 32) :
    sumDims.start (ix2 a b) idx 1 = 0 := by
  unfold ScatterDims.start
  rw [dif_neg (show (1 : Fin 2) ∉ sumDims.scatterDimsToOperandDims from by show (1 : Fin 2) ∉ [0]; decide)]

theorem sumDims_window_row (a : Fin 50000) (b : Fin 128) : sumDims.window (ix2 a b) 0 = 0 := rfl
theorem sumDims_window_col (a : Fin 50000) (b : Fin 128) : sumDims.window (ix2 a b) 1 = b.val := rfl

/-- A scatter update lands at `r` exactly when start plus window is `r` on every axis: in range is then automatic. -/
theorem resultIdx?_eq_some_iff {s si u : Shape} (d : ScatterDims s si u) {w : Nat} (j : u.Idx) (idx : IVec si w) (r : s.Idx) :
    d.resultIdx? j idx = some r ↔ ∀ a, d.start j idx a + d.window j a = ((r a).val : Int) := by
  unfold ScatterDims.resultIdx?
  split
  · rename_i H
    rw [Option.some.injEq]
    constructor
    · rintro rfl a
      have := (H a).1
      show _ = (((d.start j idx a + d.window j a).toNat : ℕ) : Int)
      omega
    · intro h
      funext a
      refine Fin.ext ?_
      have := h a
      show (d.start j idx a + d.window j a).toNat = _
      omega
  · rename_i H
    refine ⟨fun e => absurd e (by simp), fun h => absurd (fun a => ?_) H⟩
    have := h a
    have := (r a).isLt
    omega

theorem sumDims_resultIdx_iff (a : Fin 50000) (b : Fin 128) (idx : IVec S50000x1 32) (g : Fin 64) (j : Fin 128) :
    sumDims.resultIdx? (ix2 a b) idx = some (ix2 g j) ↔ idx (ix2 a 0) = BitVec.ofNat 32 g.val ∧ b = j := by
  rw [resultIdx?_eq_some_iff, ← toInt_eq_graph_iff]
  constructor
  · intro h
    have h0 : sumDims.start (ix2 a b) idx 0 + sumDims.window (ix2 a b) 0 = (g.val : Int) := h 0
    have h1 : sumDims.start (ix2 a b) idx 1 + sumDims.window (ix2 a b) 1 = (j.val : Int) := h 1
    rw [sumDims_start_row, sumDims_window_row] at h0
    rw [sumDims_start_col, sumDims_window_col] at h1
    exact ⟨by omega, Fin.ext (by omega)⟩
  · rintro ⟨h0, rfl⟩ d
    match d with
    | ⟨0, _⟩ =>
      show sumDims.start (ix2 a b) idx 0 + sumDims.window (ix2 a b) 0 = (g.val : Int)
      rw [sumDims_start_row, sumDims_window_row]; omega
    | ⟨1, _⟩ =>
      show sumDims.start (ix2 a b) idx 1 + sumDims.window (ix2 a b) 1 = (b.val : Int)
      rw [sumDims_start_col, sumDims_window_col]; omega

theorem ref_poolSum (h : FVec Ideal S50000x128 .f32) (ids : IVec S50000 32) (g : Fin 64) (j : Fin 128) :
    (Host.scatterAdd (F := Ideal) scatter_S64x128_S50000x1_S50000x128_1_0_0_1
      (broadcastInDim S64x128 ![] bcast_S_S64x128 (constant S_ .f32 0x00000000#32))
      (broadcastInDim S50000x1 ![0] bcast_S50000_S50000x1_0 ids) h) (ValueIdx.ix2 g j)
      = Cert.Spec.poolSumAt h (idsCol ids) g j := by
  unfold Host.scatterAdd
  rw [Ideal.hostScatterAdd_def]
  unfold Ideal.hostScatterAdd
  have hx : broadcastInDim S64x128 ![] bcast_S_S64x128 (constant (F := Ideal) S_ .f32 0x00000000#32) (ix2 g j) = 0 :=
    Ideal.ofBits_zero_f32
  rw [hx, zero_add, Finset.sum_filter, sum_idx2]
  unfold Cert.Spec.poolSumAt
  refine Finset.sum_congr rfl fun a _ => ?_
  simp only [sumDims_resultIdx_iff]
  rw [idsBcast_apply]
  unfold Cert.Spec.member
  by_cases hm : idsCol ids (ix2 a 0) = BitVec.ofNat 32 g.val
  · rw [if_pos hm, one_mul]
    simp only [hm, true_and]
    rw [Finset.sum_ite_eq' Finset.univ j, if_pos (Finset.mem_univ j)]
  · rw [if_neg hm, zero_mul]
    simp only [hm, false_and, if_false]
    exact Finset.sum_const_zero

theorem countDims_siIdx (a : Fin 50000) (c : Fin countDims.scatterDimsToOperandDims.length) :
    countDims.siIdx (ix1 a) c = ix2 a 0 := by
  funext d
  match d with
  | ⟨0, _⟩ => rfl
  | ⟨1, _⟩ => exact Fin.ext (Nat.lt_one_iff.mp c.isLt)

theorem countDims_start (a : Fin 50000) (idx : IVec S50000x1 32) :
    countDims.start (ix1 a) idx 0 = (idx (ix2 a 0)).toInt := by
  unfold ScatterDims.start
  rw [dif_pos (show (0 : Fin 1) ∈ countDims.scatterDimsToOperandDims from List.mem_singleton.mpr rfl), countDims_siIdx]

theorem countDims_window (a : Fin 50000) : countDims.window (ix1 a) 0 = 0 := rfl

theorem countDims_resultIdx_iff (a : Fin 50000) (idx : IVec S50000x1 32) (g : Fin 64) :
    countDims.resultIdx? (ix1 a) idx = some (ix1 g) ↔ idx (ix2 a 0) = BitVec.ofNat 32 g.val := by
  rw [resultIdx?_eq_some_iff, ← toInt_eq_graph_iff]
  constructor
  · intro h
    have h0 : countDims.start (ix1 a) idx 0 + countDims.window (ix1 a) 0 = (g.val : Int) := h 0
    rw [countDims_start, countDims_window] at h0
    omega
  · intro h0 d
    match d with
    | ⟨0, _⟩ =>
      show countDims.start (ix1 a) idx 0 + countDims.window (ix1 a) 0 = (g.val : Int)
      rw [countDims_start, countDims_window]; omega

theorem ref_poolCount (ids : IVec S50000 32) (g : Fin 64) :
    (Host.scatterAdd (F := Ideal) scatter_S64_S50000x1_S50000_n_0_0_1
      (broadcastInDim S64 ![] bcast_S_S64 (constant S_ .f32 0x00000000#32))
      (broadcastInDim S50000x1 ![0] bcast_S50000_S50000x1_0 ids)
      (broadcastInDim S50000 ![] bcast_S_S50000 (constant S_ .f32 0x3F800000#32))) (ValueIdx.ix1 g)
      = Cert.Spec.poolCountAt (idsCol ids) g := by
  unfold Host.scatterAdd
  rw [Ideal.hostScatterAdd_def]
  unfold Ideal.hostScatterAdd
  have hx : broadcastInDim S64 ![] bcast_S_S64 (constant (F := Ideal) S_ .f32 0x00000000#32) (ix1 g) = 0 :=
    Ideal.ofBits_zero_f32
  rw [hx, zero_add, Finset.sum_filter, ← Equiv.sum_comp (idxEquiv1 (n := 50000)).symm]
  unfold Cert.Spec.poolCountAt
  refine Finset.sum_congr rfl fun a _ => ?_
  show (if countDims.resultIdx? (ix1 a) _ = some (ix1 g) then Ideal.ofBits .f32 0x3F800000#32 else 0) = _
  simp only [countDims_resultIdx_iff]
  rw [idsBcast_apply, ofBits_one_f32]
  rfl

theorem countBcast_apply (v : FVec Ideal S64 .f32) (g : Fin 64) (c : Fin 128) :
    broadcastInDim S64x128 ![0, 1] bcast_S64x1_S64x128_0_1 (broadcastInDim S64x1 ![0] bcast_S64_S64x1_0 v) (ix2 g c)
      = v (ix1 g) :=
  congrArg v (funext fun | ⟨0, _⟩ => rfl)

theorem biasBcast_apply (bout : FVec Ideal S1 .f32) (g : Fin 64) :
    broadcastInDim S64x1 ![0, 1] bcast_S1x1_S64x1_0_1 (broadcastInDim S1x1 ![1] bcast_S1_S1x1_1 bout) (ix2 g 0)
      = bout (ix1 0) :=
  congrArg bout (funext fun | ⟨0, _⟩ => rfl)

def refReadout (sums : FVec Ideal S64x128 .f32) (cnt : FVec Ideal S64 .f32) (Wout : FVec Ideal S128x1 .f32)
    (bout : FVec Ideal S1 .f32) : FVec Ideal S64x1 .f32 :=
  Host.divf (broadcastInDim S64x1 ![] bcast_S_S64x1 (constant S_ .f32 0x3F800000#32))
    (addf (broadcastInDim S64x1 ![] bcast_S_S64x1 (constant S_ .f32 0x3F800000#32))
      (Host.exp (Host.negf (addf
        (Host.dotGeneral dot_S64x128_S128x1_S64x1_1_0_0_1_n_n none
          (Host.divf sums
            (broadcastInDim S64x128 ![0, 1] bcast_S64x1_S64x128_0_1
              (broadcastInDim S64x1 ![0] bcast_S64_S64x1_0
                (maximumf cnt (broadcastInDim S64 ![] bcast_S_S64 (constant S_ .f32 0x3F800000#32))))))
          Wout)
        (broadcastInDim S64x1 ![0, 1] bcast_S1x1_S64x1_0_1 (broadcastInDim S1x1 ![1] bcast_S1_S1x1_1 bout))))))

theorem refReadout_apply (sums : FVec Ideal S64x128 .f32) (cnt : FVec Ideal S64 .f32) (Wout : FVec Ideal S128x1 .f32)
    (bout : FVec Ideal S1 .f32) (g : Fin 64) :
    refReadout sums cnt Wout bout (ValueIdx.ix2 g 0)
      = Cert.Spec.readoutAt sums (fun g => cnt (ValueIdx.ix1 g)) Wout bout g := by
  unfold refReadout Cert.Spec.readoutAt Cert.Spec.oneLit
  show Ideal.div _ (_ + Ideal.exp (-(Host.dotGeneral (DotDims.plain 64 128 1) none _ Wout (ix2 g 0) + _))) = _
  rw [StackMember.dotGeneral_plain_apply, biasBcast_apply]
  have hs (c : Fin 128) := countBcast_apply (maximumf cnt (broadcastInDim S64 ![] bcast_S_S64 (constant S_ .f32 0x3F800000#32))) g c
  simp only [show ∀ (A B : FVec Ideal S64x128 .f32) i, Host.divf A B i = Ideal.div (A i) (B i) from fun _ _ _ => rfl, hs]
  rfl

end Cert.Algebra

end
-- ==== Proof.Algebra.RefWhole.lean ====
import proofs.«403168_j28509992910998_1_alg».proof.Proof.Algebra.Mix
import proofs.«403168_j28509992910998_1_alg».proof.Proof.Algebra.RefLayer
import proofs.«403168_j28509992910998_1_alg».proof.Proof.Algebra.Readout

noncomputable section

namespace Cert.Whole

open Idealize.ShloMosaic Cert.ReferenceIdeal Cert.ReferenceIdeal.Facts₀

variable [Cert.ReferenceIdeal.Facts]

def refLayer (h : FVec Ideal S50000x128 .f32) (W : FVec Ideal S128x128 .f32) (b gamma beta : FVec Ideal S128 .f32)
    (ei : IVec S2x800000 32) : FVec Ideal S50000x128 .f32 :=
  Cert.Algebra.refStandardise (F := Ideal)
    (Cert.Mix.mix (F := Ideal) (Host.dotGeneral (F := Ideal) dot_S50000x128_S128x128_S50000x128_1_0_0_1_n_n none h W) ei b)
    gamma beta

def refPoolSums (h : FVec Ideal S50000x128 .f32) (ids : IVec S50000 32) : FVec Ideal S64x128 .f32 :=
  Host.scatterAdd (F := Ideal) scatter_S64x128_S50000x1_S50000x128_1_0_0_1
    (broadcastInDim S64x128 ![] bcast_S_S64x128 (constant S_ .f32 0x00000000#32))
    (broadcastInDim S50000x1 ![0] bcast_S50000_S50000x1_0 ids) h

def refPoolCounts (ids : IVec S50000 32) : FVec Ideal S64 .f32 :=
  Host.scatterAdd (F := Ideal) scatter_S64_S50000x1_S50000_n_0_0_1
    (broadcastInDim S64 ![] bcast_S_S64 (constant S_ .f32 0x00000000#32))
    (broadcastInDim S50000x1 ![0] bcast_S50000_S50000x1_0 ids)
    (broadcastInDim S50000 ![] bcast_S_S50000 (constant S_ .f32 0x3F800000#32))

def refWhole (x : FVec Ideal S50000x128 .f32) (ei : IVec S2x800000 32) (ids : IVec S50000 32)
    (W0 : FVec Ideal S128x128 .f32) (b0 g0 be0 : FVec Ideal S128 .f32)
    (W1 : FVec Ideal S128x128 .f32) (b1 g1 be1 : FVec Ideal S128 .f32)
    (W2 : FVec Ideal S128x128 .f32) (b2 g2 be2 : FVec Ideal S128 .f32)
    (Wout : FVec Ideal S128x1 .f32) (bout : FVec Ideal S1 .f32) : FVec Ideal S64x1 .f32 :=
  Cert.Algebra.refReadout
    (refPoolSums (refLayer (refLayer (refLayer x W0 b0 g0 be0 ei) W1 b1 g1 be1 ei) W2 b2 g2 be2 ei) ids)
    (refPoolCounts ids) Wout bout

end Cert.Whole

end
-- ==== Proof.Algebra.Stack.lean ====
import proofs.«403168_j28509992910998_1_alg».proof.Proof.Algebra.Layers
import proofs.«403168_j28509992910998_1_alg».proof.Proof.Algebra.RefWhole
import proofs.«403168_j28509992910998_1_alg».proof.Proof.Algebra.Readout

noncomputable section

namespace Cert.Whole

open Idealize.ShloMosaic Idealize.ShloMosaic.ValueIdx Cert.Spec Cert.ReferenceIdeal

variable [Cert.ReferenceIdeal.Facts]

def stackMoments (x : SNode.Idx → EReal) (ei : IVec S2x800000 32)
    (W0 : SWeight.Idx → EReal) (b0 g0 be0 : FVec Ideal S128 .f32)
    (W1 : SWeight.Idx → EReal) (b1 g1 be1 : FVec Ideal S128 .f32)
    (W2 : SWeight.Idx → EReal) (b2 g2 be2 : FVec Ideal S128 .f32) : SNode.Idx → EReal :=
  layerMoments (layerMoments (layerMoments x W0 b0 g0 be0 ei) W1 b1 g1 be1 ei) W2 b2 g2 be2 ei

/-- Layer by layer the moment form of the variance is the centred form, and the reference's layers and readout are the centred ones. -/
theorem whole_eq (x : FVec Ideal S50000x128 .f32) (ei : IVec S2x800000 32) (ids : IVec S50000 32)
    (W0 : FVec Ideal S128x128 .f32) (b0 g0 be0 : FVec Ideal S128 .f32)
    (W1 : FVec Ideal S128x128 .f32) (b1 g1 be1 : FVec Ideal S128 .f32)
    (W2 : FVec Ideal S128x128 .f32) (b2 g2 be2 : FVec Ideal S128 .f32)
    (Wout : FVec Ideal S128x1 .f32) (bout : FVec Ideal S1 .f32)
    (hx : FiniteNode x)
    (hW0 : ∀ i, ∃ r : ℝ, W0 i = (r : EReal)) (hb0 : ∀ i, ∃ r : ℝ, b0 i = (r : EReal))
    (hg0 : ∀ i, ∃ r : ℝ, g0 i = (r : EReal)) (hbe0 : ∀ i, ∃ r : ℝ, be0 i = (r : EReal))
    (hW1 : ∀ i, ∃ r : ℝ, W1 i = (r : EReal)) (hb1 : ∀ i, ∃ r : ℝ, b1 i = (r : EReal))
    (hg1 : ∀ i, ∃ r : ℝ, g1 i = (r : EReal)) (hbe1 : ∀ i, ∃ r : ℝ, be1 i = (r : EReal))
    (hW2 : ∀ i, ∃ r : ℝ, W2 i = (r : EReal)) (hb2 : ∀ i, ∃ r : ℝ, b2 i = (r : EReal))
    (hg2 : ∀ i, ∃ r : ℝ, g2 i = (r : EReal)) (hbe2 : ∀ i, ∃ r : ℝ, be2 i = (r : EReal)) (g : Fin 64) :
    pooledReadout (stackMoments x ei W0 b0 g0 be0 W1 b1 g1 be1 W2 b2 g2 be2) ids Wout bout g
      = refWhole x ei ids W0 b0 g0 be0 W1 b1 g1 be1 W2 b2 g2 be2 Wout bout (ValueIdx.ix2 g 0) := by
  have f0 := layerCentred_finite x W0 b0 g0 be0 ei hx hW0 hb0 hg0 hbe0
  have f1 := layerCentred_finite _ W1 b1 g1 be1 ei f0 hW1 hb1 hg1 hbe1
  have hs (S : SNode.Idx → EReal) : refPoolSums S ids
      = fun i => poolSumAt S (idsColumn ids) ⟨(i 0).val, idx2_lt0 i⟩ ⟨(i 1).val, idx2_lt1 i⟩ :=
    funext fun i => by
      obtain ⟨p, q, rfl⟩ : ∃ (p : Fin 64) (q : Fin 128), i = ix2 p q := ⟨i 0, i 1, eq_ix2 i⟩
      exact Cert.Algebra.ref_poolSum S ids p q
  have hc : (fun g : Fin 64 => refPoolCounts ids (ix1 g)) = fun g => poolCountAt (idsColumn ids) g :=
    funext fun g => Cert.Algebra.ref_poolCount ids g
  unfold stackMoments refWhole refLayer
  rw [layer_eq x W0 b0 g0 be0 ei hx hW0 hb0, layer_eq _ W1 b1 g1 be1 ei f0 hW1 hb1, layer_eq _ W2 b2 g2 be2 ei f1 hW2 hb2,
    Cert.Algebra.refReadout_apply, refLayer_eq, refLayer_eq, refLayer_eq, hs, hc]
  rfl

end Cert.Whole

end
-- ==== Proof.Value.Kernel.lean ====
import proofs.«403168_j28509992910998_1_alg».proof.Proof.Value.Tail
import proofs.«403168_j28509992910998_1_alg».proof.Proof.KernelIdeal.Keep
import proofs.«403168_j28509992910998_1_alg».proof.Proof.Value.Transform0
import proofs.«403168_j28509992910998_1_alg».proof.Proof.Value.Transform3
import proofs.«403168_j28509992910998_1_alg».proof.Proof.Value.Transform6
import proofs.«403168_j28509992910998_1_alg».proof.Proof.Value.Moments1
import proofs.«403168_j28509992910998_1_alg».proof.Proof.Value.Moments4
import proofs.«403168_j28509992910998_1_alg».proof.Proof.Value.Moments7
import proofs.«403168_j28509992910998_1_alg».proof.Proof.Value.Normalize2
import proofs.«403168_j28509992910998_1_alg».proof.Proof.Value.Normalize5
import proofs.«403168_j28509992910998_1_alg».proof.Proof.Value.Normalize8
import proofs.«403168_j28509992910998_1_alg».proof.Proof.Value.Pool9
import proofs.«403168_j28509992910998_1_alg».proof.Proof.Value.Stretches
import proofs.«403168_j28509992910998_1_alg».proof.Proof.Algebra.Stack

set_option maxRecDepth 16384

noncomputable section

namespace Cert.KernelIdeal.ValueWhole

open Idealize.ShloMosaic Idealize.ShloMosaic.TcCoe Idealize.ShloMosaic.ValueIdx Idealize.SL.Sem
open Cert.KernelIdeal Cert.KernelIdeal.Hand
open Cert.Spec Cert.Whole

section Pieces
variable [Cert.ReferenceIdeal.Facts]

theorem layer_of_pieces (X : SNode.Idx → EReal) (W : SWeight.Idx → EReal)
    (b gamma beta : FVec Ideal Cert.ReferenceIdeal.S128 .f32) (ei : IVec Cert.ReferenceIdeal.S2x800000 32)
    (T A out : SNode.Idx → EReal) (mean var gam bet : SRow.Idx → EReal)
    (hT : ∀ a j, T (ix2 a j) = transformAt X W a j)
    (hA : A = Cert.Mix.mix (F := Ideal) T ei b)
    (hmean : ∀ j, mean (ix2 0 j) = colMean A j)
    (hvar : ∀ j, var (ix2 0 j) = colVarMoments A j)
    (hgam : ∀ j, gam (ix2 0 j) = gamma (ix1 j))
    (hbet : ∀ j, bet (ix2 0 j) = beta (ix1 j))
    (hout : ∀ a j, out (ix2 a j) = standardiseAt A (fun j => mean (ix2 0 j)) (fun j => var (ix2 0 j))
      (fun j => gam (ix2 0 j)) (fun j => bet (ix2 0 j)) a j) :
    out = layerMoments X W b gamma beta ei := by
  have eT : T = transformed X W := by
    funext i
    obtain ⟨a, j, rfl⟩ : ∃ (a : Fin 50000) (j : Fin 128), i = ix2 a j := ⟨i 0, i 1, eq_ix2 i⟩
    exact hT a j
  have eA : A = mixed X W b ei := by rw [hA, eT]; rfl
  funext i
  obtain ⟨a, j, rfl⟩ : ∃ (a : Fin 50000) (j : Fin 128), i = ix2 a j := ⟨i 0, i 1, eq_ix2 i⟩
  rw [hout a j, funext hmean, funext hvar, funext hgam, funext hbet, eA]
  rfl

theorem readout_of_pieces (H : SNode.Idx → EReal) (ids : IVec Cert.ReferenceIdeal.S50000 32)
    (Wout : SOutW.Idx → EReal) (bout : SOutB.Idx → EReal)
    (Hk : SNode.Idx → EReal) (idsArr : SIds.Idx → BitVec 32) (sums : SPool.Idx → EReal) (cntRow : SCount.Idx → EReal)
    (Wk : SOutW.Idx → EReal) (bk : SOutB.Idx → EReal)
    (hH : Hk = H) (hids : idsArr = idsColumn ids) (hW : Wk = Wout) (hb : bk = bout)
    (hsums : ∀ g j, sums (ix2 g j) = poolSumAt Hk idsArr g j)
    (hcnt : ∀ g, cntRow (ix2 0 g) = poolCountAt idsArr g) (g : Fin 64) :
    readoutAt sums (fun g => cntRow (ix2 0 g)) Wk bk g = pooledReadout H ids Wout bout g := by
  subst hH hids hW hb
  have es : sums = fun i => poolSumAt Hk (idsColumn ids) ⟨(i 0).val, idx2_lt0 i⟩ ⟨(i 1).val, idx2_lt1 i⟩ := by
    funext i
    obtain ⟨p, q, rfl⟩ : ∃ (p : Fin 64) (q : Fin 128), i = ix2 p q := ⟨i 0, i 1, eq_ix2 i⟩
    exact hsums p q
  rw [es, funext hcnt]
  rfl

theorem standardiseAt_congr {x x' : SNode.Idx → EReal} {m₁ m₁' v₁ v₁' g₁ g₁' b₁ b₁' : SRow.Idx → EReal}
    (hx : x = x') (hm : m₁ = m₁') (hv : v₁ = v₁') (hg : g₁ = g₁') (hb : b₁ = b₁') (a : Fin 50000) (j : Fin 128) :
    standardiseAt x (fun j => m₁ (ix2 0 j)) (fun j => v₁ (ix2 0 j)) (fun j => g₁ (ix2 0 j)) (fun j => b₁ (ix2 0 j)) a j
      = standardiseAt x' (fun j => m₁' (ix2 0 j)) (fun j => v₁' (ix2 0 j)) (fun j => g₁' (ix2 0 j))
          (fun j => b₁' (ix2 0 j)) a j := by
  subst hx hm hv hg hb; rfl

end Pieces

variable (m : (ℓ : Loc nD τ sig) → Buf (Elt Ideal) ℓ) (c : Dev nD)

theorem arg0_at1 : V1 m c main_arg0 = V0 m c main_arg0 := keep1 m c main_arg0 (by decide)
theorem arg3_at1 : V1 m c main_arg3 = V0 m c main_arg3 := keep1 m c main_arg3 (by decide)
theorem arg7_at6 : V6 m c main_arg7 = V0 m c main_arg7 :=
  (keep6 m c main_arg7 (by decide)).trans <|
    (keep5 m c main_arg7 (by decide)).trans <|
    (keep4 m c main_arg7 (by decide)).trans <|
    (keep3 m c main_arg7 (by decide)).trans <|
    (keep2 m c main_arg7 (by decide)).trans <|
    keep1 m c main_arg7 (by decide)
theorem arg11_at11 : V11 m c main_arg11 = V0 m c main_arg11 :=
  (keep11 m c main_arg11 (by decide)).trans <|
    (keep10 m c main_arg11 (by decide)).trans <|
    (keep9 m c main_arg11 (by decide)).trans <|
    (keep8 m c main_arg11 (by decide)).trans <|
    (keep7 m c main_arg11 (by decide)).trans <|
    (keep6 m c main_arg11 (by decide)).trans <|
    (keep5 m c main_arg11 (by decide)).trans <|
    (keep4 m c main_arg11 (by decide)).trans <|
    (keep3 m c main_arg11 (by decide)).trans <|
    (keep2 m c main_arg11 (by decide)).trans <|
    keep1 m c main_arg11 (by decide)
theorem arg15_at18 : V18 m c main_arg15 = V0 m c main_arg15 :=
  (keep18 m c main_arg15 (by decide)).trans <|
    (keep17 m c main_arg15 (by decide)).trans <|
    (keep16 m c main_arg15 (by decide)).trans <|
    (keep15 m c main_arg15 (by decide)).trans <|
    (keep14 m c main_arg15 (by decide)).trans <|
    (keep13 m c main_arg15 (by decide)).trans <|
    (keep12 m c main_arg15 (by decide)).trans <|
    (keep11 m c main_arg15 (by decide)).trans <|
    (keep10 m c main_arg15 (by decide)).trans <|
    (keep9 m c main_arg15 (by decide)).trans <|
    (keep8 m c main_arg15 (by decide)).trans <|
    (keep7 m c main_arg15 (by decide)).trans <|
    (keep6 m c main_arg15 (by decide)).trans <|
    (keep5 m c main_arg15 (by decide)).trans <|
    (keep4 m c main_arg15 (by decide)).trans <|
    (keep3 m c main_arg15 (by decide)).trans <|
    (keep2 m c main_arg15 (by decide)).trans <|
    keep1 m c main_arg15 (by decide)
theorem arg16_at18 : V18 m c main_arg16 = V0 m c main_arg16 :=
  (keep18 m c main_arg16 (by decide)).trans <|
    (keep17 m c main_arg16 (by decide)).trans <|
    (keep16 m c main_arg16 (by decide)).trans <|
    (keep15 m c main_arg16 (by decide)).trans <|
    (keep14 m c main_arg16 (by decide)).trans <|
    (keep13 m c main_arg16 (by decide)).trans <|
    (keep12 m c main_arg16 (by decide)).trans <|
    (keep11 m c main_arg16 (by decide)).trans <|
    (keep10 m c main_arg16 (by decide)).trans <|
    (keep9 m c main_arg16 (by decide)).trans <|
    (keep8 m c main_arg16 (by decide)).trans <|
    (keep7 m c main_arg16 (by decide)).trans <|
    (keep6 m c main_arg16 (by decide)).trans <|
    (keep5 m c main_arg16 (by decide)).trans <|
    (keep4 m c main_arg16 (by decide)).trans <|
    (keep3 m c main_arg16 (by decide)).trans <|
    (keep2 m c main_arg16 (by decide)).trans <|
    keep1 m c main_arg16 (by decide)

theorem mixed1_at5 : V5 m c main_v45 = V3 m c main_v45 :=
  (keep5 m c main_v45 (by decide)).trans (keep4 m c main_v45 (by decide))
theorem mean1_at5 : V5 m c main_v46_0 = V4 m c main_v46_0 := keep5 m c main_v46_0 (by decide)
theorem var1_at5 : V5 m c main_v46_1 = V4 m c main_v46_1 := keep5 m c main_v46_1 (by decide)

theorem mixed2_at10 : V10 m c main_v66 = V8 m c main_v66 :=
  (keep10 m c main_v66 (by decide)).trans (keep9 m c main_v66 (by decide))
theorem mean2_at10 : V10 m c main_v67_0 = V9 m c main_v67_0 := keep10 m c main_v67_0 (by decide)
theorem var2_at10 : V10 m c main_v67_1 = V9 m c main_v67_1 := keep10 m c main_v67_1 (by decide)

theorem mixed3_at15 : V15 m c main_v87 = V13 m c main_v87 :=
  (keep15 m c main_v87 (by decide)).trans (keep14 m c main_v87 (by decide))
theorem mean3_at15 : V15 m c main_v88_0 = V14 m c main_v88_0 := keep15 m c main_v88_0 (by decide)
theorem var3_at15 : V15 m c main_v88_1 = V14 m c main_v88_1 := keep15 m c main_v88_1 (by decide)

theorem layer3_at17 : V17 m c main_v91 = V16 m c main_v91 := keep17 m c main_v91 (by decide)

section Layers
variable [Cert.ReferenceIdeal.Facts]

theorem products1 (a : Fin 50000) (j : Fin 128) :
    (V2 m c main_v29 : SNode.Idx → EReal) (ix2 a j) = transformAt (V0 m c main_arg0) (V0 m c main_arg3) a j :=
  (congrFun (W2_arr m c 2 : (V2 m c main_v29 : SNode.Idx → EReal) = _) (ix2 a j)).trans <|
    (Value0.transform0_value (V1 m) c a j).trans <|
      congrArg₂ (fun (x : SNode.Idx → EReal) (w : SWeight.Idx → EReal) => transformAt x w a j) (arg0_at1 m c) (arg3_at1 m c)

theorem layer1 : (V6 m c main_v49 : SNode.Idx → EReal)
    = layerMoments (V0 m c main_arg0) (V0 m c main_arg3) (V0 m c main_arg4) (V0 m c main_arg5) (V0 m c main_arg6)
        (V0 m c main_arg1) :=
  layer_of_pieces (V0 m c main_arg0) (V0 m c main_arg3) (V0 m c main_arg4) (V0 m c main_arg5) (V0 m c main_arg6)
    (V0 m c main_arg1) (V2 m c main_v29) (V3 m c main_v45) (V6 m c main_v49) (V4 m c main_v46_0) (V4 m c main_v46_1)
    (V5 m c main_v47) (V5 m c main_v48)
    (products1 m c)
    (ValueStretches.agg1_read m c)
    (fun j => (congrFun (W4_arr m c 1 : (V4 m c main_v46_0 : SRow.Idx → EReal) = _) (ix2 0 j)).trans
      (Value1.moments1_mean (V3 m) c j))
    (fun j => (congrFun (W4_arr m c 2 : (V4 m c main_v46_1 : SRow.Idx → EReal) = _) (ix2 0 j)).trans
      (Value1.moments1_var (V3 m) c j))
    (ValueStretches.gamma1_read m c)
    (ValueStretches.beta1_read m c)
    (fun a j => (congrFun (W6_arr m c 5 : (V6 m c main_v49 : SNode.Idx → EReal) = _) (ix2 a j)).trans <|
      (Value2.normalize2_value (V5 m) c a j).trans <|
        standardiseAt_congr (mixed1_at5 m c) (mean1_at5 m c) (var1_at5 m c) rfl rfl a j)

theorem products2 (a : Fin 50000) (j : Fin 128) :
    (V7 m c main_v50 : SNode.Idx → EReal) (ix2 a j) = transformAt (V6 m c main_v49) (V0 m c main_arg7) a j :=
  (congrFun (W7_arr m c 2 : (V7 m c main_v50 : SNode.Idx → EReal) = _) (ix2 a j)).trans <|
    (Value3.transform3_value (V6 m) c a j).trans <|
      congrArg (fun (w : SWeight.Idx → EReal) => transformAt (V6 m c main_v49) w a j) (arg7_at6 m c)

theorem layer2 : (V11 m c main_v70 : SNode.Idx → EReal)
    = layerMoments (V6 m c main_v49) (V0 m c main_arg7) (V0 m c main_arg8) (V0 m c main_arg9) (V0 m c main_arg10)
        (V0 m c main_arg1) :=
  layer_of_pieces (V6 m c main_v49) (V0 m c main_arg7) (V0 m c main_arg8) (V0 m c main_arg9) (V0 m c main_arg10)
    (V0 m c main_arg1) (V7 m c main_v50) (V8 m c main_v66) (V11 m c main_v70) (V9 m c main_v67_0) (V9 m c main_v67_1)
    (V10 m c main_v68) (V10 m c main_v69)
    (products2 m c)
    (ValueStretches.agg2_read m c)
    (fun j => (congrFun (W9_arr m c 1 : (V9 m c main_v67_0 : SRow.Idx → EReal) = _) (ix2 0 j)).trans
      (Value4.moments4_mean (V8 m) c j))
    (fun j => (congrFun (W9_arr m c 2 : (V9 m c main_v67_1 : SRow.Idx → EReal) = _) (ix2 0 j)).trans
      (Value4.moments4_var (V8 m) c j))
    (ValueStretches.gamma2_read m c)
    (ValueStretches.beta2_read m c)
    (fun a j => (congrFun (W11_arr m c 5 : (V11 m c main_v70 : SNode.Idx → EReal) = _) (ix2 a j)).trans <|
      (Value5.normalize5_value (V10 m) c a j).trans <|
        standardiseAt_congr (mixed2_at10 m c) (mean2_at10 m c) (var2_at10 m c) rfl rfl a j)

theorem products3 (a : Fin 50000) (j : Fin 128) :
    (V12 m c main_v71 : SNode.Idx → EReal) (ix2 a j) = transformAt (V11 m c main_v70) (V0 m c main_arg11) a j :=
  (congrFun (W12_arr m c 2 : (V12 m c main_v71 : SNode.Idx → EReal) = _) (ix2 a j)).trans <|
    (Value6.transform6_value (V11 m) c a j).trans <|
      congrArg (fun (w : SWeight.Idx → EReal) => transformAt (V11 m c main_v70) w a j) (arg11_at11 m c)

theorem layer3 : (V16 m c main_v91 : SNode.Idx → EReal)
    = layerMoments (V11 m c main_v70) (V0 m c main_arg11) (V0 m c main_arg12) (V0 m c main_arg13) (V0 m c main_arg14)
        (V0 m c main_arg1) :=
  layer_of_pieces (V11 m c main_v70) (V0 m c main_arg11) (V0 m c main_arg12) (V0 m c main_arg13) (V0 m c main_arg14)
    (V0 m c main_arg1) (V12 m c main_v71) (V13 m c main_v87) (V16 m c main_v91) (V14 m c main_v88_0) (V14 m c main_v88_1)
    (V15 m c main_v89) (V15 m c main_v90)
    (products3 m c)
    (ValueStretches.agg3_read m c)
    (fun j => (congrFun (W14_arr m c 1 : (V14 m c main_v88_0 : SRow.Idx → EReal) = _) (ix2 0 j)).trans
      (Value7.moments7_mean (V13 m) c j))
    (fun j => (congrFun (W14_arr m c 2 : (V14 m c main_v88_1 : SRow.Idx → EReal) = _) (ix2 0 j)).trans
      (Value7.moments7_var (V13 m) c j))
    (ValueStretches.gamma3_read m c)
    (ValueStretches.beta3_read m c)
    (fun a j => (congrFun (W16_arr m c 5 : (V16 m c main_v91 : SNode.Idx → EReal) = _) (ix2 a j)).trans <|
      (Value8.normalize8_value (V15 m) c a j).trans <|
        standardiseAt_congr (mixed3_at15 m c) (mean3_at15 m c) (var3_at15 m c) rfl rfl a j)

theorem stack_value : (V16 m c main_v91 : SNode.Idx → EReal)
    = stackMoments (V0 m c main_arg0) (V0 m c main_arg1) (V0 m c main_arg3) (V0 m c main_arg4) (V0 m c main_arg5)
        (V0 m c main_arg6) (V0 m c main_arg7) (V0 m c main_arg8) (V0 m c main_arg9) (V0 m c main_arg10)
        (V0 m c main_arg11) (V0 m c main_arg12) (V0 m c main_arg13) (V0 m c main_arg14) := by
  rw [layer3 m c, layer2 m c, layer1 m c]
  rfl

theorem kernel_value (g : Fin 64) :
    (W19 m c (Proc.devRef .tc main_v108) : FVec Ideal S64x1 .f32) (ValueIdx.ix2 g 0)
      = pooledReadout (stackMoments (m ((c : Thread nD τ).loc main_arg0)) (m ((c : Thread nD τ).loc main_arg1))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)))
          (m ((c : Thread nD τ).loc main_arg2)) (m ((c : Thread nD τ).loc main_arg15)) (m ((c : Thread nD τ).loc main_arg16)) g := by
  refine (congrFun (ValueTail.tail_read m c) (ix2 g 0)).trans ?_
  refine (ValueTail.kernelReadout_apply _ _ _ _ g).trans ?_
  exact readout_of_pieces _ (V0 m c main_arg2) (V0 m c main_arg15) (V0 m c main_arg16)
    (V17 m c main_v91) (V17 m c main_v92) (V18 m c main_v93_0) (V18 m c main_v93_1)
    (V18 m c main_arg15) (V18 m c main_arg16)
    ((layer3_at17 m c).trans (stack_value m c)) (ValueStretches.ids_read m c) (arg15_at18 m c) (arg16_at18 m c)
    (fun p q => (congrFun (W18_arr m c 2 : (V18 m c main_v93_0 : SPool.Idx → EReal) = _) (ix2 p q)).trans
      (Value9.pool9_sums (V17 m) c p q))
    (fun p => (congrFun (W18_arr m c 3 : (V18 m c main_v93_1 : SCount.Idx → EReal) = _) (ix2 0 p)).trans
      (Value9.pool9_counts (V17 m) c p)) g

end Layers

end Cert.KernelIdeal.ValueWhole

end
-- ==== Proof.Reference.Read.lean ====
import proofs.«403168_j28509992910998_1_alg».proof.Proof.Reference.Run
import proofs.«403168_j28509992910998_1_alg».proof.Proof.Algebra.RefWhole

noncomputable section

namespace Cert.ReferenceIdeal.Hand

open Cert.ReferenceIdeal Cert.ReferenceIdeal.Facts₀ Cert.ReferenceIdeal.Facts Idealize.ShloMosaic Idealize.ShloMosaic.TcCoe
  Idealize.SL.Sem Idealize.ShloMosaic.StableHlo

variable [Cert.ReferenceIdeal.Facts]

section Stretches

variable {F : FTy → Type} [FloatOps F] (W : Valuation τ sig (Elt F))

-- the closed edge list's source and destination rows and the edge weights, all of one edge list
structure EdgesReady (W : Valuation τ sig (Elt F)) (ei : IVec S2x800000 32) : Prop where
  src : W (Proc.devRef .tc main_v3) = Cert.Mix.srcRow ei
  dst : W (Proc.devRef .tc main_v6) = Cert.Mix.dstRow ei
  weight : W (Proc.devRef .tc main_v28) = Cert.Mix.edgeNorm (F := F) ei

theorem edgeWeights_ready : EdgesReady (after edgeWeights W) (W (Proc.devRef .tc main_arg1)) := by
  refine ⟨?_, ?_, ?_⟩ <;> simp only [edgeWeights] <;> after_results_simp <;> rfl

-- the three are numbered below 53, and no later stretch writes below 53
theorem EdgesReady.after {W : Valuation τ sig (Elt F)} {ei : IVec S2x800000 32} (h : EdgesReady W ei)
    {L : List (HloOp τ sig (Elt F))} (hL : Clean 53 L) : EdgesReady (after L W) ei :=
  ⟨(hL.after W main_v3).trans h.src, (hL.after W main_v6).trans h.dst, (hL.after W main_v28).trans h.weight⟩

theorem propagate1_v45 (ei : IVec S2x800000 32) (h : EdgesReady W ei) :
    after propagate1 W (Proc.devRef .tc main_v45)
      = Cert.Mix.mix (F := F)
          (Host.dotGeneral dot_S50000x128_S128x128_S50000x128_1_0_0_1_n_n none (W (Proc.devRef .tc main_arg0)) (W (Proc.devRef .tc main_arg3)))
          ei (W (Proc.devRef .tc main_arg4)) := by
  simp only [propagate1]
  after_results_simp
  rw [h.src, h.dst, h.weight]
  rfl

theorem propagate2_v82 (ei : IVec S2x800000 32) (h : EdgesReady W ei) :
    after propagate2 W (Proc.devRef .tc main_v82)
      = Cert.Mix.mix (F := F)
          (Host.dotGeneral dot_S50000x128_S128x128_S50000x128_1_0_0_1_n_n none (W (Proc.devRef .tc main_v65)) (W (Proc.devRef .tc main_arg7)))
          ei (W (Proc.devRef .tc main_arg8)) := by
  simp only [propagate2]
  after_results_simp
  rw [h.src, h.dst, h.weight]
  rfl

theorem propagate3_v119 (ei : IVec S2x800000 32) (h : EdgesReady W ei) :
    after propagate3 W (Proc.devRef .tc main_v119)
      = Cert.Mix.mix (F := F)
          (Host.dotGeneral dot_S50000x128_S128x128_S50000x128_1_0_0_1_n_n none (W (Proc.devRef .tc main_v102)) (W (Proc.devRef .tc main_arg11)))
          ei (W (Proc.devRef .tc main_arg12)) := by
  simp only [propagate3]
  after_results_simp
  rw [h.src, h.dst, h.weight]
  rfl

theorem standardise1_v65 :
    after standardise1 (after moments1 (after columnSums1 W)) (Proc.devRef .tc main_v65)
      = Cert.Algebra.refStandardise (F := F) (W (Proc.devRef .tc main_v45)) (W (Proc.devRef .tc main_arg5)) (W (Proc.devRef .tc main_arg6)) := by
  simp only [columnSums1, moments1, standardise1, varOps, whereOps, reluOps, List.cons_append, List.nil_append]
  after_results_simp <;> rfl

theorem standardise2_v102 :
    after standardise2b (after standardise2a (after moments2 W)) (Proc.devRef .tc main_v102)
      = Cert.Algebra.refStandardise (F := F) (W (Proc.devRef .tc main_v82)) (W (Proc.devRef .tc main_arg9)) (W (Proc.devRef .tc main_arg10)) := by
  simp only [moments2, standardise2a, standardise2b, varOps, whereOps, reluOps, List.cons_append, List.nil_append]
  after_results_simp <;> rfl

theorem standardise3_v139 :
    after standardise3 (after moments3 W) (Proc.devRef .tc main_v139)
      = Cert.Algebra.refStandardise (F := F) (W (Proc.devRef .tc main_v119)) (W (Proc.devRef .tc main_arg13)) (W (Proc.devRef .tc main_arg14)) := by
  simp only [moments3, standardise3, varOps, whereOps, reluOps, List.cons_append, List.nil_append]
  after_results_simp <;> rfl

end Stretches

theorem readout_v161 (W : Valuation τ sig (Elt Ideal)) :
    after readout (after pool W) (Proc.devRef .tc main_v161)
      = Cert.Algebra.refReadout
          (Cert.Whole.refPoolSums (W (Proc.devRef .tc main_v139)) (W (Proc.devRef .tc main_arg2)))
          (Cert.Whole.refPoolCounts (W (Proc.devRef .tc main_arg2)))
          (W (Proc.devRef .tc main_arg15)) (W (Proc.devRef .tc main_arg16)) := by
  simp only [pool, readout]
  after_results_simp <;> rfl

section Join

variable (V : Valuation τ sig (Elt Ideal))

def atEdges : Valuation τ sig (Elt Ideal) := after edgeWeights V
def atMix1 : Valuation τ sig (Elt Ideal) := after propagate1 (atEdges V)
def atLayer1 : Valuation τ sig (Elt Ideal) := after standardise1 (after moments1 (after columnSums1 (atMix1 V)))
def atMix2 : Valuation τ sig (Elt Ideal) := after propagate2 (atLayer1 V)
def atLayer2 : Valuation τ sig (Elt Ideal) := after standardise2b (after standardise2a (after moments2 (atMix2 V)))
def atMix3 : Valuation τ sig (Elt Ideal) := after propagate3 (atLayer2 V)
def atLayer3 : Valuation τ sig (Elt Ideal) := after standardise3 (after moments3 (atMix3 V))

theorem after_ops : after (ops (F := Ideal)) V = after readout (after pool (atLayer3 V)) := by
  simp only [ops, window0, window1, window2, window3, after_append]
  rfl

-- the three layers' outputs as functions of the contents V at the argument buffers
def layer1 : FVec Ideal S50000x128 .f32 :=
  Cert.Whole.refLayer (V (Proc.devRef .tc main_arg0)) (V (Proc.devRef .tc main_arg3)) (V (Proc.devRef .tc main_arg4)) (V (Proc.devRef .tc main_arg5)) (V (Proc.devRef .tc main_arg6))
    (V (Proc.devRef .tc main_arg1))
def layer2 : FVec Ideal S50000x128 .f32 :=
  Cert.Whole.refLayer (layer1 V) (V (Proc.devRef .tc main_arg7)) (V (Proc.devRef .tc main_arg8)) (V (Proc.devRef .tc main_arg9)) (V (Proc.devRef .tc main_arg10))
    (V (Proc.devRef .tc main_arg1))
def layer3 : FVec Ideal S50000x128 .f32 :=
  Cert.Whole.refLayer (layer2 V) (V (Proc.devRef .tc main_arg11)) (V (Proc.devRef .tc main_arg12)) (V (Proc.devRef .tc main_arg13)) (V (Proc.devRef .tc main_arg14))
    (V (Proc.devRef .tc main_arg1))

-- contents reached from V past the edge weights: the arguments (numbered below 17) as in V, the edge buffers ready
structure Reached (W : Valuation τ sig (Elt Ideal)) : Prop where
  arg : ∀ r : Ref sig .tc, r.idx.val < 17 → W (Proc.devRef .tc r) = V (Proc.devRef .tc r)
  ready : EdgesReady W (V (Proc.devRef .tc main_arg1))

variable {V}

theorem Reached.get {W : Valuation τ sig (Elt Ideal)} (h : Reached V W) (r : Ref sig .tc) (hr : r.idx.val < 17 := by decide) :
    W (Proc.devRef .tc r) = V (Proc.devRef .tc r) := h.arg r hr

theorem Reached.after {W : Valuation τ sig (Elt Ideal)} (h : Reached V W) {L : List (HloOp τ sig (Elt Ideal))} (hL : Clean 53 L) :
    Reached V (after L W) :=
  ⟨fun r hr => (hL.after W r (Nat.lt_trans hr (by decide))).trans (h.arg r hr), h.ready.after hL⟩

variable (V)

theorem atEdges_ok : Reached V (atEdges V) := ⟨fun r hr => edgeWeights_clean.after V r hr, edgeWeights_ready V⟩
theorem atMix1_ok : Reached V (atMix1 V) := (atEdges_ok V).after propagate1_clean
theorem atLayer1_ok : Reached V (atLayer1 V) :=
  (((atMix1_ok V).after columnSums1_clean).after moments1_clean).after standardise1_clean
theorem atMix2_ok : Reached V (atMix2 V) := (atLayer1_ok V).after propagate2_clean
theorem atLayer2_ok : Reached V (atLayer2 V) :=
  (((atMix2_ok V).after moments2_clean).after standardise2a_clean).after standardise2b_clean
theorem atMix3_ok : Reached V (atMix3 V) := (atLayer2_ok V).after propagate3_clean
theorem atLayer3_ok : Reached V (atLayer3 V) := ((atMix3_ok V).after moments3_clean).after standardise3_clean

theorem atLayer1_v65 : atLayer1 V (Proc.devRef .tc main_v65) = layer1 V := by
  unfold atLayer1 layer1 Cert.Whole.refLayer
  rw [standardise1_v65, (atMix1_ok V).get main_arg5, (atMix1_ok V).get main_arg6, atMix1, propagate1_v45 _ _ (atEdges_ok V).ready,
    (atEdges_ok V).get main_arg0, (atEdges_ok V).get main_arg3, (atEdges_ok V).get main_arg4]

theorem atLayer2_v102 : atLayer2 V (Proc.devRef .tc main_v102) = layer2 V := by
  unfold atLayer2 layer2 Cert.Whole.refLayer
  rw [standardise2_v102, (atMix2_ok V).get main_arg9, (atMix2_ok V).get main_arg10, atMix2, propagate2_v82 _ _ (atLayer1_ok V).ready,
    atLayer1_v65, (atLayer1_ok V).get main_arg7, (atLayer1_ok V).get main_arg8]

theorem atLayer3_v139 : atLayer3 V (Proc.devRef .tc main_v139) = layer3 V := by
  unfold atLayer3 layer3 Cert.Whole.refLayer
  rw [standardise3_v139, (atMix3_ok V).get main_arg13, (atMix3_ok V).get main_arg14, atMix3, propagate3_v119 _ _ (atLayer2_ok V).ready,
    atLayer2_v102, (atLayer2_ok V).get main_arg11, (atLayer2_ok V).get main_arg12]

end Join

-- after the whole line the result buffer holds the reference's function of the seventeen arguments as they were at launch
theorem result_read (m : (ℓ : Loc nD τ sig) → Buf (Elt Ideal) ℓ) (c : Dev nD) :
    (after (ops (F := Ideal)) (launchContents m c) (Proc.devRef .tc main_v161) : FVec Ideal S64x1 .f32)
      = Cert.Whole.refWhole (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13))
          (m ((c.tc : Thread nD τ).loc main_arg14)) (m ((c.tc : Thread nD τ).loc main_arg15)) (m ((c.tc : Thread nD τ).loc main_arg16)) := by
  rw [after_ops, readout_v161, atLayer3_v139, (atLayer3_ok _).get main_arg2, (atLayer3_ok _).get main_arg15, (atLayer3_ok _).get main_arg16]
  rfl

end Cert.ReferenceIdeal.Hand

end
-- ==== Proof.Algebra.FiniteInputs.lean ====
import proofs.«403168_j28509992910998_1_alg».proof.Pre_finite_inputs
import proofs.«403168_j28509992910998_1_alg».proof.Proof.Spec
import Idealize.ShloMosaic.Lib.ReduceAll
import Idealize.ShloMosaic.Lib.ValueIdx
import Idealize.ShloMosaic.PureOps.Ideal
import Mathlib.Data.EReal.Basic

noncomputable section

namespace Cert.Algebra

open Idealize.ShloMosaic Cert.Pre_finite_inputs

instance subsingleton_scalar_idx : Subsingleton S_.Idx := ⟨fun a b => funext fun d => d.elim0⟩

theorem ofBool_eq_one_iff_true (b : Bool) : BitVec.ofBool b = 1#1 ↔ b = true := by cases b <;> decide

theorem infLit_eq_top : Ideal.ofBits .f32 0x7F800000#32 = (⊤ : EReal) := by
  simp [Ideal.ofBits, Ideal.ieee]

theorem real_of_abs_lt_top (x : EReal) (h : max x (-x) < ⊤) : ∃ r : ℝ, x = (r : EReal) := by
  induction x using EReal.rec with
  | bot => simp at h
  | coe r => exact ⟨r, rfl⟩
  | top => simp at h

theorem finite_of_all {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi
          (cmpf .olt (Host.absf x) (broadcastInDim s ![] hb (constant (F := Ideal) S_ .f32 0x7F800000#32)))
          (constantI S_ 1 1#1) hr h0 ValueIdx.ix0 = 1#1) :
    ∀ i, ∃ r : ℝ, x i = (r : EReal) := by
  intro i
  have hi := Host.reduce_andi_all _ _ hr h0 ValueIdx.ix0 e i
  apply real_of_abs_lt_top
  have hlt : FloatOps.cmpf (F := Ideal) .olt (FloatOps.hostAbsf (x i)) (Ideal.ofBits .f32 0x7F800000#32) = 1#1 := hi
  rw [infLit_eq_top] at hlt
  have hcmp : BitVec.ofBool (decide (max (x i) (-(x i)) < (⊤ : EReal))) = 1#1 := hlt
  exact of_decide_eq_true ((ofBool_eq_one_iff_true _).1 hcmp)

variable [Cert.Pre_finite_inputs.Facts]

open Cert.Pre_finite_inputs.Facts

theorem finite_of_pre
    (a0 : FVec Ideal S50000x128 .f32) (a1 : IVec S2x800000 32) (a2 : IVec S50000 32)
    (a3 : FVec Ideal S128x128 .f32) (a4 : FVec Ideal S128 .f32) (a5 : FVec Ideal S128 .f32) (a6 : FVec Ideal S128 .f32)
    (a7 : FVec Ideal S128x128 .f32) (a8 : FVec Ideal S128 .f32) (a9 : FVec Ideal S128 .f32) (a10 : FVec Ideal S128 .f32)
    (a11 : FVec Ideal S128x128 .f32) (a12 : FVec Ideal S128 .f32) (a13 : FVec Ideal S128 .f32) (a14 : FVec Ideal S128 .f32)
    (a15 : FVec Ideal S128x1 .f32) (a16 : FVec Ideal S1 .f32)
    (h : Cert.Pre_finite_inputs.fn (F := Ideal) a0 a1 a2 a3 a4 a5 a6 a7 a8 a9 a10 a11 a12 a13 a14 a15 a16 = fun _ => 1#1) :
    (∀ i, ∃ r : ℝ, a0 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) ∧ (∀ i, ∃ r : ℝ, a7 i = (r : EReal))
      ∧ (∀ i, ∃ r : ℝ, a8 i = (r : EReal)) ∧ (∀ i, ∃ r : ℝ, a9 i = (r : EReal)) ∧ (∀ i, ∃ r : ℝ, a10 i = (r : EReal))
      ∧ (∀ i, ∃ r : ℝ, a11 i = (r : EReal)) ∧ (∀ i, ∃ r : ℝ, a12 i = (r : EReal)) ∧ (∀ i, ∃ r : ℝ, a13 i = (r : EReal))
      ∧ (∀ i, ∃ r : ℝ, a14 i = (r : EReal)) ∧ (∀ i, ∃ r : ℝ, a15 i = (r : EReal)) ∧ (∀ i, ∃ r : ℝ, a16 i = (r : EReal)) := by
  have e := congrFun h ValueIdx.ix0
  dsimp only [fn, fn_part1, fn_part2, fn_part3, fn_part4, andi] at e

  obtain ⟨e, e16⟩ := IntOp.andi_eq_one.1 e
  obtain ⟨e, e15⟩ := IntOp.andi_eq_one.1 e
  obtain ⟨e, e14⟩ := IntOp.andi_eq_one.1 e
  obtain ⟨e, e13⟩ := IntOp.andi_eq_one.1 e
  obtain ⟨e, e12⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e0, e3⟩ := IntOp.andi_eq_one.1 e
  exact ⟨finite_of_all a0 _ _ _ e0, finite_of_all a3 _ _ _ e3, finite_of_all a4 _ _ _ e4, finite_of_all a5 _ _ _ e5,
    finite_of_all a6 _ _ _ e6, finite_of_all a7 _ _ _ e7, finite_of_all a8 _ _ _ e8, finite_of_all a9 _ _ _ e9,
    finite_of_all a10 _ _ _ e10, finite_of_all a11 _ _ _ e11, finite_of_all a12 _ _ _ e12, finite_of_all a13 _ _ _ e13,
    finite_of_all a14 _ _ _ e14, finite_of_all a15 _ _ _ e15, finite_of_all a16 _ _ _ e16⟩

end Cert.Algebra

end
-- ==== Proof.Algebraic.lean ====
import proofs.«403168_j28509992910998_1_alg».proof.Defs
import proofs.«403168_j28509992910998_1_alg».proof.Proof.Gen.KernelIdeal
import proofs.«403168_j28509992910998_1_alg».proof.Proof.Gen.ReferenceIdeal
import proofs.«403168_j28509992910998_1_alg».proof.Proof.Gen.Pre_finite_inputs
import proofs.«403168_j28509992910998_1_alg».proof.Proof.KernelIdeal.Frame
import proofs.«403168_j28509992910998_1_alg».proof.Proof.Value.Kernel
import proofs.«403168_j28509992910998_1_alg».proof.Proof.Reference.Read
import proofs.«403168_j28509992910998_1_alg».proof.Proof.Algebra.Stack
import proofs.«403168_j28509992910998_1_alg».proof.Proof.Algebra.FiniteInputs

set_option maxRecDepth 16384

noncomputable section

namespace Cert.Proof

open Idealize.ShloMosaic Idealize.ShloMosaic.TcCoe Idealize.SL.Sem

theorem idx_graph (i : (⟨2, ![64, 1]⟩ : Shape).Idx) : ∃ g : Fin 64, i = ValueIdx.ix2 g (0 : Fin 1) :=
  ⟨i 0, (ValueIdx.eq_ix2 i).trans (congrArg (ValueIdx.ix2 (i 0)) (Fin.ext (Nat.lt_one_iff.mp (i 1).isLt)))⟩

theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    (StableHlo.after (Cert.ReferenceIdeal.Hand.ops (F := Ideal)) (StableHlo.launchContents m' c) (Proc.devRef .tc Cert.ReferenceIdeal.main_v161)
        : FVec Ideal Cert.ReferenceIdeal.S64x1 .f32)
      = Cert.KernelIdeal.Hand.W19 m c (Proc.devRef .tc Cert.KernelIdeal.main_v108) := by
  obtain ⟨hx, hW0, hb0, hg0, hbe0, hW1, hb1, hg1, hbe1, hW2, hb2, hg2, hbe2, _hWout, _hbout⟩ :=
    Cert.Algebra.finite_of_pre _ _ _ _ _ _ _ _ _ _ _ _ _ _ _ _ _ (hpre c)
  funext i
  obtain ⟨g, rfl⟩ := idx_graph i
  rw [Cert.ReferenceIdeal.Hand.result_read m' c, h0, h1, h2, h3, h4, h5, h6, h7, h8, h9, h10, h11, h12, h13, h14, h15, h16]
  refine (Cert.Whole.whole_eq _ _ _ _ _ _ _ _ _ _ _ _ _ _ _ _ _ hx hW0 hb0 hg0 hbe0 hW1 hb1 hg1 hbe1 hW2 hb2 hg2 hbe2 g).symm.trans ?_
  exact (Cert.KernelIdeal.ValueWhole.kernel_value m c g).symm

set_option maxRecDepth 200000 in

theorem result_unscoped :
    ¬ (Proc.devRef .tc Cert.KernelIdeal.main_v108 : DevRef Cert.KernelIdeal.τ Cert.KernelIdeal.sig).isScoped := by decide

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W19 m c (Proc.devRef .tc Cert.KernelIdeal.main_v108), ?_, ?_⟩
  · refine (θ_run (Cert.KernelIdeal.defs (F := Ideal)) _ _).mono ?_ (Cert.KernelIdeal.Hand.run_all m ρ)
    intro r h c
    have k := Cert.KernelIdeal.Hand.args_kept m c (h c)
    exact ⟨h c _ (Cert.KernelIdeal.Hand.mem_uc Cert.KernelIdeal.main_v108 result_unscoped),
      k Cert.KernelIdeal.main_arg0 (by decide), k Cert.KernelIdeal.main_arg1 (by decide), k Cert.KernelIdeal.main_arg2 (by decide), k Cert.KernelIdeal.main_arg3 (by decide), k Cert.KernelIdeal.main_arg4 (by decide), k Cert.KernelIdeal.main_arg5 (by decide), k Cert.KernelIdeal.main_arg6 (by decide), k Cert.KernelIdeal.main_arg7 (by decide), k Cert.KernelIdeal.main_arg8 (by decide), k Cert.KernelIdeal.main_arg9 (by decide), k Cert.KernelIdeal.main_arg10 (by decide), k Cert.KernelIdeal.main_arg11 (by decide), k Cert.KernelIdeal.main_arg12 (by decide), k Cert.KernelIdeal.main_arg13 (by decide), k Cert.KernelIdeal.main_arg14 (by decide), k Cert.KernelIdeal.main_arg15 (by decide), k Cert.KernelIdeal.main_arg16 (by decide)⟩
  · refine (θ_run (Cert.ReferenceIdeal.defs (F := Ideal)) _ _).mono ?_ (Cert.ReferenceIdeal.Hand.run_result m' ρ')
    intro r h c
    obtain ⟨a0, a1, a2, a3, a4, a5, a6, a7, a8, a9, a10, a11, a12, a13, a14, a15, a16⟩ := hagree c
    exact ⟨(h c).1.trans (results_agree m m' hpre c a0 a1 a2 a3 a4 a5 a6 a7 a8 a9 a10 a11 a12 a13 a14 a15 a16), (h c).2⟩

end Cert.Proof

end
-- ==== Proof.lean ====
import proofs.«403168_j28509992910998_1_alg».proof.Defs
import proofs.«403168_j28509992910998_1_alg».proof.Proof.Gen.Kernel
import proofs.«403168_j28509992910998_1_alg».proof.Proof.Gen.KernelIdeal
import proofs.«403168_j28509992910998_1_alg».proof.Proof.Gen.ReferenceIdeal
import proofs.«403168_j28509992910998_1_alg».proof.Proof.Gen.Pre_finite_inputs
import proofs.«403168_j28509992910998_1_alg».proof.Proof.Kernel.Frame
import proofs.«403168_j28509992910998_1_alg».proof.Proof.KernelIdeal.Frame
import proofs.«403168_j28509992910998_1_alg».proof.Proof.Reference.Run
import proofs.«403168_j28509992910998_1_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    fun m ρ _ => Cert.ReferenceIdeal.Hand.frame m ρ,
    trivial,
    Cert.Proof.algebraic⟩

end Cert.Proof

end
